-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S1000x256 : Shape := ⟨2, ![1000, 256]⟩
abbrev S4096 : Shape := ⟨1, ![4096]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S1000x256 : S_.BroadcastsInDim S1000x256 (![] : Fin 0 → Fin S1000x256.rank)
  reducesTo_S1000x256_S_d0_1 : S1000x256.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_v43 : IVec S_ 1) (main_v49 : IVec S_ 1) : IVec S_ 1 :=
  let main_v50 : IVec S_ 1 := andi main_v43 main_v49
  main_v50

def fn_part2 {F : FTy → Type} [FloatOps F] (main_arg5 : IVec S4096 32) (main_arg6 : IVec S4096 32) (main_arg7 : IVec S4096 32) (main_v29 : IVec S_ 1) (main_v31 : IVec S4096 1) (main_v32 : IVec S4096 32) : IVec S_ 1 :=
  let main_v33 : IVec S4096 1 := cmpi .slt main_arg5 main_v32
  let main_v34 : IVec S4096 1 := andi main_v31 main_v33
  let main_c_13 : IVec S_ 1 := constantI S_ 1 1#1
  let main_v35 : IVec S_ 1 := (fun x v => Host.reduce IntOp.andi x v reducesTo_S4096_S_d0 h_S_) main_v34 main_c_13
  let main_v36 : IVec S_ 1 := andi main_v29 main_v35
  let main_c_14 : IVec S_ 32 := constantI S_ 32 0#32
  let main_v37 : IVec S4096 32 := broadcastInDim S4096 ![] bcast_S_S4096 main_c_14
  let main_v38 : IVec S4096 1 := cmpi .sge main_arg6 main_v37
  let main_c_15 : IVec S_ 32 := constantI S_ 32 1000#32
  let main_v39 : IVec S4096 32 := broadcastInDim S4096 ![] bcast_S_S4096 main_c_15
  let main_v40 : IVec S4096 1 := cmpi .slt main_arg6 main_v39
  let main_v41 : IVec S4096 1 := andi main_v38 main_v40
  let main_c_16 : IVec S_ 1 := constantI S_ 1 1#1
  let main_v42 : IVec S_ 1 := (fun x v => Host.reduce IntOp.andi x v reducesTo_S4096_S_d0 h_S_) main_v41 main_c_16
  let main_v43 : IVec S_ 1 := andi main_v36 main_v42
  let main_c_17 : IVec S_ 32 := constantI S_ 32 0#32
  let main_v44 : IVec S4096 32 := broadcastInDim S4096 ![] bcast_S_S4096 main_c_17
  let main_v45 : IVec S4096 1 := cmpi .sge main_arg7 main_v44
  let main_c_18 : IVec S_ 32 := constantI S_ 32 500000#32
  let main_v46 : IVec S4096 32 := broadcastInDim S4096 ![] bcast_S_S4096 main_c_18
  let main_v47 : IVec S4096 1 := cmpi .slt main_arg7 main_v46
  let main_v48 : IVec S4096 1 := andi main_v45 main_v47
  let main_c_19 : IVec S_ 1 := constantI S_ 1 1#1
  let main_v49 : IVec S_ 1 := (fun x v => Host.reduce IntOp.andi x v reducesTo_S4096_S_d0 h_S_) main_v48 main_c_19
  fn_part3 (F := F) main_v43 main_v49

def fn_part1 {F : FTy → Type} [FloatOps F] (main_arg3 : IVec S4096 32) (main_arg4 : IVec S4096 32) (main_arg5 : IVec S4096 32) (main_arg6 : IVec S4096 32) (main_arg7 : IVec S4096 32) (main_v15 : IVec S_ 1) (main_c_5 : IVec S_ 32) : IVec S_ 1 :=
  let main_v16 : IVec S4096 32 := broadcastInDim S4096 ![] bcast_S_S4096 main_c_5
  let main_v17 : IVec S4096 1 := cmpi .sge main_arg3 main_v16
  let main_c_6 : IVec S_ 32 := constantI S_ 32 1000#32
  let main_v18 : IVec S4096 32 := broadcastInDim S4096 ![] bcast_S_S4096 main_c_6
  let main_v19 : IVec S4096 1 := cmpi .slt main_arg3 main_v18
  let main_v20 : IVec S4096 1 := andi main_v17 main_v19
  let main_c_7 : IVec S_ 1 := constantI S_ 1 1#1
  let main_v21 : IVec S_ 1 := (fun x v => Host.reduce IntOp.andi x v reducesTo_S4096_S_d0 h_S_) main_v20 main_c_7
  let main_v22 : IVec S_ 1 := andi main_v15 main_v21
  let main_c_8 : IVec S_ 32 := constantI S_ 32 0#32
  let main_v23 : IVec S4096 32 := broadcastInDim S4096 ![] bcast_S_S4096 main_c_8
  let main_v24 : IVec S4096 1 := cmpi .sge main_arg4 main_v23
  let main_c_9 : IVec S_ 32 := constantI S_ 32 500000#32
  let main_v25 : IVec S4096 32 := broadcastInDim S4096 ![] bcast_S_S4096 main_c_9
  let main_v26 : IVec S4096 1 := cmpi .slt main_arg4 main_v25
  let main_v27 : IVec S4096 1 := andi main_v24 main_v26
  let main_c_10 : IVec S_ 1 := constantI S_ 1 1#1
  let main_v28 : IVec S_ 1 := (fun x v => Host.reduce IntOp.andi x v reducesTo_S4096_S_d0 h_S_) main_v27 main_c_10
  let main_v29 : IVec S_ 1 := andi main_v22 main_v28
  let main_c_11 : IVec S_ 32 := constantI S_ 32 0#32
  let main_v30 : IVec S4096 32 := broadcastInDim S4096 ![] bcast_S_S4096 main_c_11
  let main_v31 : IVec S4096 1 := cmpi .sge main_arg5 main_v30
  let main_c_12 : IVec S_ 32 := constantI S_ 32 500000#32
  let main_v32 : IVec S4096 32 := broadcastInDim S4096 ![] bcast_S_S4096 main_c_12
  fn_part2 (F := F) main_arg5 main_arg6 main_arg7 main_v29 main_v31 main_v32

def fn {F : FTy → Type} [FloatOps F] (main_arg0 : FVec F S500000x256 .f32) (main_arg1 : FVec F S1000x256 .f32) (main_arg2 : IVec S4096 32) (main_arg3 : IVec S4096 32) (main_arg4 : IVec S4096 32) (main_arg5 : IVec S4096 32) (main_arg6 : IVec S4096 32) (main_arg7 : IVec S4096 32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S1000x256 .f32 := Host.absf main_arg1
  let main_cst_0 : FVec F S_ .f32 := constant S_ .f32 0x7F800000#32
  let main_v5 : FVec F S1000x256 .f32 := broadcastInDim S1000x256 ![] bcast_S_S1000x256 main_cst_0
  let main_v6 : IVec S1000x256 1 := cmpf .olt main_v4 main_v5
  let main_c_1 : IVec S_ 1 := constantI S_ 1 1#1
  let main_v7 : IVec S_ 1 := (fun x v => Host.reduce IntOp.andi x v reducesTo_S1000x256_S_d0_1 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg2 main_v9
  let main_c_3 : IVec S_ 32 := constantI S_ 32 500000#32
  let main_v11 : IVec S4096 32 := broadcastInDim S4096 ![] bcast_S_S4096 main_c_3
  let main_v12 : IVec S4096 1 := cmpi .slt main_arg2 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  let main_c_5 : IVec S_ 32 := constantI S_ 32 0#32
  fn_part1 (F := F) main_arg3 main_arg4 main_arg5 main_arg6 main_arg7 main_v15 main_c_5
-- ==== Kernel.lean ====
abbrev S500000x256 : Shape := ⟨2, ![500000, 256]⟩
abbrev S1000x256 : Shape := ⟨2, ![1000, 256]⟩
abbrev S4096 : Shape := ⟨1, ![4096]⟩
abbrev S500000x1x256 : Shape := ⟨3, ![500000, 1, 256]⟩
abbrev S1000x1x256 : Shape := ⟨3, ![1000, 1, 256]⟩
abbrev S1x1 : Shape := ⟨2, ![1, 1]⟩
abbrev S1x1x256 : Shape := ⟨3, ![1, 1, 256]⟩
abbrev S1 : Shape := ⟨1, ![1]⟩
abbrev S1x256 : Shape := ⟨2, ![1, 256]⟩
abbrev S_ : Shape := ⟨0, ![]⟩

abbrev nBuf : Space → Nat
  | .hbm => 6
  | .vmem => 194
  | .smem => 6
  | _ => 0

abbrev vmemTy0_0 (i : Nat) : BufTy := match i % 128 with
  | 0 => ⟨S1x1x256, .f32⟩
  | 1 => ⟨S1x1x256, .f32⟩
  | 2 => ⟨S1x1x256, .f32⟩
  | 3 => ⟨S1x1x256, .f32⟩
  | 4 => ⟨S1x1x256, .f32⟩
  | 5 => ⟨S1x1x256, .f32⟩
  | 6 => ⟨S1x1x256, .f32⟩
  | 7 => ⟨S1x1x256, .f32⟩
  | 8 => ⟨S1x1x256, .f32⟩
  | 9 => ⟨S1x1x256, .f32⟩
  | 10 => ⟨S1x1x256, .f32⟩
  | 11 => ⟨S1x1x256, .f32⟩
  | 12 => ⟨S1x1x256, .f32⟩
  | 13 => ⟨S1x1x256, .f32⟩
  | 14 => ⟨S1x1x256, .f32⟩
  | 15 => ⟨S1x1x256, .f32⟩
  | 16 => ⟨S1x1x256, .f32⟩
  | 17 => ⟨S1x1x256, .f32⟩
  | 18 => ⟨S1x1x256, .f32⟩
  | 19 => ⟨S1x1x256, .f32⟩
  | 20 => ⟨S1x1x256, .f32⟩
  | 21 => ⟨S1x1x256, .f32⟩
  | 22 => ⟨S1x1x256, .f32⟩
  | 23 => ⟨S1x1x256, .f32⟩
  | 24 => ⟨S1x1x256, .f32⟩
  | 25 => ⟨S1x1x256, .f32⟩
  | 26 => ⟨S1x1x256, .f32⟩
  | 27 => ⟨S1x1x256, .f32⟩
  | 28 => ⟨S1x1x256, .f32⟩
  | 29 => ⟨S1x1x256, .f32⟩
  | 30 => ⟨S1x1x256, .f32⟩
  | 31 => ⟨S1x1x256, .f32⟩
  | 32 => ⟨S1x1x256, .f32⟩
  | 33 => ⟨S1x1x256, .f32⟩
  | 34 => ⟨S1x1x256, .f32⟩
  | 35 => ⟨S1x1x256, .f32⟩
  | 36 => ⟨S1x1x256, .f32⟩
  | 37 => ⟨S1x1x256, .f32⟩
  | 38 => ⟨S1x1x256, .f32⟩
  | 39 => ⟨S1x1x256, .f32⟩
  | 40 => ⟨S1x1x256, .f32⟩
  | 41 => ⟨S1x1x256, .f32⟩
  | 42 => ⟨S1x1x256, .f32⟩
  | 43 => ⟨S1x1x256, .f32⟩
  | 44 => ⟨S1x1x256, .f32⟩
  | 45 => ⟨S1x1x256, .f32⟩
  | 46 => ⟨S1x1x256, .f32⟩
  | 47 => ⟨S1x1x256, .f32⟩
  | 48 => ⟨S1x1x256, .f32⟩
  | 49 => ⟨S1x1x256, .f32⟩
  | 50 => ⟨S1x1x256, .f32⟩
  | 51 => ⟨S1x1x256, .f32⟩
  | 52 => ⟨S1x1x256, .f32⟩
  | 53 => ⟨S1x1x256, .f32⟩
  | 54 => ⟨S1x1x256, .f32⟩
  | 55 => ⟨S1x1x256, .f32⟩
  | 56 => ⟨S1x1x256, .f32⟩
  | 57 => ⟨S1x1x256, .f32⟩
  | 58 => ⟨S1x1x256, .f32⟩
  | 59 => ⟨S1x1x256, .f32⟩
  | 60 => ⟨S1x1x256, .f32⟩
  | 61 => ⟨S1x1x256, .f32⟩
  | 62 => ⟨S1x1x256, .f32⟩
  | 63 => ⟨S1x1x256, .f32⟩
  | 64 => ⟨S1x1x256, .f32⟩
  | 65 => ⟨S1x1x256, .f32⟩
  | 66 => ⟨S1x1x256, .f32⟩
  | 67 => ⟨S1x1x256, .f32⟩
  | 68 => ⟨S1x1x256, .f32⟩
  | 69 => ⟨S1x1x256, .f32⟩
  | 70 => ⟨S1x1x256, .f32⟩
  | 71 => ⟨S1x1x256, .f32⟩
  | 72 => ⟨S1x1x256, .f32⟩
  | 73 => ⟨S1x1x256, .f32⟩
  | 74 => ⟨S1x1x256, .f32⟩
  | 75 => ⟨S1x1x256, .f32⟩
  | 76 => ⟨S1x1x256, .f32⟩
  | 77 => ⟨S1x1x256, .f32⟩
  | 78 => ⟨S1x1x256, .f32⟩
  | 79 => ⟨S1x1x256, .f32⟩
  | 80 => ⟨S1x1x256, .f32⟩
  | 81 => ⟨S1x1x256, .f32⟩
  | 82 => ⟨S1x1x256, .f32⟩
  | 83 => ⟨S1x1x256, .f32⟩
  | 84 => ⟨S1x1x256, .f32⟩
  | 85 => ⟨S1x1x256, .f32⟩
  | 86 => ⟨S1x1x256, .f32⟩
  | 87 => ⟨S1x1x256, .f32⟩
  | 88 => ⟨S1x1x256, .f32⟩
  | 89 => ⟨S1x1x256, .f32⟩
  | 90 => ⟨S1x1x256, .f32⟩
  | 91 => ⟨S1x1x256, .f32⟩
  | 92 => ⟨S1x1x256, .f32⟩
  | 93 => ⟨S1x1x256, .f32⟩
  | 94 => ⟨S1x1x256, .f32⟩
  | 95 => ⟨S1x1x256, .f32⟩
  | 96 => ⟨S1x1x256, .f32⟩
  | 97 => ⟨S1x1x256, .f32⟩
  | 98 => ⟨S1x1x256, .f32⟩
  | 99 => ⟨S1x1x256, .f32⟩
  | 100 => ⟨S1x1x256, .f32⟩
  | 101 => ⟨S1x1x256, .f32⟩
  | 102 => ⟨S1x1x256, .f32⟩
  | 103 => ⟨S1x1x256, .f32⟩
  | 104 => ⟨S1x1x256, .f32⟩
  | 105 => ⟨S1x1x256, .f32⟩
  | 106 => ⟨S1x1x256, .f32⟩
  | 107 => ⟨S1x1x256, .f32⟩
  | 108 => ⟨S1x1x256, .f32⟩
  | 109 => ⟨S1x1x256, .f32⟩
  | 110 => ⟨S1x1x256, .f32⟩
  | 111 => ⟨S1x1x256, .f32⟩
  | 112 => ⟨S1x1x256, .f32⟩
  | 113 => ⟨S1x1x256, .f32⟩
  | 114 => ⟨S1x1x256, .f32⟩
  | 115 => ⟨S1x1x256, .f32⟩
  | 116 => ⟨S1x1x256, .f32⟩
  | 117 => ⟨S1x1x256, .f32⟩
  | 118 => ⟨S1x1x256, .f32⟩
  | 119 => ⟨S1x1x256, .f32⟩
  | 120 => ⟨S1x1x256, .f32⟩
  | 121 => ⟨S1x1x256, .f32⟩
  | 122 => ⟨S1x1x256, .f32⟩
  | 123 => ⟨S1x1x256, .f32⟩
  | 124 => ⟨S1x1x256, .f32⟩
  | 125 => ⟨S1x1x256, .f32⟩
  | 126 => ⟨S1x1x256, .f32⟩
  | 127 => ⟨S1x1x256, .f32⟩
  | _ => ⟨S500000x256, .f32⟩

abbrev vmemTy0_1 (i : Nat) : BufTy := match i % 128 with
  | 0 => ⟨S1x1x256, .f32⟩
  | 1 => ⟨S1x1x256, .f32⟩
  | 2 => ⟨S1x1x256, .f32⟩
  | 3 => ⟨S1x1x256, .f32⟩
  | 4 => ⟨S1x1x256, .f32⟩
  | 5 => ⟨S1x1x256, .f32⟩
  | 6 => ⟨S1x1x256, .f32⟩
  | 7 => ⟨S1x1x256, .f32⟩
  | 8 => ⟨S1x1x256, .f32⟩
  | 9 => ⟨S1x1x256, .f32⟩
  | 10 => ⟨S1x1x256, .f32⟩
  | 11 => ⟨S1x1x256, .f32⟩
  | 12 => ⟨S1x1x256, .f32⟩
  | 13 => ⟨S1x1x256, .f32⟩
  | 14 => ⟨S1x1x256, .f32⟩
  | 15 => ⟨S1x1x256, .f32⟩
  | 16 => ⟨S1x1x256, .f32⟩
  | 17 => ⟨S1x1x256, .f32⟩
  | 18 => ⟨S1x1x256, .f32⟩
  | 19 => ⟨S1x1x256, .f32⟩
  | 20 => ⟨S1x1x256, .f32⟩
  | 21 => ⟨S1x1x256, .f32⟩
  | 22 => ⟨S1x1x256, .f32⟩
  | 23 => ⟨S1x1x256, .f32⟩
  | 24 => ⟨S1x1x256, .f32⟩
  | 25 => ⟨S1x1x256, .f32⟩
  | 26 => ⟨S1x1x256, .f32⟩
  | 27 => ⟨S1x1x256, .f32⟩
  | 28 => ⟨S1x1x256, .f32⟩
  | 29 => ⟨S1x1x256, .f32⟩
  | 30 => ⟨S1x1x256, .f32⟩
  | 31 => ⟨S1x1x256, .f32⟩
  | 32 => ⟨S1x1x256, .f32⟩
  | 33 => ⟨S1x1x256, .f32⟩
  | 34 => ⟨S1x1x256, .f32⟩
  | 35 => ⟨S1x1x256, .f32⟩
  | 36 => ⟨S1x1x256, .f32⟩
  | 37 => ⟨S1x1x256, .f32⟩
  | 38 => ⟨S1x1x256, .f32⟩
  | 39 => ⟨S1x1x256, .f32⟩
  | 40 => ⟨S1x1x256, .f32⟩
  | 41 => ⟨S1x1x256, .f32⟩
  | 42 => ⟨S1x1x256, .f32⟩
  | 43 => ⟨S1x1x256, .f32⟩
  | 44 => ⟨S1x1x256, .f32⟩
  | 45 => ⟨S1x1x256, .f32⟩
  | 46 => ⟨S1x1x256, .f32⟩
  | 47 => ⟨S1x1x256, .f32⟩
  | 48 => ⟨S1x1x256, .f32⟩
  | 49 => ⟨S1x1x256, .f32⟩
  | 50 => ⟨S1x1x256, .f32⟩
  | 51 => ⟨S1x1x256, .f32⟩
  | 52 => ⟨S1x1x256, .f32⟩
  | 53 => ⟨S1x1x256, .f32⟩
  | 54 => ⟨S1x1x256, .f32⟩
  | 55 => ⟨S1x1x256, .f32⟩
  | 56 => ⟨S1x1x256, .f32⟩
  | 57 => ⟨S1x1x256, .f32⟩
  | 58 => ⟨S1x1x256, .f32⟩
  | 59 => ⟨S1x1x256, .f32⟩
  | 60 => ⟨S1x1x256, .f32⟩
  | 61 => ⟨S1x1x256, .f32⟩
  | 62 => ⟨S1x1x256, .f32⟩
  | 63 => ⟨S1x1x256, .f32⟩
  | 64 => ⟨S1x1, .f32⟩
  | 65 => ⟨S1x1, .f32⟩
  | _ => ⟨S500000x256, .f32⟩

abbrev vmemTy (i : Nat) : BufTy := match i / 128 with
  | 0 => vmemTy0_0 i
  | 1 => vmemTy0_1 i
  | _ => ⟨S500000x256, .f32⟩

abbrev bufTy : (tb : Table) → Fin (tcTables nBuf tb) → BufTy
  | .hbm, ⟨0, _⟩ => ⟨S500000x256, .f32⟩
  | .hbm, ⟨1, _⟩ => ⟨S1000x256, .f32⟩
  | .hbm, ⟨2, _⟩ => ⟨S500000x1x256, .f32⟩
  | .hbm, ⟨3, _⟩ => ⟨S1000x1x256, .f32⟩
  | .hbm, ⟨4, _⟩ => ⟨S1x1, .f32⟩
  | .hbm, ⟨5, _⟩ => ⟨S_, .f32⟩
  | .local _ .vmem, ⟨i, _⟩ => vmemTy i
  | .local _ .smem, ⟨0, _⟩ => ⟨S4096, .i32⟩
  | .local _ .smem, ⟨1, _⟩ => ⟨S4096, .i32⟩
  | .local _ .smem, ⟨2, _⟩ => ⟨S4096, .i32⟩
  | .local _ .smem, ⟨3, _⟩ => ⟨S4096, .i32⟩
  | .local _ .smem, ⟨4, _⟩ => ⟨S4096, .i32⟩
  | .local _ .smem, ⟨5, _⟩ => ⟨S4096, .i32⟩
  | _, _ => ⟨S500000x256, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 193 → Bool
  | ⟨i, _⟩ => dmaSemScopedAt i

abbrev sig : RefSig :=
  ofTc nBuf bufTy 0 193 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_arg2 : Ref sig .tc := ⟨.smem, 0, rfl⟩
abbrev main_arg3 : Ref sig .tc := ⟨.smem, 1, rfl⟩
abbrev main_arg4 : Ref sig .tc := ⟨.smem, 2, rfl⟩
abbrev main_arg5 : Ref sig .tc := ⟨.smem, 3, rfl⟩
abbrev main_arg6 : Ref sig .tc := ⟨.smem, 4, rfl⟩
abbrev main_arg7 : Ref sig .tc := ⟨.smem, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_stg24_0 : Ref sig .tc := ⟨.vmem, 48, rfl⟩
abbrev cc0_stg24_1 : Ref sig .tc := ⟨.vmem, 49, rfl⟩
abbrev cc0_stg25_0 : Ref sig .tc := ⟨.vmem, 50, rfl⟩
abbrev cc0_stg25_1 : Ref sig .tc := ⟨.vmem, 51, rfl⟩
abbrev cc0_stg26_0 : Ref sig .tc := ⟨.vmem, 52, rfl⟩
abbrev cc0_stg26_1 : Ref sig .tc := ⟨.vmem, 53, rfl⟩
abbrev cc0_stg27_0 : Ref sig .tc := ⟨.vmem, 54, rfl⟩
abbrev cc0_stg27_1 : Ref sig .tc := ⟨.vmem, 55, rfl⟩
abbrev cc0_stg28_0 : Ref sig .tc := ⟨.vmem, 56, rfl⟩
abbrev cc0_stg28_1 : Ref sig .tc := ⟨.vmem, 57, rfl⟩
abbrev cc0_stg29_0 : Ref sig .tc := ⟨.vmem, 58, rfl⟩
abbrev cc0_stg29_1 : Ref sig .tc := ⟨.vmem, 59, rfl⟩
abbrev cc0_stg30_0 : Ref sig .tc := ⟨.vmem, 60, rfl⟩
abbrev cc0_stg30_1 : Ref sig .tc := ⟨.vmem, 61, rfl⟩
abbrev cc0_stg31_0 : Ref sig .tc := ⟨.vmem, 62, rfl⟩
abbrev cc0_stg31_1 : Ref sig .tc := ⟨.vmem, 63, rfl⟩
abbrev cc0_stg32_0 : Ref sig .tc := ⟨.vmem, 64, rfl⟩
abbrev cc0_stg32_1 : Ref sig .tc := ⟨.vmem, 65, rfl⟩
abbrev cc0_stg33_0 : Ref sig .tc := ⟨.vmem, 66, rfl⟩
abbrev cc0_stg33_1 : Ref sig .tc := ⟨.vmem, 67, rfl⟩
abbrev cc0_stg34_0 : Ref sig .tc := ⟨.vmem, 68, rfl⟩
abbrev cc0_stg34_1 : Ref sig .tc := ⟨.vmem, 69, rfl⟩
abbrev cc0_stg35_0 : Ref sig .tc := ⟨.vmem, 70, rfl⟩
abbrev cc0_stg35_1 : Ref sig .tc := ⟨.vmem, 71, rfl⟩
abbrev cc0_stg36_0 : Ref sig .tc := ⟨.vmem, 72, rfl⟩
abbrev cc0_stg36_1 : Ref sig .tc := ⟨.vmem, 73, rfl⟩
abbrev cc0_stg37_0 : Ref sig .tc := ⟨.vmem, 74, rfl⟩
abbrev cc0_stg37_1 : Ref sig .tc := ⟨.vmem, 75, rfl⟩
abbrev cc0_stg38_0 : Ref sig .tc := ⟨.vmem, 76, rfl⟩
abbrev cc0_stg38_1 : Ref sig .tc := ⟨.vmem, 77, rfl⟩
abbrev cc0_stg39_0 : Ref sig .tc := ⟨.vmem, 78, rfl⟩
abbrev cc0_stg39_1 : Ref sig .tc := ⟨.vmem, 79, rfl⟩
abbrev cc0_stg40_0 : Ref sig .tc := ⟨.vmem, 80, rfl⟩
abbrev cc0_stg40_1 : Ref sig .tc := ⟨.vmem, 81, rfl⟩
abbrev cc0_stg41_0 : Ref sig .tc := ⟨.vmem, 82, rfl⟩
abbrev cc0_stg41_1 : Ref sig .tc := ⟨.vmem, 83, rfl⟩
abbrev cc0_stg42_0 : Ref sig .tc := ⟨.vmem, 84, rfl⟩
abbrev cc0_stg42_1 : Ref sig .tc := ⟨.vmem, 85, rfl⟩
abbrev cc0_stg43_0 : Ref sig .tc := ⟨.vmem, 86, rfl⟩
abbrev cc0_stg43_1 : Ref sig .tc := ⟨.vmem, 87, rfl⟩
abbrev cc0_stg44_0 : Ref sig .tc := ⟨.vmem, 88, rfl⟩
abbrev cc0_stg44_1 : Ref sig .tc := ⟨.vmem, 89, rfl⟩
abbrev cc0_stg45_0 : Ref sig .tc := ⟨.vmem, 90, rfl⟩
abbrev cc0_stg45_1 : Ref sig .tc := ⟨.vmem, 91, rfl⟩
abbrev cc0_stg46_0 : Ref sig .tc := ⟨.vmem, 92, rfl⟩
abbrev cc0_stg46_1 : Ref sig .tc := ⟨.vmem, 93, rfl⟩
abbrev cc0_stg47_0 : Ref sig .tc := ⟨.vmem, 94, rfl⟩
abbrev cc0_stg47_1 : Ref sig .tc := ⟨.vmem, 95, rfl⟩
abbrev cc0_stg48_0 : Ref sig .tc := ⟨.vmem, 96, rfl⟩
abbrev cc0_stg48_1 : Ref sig .tc := ⟨.vmem, 97, rfl⟩
abbrev cc0_stg49_0 : Ref sig .tc := ⟨.vmem, 98, rfl⟩
abbrev cc0_stg49_1 : Ref sig .tc := ⟨.vmem, 99, rfl⟩
abbrev cc0_stg50_0 : Ref sig .tc := ⟨.vmem, 100, rfl⟩
abbrev cc0_stg50_1 : Ref sig .tc := ⟨.vmem, 101, rfl⟩
abbrev cc0_stg51_0 : Ref sig .tc := ⟨.vmem, 102, rfl⟩
abbrev cc0_stg51_1 : Ref sig .tc := ⟨.vmem, 103, rfl⟩
abbrev cc0_stg52_0 : Ref sig .tc := ⟨.vmem, 104, rfl⟩
abbrev cc0_stg52_1 : Ref sig .tc := ⟨.vmem, 105, rfl⟩
abbrev cc0_stg53_0 : Ref sig .tc := ⟨.vmem, 106, rfl⟩
abbrev cc0_stg53_1 : Ref sig .tc := ⟨.vmem, 107, rfl⟩
abbrev cc0_stg54_0 : Ref sig .tc := ⟨.vmem, 108, rfl⟩
abbrev cc0_stg54_1 : Ref sig .tc := ⟨.vmem, 109, rfl⟩
abbrev cc0_stg55_0 : Ref sig .tc := ⟨.vmem, 110, rfl⟩
abbrev cc0_stg55_1 : Ref sig .tc := ⟨.vmem, 111, rfl⟩
abbrev cc0_stg56_0 : Ref sig .tc := ⟨.vmem, 112, rfl⟩
abbrev cc0_stg56_1 : Ref sig .tc := ⟨.vmem, 113, rfl⟩
abbrev cc0_stg57_0 : Ref sig .tc := ⟨.vmem, 114, rfl⟩
abbrev cc0_stg57_1 : Ref sig .tc := ⟨.vmem, 115, rfl⟩
abbrev cc0_stg58_0 : Ref sig .tc := ⟨.vmem, 116, rfl⟩
abbrev cc0_stg58_1 : Ref sig .tc := ⟨.vmem, 117, rfl⟩
abbrev cc0_stg59_0 : Ref sig .tc := ⟨.vmem, 118, rfl⟩
abbrev cc0_stg59_1 : Ref sig .tc := ⟨.vmem, 119, rfl⟩
abbrev cc0_stg60_0 : Ref sig .tc := ⟨.vmem, 120, rfl⟩
abbrev cc0_stg60_1 : Ref sig .tc := ⟨.vmem, 121, rfl⟩
abbrev cc0_stg61_0 : Ref sig .tc := ⟨.vmem, 122, rfl⟩
abbrev cc0_stg61_1 : Ref sig .tc := ⟨.vmem, 123, rfl⟩
abbrev cc0_stg62_0 : Ref sig .tc := ⟨.vmem, 124, rfl⟩
abbrev cc0_stg62_1 : Ref sig .tc := ⟨.vmem, 125, rfl⟩
abbrev cc0_stg63_0 : Ref sig .tc := ⟨.vmem, 126, rfl⟩
abbrev cc0_stg63_1 : Ref sig .tc := ⟨.vmem, 127, rfl⟩
abbrev cc0_stg64_0 : Ref sig .tc := ⟨.vmem, 128, rfl⟩
abbrev cc0_stg64_1 : Ref sig .tc := ⟨.vmem, 129, rfl⟩
abbrev cc0_stg65_0 : Ref sig .tc := ⟨.vmem, 130, rfl⟩
abbrev cc0_stg65_1 : Ref sig .tc := ⟨.vmem, 131, rfl⟩
abbrev cc0_stg66_0 : Ref sig .tc := ⟨.vmem, 132, rfl⟩
abbrev cc0_stg66_1 : Ref sig .tc := ⟨.vmem, 133, rfl⟩
abbrev cc0_stg67_0 : Ref sig .tc := ⟨.vmem, 134, rfl⟩
abbrev cc0_stg67_1 : Ref sig .tc := ⟨.vmem, 135, rfl⟩
abbrev cc0_stg68_0 : Ref sig .tc := ⟨.vmem, 136, rfl⟩
abbrev cc0_stg68_1 : Ref sig .tc := ⟨.vmem, 137, rfl⟩
abbrev cc0_stg69_0 : Ref sig .tc := ⟨.vmem, 138, rfl⟩
abbrev cc0_stg69_1 : Ref sig .tc := ⟨.vmem, 139, rfl⟩
abbrev cc0_stg70_0 : Ref sig .tc := ⟨.vmem, 140, rfl⟩
abbrev cc0_stg70_1 : Ref sig .tc := ⟨.vmem, 141, rfl⟩
abbrev cc0_stg71_0 : Ref sig .tc := ⟨.vmem, 142, rfl⟩
abbrev cc0_stg71_1 : Ref sig .tc := ⟨.vmem, 143, rfl⟩
abbrev cc0_stg72_0 : Ref sig .tc := ⟨.vmem, 144, rfl⟩
abbrev cc0_stg72_1 : Ref sig .tc := ⟨.vmem, 145, rfl⟩
abbrev cc0_stg73_0 : Ref sig .tc := ⟨.vmem, 146, rfl⟩
abbrev cc0_stg73_1 : Ref sig .tc := ⟨.vmem, 147, rfl⟩
abbrev cc0_stg74_0 : Ref sig .tc := ⟨.vmem, 148, rfl⟩
abbrev cc0_stg74_1 : Ref sig .tc := ⟨.vmem, 149, rfl⟩
abbrev cc0_stg75_0 : Ref sig .tc := ⟨.vmem, 150, rfl⟩
abbrev cc0_stg75_1 : Ref sig .tc := ⟨.vmem, 151, rfl⟩
abbrev cc0_stg76_0 : Ref sig .tc := ⟨.vmem, 152, rfl⟩
abbrev cc0_stg76_1 : Ref sig .tc := ⟨.vmem, 153, rfl⟩
abbrev cc0_stg77_0 : Ref sig .tc := ⟨.vmem, 154, rfl⟩
abbrev cc0_stg77_1 : Ref sig .tc := ⟨.vmem, 155, rfl⟩
abbrev cc0_stg78_0 : Ref sig .tc := ⟨.vmem, 156, rfl⟩
abbrev cc0_stg78_1 : Ref sig .tc := ⟨.vmem, 157, rfl⟩
abbrev cc0_stg79_0 : Ref sig .tc := ⟨.vmem, 158, rfl⟩
abbrev cc0_stg79_1 : Ref sig .tc := ⟨.vmem, 159, rfl⟩
abbrev cc0_stg80_0 : Ref sig .tc := ⟨.vmem, 160, rfl⟩
abbrev cc0_stg80_1 : Ref sig .tc := ⟨.vmem, 161, rfl⟩
abbrev cc0_stg81_0 : Ref sig .tc := ⟨.vmem, 162, rfl⟩
abbrev cc0_stg81_1 : Ref sig .tc := ⟨.vmem, 163, rfl⟩
abbrev cc0_stg82_0 : Ref sig .tc := ⟨.vmem, 164, rfl⟩
abbrev cc0_stg82_1 : Ref sig .tc := ⟨.vmem, 165, rfl⟩
abbrev cc0_stg83_0 : Ref sig .tc := ⟨.vmem, 166, rfl⟩
abbrev cc0_stg83_1 : Ref sig .tc := ⟨.vmem, 167, rfl⟩
abbrev cc0_stg84_0 : Ref sig .tc := ⟨.vmem, 168, rfl⟩
abbrev cc0_stg84_1 : Ref sig .tc := ⟨.vmem, 169, rfl⟩
abbrev cc0_stg85_0 : Ref sig .tc := ⟨.vmem, 170, rfl⟩
abbrev cc0_stg85_1 : Ref sig .tc := ⟨.vmem, 171, rfl⟩
abbrev cc0_stg86_0 : Ref sig .tc := ⟨.vmem, 172, rfl⟩
abbrev cc0_stg86_1 : Ref sig .tc := ⟨.vmem, 173, rfl⟩
abbrev cc0_stg87_0 : Ref sig .tc := ⟨.vmem, 174, rfl⟩
abbrev cc0_stg87_1 : Ref sig .tc := ⟨.vmem, 175, rfl⟩
abbrev cc0_stg88_0 : Ref sig .tc := ⟨.vmem, 176, rfl⟩
abbrev cc0_stg88_1 : Ref sig .tc := ⟨.vmem, 177, rfl⟩
abbrev cc0_stg89_0 : Ref sig .tc := ⟨.vmem, 178, rfl⟩
abbrev cc0_stg89_1 : Ref sig .tc := ⟨.vmem, 179, rfl⟩
abbrev cc0_stg90_0 : Ref sig .tc := ⟨.vmem, 180, rfl⟩
abbrev cc0_stg90_1 : Ref sig .tc := ⟨.vmem, 181, rfl⟩
abbrev cc0_stg91_0 : Ref sig .tc := ⟨.vmem, 182, rfl⟩
abbrev cc0_stg91_1 : Ref sig .tc := ⟨.vmem, 183, rfl⟩
abbrev cc0_stg92_0 : Ref sig .tc := ⟨.vmem, 184, rfl⟩
abbrev cc0_stg92_1 : Ref sig .tc := ⟨.vmem, 185, rfl⟩
abbrev cc0_stg93_0 : Ref sig .tc := ⟨.vmem, 186, rfl⟩
abbrev cc0_stg93_1 : Ref sig .tc := ⟨.vmem, 187, rfl⟩
abbrev cc0_stg94_0 : Ref sig .tc := ⟨.vmem, 188, rfl⟩
abbrev cc0_stg94_1 : Ref sig .tc := ⟨.vmem, 189, rfl⟩
abbrev cc0_stg95_0 : Ref sig .tc := ⟨.vmem, 190, rfl⟩
abbrev cc0_stg95_1 : Ref sig .tc := ⟨.vmem, 191, rfl⟩
abbrev cc0_stg96_0 : Ref sig .tc := ⟨.vmem, 192, rfl⟩
abbrev cc0_scratch0 : Ref sig .tc := ⟨.vmem, 193, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47
abbrev cc0_sem24_0 : DmaSem sig := 48
abbrev cc0_sem24_1 : DmaSem sig := 49
abbrev cc0_sem25_0 : DmaSem sig := 50
abbrev cc0_sem25_1 : DmaSem sig := 51
abbrev cc0_sem26_0 : DmaSem sig := 52
abbrev cc0_sem26_1 : DmaSem sig := 53
abbrev cc0_sem27_0 : DmaSem sig := 54
abbrev cc0_sem27_1 : DmaSem sig := 55
abbrev cc0_sem28_0 : DmaSem sig := 56
abbrev cc0_sem28_1 : DmaSem sig := 57
abbrev cc0_sem29_0 : DmaSem sig := 58
abbrev cc0_sem29_1 : DmaSem sig := 59
abbrev cc0_sem30_0 : DmaSem sig := 60
abbrev cc0_sem30_1 : DmaSem sig := 61
abbrev cc0_sem31_0 : DmaSem sig := 62
abbrev cc0_sem31_1 : DmaSem sig := 63
abbrev cc0_sem32_0 : DmaSem sig := 64
abbrev cc0_sem32_1 : DmaSem sig := 65
abbrev cc0_sem33_0 : DmaSem sig := 66
abbrev cc0_sem33_1 : DmaSem sig := 67
abbrev cc0_sem34_0 : DmaSem sig := 68
abbrev cc0_sem34_1 : DmaSem sig := 69
abbrev cc0_sem35_0 : DmaSem sig := 70
abbrev cc0_sem35_1 : DmaSem sig := 71
abbrev cc0_sem36_0 : DmaSem sig := 72
abbrev cc0_sem36_1 : DmaSem sig := 73
abbrev cc0_sem37_0 : DmaSem sig := 74
abbrev cc0_sem37_1 : DmaSem sig := 75
abbrev cc0_sem38_0 : DmaSem sig := 76
abbrev cc0_sem38_1 : DmaSem sig := 77
abbrev cc0_sem39_0 : DmaSem sig := 78
abbrev cc0_sem39_1 : DmaSem sig := 79
abbrev cc0_sem40_0 : DmaSem sig := 80
abbrev cc0_sem40_1 : DmaSem sig := 81
abbrev cc0_sem41_0 : DmaSem sig := 82
abbrev cc0_sem41_1 : DmaSem sig := 83
abbrev cc0_sem42_0 : DmaSem sig := 84
abbrev cc0_sem42_1 : DmaSem sig := 85
abbrev cc0_sem43_0 : DmaSem sig := 86
abbrev cc0_sem43_1 : DmaSem sig := 87
abbrev cc0_sem44_0 : DmaSem sig := 88
abbrev cc0_sem44_1 : DmaSem sig := 89
abbrev cc0_sem45_0 : DmaSem sig := 90
abbrev cc0_sem45_1 : DmaSem sig := 91
abbrev cc0_sem46_0 : DmaSem sig := 92
abbrev cc0_sem46_1 : DmaSem sig := 93
abbrev cc0_sem47_0 : DmaSem sig := 94
abbrev cc0_sem47_1 : DmaSem sig := 95
abbrev cc0_sem48_0 : DmaSem sig := 96
abbrev cc0_sem48_1 : DmaSem sig := 97
abbrev cc0_sem49_0 : DmaSem sig := 98
abbrev cc0_sem49_1 : DmaSem sig := 99
abbrev cc0_sem50_0 : DmaSem sig := 100
abbrev cc0_sem50_1 : DmaSem sig := 101
abbrev cc0_sem51_0 : DmaSem sig := 102
abbrev cc0_sem51_1 : DmaSem sig := 103
abbrev cc0_sem52_0 : DmaSem sig := 104
abbrev cc0_sem52_1 : DmaSem sig := 105
abbrev cc0_sem53_0 : DmaSem sig := 106
abbrev cc0_sem53_1 : DmaSem sig := 107
abbrev cc0_sem54_0 : DmaSem sig := 108
abbrev cc0_sem54_1 : DmaSem sig := 109
abbrev cc0_sem55_0 : DmaSem sig := 110
abbrev cc0_sem55_1 : DmaSem sig := 111
abbrev cc0_sem56_0 : DmaSem sig := 112
abbrev cc0_sem56_1 : DmaSem sig := 113
abbrev cc0_sem57_0 : DmaSem sig := 114
abbrev cc0_sem57_1 : DmaSem sig := 115
abbrev cc0_sem58_0 : DmaSem sig := 116
abbrev cc0_sem58_1 : DmaSem sig := 117
abbrev cc0_sem59_0 : DmaSem sig := 118
abbrev cc0_sem59_1 : DmaSem sig := 119
abbrev cc0_sem60_0 : DmaSem sig := 120
abbrev cc0_sem60_1 : DmaSem sig := 121
abbrev cc0_sem61_0 : DmaSem sig := 122
abbrev cc0_sem61_1 : DmaSem sig := 123
abbrev cc0_sem62_0 : DmaSem sig := 124
abbrev cc0_sem62_1 : DmaSem sig := 125
abbrev cc0_sem63_0 : DmaSem sig := 126
abbrev cc0_sem63_1 : DmaSem sig := 127
abbrev cc0_sem64_0 : DmaSem sig := 128
abbrev cc0_sem64_1 : DmaSem sig := 129
abbrev cc0_sem65_0 : DmaSem sig := 130
abbrev cc0_sem65_1 : DmaSem sig := 131
abbrev cc0_sem66_0 : DmaSem sig := 132
abbrev cc0_sem66_1 : DmaSem sig := 133
abbrev cc0_sem67_0 : DmaSem sig := 134
abbrev cc0_sem67_1 : DmaSem sig := 135
abbrev cc0_sem68_0 : DmaSem sig := 136
abbrev cc0_sem68_1 : DmaSem sig := 137
abbrev cc0_sem69_0 : DmaSem sig := 138
abbrev cc0_sem69_1 : DmaSem sig := 139
abbrev cc0_sem70_0 : DmaSem sig := 140
abbrev cc0_sem70_1 : DmaSem sig := 141
abbrev cc0_sem71_0 : DmaSem sig := 142
abbrev cc0_sem71_1 : DmaSem sig := 143
abbrev cc0_sem72_0 : DmaSem sig := 144
abbrev cc0_sem72_1 : DmaSem sig := 145
abbrev cc0_sem73_0 : DmaSem sig := 146
abbrev cc0_sem73_1 : DmaSem sig := 147
abbrev cc0_sem74_0 : DmaSem sig := 148
abbrev cc0_sem74_1 : DmaSem sig := 149
abbrev cc0_sem75_0 : DmaSem sig := 150
abbrev cc0_sem75_1 : DmaSem sig := 151
abbrev cc0_sem76_0 : DmaSem sig := 152
abbrev cc0_sem76_1 : DmaSem sig := 153
abbrev cc0_sem77_0 : DmaSem sig := 154
abbrev cc0_sem77_1 : DmaSem sig := 155
abbrev cc0_sem78_0 : DmaSem sig := 156
abbrev cc0_sem78_1 : DmaSem sig := 157
abbrev cc0_sem79_0 : DmaSem sig := 158
abbrev cc0_sem79_1 : DmaSem sig := 159
abbrev cc0_sem80_0 : DmaSem sig := 160
abbrev cc0_sem80_1 : DmaSem sig := 161
abbrev cc0_sem81_0 : DmaSem sig := 162
abbrev cc0_sem81_1 : DmaSem sig := 163
abbrev cc0_sem82_0 : DmaSem sig := 164
abbrev cc0_sem82_1 : DmaSem sig := 165
abbrev cc0_sem83_0 : DmaSem sig := 166
abbrev cc0_sem83_1 : DmaSem sig := 167
abbrev cc0_sem84_0 : DmaSem sig := 168
abbrev cc0_sem84_1 : DmaSem sig := 169
abbrev cc0_sem85_0 : DmaSem sig := 170
abbrev cc0_sem85_1 : DmaSem sig := 171
abbrev cc0_sem86_0 : DmaSem sig := 172
abbrev cc0_sem86_1 : DmaSem sig := 173
abbrev cc0_sem87_0 : DmaSem sig := 174
abbrev cc0_sem87_1 : DmaSem sig := 175
abbrev cc0_sem88_0 : DmaSem sig := 176
abbrev cc0_sem88_1 : DmaSem sig := 177
abbrev cc0_sem89_0 : DmaSem sig := 178
abbrev cc0_sem89_1 : DmaSem sig := 179
abbrev cc0_sem90_0 : DmaSem sig := 180
abbrev cc0_sem90_1 : DmaSem sig := 181
abbrev cc0_sem91_0 : DmaSem sig := 182
abbrev cc0_sem91_1 : DmaSem sig := 183
abbrev cc0_sem92_0 : DmaSem sig := 184
abbrev cc0_sem92_1 : DmaSem sig := 185
abbrev cc0_sem93_0 : DmaSem sig := 186
abbrev cc0_sem93_1 : DmaSem sig := 187
abbrev cc0_sem94_0 : DmaSem sig := 188
abbrev cc0_sem94_1 : DmaSem sig := 189
abbrev cc0_sem95_0 : DmaSem sig := 190
abbrev cc0_sem95_1 : DmaSem sig := 191
abbrev cc0_sem96_0 : DmaSem sig := 192

abbrev nD : Nat := 1
abbrev τ : Topo := Topo.v7x

variable {F : FTy → Type} [FloatOps F]

abbrev grid0 : Pipeline.Grid := ⟨1, ![256], ![false]⟩

abbrev pre0 : Pipeline.Prefetch sig := ⟨6, ![main_arg2.idx, main_arg3.idx, main_arg4.idx, main_arg5.idx, main_arg6.idx, main_arg7.idx], fun | 0 => main_arg2.names | 1 => main_arg3.names | 2 => main_arg4.names | 3 => main_arg5.names | 4 => main_arg6.names | 5 => main_arg7.names | ⟨_ + 6, h⟩ => absurd h (Nat.not_lt.2 (Nat.le_add_left _ _)), fun | 0 => rfl | 1 => rfl | 2 => rfl | 3 => rfl | 4 => rfl | 5 => rfl | ⟨_ + 6, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c16_i32 : BitVec 32 := 16#32
  let v0 : BitVec 32 := Scalar.muli arg0 c16_i32
  let v1 : BitVec 32 := Scalar.addi v0 c0_i32
  let v2 : Index := Scalar.indexCast v1
  ![v2.toNat]
def k0_cond2 (i : grid0.Coords) : BitVec 1 :=
  let arg0 : BitVec 32 := BitVec.ofNat 32 (i 0).val
  let c255_i32 : BitVec 32 := 255#32
  let v521 : BitVec 1 := Scalar.cmpi .eq arg0 c255_i32
  let v522 : BitVec 32 := Scalar.extui v521
  let c0_i32_372 : BitVec 32 := 0#32
  let v523 : BitVec 1 := Scalar.cmpi .ne v522 c0_i32_372
  v523

def cc0_transform_0 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 0 (Rect.unit (s := S4096) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_1 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 0 (Rect.unit (s := S4096) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_2 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 0 (Rect.unit (s := S4096) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_3 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 0 (Rect.unit (s := S4096) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_4 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 0 (Rect.unit (s := S4096) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_5 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 0 (Rect.unit (s := S4096) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_6 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 0 (Rect.unit (s := S4096) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_7 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 0 (Rect.unit (s := S4096) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_8 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 0 (Rect.unit (s := S4096) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_9 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 0 (Rect.unit (s := S4096) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_10 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 0 (Rect.unit (s := S4096) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_11 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 0 (Rect.unit (s := S4096) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_12 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 0 (Rect.unit (s := S4096) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_13 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 0 (Rect.unit (s := S4096) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_14 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 0 (Rect.unit (s := S4096) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_15 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 0 (Rect.unit (s := S4096) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_16 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 1 (Rect.unit (s := S4096) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_17 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 1 (Rect.unit (s := S4096) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_18 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 1 (Rect.unit (s := S4096) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_19 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 1 (Rect.unit (s := S4096) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_20 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 1 (Rect.unit (s := S4096) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_21 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 1 (Rect.unit (s := S4096) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_22 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 1 (Rect.unit (s := S4096) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_23 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 1 (Rect.unit (s := S4096) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_24 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 1 (Rect.unit (s := S4096) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_25 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 1 (Rect.unit (s := S4096) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_26 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 1 (Rect.unit (s := S4096) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_27 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 1 (Rect.unit (s := S4096) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_28 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 1 (Rect.unit (s := S4096) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_29 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 1 (Rect.unit (s := S4096) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_30 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 1 (Rect.unit (s := S4096) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_31 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 1 (Rect.unit (s := S4096) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_32 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 2 (Rect.unit (s := S4096) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_33 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 2 (Rect.unit (s := S4096) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_34 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 2 (Rect.unit (s := S4096) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_35 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 2 (Rect.unit (s := S4096) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_36 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 2 (Rect.unit (s := S4096) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_37 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 2 (Rect.unit (s := S4096) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_38 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 2 (Rect.unit (s := S4096) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_39 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 2 (Rect.unit (s := S4096) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_40 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 2 (Rect.unit (s := S4096) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_41 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 2 (Rect.unit (s := S4096) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_42 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 2 (Rect.unit (s := S4096) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_43 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 2 (Rect.unit (s := S4096) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_44 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 2 (Rect.unit (s := S4096) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_45 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 2 (Rect.unit (s := S4096) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_46 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 2 (Rect.unit (s := S4096) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_47 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 2 (Rect.unit (s := S4096) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_48 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 3 (Rect.unit (s := S4096) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_49 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 3 (Rect.unit (s := S4096) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_50 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 3 (Rect.unit (s := S4096) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_51 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 3 (Rect.unit (s := S4096) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_52 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 3 (Rect.unit (s := S4096) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_53 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 3 (Rect.unit (s := S4096) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_54 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 3 (Rect.unit (s := S4096) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_55 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 3 (Rect.unit (s := S4096) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_56 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 3 (Rect.unit (s := S4096) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_57 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 3 (Rect.unit (s := S4096) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_58 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 3 (Rect.unit (s := S4096) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_59 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 3 (Rect.unit (s := S4096) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_60 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 3 (Rect.unit (s := S4096) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_61 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 3 (Rect.unit (s := S4096) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_62 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 3 (Rect.unit (s := S4096) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_63 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 3 (Rect.unit (s := S4096) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_64 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 4 (Rect.unit (s := S4096) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_65 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 4 (Rect.unit (s := S4096) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_66 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 4 (Rect.unit (s := S4096) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_67 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 4 (Rect.unit (s := S4096) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_68 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 4 (Rect.unit (s := S4096) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_69 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 4 (Rect.unit (s := S4096) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_70 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 4 (Rect.unit (s := S4096) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_71 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 4 (Rect.unit (s := S4096) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_72 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 4 (Rect.unit (s := S4096) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_73 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 4 (Rect.unit (s := S4096) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_74 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 4 (Rect.unit (s := S4096) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_75 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 4 (Rect.unit (s := S4096) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_76 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 4 (Rect.unit (s := S4096) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_77 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 4 (Rect.unit (s := S4096) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_78 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 4 (Rect.unit (s := S4096) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_79 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 4 (Rect.unit (s := S4096) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_80 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c0_i32 : BitVec 32 := 0#32
  let v1 : BitVec 32 := Scalar.addi v0 c0_i32
  let v2 : Index := Scalar.indexCast v1
  let v3 : BitVec 32 := pf.at 5 (Rect.unit (s := S4096) ![v2.toNat] S1.size (k0_off1_inb i 0)) numel1_S1
  let c0_i32_0 : BitVec 32 := 0#32
  let c0_i32_1 : BitVec 32 := 0#32
  let c0_i32_2 : BitVec 32 := 0#32
  ![v3.toNat, c0_i32_0.toNat, c0_i32_1.toNat]

def cc0_transform_81 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.addi v0 c1_i32
  let v2 : Index := Scalar.indexCast v1
  let v3 : BitVec 32 := pf.at 5 (Rect.unit (s := S4096) ![v2.toNat] S1.size (k0_off1_inb i 1)) numel1_S1
  let c0_i32 : BitVec 32 := 0#32
  let c0_i32_0 : BitVec 32 := 0#32
  let c0_i32_1 : BitVec 32 := 0#32
  ![v3.toNat, c0_i32.toNat, c0_i32_0.toNat]

def cc0_transform_82 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c2_i32 : BitVec 32 := 2#32
  let v1 : BitVec 32 := Scalar.addi v0 c2_i32
  let v2 : Index := Scalar.indexCast v1
  let v3 : BitVec 32 := pf.at 5 (Rect.unit (s := S4096) ![v2.toNat] S1.size (k0_off1_inb i 2)) numel1_S1
  let c0_i32 : BitVec 32 := 0#32
  let c0_i32_0 : BitVec 32 := 0#32
  let c0_i32_1 : BitVec 32 := 0#32
  ![v3.toNat, c0_i32.toNat, c0_i32_0.toNat]

def cc0_transform_83 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c3_i32 : BitVec 32 := 3#32
  let v1 : BitVec 32 := Scalar.addi v0 c3_i32
  let v2 : Index := Scalar.indexCast v1
  let v3 : BitVec 32 := pf.at 5 (Rect.unit (s := S4096) ![v2.toNat] S1.size (k0_off1_inb i 3)) numel1_S1
  let c0_i32 : BitVec 32 := 0#32
  let c0_i32_0 : BitVec 32 := 0#32
  let c0_i32_1 : BitVec 32 := 0#32
  ![v3.toNat, c0_i32.toNat, c0_i32_0.toNat]

def cc0_transform_84 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c4_i32 : BitVec 32 := 4#32
  let v1 : BitVec 32 := Scalar.addi v0 c4_i32
  let v2 : Index := Scalar.indexCast v1
  let v3 : BitVec 32 := pf.at 5 (Rect.unit (s := S4096) ![v2.toNat] S1.size (k0_off1_inb i 4)) numel1_S1
  let c0_i32 : BitVec 32 := 0#32
  let c0_i32_0 : BitVec 32 := 0#32
  let c0_i32_1 : BitVec 32 := 0#32
  ![v3.toNat, c0_i32.toNat, c0_i32_0.toNat]

def cc0_transform_85 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c5_i32 : BitVec 32 := 5#32
  let v1 : BitVec 32 := Scalar.addi v0 c5_i32
  let v2 : Index := Scalar.indexCast v1
  let v3 : BitVec 32 := pf.at 5 (Rect.unit (s := S4096) ![v2.toNat] S1.size (k0_off1_inb i 5)) numel1_S1
  let c0_i32 : BitVec 32 := 0#32
  let c0_i32_0 : BitVec 32 := 0#32
  let c0_i32_1 : BitVec 32 := 0#32
  ![v3.toNat, c0_i32.toNat, c0_i32_0.toNat]

def cc0_transform_86 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c6_i32 : BitVec 32 := 6#32
  let v1 : BitVec 32 := Scalar.addi v0 c6_i32
  let v2 : Index := Scalar.indexCast v1
  let v3 : BitVec 32 := pf.at 5 (Rect.unit (s := S4096) ![v2.toNat] S1.size (k0_off1_inb i 6)) numel1_S1
  let c0_i32 : BitVec 32 := 0#32
  let c0_i32_0 : BitVec 32 := 0#32
  let c0_i32_1 : BitVec 32 := 0#32
  ![v3.toNat, c0_i32.toNat, c0_i32_0.toNat]

def cc0_transform_87 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c7_i32 : BitVec 32 := 7#32
  let v1 : BitVec 32 := Scalar.addi v0 c7_i32
  let v2 : Index := Scalar.indexCast v1
  let v3 : BitVec 32 := pf.at 5 (Rect.unit (s := S4096) ![v2.toNat] S1.size (k0_off1_inb i 7)) numel1_S1
  let c0_i32 : BitVec 32 := 0#32
  let c0_i32_0 : BitVec 32 := 0#32
  let c0_i32_1 : BitVec 32 := 0#32
  ![v3.toNat, c0_i32.toNat, c0_i32_0.toNat]

def cc0_transform_88 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c8_i32 : BitVec 32 := 8#32
  let v1 : BitVec 32 := Scalar.addi v0 c8_i32
  let v2 : Index := Scalar.indexCast v1
  let v3 : BitVec 32 := pf.at 5 (Rect.unit (s := S4096) ![v2.toNat] S1.size (k0_off1_inb i 8)) numel1_S1
  let c0_i32 : BitVec 32 := 0#32
  let c0_i32_0 : BitVec 32 := 0#32
  let c0_i32_1 : BitVec 32 := 0#32
  ![v3.toNat, c0_i32.toNat, c0_i32_0.toNat]

def cc0_transform_89 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c9_i32 : BitVec 32 := 9#32
  let v1 : BitVec 32 := Scalar.addi v0 c9_i32
  let v2 : Index := Scalar.indexCast v1
  let v3 : BitVec 32 := pf.at 5 (Rect.unit (s := S4096) ![v2.toNat] S1.size (k0_off1_inb i 9)) numel1_S1
  let c0_i32 : BitVec 32 := 0#32
  let c0_i32_0 : BitVec 32 := 0#32
  let c0_i32_1 : BitVec 32 := 0#32
  ![v3.toNat, c0_i32.toNat, c0_i32_0.toNat]

def cc0_transform_90 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c10_i32 : BitVec 32 := 10#32
  let v1 : BitVec 32 := Scalar.addi v0 c10_i32
  let v2 : Index := Scalar.indexCast v1
  let v3 : BitVec 32 := pf.at 5 (Rect.unit (s := S4096) ![v2.toNat] S1.size (k0_off1_inb i 10)) numel1_S1
  let c0_i32 : BitVec 32 := 0#32
  let c0_i32_0 : BitVec 32 := 0#32
  let c0_i32_1 : BitVec 32 := 0#32
  ![v3.toNat, c0_i32.toNat, c0_i32_0.toNat]

def cc0_transform_91 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c11_i32 : BitVec 32 := 11#32
  let v1 : BitVec 32 := Scalar.addi v0 c11_i32
  let v2 : Index := Scalar.indexCast v1
  let v3 : BitVec 32 := pf.at 5 (Rect.unit (s := S4096) ![v2.toNat] S1.size (k0_off1_inb i 11)) numel1_S1
  let c0_i32 : BitVec 32 := 0#32
  let c0_i32_0 : BitVec 32 := 0#32
  let c0_i32_1 : BitVec 32 := 0#32
  ![v3.toNat, c0_i32.toNat, c0_i32_0.toNat]

def cc0_transform_92 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c12_i32 : BitVec 32 := 12#32
  let v1 : BitVec 32 := Scalar.addi v0 c12_i32
  let v2 : Index := Scalar.indexCast v1
  let v3 : BitVec 32 := pf.at 5 (Rect.unit (s := S4096) ![v2.toNat] S1.size (k0_off1_inb i 12)) numel1_S1
  let c0_i32 : BitVec 32 := 0#32
  let c0_i32_0 : BitVec 32 := 0#32
  let c0_i32_1 : BitVec 32 := 0#32
  ![v3.toNat, c0_i32.toNat, c0_i32_0.toNat]

def cc0_transform_93 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c13_i32 : BitVec 32 := 13#32
  let v1 : BitVec 32 := Scalar.addi v0 c13_i32
  let v2 : Index := Scalar.indexCast v1
  let v3 : BitVec 32 := pf.at 5 (Rect.unit (s := S4096) ![v2.toNat] S1.size (k0_off1_inb i 13)) numel1_S1
  let c0_i32 : BitVec 32 := 0#32
  let c0_i32_0 : BitVec 32 := 0#32
  let c0_i32_1 : BitVec 32 := 0#32
  ![v3.toNat, c0_i32.toNat, c0_i32_0.toNat]

def cc0_transform_94 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c14_i32 : BitVec 32 := 14#32
  let v1 : BitVec 32 := Scalar.addi v0 c14_i32
  let v2 : Index := Scalar.indexCast v1
  let v3 : BitVec 32 := pf.at 5 (Rect.unit (s := S4096) ![v2.toNat] S1.size (k0_off1_inb i 14)) numel1_S1
  let c0_i32 : BitVec 32 := 0#32
  let c0_i32_0 : BitVec 32 := 0#32
  let c0_i32_1 : BitVec 32 := 0#32
  ![v3.toNat, c0_i32.toNat, c0_i32_0.toNat]

def cc0_transform_95 (k0_off1_inb : ∀ i : grid0.Coords, ∀ (r : Fin 16), ∀ a, (k0_off1 i (BitVec.ofNat 32 r.val)) a + S1.size a ≤ S4096.size a) (numel1_S1 : S1.numel = 1) (pf : pre0.Contents (Elt F)) (i : grid0.Coords) : Fin 3 → Nat :=
  let arg0 : BitVec 32 := BitVec.ofNat 32 (i 0).val
  let c16_i32 : BitVec 32 := 16#32
  let v0 : BitVec 32 := Scalar.muli arg0 c16_i32
  let c15_i32 : BitVec 32 := 15#32
  let v1 : BitVec 32 := Scalar.addi v0 c15_i32
  let v2 : Index := Scalar.indexCast v1
  let v3 : BitVec 32 := pf.at 5 (Rect.unit (s := S4096) ![v2.toNat] S1.size (k0_off1_inb i 15)) numel1_S1
  let c0_i32 : BitVec 32 := 0#32
  let c0_i32_0 : BitVec 32 := 0#32
  let c0_i32_1 : BitVec 32 := 0#32
  ![v3.toNat, c0_i32.toNat, c0_i32_0.toNat]

def cc0_transform_96 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S1x1x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S1x1x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S1x1x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x1x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x1x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x1x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x1x256 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S1x1x256 .f32 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S1x1x256 .f32 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S1x1x256 .f32 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]

abbrev stage0_31 : Fin 2 → Memref sig .tc .vmem S1x1x256 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

abbrev stage0_32 : Fin 2 → Memref sig .tc .vmem S1x1x256 .f32 := fun | 0 => Memref.whole cc0_stg32_0 | 1 => Memref.whole cc0_stg32_1 | ⟨_ + 2, h⟩ => absurd h (Nat.not_lt.2 (Nat.le_add_left _ _))
abbrev sem0_32 : Fin 2 → DmaSem sig := fun | 0 => cc0_sem32_0 | 1 => cc0_sem32_1 | ⟨_ + 2, h⟩ => absurd h (Nat.not_lt.2 (Nat.le_add_left _ _))
abbrev reads0_32 : Fin grid0.rank → Bool := ![true]

abbrev stage0_33 : Fin 2 → Memref sig .tc .vmem S1x1x256 .f32 := fun | 0 => Memref.whole cc0_stg33_0 | 1 => Memref.whole cc0_stg33_1 | ⟨_ + 2, h⟩ => absurd h (Nat.not_lt.2 (Nat.le_add_left _ _))
abbrev sem0_33 : Fin 2 → DmaSem sig := fun | 0 => cc0_sem33_0 | 1 => cc0_sem33_1 | ⟨_ + 2, h⟩ => absurd h (Nat.not_lt.2 (Nat.le_add_left _ _))
abbrev reads0_33 : Fin grid0.rank → Bool := ![true]

abbrev stage0_34 : Fin 2 → Memref sig .tc .vmem S1x1x256 .f32 := fun | 0 => Memref.whole cc0_stg34_0 | 1 => Memref.whole cc0_stg34_1 | ⟨_ + 2, h⟩ => absurd h (Nat.not_lt.2 (Nat.le_add_left _ _))
abbrev sem0_34 : Fin 2 → DmaSem sig := fun | 0 => cc0_sem34_0 | 1 => cc0_sem34_1 | ⟨_ + 2, h⟩ => absurd h (Nat.not_lt.2 (Nat.le_add_left _ _))
abbrev reads0_34 : Fin grid0.rank → Bool := ![true]

abbrev stage0_35 : Fin 2 → Memref sig .tc .vmem S1x1x256 .f32 := fun | 0 => Memref.whole cc0_stg35_0 | 1 => Memref.whole cc0_stg35_1 | ⟨_ + 2, h⟩ => absurd h (Nat.not_lt.2 (Nat.le_add_left _ _))
abbrev sem0_35 : Fin 2 → DmaSem sig := fun | 0 => cc0_sem35_0 | 1 => cc0_sem35_1 | ⟨_ + 2, h⟩ => absurd h (Nat.not_lt.2 (Nat.le_add_left _ _))
abbrev reads0_35 : Fin grid0.rank → Bool := ![true]

abbrev stage0_36 : Fin 2 → Memref sig .tc .vmem S1x1x256 .f32 := fun | 0 => Memref.whole cc0_stg36_0 | 1 => Memref.whole cc0_stg36_1 | ⟨_ + 2, h⟩ => absurd h (Nat.not_lt.2 (Nat.le_add_left _ _))
abbrev sem0_36 : Fin 2 → DmaSem sig := fun | 0 => cc0_sem36_0 | 1 => cc0_sem36_1 | ⟨_ + 2, h⟩ => absurd h (Nat.not_lt.2 (Nat.le_add_left _ _))
abbrev reads0_36 : Fin grid0.rank → Bool := ![true]

abbrev stage0_37 : Fin 2 → Memref sig .tc .vmem S1x1x256 .f32 := fun | 0 => Memref.whole cc0_stg37_0 | 1 => Memref.whole cc0_stg37_1 | ⟨_ + 2, h⟩ => absurd h (Nat.not_lt.2 (Nat.le_add_left _ _))
abbrev sem0_37 : Fin 2 → DmaSem sig := fun | 0 => cc0_sem37_0 | 1 => cc0_sem37_1 | ⟨_ + 2, h⟩ => absurd h (Nat.not_lt.2 (Nat.le_add_left _ _))
abbrev reads0_37 : Fin grid0.rank → Bool := ![true]

abbrev stage0_38 : Fin 2 → Memref sig .tc .vmem S1x1x256 .f32 := fun | 0 => Memref.whole cc0_stg38_0 | 1 => Memref.whole cc0_stg38_1 | ⟨_ + 2, h⟩ => absurd h (Nat.not_lt.2 (Nat.le_add_left _ _))
abbrev sem0_38 : Fin 2 → DmaSem sig := fun | 0 => cc0_sem38_0 | 1 => cc0_sem38_1 | ⟨_ + 2, h⟩ => absurd h (Nat.not_lt.2 (Nat.le_add_left _ _))
abbrev reads0_38 : Fin grid0.rank → Bool := ![true]

abbrev stage0_39 : Fin 2 → Memref sig .tc .vmem S1x1x256 .f32 := fun | 0 => Memref.whole cc0_stg39_0 | 1 => Memref.whole cc0_stg39_1 | ⟨_ + 2, h⟩ => absurd h (Nat.not_lt.2 (Nat.le_add_left _ _))
abbrev sem0_39 : Fin 2 → DmaSem sig := fun | 0 => cc0_sem39_0 | 1 => cc0_sem39_1 | ⟨_ + 2, h⟩ => absurd h (Nat.not_lt.2 (Nat.le_add_left _ _))
abbrev reads0_39 : Fin grid0.rank → Bool := ![true]

abbrev stage0_40 : Fin 2 → Memref sig .tc .vmem S1x1x256 .f32 := fun | 0 => Memref.whole cc0_stg40_0 | 1 => Memref.whole cc0_stg40_1 | ⟨_ + 2, h⟩ => absurd h (Nat.not_lt.2 (Nat.le_add_left _ _))
abbrev sem0_40 : Fin 2 → DmaSem sig := fun | 0 => cc0_sem40_0 | 1 => cc0_sem40_1 | ⟨_ + 2, h⟩ => absurd h (Nat.not_lt.2 (Nat.le_add_left _ _))
abbrev reads0_40 : Fin grid0.rank → Bool := ![true]

abbrev stage0_41 : Fin 2 → Memref sig .tc .vmem S1x1x256 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S1x1x256 .f32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S1x1x256 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]

abbrev stage0_44 : Fin 2 → Memref sig .tc .vmem S1x1x256 .f32 := fun | 0 => Memref.whole cc0_stg44_0 | 1 => Memref.whole cc0_stg44_1 | ⟨_ + 2, h⟩ => absurd h (Nat.not_lt.2 (Nat.le_add_left _ _))
abbrev sem0_44 : Fin 2 → DmaSem sig := fun | 0 => cc0_sem44_0 | 1 => cc0_sem44_1 | ⟨_ + 2, h⟩ => absurd h (Nat.not_lt.2 (Nat.le_add_left _ _))
abbrev reads0_44 : Fin grid0.rank → Bool := ![true]

abbrev stage0_45 : Fin 2 → Memref sig .tc .vmem S1x1x256 .f32 := fun | 0 => Memref.whole cc0_stg45_0 | 1 => Memref.whole cc0_stg45_1 | ⟨_ + 2, h⟩ => absurd h (Nat.not_lt.2 (Nat.le_add_left _ _))
abbrev sem0_45 : Fin 2 → DmaSem sig := fun | 0 => cc0_sem45_0 | 1 => cc0_sem45_1 | ⟨_ + 2, h⟩ => absurd h (Nat.not_lt.2 (Nat.le_add_left _ _))
abbrev reads0_45 : Fin grid0.rank → Bool := ![true]

abbrev stage0_46 : Fin 2 → Memref sig .tc .vmem S1x1x256 .f32 := fun | 0 => Memref.whole cc0_stg46_0 | 1 => Memref.whole cc0_stg46_1 | ⟨_ + 2, h⟩ => absurd h (Nat.not_lt.2 (Nat.le_add_left _ _))
abbrev sem0_46 : Fin 2 → DmaSem sig := fun | 0 => cc0_sem46_0 | 1 => cc0_sem46_1 | ⟨_ + 2, h⟩ => absurd h (Nat.not_lt.2 (Nat.le_add_left _ _))
abbrev reads0_46 : Fin grid0.rank → Bool := ![true]

abbrev stage0_47 : Fin 2 → Memref sig .tc .vmem S1x1x256 .f32 := fun | 0 => Memref.whole cc0_stg47_0 | 1 => Memref.whole cc0_stg47_1 | ⟨_ + 2, h⟩ => absurd h (Nat.not_lt.2 (Nat.le_add_left _ _))
abbrev sem0_47 : Fin 2 → DmaSem sig := fun | 0 => cc0_sem47_0 | 1 => cc0_sem47_1 | ⟨_ + 2, h⟩ => absurd h (Nat.not_lt.2 (Nat.le_add_left _ _))
abbrev reads0_47 : Fin grid0.rank → Bool := ![true]

abbrev stage0_48 : Fin 2 → Memref sig .tc .vmem S1x1x256 .f32 := fun | 0 => Memref.whole cc0_stg48_0 | 1 => Memref.whole cc0_stg48_1 | ⟨_ + 2, h⟩ => absurd h (Nat.not_lt.2 (Nat.le_add_left _ _))
abbrev sem0_48 : Fin 2 → DmaSem sig := fun | 0 => cc0_sem48_0 | 1 => cc0_sem48_1 | ⟨_ + 2, h⟩ => absurd h (Nat.not_lt.2 (Nat.le_add_left _ _))
abbrev reads0_48 : Fin grid0.rank → Bool := ![true]

abbrev stage0_49 : Fin 2 → Memref sig .tc .vmem S1x1x256 .f32 := fun | 0 => Memref.whole cc0_stg49_0 | 1 => Memref.whole cc0_stg49_1 | ⟨_ + 2, h⟩ => absurd h (Nat.not_lt.2 (Nat.le_add_left _ _))
abbrev sem0_49 : Fin 2 → DmaSem sig := fun | 0 => cc0_sem49_0 | 1 => cc0_sem49_1 | ⟨_ + 2, h⟩ => absurd h (Nat.not_lt.2 (Nat.le_add_left _ _))
abbrev reads0_49 : Fin grid0.rank → Bool := ![true]

abbrev stage0_50 : Fin 2 → Memref sig .tc .vmem S1x1x256 .f32 := fun | 0 => Memref.whole cc0_stg50_0 | 1 => Memref.whole cc0_stg50_1 | ⟨_ + 2, h⟩ => absurd h (Nat.not_lt.2 (Nat.le_add_left _ _))
abbrev sem0_50 : Fin 2 → DmaSem sig := fun | 0 => cc0_sem50_0 | 1 => cc0_sem50_1 | ⟨_ + 2, h⟩ => absurd h (Nat.not_lt.2 (Nat.le_add_left _ _))
abbrev reads0_50 : Fin grid0.rank → Bool := ![true]

abbrev stage0_51 : Fin 2 → Memref sig .tc .vmem S1x1x256 .f32 := fun | 0 => Memref.whole cc0_stg51_0 | 1 => Memref.whole cc0_stg51_1 | ⟨_ + 2, h⟩ => absurd h (Nat.not_lt.2 (Nat.le_add_left _ _))
abbrev sem0_51 : Fin 2 → DmaSem sig := fun | 0 => cc0_sem51_0 | 1 => cc0_sem51_1 | ⟨_ + 2, h⟩ => absurd h (Nat.not_lt.2 (Nat.le_add_left _ _))
abbrev reads0_51 : Fin grid0.rank → Bool := ![true]

abbrev stage0_52 : Fin 2 → Memref sig .tc .vmem S1x1x256 .f32 := fun | 0 => Memref.whole cc0_stg52_0 | 1 => Memref.whole cc0_stg52_1 | ⟨_ + 2, h⟩ => absurd h (Nat.not_lt.2 (Nat.le_add_left _ _))
abbrev sem0_52 : Fin 2 → DmaSem sig := fun | 0 => cc0_sem52_0 | 1 => cc0_sem52_1 | ⟨_ + 2, h⟩ => absurd h (Nat.not_lt.2 (Nat.le_add_left _ _))
abbrev reads0_52 : Fin grid0.rank → Bool := ![true]

abbrev stage0_53 : Fin 2 → Memref sig .tc .vmem S1x1x256 .f32 := fun | 0 => Memref.whole cc0_stg53_0 | 1 => Memref.whole cc0_stg53_1 | ⟨_ + 2, h⟩ => absurd h (Nat.not_lt.2 (Nat.le_add_left _ _))
abbrev sem0_53 : Fin 2 → DmaSem sig := fun | 0 => cc0_sem53_0 | 1 => cc0_sem53_1 | ⟨_ + 2, h⟩ => absurd h (Nat.not_lt.2 (Nat.le_add_left _ _))
abbrev reads0_53 : Fin grid0.rank → Bool := ![true]

abbrev stage0_54 : Fin 2 → Memref sig .tc .vmem S1x1x256 .f32 := fun | 0 => Memref.whole cc0_stg54_0 | 1 => Memref.whole cc0_stg54_1 | ⟨_ + 2, h⟩ => absurd h (Nat.not_lt.2 (Nat.le_add_left _ _))
abbrev sem0_54 : Fin 2 → DmaSem sig := fun | 0 => cc0_sem54_0 | 1 => cc0_sem54_1 | ⟨_ + 2, h⟩ => absurd h (Nat.not_lt.2 (Nat.le_add_left _ _))
abbrev reads0_54 : Fin grid0.rank → Bool := ![true]

abbrev stage0_55 : Fin 2 → Memref sig .tc .vmem S1x1x256 .f32 := fun | 0 => Memref.whole cc0_stg55_0 | 1 => Memref.whole cc0_stg55_1 | ⟨_ + 2, h⟩ => absurd h (Nat.not_lt.2 (Nat.le_add_left _ _))
abbrev sem0_55 : Fin 2 → DmaSem sig := fun | 0 => cc0_sem55_0 | 1 => cc0_sem55_1 | ⟨_ + 2, h⟩ => absurd h (Nat.not_lt.2 (Nat.le_add_left _ _))
abbrev reads0_55 : Fin grid0.rank → Bool := ![true]

abbrev stage0_56 : Fin 2 → Memref sig .tc .vmem S1x1x256 .f32 := fun | 0 => Memref.whole cc0_stg56_0 | 1 => Memref.whole cc0_stg56_1 | ⟨_ + 2, h⟩ => absurd h (Nat.not_lt.2 (Nat.le_add_left _ _))
abbrev sem0_56 : Fin 2 → DmaSem sig := fun | 0 => cc0_sem56_0 | 1 => cc0_sem56_1 | ⟨_ + 2, h⟩ => absurd h (Nat.not_lt.2 (Nat.le_add_left _ _))
abbrev reads0_56 : Fin grid0.rank → Bool := ![true]

abbrev stage0_57 : Fin 2 → Memref sig .tc .vmem S1x1x256 .f32 := fun | 0 => Memref.whole cc0_stg57_0 | 1 => Memref.whole cc0_stg57_1 | ⟨_ + 2, h⟩ => absurd h (Nat.not_lt.2 (Nat.le_add_left _ _))
abbrev sem0_57 : Fin 2 → DmaSem sig := fun | 0 => cc0_sem57_0 | 1 => cc0_sem57_1 | ⟨_ + 2, h⟩ => absurd h (Nat.not_lt.2 (Nat.le_add_left _ _))
abbrev reads0_57 : Fin grid0.rank → Bool := ![true]

abbrev stage0_58 : Fin 2 → Memref sig .tc .vmem S1x1x256 .f32 := fun | 0 => Memref.whole cc0_stg58_0 | 1 => Memref.whole cc0_stg58_1 | ⟨_ + 2, h⟩ => absurd h (Nat.not_lt.2 (Nat.le_add_left _ _))
abbrev sem0_58 : Fin 2 → DmaSem sig := fun | 0 => cc0_sem58_0 | 1 => cc0_sem58_1 | ⟨_ + 2, h⟩ => absurd h (Nat.not_lt.2 (Nat.le_add_left _ _))
abbrev reads0_58 : Fin grid0.rank → Bool := ![true]

abbrev stage0_59 : Fin 2 → Memref sig .tc .vmem S1x1x256 .f32 := fun | 0 => Memref.whole cc0_stg59_0 | 1 => Memref.whole cc0_stg59_1 | ⟨_ + 2, h⟩ => absurd h (Nat.not_lt.2 (Nat.le_add_left _ _))
abbrev sem0_59 : Fin 2 → DmaSem sig := fun | 0 => cc0_sem59_0 | 1 => cc0_sem59_1 | ⟨_ + 2, h⟩ => absurd h (Nat.not_lt.2 (Nat.le_add_left _ _))
abbrev reads0_59 : Fin grid0.rank → Bool := ![true]

abbrev stage0_60 : Fin 2 → Memref sig .tc .vmem S1x1x256 .f32 := fun | 0 => Memref.whole cc0_stg60_0 | 1 => Memref.whole cc0_stg60_1 | ⟨_ + 2, h⟩ => absurd h (Nat.not_lt.2 (Nat.le_add_left _ _))
abbrev sem0_60 : Fin 2 → DmaSem sig := fun | 0 => cc0_sem60_0 | 1 => cc0_sem60_1 | ⟨_ + 2, h⟩ => absurd h (Nat.not_lt.2 (Nat.le_add_left _ _))
abbrev reads0_60 : Fin grid0.rank → Bool := ![true]

abbrev stage0_61 : Fin 2 → Memref sig .tc .vmem S1x1x256 .f32 := fun | 0 => Memref.whole cc0_stg61_0 | 1 => Memref.whole cc0_stg61_1 | ⟨_ + 2, h⟩ => absurd h (Nat.not_lt.2 (Nat.le_add_left _ _))
abbrev sem0_61 : Fin 2 → DmaSem sig := fun | 0 => cc0_sem61_0 | 1 => cc0_sem61_1 | ⟨_ + 2, h⟩ => absurd h (Nat.not_lt.2 (Nat.le_add_left _ _))
abbrev reads0_61 : Fin grid0.rank → Bool := ![true]

abbrev stage0_62 : Fin 2 → Memref sig .tc .vmem S1x1x256 .f32 := fun | 0 => Memref.whole cc0_stg62_0 | 1 => Memref.whole cc0_stg62_1 | ⟨_ + 2, h⟩ => absurd h (Nat.not_lt.2 (Nat.le_add_left _ _))
abbrev sem0_62 : Fin 2 → DmaSem sig := fun | 0 => cc0_sem62_0 | 1 => cc0_sem62_1 | ⟨_ + 2, h⟩ => absurd h (Nat.not_lt.2 (Nat.le_add_left _ _))
abbrev reads0_62 : Fin grid0.rank → Bool := ![true]

abbrev stage0_63 : Fin 2 → Memref sig .tc .vmem S1x1x256 .f32 := fun | 0 => Memref.whole cc0_stg63_0 | 1 => Memref.whole cc0_stg63_1 | ⟨_ + 2, h⟩ => absurd h (Nat.not_lt.2 (Nat.le_add_left _ _))
abbrev sem0_63 : Fin 2 → DmaSem sig := fun | 0 => cc0_sem63_0 | 1 => cc0_sem63_1 | ⟨_ + 2, h⟩ => absurd h (Nat.not_lt.2 (Nat.le_add_left _ _))
abbrev reads0_63 : Fin grid0.rank → Bool := ![true]

abbrev stage0_64 : Fin 2 → Memref sig .tc .vmem S1x1x256 .f32 := fun | 0 => Memref.whole cc0_stg64_0 | 1 => Memref.whole cc0_stg64_1 | ⟨_ + 2, h⟩ => absurd h (Nat.not_lt.2 (Nat.le_add_left _ _))
abbrev sem0_64 : Fin 2 → DmaSem sig := fun | 0 => cc0_sem64_0 | 1 => cc0_sem64_1 | ⟨_ + 2, h⟩ => absurd h (Nat.not_lt.2 (Nat.le_add_left _ _))
abbrev reads0_64 : Fin grid0.rank → Bool := ![true]

abbrev stage0_65 : Fin 2 → Memref sig .tc .vmem S1x1x256 .f32 := fun | 0 => Memref.whole cc0_stg65_0 | 1 => Memref.whole cc0_stg65_1 | ⟨_ + 2, h⟩ => absurd h (Nat.not_lt.2 (Nat.le_add_left _ _))
abbrev sem0_65 : Fin 2 → DmaSem sig := fun | 0 => cc0_sem65_0 | 1 => cc0_sem65_1 | ⟨_ + 2, h⟩ => absurd h (Nat.not_lt.2 (Nat.le_add_left _ _))
abbrev reads0_65 : Fin grid0.rank → Bool := ![true]

abbrev stage0_66 : Fin 2 → Memref sig .tc .vmem S1x1x256 .f32 := fun | 0 => Memref.whole cc0_stg66_0 | 1 => Memref.whole cc0_stg66_1 | ⟨_ + 2, h⟩ => absurd h (Nat.not_lt.2 (Nat.le_add_left _ _))
abbrev sem0_66 : Fin 2 → DmaSem sig := fun | 0 => cc0_sem66_0 | 1 => cc0_sem66_1 | ⟨_ + 2, h⟩ => absurd h (Nat.not_lt.2 (Nat.le_add_left _ _))
abbrev reads0_66 : Fin grid0.rank → Bool := ![true]

abbrev stage0_67 : Fin 2 → Memref sig .tc .vmem S1x1x256 .f32 := fun | 0 => Memref.whole cc0_stg67_0 | 1 => Memref.whole cc0_stg67_1 | ⟨_ + 2, h⟩ => absurd h (Nat.not_lt.2 (Nat.le_add_left _ _))
abbrev sem0_67 : Fin 2 → DmaSem sig := fun | 0 => cc0_sem67_0 | 1 => cc0_sem67_1 | ⟨_ + 2, h⟩ => absurd h (Nat.not_lt.2 (Nat.le_add_left _ _))
abbrev reads0_67 : Fin grid0.rank → Bool := ![true]

abbrev stage0_68 : Fin 2 → Memref sig .tc .vmem S1x1x256 .f32 := fun | 0 => Memref.whole cc0_stg68_0 | 1 => Memref.whole cc0_stg68_1 | ⟨_ + 2, h⟩ => absurd h (Nat.not_lt.2 (Nat.le_add_left _ _))
abbrev sem0_68 : Fin 2 → DmaSem sig := fun | 0 => cc0_sem68_0 | 1 => cc0_sem68_1 | ⟨_ + 2, h⟩ => absurd h (Nat.not_lt.2 (Nat.le_add_left _ _))
abbrev reads0_68 : Fin grid0.rank → Bool := ![true]

abbrev stage0_69 : Fin 2 → Memref sig .tc .vmem S1x1x256 .f32 := fun | 0 => Memref.whole cc0_stg69_0 | 1 => Memref.whole cc0_stg69_1 | ⟨_ + 2, h⟩ => absurd h (Nat.not_lt.2 (Nat.le_add_left _ _))
abbrev sem0_69 : Fin 2 → DmaSem sig := fun | 0 => cc0_sem69_0 | 1 => cc0_sem69_1 | ⟨_ + 2, h⟩ => absurd h (Nat.not_lt.2 (Nat.le_add_left _ _))
abbrev reads0_69 : Fin grid0.rank → Bool := ![true]

abbrev stage0_70 : Fin 2 → Memref sig .tc .vmem S1x1x256 .f32 := fun | 0 => Memref.whole cc0_stg70_0 | 1 => Memref.whole cc0_stg70_1 | ⟨_ + 2, h⟩ => absurd h (Nat.not_lt.2 (Nat.le_add_left _ _))
abbrev sem0_70 : Fin 2 → DmaSem sig := fun | 0 => cc0_sem70_0 | 1 => cc0_sem70_1 | ⟨_ + 2, h⟩ => absurd h (Nat.not_lt.2 (Nat.le_add_left _ _))
abbrev reads0_70 : Fin grid0.rank → Bool := ![true]

abbrev stage0_71 : Fin 2 → Memref sig .tc .vmem S1x1x256 .f32 := fun | 0 => Memref.whole cc0_stg71_0 | 1 => Memref.whole cc0_stg71_1 | ⟨_ + 2, h⟩ => absurd h (Nat.not_lt.2 (Nat.le_add_left _ _))
abbrev sem0_71 : Fin 2 → DmaSem sig := fun | 0 => cc0_sem71_0 | 1 => cc0_sem71_1 | ⟨_ + 2, h⟩ => absurd h (Nat.not_lt.2 (Nat.le_add_left _ _))
abbrev reads0_71 : Fin grid0.rank → Bool := ![true]

abbrev stage0_72 : Fin 2 → Memref sig .tc .vmem S1x1x256 .f32 := fun | 0 => Memref.whole cc0_stg72_0 | 1 => Memref.whole cc0_stg72_1 | ⟨_ + 2, h⟩ => absurd h (Nat.not_lt.2 (Nat.le_add_left _ _))
abbrev sem0_72 : Fin 2 → DmaSem sig := fun | 0 => cc0_sem72_0 | 1 => cc0_sem72_1 | ⟨_ + 2, h⟩ => absurd h (Nat.not_lt.2 (Nat.le_add_left _ _))
abbrev reads0_72 : Fin grid0.rank → Bool := ![true]

abbrev stage0_73 : Fin 2 → Memref sig .tc .vmem S1x1x256 .f32 := fun | 0 => Memref.whole cc0_stg73_0 | 1 => Memref.whole cc0_stg73_1 | ⟨_ + 2, h⟩ => absurd h (Nat.not_lt.2 (Nat.le_add_left _ _))
abbrev sem0_73 : Fin 2 → DmaSem sig := fun | 0 => cc0_sem73_0 | 1 => cc0_sem73_1 | ⟨_ + 2, h⟩ => absurd h (Nat.not_lt.2 (Nat.le_add_left _ _))
abbrev reads0_73 : Fin grid0.rank → Bool := ![true]

abbrev stage0_74 : Fin 2 → Memref sig .tc .vmem S1x1x256 .f32 := fun | 0 => Memref.whole cc0_stg74_0 | 1 => Memref.whole cc0_stg74_1 | ⟨_ + 2, h⟩ => absurd h (Nat.not_lt.2 (Nat.le_add_left _ _))
abbrev sem0_74 : Fin 2 → DmaSem sig := fun | 0 => cc0_sem74_0 | 1 => cc0_sem74_1 | ⟨_ + 2, h⟩ => absurd h (Nat.not_lt.2 (Nat.le_add_left _ _))
abbrev reads0_74 : Fin grid0.rank → Bool := ![true]

abbrev stage0_75 : Fin 2 → Memref sig .tc .vmem S1x1x256 .f32 := fun | 0 => Memref.whole cc0_stg75_0 | 1 => Memref.whole cc0_stg75_1 | ⟨_ + 2, h⟩ => absurd h (Nat.not_lt.2 (Nat.le_add_left _ _))
abbrev sem0_75 : Fin 2 → DmaSem sig := fun | 0 => cc0_sem75_0 | 1 => cc0_sem75_1 | ⟨_ + 2, h⟩ => absurd h (Nat.not_lt.2 (Nat.le_add_left _ _))
abbrev reads0_75 : Fin grid0.rank → Bool := ![true]

abbrev stage0_76 : Fin 2 → Memref sig .tc .vmem S1x1x256 .f32 := fun | 0 => Memref.whole cc0_stg76_0 | 1 => Memref.whole cc0_stg76_1 | ⟨_ + 2, h⟩ => absurd h (Nat.not_lt.2 (Nat.le_add_left _ _))
abbrev sem0_76 : Fin 2 → DmaSem sig := fun | 0 => cc0_sem76_0 | 1 => cc0_sem76_1 | ⟨_ + 2, h⟩ => absurd h (Nat.not_lt.2 (Nat.le_add_left _ _))
abbrev reads0_76 : Fin grid0.rank → Bool := ![true]

abbrev stage0_77 : Fin 2 → Memref sig .tc .vmem S1x1x256 .f32 := fun | 0 => Memref.whole cc0_stg77_0 | 1 => Memref.whole cc0_stg77_1 | ⟨_ + 2, h⟩ => absurd h (Nat.not_lt.2 (Nat.le_add_left _ _))
abbrev sem0_77 : Fin 2 → DmaSem sig := fun | 0 => cc0_sem77_0 | 1 => cc0_sem77_1 | ⟨_ + 2, h⟩ => absurd h (Nat.not_lt.2 (Nat.le_add_left _ _))
abbrev reads0_77 : Fin grid0.rank → Bool := ![true]

abbrev stage0_78 : Fin 2 → Memref sig .tc .vmem S1x1x256 .f32 := fun | 0 => Memref.whole cc0_stg78_0 | 1 => Memref.whole cc0_stg78_1 | ⟨_ + 2, h⟩ => absurd h (Nat.not_lt.2 (Nat.le_add_left _ _))
abbrev sem0_78 : Fin 2 → DmaSem sig := fun | 0 => cc0_sem78_0 | 1 => cc0_sem78_1 | ⟨_ + 2, h⟩ => absurd h (Nat.not_lt.2 (Nat.le_add_left _ _))
abbrev reads0_78 : Fin grid0.rank → Bool := ![true]

abbrev stage0_79 : Fin 2 → Memref sig .tc .vmem S1x1x256 .f32 := fun | 0 => Memref.whole cc0_stg79_0 | 1 => Memref.whole cc0_stg79_1 | ⟨_ + 2, h⟩ => absurd h (Nat.not_lt.2 (Nat.le_add_left _ _))
abbrev sem0_79 : Fin 2 → DmaSem sig := fun | 0 => cc0_sem79_0 | 1 => cc0_sem79_1 | ⟨_ + 2, h⟩ => absurd h (Nat.not_lt.2 (Nat.le_add_left _ _))
abbrev reads0_79 : Fin grid0.rank → Bool := ![true]

abbrev stage0_80 : Fin 2 → Memref sig .tc .vmem S1x1x256 .f32 := fun | 0 => Memref.whole cc0_stg80_0 | 1 => Memref.whole cc0_stg80_1 | ⟨_ + 2, h⟩ => absurd h (Nat.not_lt.2 (Nat.le_add_left _ _))
abbrev sem0_80 : Fin 2 → DmaSem sig := fun | 0 => cc0_sem80_0 | 1 => cc0_sem80_1 | ⟨_ + 2, h⟩ => absurd h (Nat.not_lt.2 (Nat.le_add_left _ _))
abbrev reads0_80 : Fin grid0.rank → Bool := ![true]

abbrev stage0_81 : Fin 2 → Memref sig .tc .vmem S1x1x256 .f32 := fun | 0 => Memref.whole cc0_stg81_0 | 1 => Memref.whole cc0_stg81_1 | ⟨_ + 2, h⟩ => absurd h (Nat.not_lt.2 (Nat.le_add_left _ _))
abbrev sem0_81 : Fin 2 → DmaSem sig := fun | 0 => cc0_sem81_0 | 1 => cc0_sem81_1 | ⟨_ + 2, h⟩ => absurd h (Nat.not_lt.2 (Nat.le_add_left _ _))
abbrev reads0_81 : Fin grid0.rank → Bool := ![true]

abbrev stage0_82 : Fin 2 → Memref sig .tc .vmem S1x1x256 .f32 := fun | 0 => Memref.whole cc0_stg82_0 | 1 => Memref.whole cc0_stg82_1 | ⟨_ + 2, h⟩ => absurd h (Nat.not_lt.2 (Nat.le_add_left _ _))
abbrev sem0_82 : Fin 2 → DmaSem sig := fun | 0 => cc0_sem82_0 | 1 => cc0_sem82_1 | ⟨_ + 2, h⟩ => absurd h (Nat.not_lt.2 (Nat.le_add_left _ _))
abbrev reads0_82 : Fin grid0.rank → Bool := ![true]

abbrev stage0_83 : Fin 2 → Memref sig .tc .vmem S1x1x256 .f32 := fun | 0 => Memref.whole cc0_stg83_0 | 1 => Memref.whole cc0_stg83_1 | ⟨_ + 2, h⟩ => absurd h (Nat.not_lt.2 (Nat.le_add_left _ _))
abbrev sem0_83 : Fin 2 → DmaSem sig := fun | 0 => cc0_sem83_0 | 1 => cc0_sem83_1 | ⟨_ + 2, h⟩ => absurd h (Nat.not_lt.2 (Nat.le_add_left _ _))
abbrev reads0_83 : Fin grid0.rank → Bool := ![true]

abbrev stage0_84 : Fin 2 → Memref sig .tc .vmem S1x1x256 .f32 := fun | 0 => Memref.whole cc0_stg84_0 | 1 => Memref.whole cc0_stg84_1 | ⟨_ + 2, h⟩ => absurd h (Nat.not_lt.2 (Nat.le_add_left _ _))
abbrev sem0_84 : Fin 2 → DmaSem sig := fun | 0 => cc0_sem84_0 | 1 => cc0_sem84_1 | ⟨_ + 2, h⟩ => absurd h (Nat.not_lt.2 (Nat.le_add_left _ _))
abbrev reads0_84 : Fin grid0.rank → Bool := ![true]

abbrev stage0_85 : Fin 2 → Memref sig .tc .vmem S1x1x256 .f32 := fun | 0 => Memref.whole cc0_stg85_0 | 1 => Memref.whole cc0_stg85_1 | ⟨_ + 2, h⟩ => absurd h (Nat.not_lt.2 (Nat.le_add_left _ _))
abbrev sem0_85 : Fin 2 → DmaSem sig := fun | 0 => cc0_sem85_0 | 1 => cc0_sem85_1 | ⟨_ + 2, h⟩ => absurd h (Nat.not_lt.2 (Nat.le_add_left _ _))
abbrev reads0_85 : Fin grid0.rank → Bool := ![true]

abbrev stage0_86 : Fin 2 → Memref sig .tc .vmem S1x1x256 .f32 := fun | 0 => Memref.whole cc0_stg86_0 | 1 => Memref.whole cc0_stg86_1 | ⟨_ + 2, h⟩ => absurd h (Nat.not_lt.2 (Nat.le_add_left _ _))
abbrev sem0_86 : Fin 2 → DmaSem sig := fun | 0 => cc0_sem86_0 | 1 => cc0_sem86_1 | ⟨_ + 2, h⟩ => absurd h (Nat.not_lt.2 (Nat.le_add_left _ _))
abbrev reads0_86 : Fin grid0.rank → Bool := ![true]

abbrev stage0_87 : Fin 2 → Memref sig .tc .vmem S1x1x256 .f32 := fun | 0 => Memref.whole cc0_stg87_0 | 1 => Memref.whole cc0_stg87_1 | ⟨_ + 2, h⟩ => absurd h (Nat.not_lt.2 (Nat.le_add_left _ _))
abbrev sem0_87 : Fin 2 → DmaSem sig := fun | 0 => cc0_sem87_0 | 1 => cc0_sem87_1 | ⟨_ + 2, h⟩ => absurd h (Nat.not_lt.2 (Nat.le_add_left _ _))
abbrev reads0_87 : Fin grid0.rank → Bool := ![true]

abbrev stage0_88 : Fin 2 → Memref sig .tc .vmem S1x1x256 .f32 := fun | 0 => Memref.whole cc0_stg88_0 | 1 => Memref.whole cc0_stg88_1 | ⟨_ + 2, h⟩ => absurd h (Nat.not_lt.2 (Nat.le_add_left _ _))
abbrev sem0_88 : Fin 2 → DmaSem sig := fun | 0 => cc0_sem88_0 | 1 => cc0_sem88_1 | ⟨_ + 2, h⟩ => absurd h (Nat.not_lt.2 (Nat.le_add_left _ _))
abbrev reads0_88 : Fin grid0.rank → Bool := ![true]

abbrev stage0_89 : Fin 2 → Memref sig .tc .vmem S1x1x256 .f32 := fun | 0 => Memref.whole cc0_stg89_0 | 1 => Memref.whole cc0_stg89_1 | ⟨_ + 2, h⟩ => absurd h (Nat.not_lt.2 (Nat.le_add_left _ _))
abbrev sem0_89 : Fin 2 → DmaSem sig := fun | 0 => cc0_sem89_0 | 1 => cc0_sem89_1 | ⟨_ + 2, h⟩ => absurd h (Nat.not_lt.2 (Nat.le_add_left _ _))
abbrev reads0_89 : Fin grid0.rank → Bool := ![true]

abbrev stage0_90 : Fin 2 → Memref sig .tc .vmem S1x1x256 .f32 := fun | 0 => Memref.whole cc0_stg90_0 | 1 => Memref.whole cc0_stg90_1 | ⟨_ + 2, h⟩ => absurd h (Nat.not_lt.2 (Nat.le_add_left _ _))
abbrev sem0_90 : Fin 2 → DmaSem sig := fun | 0 => cc0_sem90_0 | 1 => cc0_sem90_1 | ⟨_ + 2, h⟩ => absurd h (Nat.not_lt.2 (Nat.le_add_left _ _))
abbrev reads0_90 : Fin grid0.rank → Bool := ![true]

abbrev stage0_91 : Fin 2 → Memref sig .tc .vmem S1x1x256 .f32 := fun | 0 => Memref.whole cc0_stg91_0 | 1 => Memref.whole cc0_stg91_1 | ⟨_ + 2, h⟩ => absurd h (Nat.not_lt.2 (Nat.le_add_left _ _))
abbrev sem0_91 : Fin 2 → DmaSem sig := fun | 0 => cc0_sem91_0 | 1 => cc0_sem91_1 | ⟨_ + 2, h⟩ => absurd h (Nat.not_lt.2 (Nat.le_add_left _ _))
abbrev reads0_91 : Fin grid0.rank → Bool := ![true]

abbrev stage0_92 : Fin 2 → Memref sig .tc .vmem S1x1x256 .f32 := fun | 0 => Memref.whole cc0_stg92_0 | 1 => Memref.whole cc0_stg92_1 | ⟨_ + 2, h⟩ => absurd h (Nat.not_lt.2 (Nat.le_add_left _ _))
abbrev sem0_92 : Fin 2 → DmaSem sig := fun | 0 => cc0_sem92_0 | 1 => cc0_sem92_1 | ⟨_ + 2, h⟩ => absurd h (Nat.not_lt.2 (Nat.le_add_left _ _))
abbrev reads0_92 : Fin grid0.rank → Bool := ![true]

abbrev stage0_93 : Fin 2 → Memref sig .tc .vmem S1x1x256 .f32 := fun | 0 => Memref.whole cc0_stg93_0 | 1 => Memref.whole cc0_stg93_1 | ⟨_ + 2, h⟩ => absurd h (Nat.not_lt.2 (Nat.le_add_left _ _))
abbrev sem0_93 : Fin 2 → DmaSem sig := fun | 0 => cc0_sem93_0 | 1 => cc0_sem93_1 | ⟨_ + 2, h⟩ => absurd h (Nat.not_lt.2 (Nat.le_add_left _ _))
abbrev reads0_93 : Fin grid0.rank → Bool := ![true]

abbrev stage0_94 : Fin 2 → Memref sig .tc .vmem S1x1x256 .f32 := fun | 0 => Memref.whole cc0_stg94_0 | 1 => Memref.whole cc0_stg94_1 | ⟨_ + 2, h⟩ => absurd h (Nat.not_lt.2 (Nat.le_add_left _ _))
abbrev sem0_94 : Fin 2 → DmaSem sig := fun | 0 => cc0_sem94_0 | 1 => cc0_sem94_1 | ⟨_ + 2, h⟩ => absurd h (Nat.not_lt.2 (Nat.le_add_left _ _))
abbrev reads0_94 : Fin grid0.rank → Bool := ![true]

abbrev stage0_95 : Fin 2 → Memref sig .tc .vmem S1x1x256 .f32 := fun | 0 => Memref.whole cc0_stg95_0 | 1 => Memref.whole cc0_stg95_1 | ⟨_ + 2, h⟩ => absurd h (Nat.not_lt.2 (Nat.le_add_left _ _))
abbrev sem0_95 : Fin 2 → DmaSem sig := fun | 0 => cc0_sem95_0 | 1 => cc0_sem95_1 | ⟨_ + 2, h⟩ => absurd h (Nat.not_lt.2 (Nat.le_add_left _ _))
abbrev reads0_95 : Fin grid0.rank → Bool := ![true]

abbrev stage0_96 : Fin 1 → Memref sig .tc .vmem S1x1 .f32 := fun | 0 => Memref.whole cc0_stg96_0 | ⟨_ + 1, h⟩ => absurd h (Nat.not_lt.2 (Nat.le_add_left _ _))
abbrev sem0_96 : Fin 1 → DmaSem sig := fun | 0 => cc0_sem96_0 | ⟨_ + 1, h⟩ => absurd h (Nat.not_lt.2 (Nat.le_add_left _ _))
abbrev reads0_96 : Fin grid0.rank → Bool := ![false]

class Facts₀ : Prop where
  shapeCasts_S500000x256_S500000x1x256 : S500000x256.ShapeCasts S500000x1x256
  shapeCasts_S1000x256_S1000x1x256 : S1000x256.ShapeCasts S1000x1x256
  numel1_S1 : S1.numel = 1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  reduces_S1x256_S1 : S1x256.Reduces [1] S1
  shapeCasts_S1_S1x1 : S1.ShapeCasts S1x1
  shapeCasts_S1x1_S_ : S1x1.ShapeCasts S_
  hrank0 : 0 < grid0.rank
  k0_off1_inb : ∀ i : grid0.Coords, ∀ (r : Fin 16), ∀ a, (k0_off1 i (BitVec.ofNat 32 r.val)) a + S1.size a ≤ S4096.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ {F : FTy → Type} [FloatOps F] (pf : pre0.Contents (Elt F)) (i i' : grid0.Coords), (∀ a, reads0_2 a = true → i a = i' a) → cc0_transform_2 k0_off1_inb numel1_S1 pf i = cc0_transform_2 k0_off1_inb numel1_S1 pf i'
  hstage0_3 : ∀ j, (stage0_3 j).IsWhole
  nbuf0_3 : grid0.bufCount reads0_3 false = 2
  hreads0_3 : ∀ {F : FTy → Type} [FloatOps F] (pf : pre0.Contents (Elt F)) (i i' : grid0.Coords), (∀ a, reads0_3 a = true → i a = i' a) → cc0_transform_3 k0_off1_inb numel1_S1 pf i = cc0_transform_3 k0_off1_inb numel1_S1 pf i'
  hstage0_4 : ∀ j, (stage0_4 j).IsWhole
  nbuf0_4 : grid0.bufCount reads0_4 false = 2
  hreads0_4 : ∀ {F : FTy → Type} [FloatOps F] (pf : pre0.Contents (Elt F)) (i i' : grid0.Coords), (∀ a, reads0_4 a = true → i a = i' a) → cc0_transform_4 k0_off1_inb numel1_S1 pf i = cc0_transform_4 k0_off1_inb numel1_S1 pf i'
  hstage0_5 : ∀ j, (stage0_5 j).IsWhole
  nbuf0_5 : grid0.bufCount reads0_5 false = 2
  hreads0_5 : ∀ {F : FTy → Type} [FloatOps F] (pf : pre0.Contents (Elt F)) (i i' : grid0.Coords), (∀ a, reads0_5 a = true → i a = i' a) → cc0_transform_5 k0_off1_inb numel1_S1 pf i = cc0_transform_5 k0_off1_inb numel1_S1 pf i'
  hstage0_6 : ∀ j, (stage0_6 j).IsWhole
  nbuf0_6 : grid0.bufCount reads0_6 false = 2
  hreads0_6 : ∀ {F : FTy → Type} [FloatOps F] (pf : pre0.Contents (Elt F)) (i i' : grid0.Coords), (∀ a, reads0_6 a = true → i a = i' a) → cc0_transform_6 k0_off1_inb numel1_S1 pf i = cc0_transform_6 k0_off1_inb numel1_S1 pf i'
  hstage0_7 : ∀ j, (stage0_7 j).IsWhole
  nbuf0_7 : grid0.bufCount reads0_7 false = 2
  hreads0_7 : ∀ {F : FTy → Type} [FloatOps F] (pf : pre0.Contents (Elt F)) (i i' : grid0.Coords), (∀ a, reads0_7 a = true → i a = i' a) → cc0_transform_7 k0_off1_inb numel1_S1 pf i = cc0_transform_7 k0_off1_inb numel1_S1 pf i'
  hstage0_8 : ∀ j, (stage0_8 j).IsWhole
  nbuf0_8 : grid0.bufCount reads0_8 false = 2
  hreads0_8 : ∀ {F : FTy → Type} [FloatOps F] (pf : pre0.Contents (Elt F)) (i i' : grid0.Coords), (∀ a, reads0_8 a = true → i a = i' a) → cc0_transform_8 k0_off1_inb numel1_S1 pf i = cc0_transform_8 k0_off1_inb numel1_S1 pf i'
  hstage0_9 : ∀ j, (stage0_9 j).IsWhole
  nbuf0_9 : grid0.bufCount reads0_9 false = 2
  hreads0_9 : ∀ {F : FTy → Type} [FloatOps F] (pf : pre0.Contents (Elt F)) (i i' : grid0.Coords), (∀ a, reads0_9 a = true → i a = i' a) → cc0_transform_9 k0_off1_inb numel1_S1 pf i = cc0_transform_9 k0_off1_inb numel1_S1 pf i'
  hstage0_10 : ∀ j, (stage0_10 j).IsWhole
  nbuf0_10 : grid0.bufCount reads0_10 false = 2
  hreads0_10 : ∀ {F : FTy → Type} [FloatOps F] (pf : pre0.Contents (Elt F)) (i i' : grid0.Coords), (∀ a, reads0_10 a = true → i a = i' a) → cc0_transform_10 k0_off1_inb numel1_S1 pf i = cc0_transform_10 k0_off1_inb numel1_S1 pf i'
  hstage0_11 : ∀ j, (stage0_11 j).IsWhole
  nbuf0_11 : grid0.bufCount reads0_11 false = 2
  hreads0_11 : ∀ {F : FTy → Type} [FloatOps F] (pf : pre0.Contents (Elt F)) (i i' : grid0.Coords), (∀ a, reads0_11 a = true → i a = i' a) → cc0_transform_11 k0_off1_inb numel1_S1 pf i = cc0_transform_11 k0_off1_inb numel1_S1 pf i'
  hstage0_12 : ∀ j, (stage0_12 j).IsWhole
  nbuf0_12 : grid0.bufCount reads0_12 false = 2
  hreads0_12 : ∀ {F : FTy → Type} [FloatOps F] (pf : pre0.Contents (Elt F)) (i i' : grid0.Coords), (∀ a, reads0_12 a = true → i a = i' a) → cc0_transform_12 k0_off1_inb numel1_S1 pf i = cc0_transform_12 k0_off1_inb numel1_S1 pf i'
  hstage0_13 : ∀ j, (stage0_13 j).IsWhole
  nbuf0_13 : grid0.bufCount reads0_13 false = 2
  hreads0_13 : ∀ {F : FTy → Type} [FloatOps F] (pf : pre0.Contents (Elt F)) (i i' : grid0.Coords), (∀ a, reads0_13 a = true → i a = i' a) → cc0_transform_13 k0_off1_inb numel1_S1 pf i = cc0_transform_13 k0_off1_inb numel1_S1 pf i'
  hstage0_14 : ∀ j, (stage0_14 j).IsWhole
  nbuf0_14 : grid0.bufCount reads0_14 false = 2
  hreads0_14 : ∀ {F : FTy → Type} [FloatOps F] (pf : pre0.Contents (Elt F)) (i i' : grid0.Coords), (∀ a, reads0_14 a = true → i a = i' a) → cc0_transform_14 k0_off1_inb numel1_S1 pf i = cc0_transform_14 k0_off1_inb numel1_S1 pf i'
  hstage0_15 : ∀ j, (stage0_15 j).IsWhole
  nbuf0_15 : grid0.bufCount reads0_15 false = 2
  hreads0_15 : ∀ {F : FTy → Type} [FloatOps F] (pf : pre0.Contents (Elt F)) (i i' : grid0.Coords), (∀ a, reads0_15 a = true → i a = i' a) → cc0_transform_15 k0_off1_inb numel1_S1 pf i = cc0_transform_15 k0_off1_inb numel1_S1 pf i'
  hstage0_16 : ∀ j, (stage0_16 j).IsWhole
  nbuf0_16 : grid0.bufCount reads0_16 false = 2
  hreads0_16 : ∀ {F : FTy → Type} [FloatOps F] (pf : pre0.Contents (Elt F)) (i i' : grid0.Coords), (∀ a, reads0_16 a = true → i a = i' a) → cc0_transform_16 k0_off1_inb numel1_S1 pf i = cc0_transform_16 k0_off1_inb numel1_S1 pf i'
  hstage0_17 : ∀ j, (stage0_17 j).IsWhole
  nbuf0_17 : grid0.bufCount reads0_17 false = 2
  hreads0_17 : ∀ {F : FTy → Type} [FloatOps F] (pf : pre0.Contents (Elt F)) (i i' : grid0.Coords), (∀ a, reads0_17 a = true → i a = i' a) → cc0_transform_17 k0_off1_inb numel1_S1 pf i = cc0_transform_17 k0_off1_inb numel1_S1 pf i'
  hstage0_18 : ∀ j, (stage0_18 j).IsWhole
  nbuf0_18 : grid0.bufCount reads0_18 false = 2
  hreads0_18 : ∀ {F : FTy → Type} [FloatOps F] (pf : pre0.Contents (Elt F)) (i i' : grid0.Coords), (∀ a, reads0_18 a = true → i a = i' a) → cc0_transform_18 k0_off1_inb numel1_S1 pf i = cc0_transform_18 k0_off1_inb numel1_S1 pf i'
  hstage0_19 : ∀ j, (stage0_19 j).IsWhole
  nbuf0_19 : grid0.bufCount reads0_19 false = 2
  hreads0_19 : ∀ {F : FTy → Type} [FloatOps F] (pf : pre0.Contents (Elt F)) (i i' : grid0.Coords), (∀ a, reads0_19 a = true → i a = i' a) → cc0_transform_19 k0_off1_inb numel1_S1 pf i = cc0_transform_19 k0_off1_inb numel1_S1 pf i'
  hstage0_20 : ∀ j, (stage0_20 j).IsWhole
  nbuf0_20 : grid0.bufCount reads0_20 false = 2
  hreads0_20 : ∀ {F : FTy → Type} [FloatOps F] (pf : pre0.Contents (Elt F)) (i i' : grid0.Coords), (∀ a, reads0_20 a = true → i a = i' a) → cc0_transform_20 k0_off1_inb numel1_S1 pf i = cc0_transform_20 k0_off1_inb numel1_S1 pf i'
  hstage0_21 : ∀ j, (stage0_21 j).IsWhole
  nbuf0_21 : grid0.bufCount reads0_21 false = 2
  hreads0_21 : ∀ {F : FTy → Type} [FloatOps F] (pf : pre0.Contents (Elt F)) (i i' : grid0.Coords), (∀ a, reads0_21 a = true → i a = i' a) → cc0_transform_21 k0_off1_inb numel1_S1 pf i = cc0_transform_21 k0_off1_inb numel1_S1 pf i'
  hstage0_22 : ∀ j, (stage0_22 j).IsWhole
  nbuf0_22 : grid0.bufCount reads0_22 false = 2
  hreads0_22 : ∀ {F : FTy → Type} [FloatOps F] (pf : pre0.Contents (Elt F)) (i i' : grid0.Coords), (∀ a, reads0_22 a = true → i a = i' a) → cc0_transform_22 k0_off1_inb numel1_S1 pf i = cc0_transform_22 k0_off1_inb numel1_S1 pf i'
  hstage0_23 : ∀ j, (stage0_23 j).IsWhole
  nbuf0_23 : grid0.bufCount reads0_23 false = 2
  hreads0_23 : ∀ {F : FTy → Type} [FloatOps F] (pf : pre0.Contents (Elt F)) (i i' : grid0.Coords), (∀ a, reads0_23 a = true → i a = i' a) → cc0_transform_23 k0_off1_inb numel1_S1 pf i = cc0_transform_23 k0_off1_inb numel1_S1 pf i'
  hstage0_24 : ∀ j, (stage0_24 j).IsWhole
  nbuf0_24 : grid0.bufCount reads0_24 false = 2
  hreads0_24 : ∀ {F : FTy → Type} [FloatOps F] (pf : pre0.Contents (Elt F)) (i i' : grid0.Coords), (∀ a, reads0_24 a = true → i a = i' a) → cc0_transform_24 k0_off1_inb numel1_S1 pf i = cc0_transform_24 k0_off1_inb numel1_S1 pf i'
  hstage0_25 : ∀ j, (stage0_25 j).IsWhole
  nbuf0_25 : grid0.bufCount reads0_25 false = 2
  hreads0_25 : ∀ {F : FTy → Type} [FloatOps F] (pf : pre0.Contents (Elt F)) (i i' : grid0.Coords), (∀ a, reads0_25 a = true → i a = i' a) → cc0_transform_25 k0_off1_inb numel1_S1 pf i = cc0_transform_25 k0_off1_inb numel1_S1 pf i'
  hstage0_26 : ∀ j, (stage0_26 j).IsWhole
  nbuf0_26 : grid0.bufCount reads0_26 false = 2
  hreads0_26 : ∀ {F : FTy → Type} [FloatOps F] (pf : pre0.Contents (Elt F)) (i i' : grid0.Coords), (∀ a, reads0_26 a = true → i a = i' a) → cc0_transform_26 k0_off1_inb numel1_S1 pf i = cc0_transform_26 k0_off1_inb numel1_S1 pf i'
  hstage0_27 : ∀ j, (stage0_27 j).IsWhole
  nbuf0_27 : grid0.bufCount reads0_27 false = 2
  hreads0_27 : ∀ {F : FTy → Type} [FloatOps F] (pf : pre0.Contents (Elt F)) (i i' : grid0.Coords), (∀ a, reads0_27 a = true → i a = i' a) → cc0_transform_27 k0_off1_inb numel1_S1 pf i = cc0_transform_27 k0_off1_inb numel1_S1 pf i'
  hstage0_28 : ∀ j, (stage0_28 j).IsWhole
  nbuf0_28 : grid0.bufCount reads0_28 false = 2
  hreads0_28 : ∀ {F : FTy → Type} [FloatOps F] (pf : pre0.Contents (Elt F)) (i i' : grid0.Coords), (∀ a, reads0_28 a = true → i a = i' a) → cc0_transform_28 k0_off1_inb numel1_S1 pf i = cc0_transform_28 k0_off1_inb numel1_S1 pf i'
  hstage0_29 : ∀ j, (stage0_29 j).IsWhole
  nbuf0_29 : grid0.bufCount reads0_29 false = 2
  hreads0_29 : ∀ {F : FTy → Type} [FloatOps F] (pf : pre0.Contents (Elt F)) (i i' : grid0.Coords), (∀ a, reads0_29 a = true → i a = i' a) → cc0_transform_29 k0_off1_inb numel1_S1 pf i = cc0_transform_29 k0_off1_inb numel1_S1 pf i'
  hstage0_30 : ∀ j, (stage0_30 j).IsWhole
  nbuf0_30 : grid0.bufCount reads0_30 false = 2
  hreads0_30 : ∀ {F : FTy → Type} [FloatOps F] (pf : pre0.Contents (Elt F)) (i i' : grid0.Coords), (∀ a, reads0_30 a = true → i a = i' a) → cc0_transform_30 k0_off1_inb numel1_S1 pf i = cc0_transform_30 k0_off1_inb numel1_S1 pf i'
  hstage0_31 : ∀ j, (stage0_31 j).IsWhole
  nbuf0_31 : grid0.bufCount reads0_31 false = 2
  hreads0_31 : ∀ {F : FTy → Type} [FloatOps F] (pf : pre0.Contents (Elt F)) (i i' : grid0.Coords), (∀ a, reads0_31 a = true → i a = i' a) → cc0_transform_31 k0_off1_inb numel1_S1 pf i = cc0_transform_31 k0_off1_inb numel1_S1 pf i'
  hstage0_32 : ∀ j, (stage0_32 j).IsWhole
  nbuf0_32 : grid0.bufCount reads0_32 false = 2
  hreads0_32 : ∀ {F : FTy → Type} [FloatOps F] (pf : pre0.Contents (Elt F)) (i i' : grid0.Coords), (∀ a, reads0_32 a = true → i a = i' a) → cc0_transform_32 k0_off1_inb numel1_S1 pf i = cc0_transform_32 k0_off1_inb numel1_S1 pf i'
  hstage0_33 : ∀ j, (stage0_33 j).IsWhole
  nbuf0_33 : grid0.bufCount reads0_33 false = 2
  hreads0_33 : ∀ {F : FTy → Type} [FloatOps F] (pf : pre0.Contents (Elt F)) (i i' : grid0.Coords), (∀ a, reads0_33 a = true → i a = i' a) → cc0_transform_33 k0_off1_inb numel1_S1 pf i = cc0_transform_33 k0_off1_inb numel1_S1 pf i'
  hstage0_34 : ∀ j, (stage0_34 j).IsWhole
  nbuf0_34 : grid0.bufCount reads0_34 false = 2
  hreads0_34 : ∀ {F : FTy → Type} [FloatOps F] (pf : pre0.Contents (Elt F)) (i i' : grid0.Coords), (∀ a, reads0_34 a = true → i a = i' a) → cc0_transform_34 k0_off1_inb numel1_S1 pf i = cc0_transform_34 k0_off1_inb numel1_S1 pf i'
  hstage0_35 : ∀ j, (stage0_35 j).IsWhole
  nbuf0_35 : grid0.bufCount reads0_35 false = 2
  hreads0_35 : ∀ {F : FTy → Type} [FloatOps F] (pf : pre0.Contents (Elt F)) (i i' : grid0.Coords), (∀ a, reads0_35 a = true → i a = i' a) → cc0_transform_35 k0_off1_inb numel1_S1 pf i = cc0_transform_35 k0_off1_inb numel1_S1 pf i'
  hstage0_36 : ∀ j, (stage0_36 j).IsWhole
  nbuf0_36 : grid0.bufCount reads0_36 false = 2
  hreads0_36 : ∀ {F : FTy → Type} [FloatOps F] (pf : pre0.Contents (Elt F)) (i i' : grid0.Coords), (∀ a, reads0_36 a = true → i a = i' a) → cc0_transform_36 k0_off1_inb numel1_S1 pf i = cc0_transform_36 k0_off1_inb numel1_S1 pf i'
  hstage0_37 : ∀ j, (stage0_37 j).IsWhole
  nbuf0_37 : grid0.bufCount reads0_37 false = 2
  hreads0_37 : ∀ {F : FTy → Type} [FloatOps F] (pf : pre0.Contents (Elt F)) (i i' : grid0.Coords), (∀ a, reads0_37 a = true → i a = i' a) → cc0_transform_37 k0_off1_inb numel1_S1 pf i = cc0_transform_37 k0_off1_inb numel1_S1 pf i'
  hstage0_38 : ∀ j, (stage0_38 j).IsWhole
  nbuf0_38 : grid0.bufCount reads0_38 false = 2
  hreads0_38 : ∀ {F : FTy → Type} [FloatOps F] (pf : pre0.Contents (Elt F)) (i i' : grid0.Coords), (∀ a, reads0_38 a = true → i a = i' a) → cc0_transform_38 k0_off1_inb numel1_S1 pf i = cc0_transform_38 k0_off1_inb numel1_S1 pf i'
  hstage0_39 : ∀ j, (stage0_39 j).IsWhole
  nbuf0_39 : grid0.bufCount reads0_39 false = 2
  hreads0_39 : ∀ {F : FTy → Type} [FloatOps F] (pf : pre0.Contents (Elt F)) (i i' : grid0.Coords), (∀ a, reads0_39 a = true → i a = i' a) → cc0_transform_39 k0_off1_inb numel1_S1 pf i = cc0_transform_39 k0_off1_inb numel1_S1 pf i'
  hstage0_40 : ∀ j, (stage0_40 j).IsWhole
  nbuf0_40 : grid0.bufCount reads0_40 false = 2
  hreads0_40 : ∀ {F : FTy → Type} [FloatOps F] (pf : pre0.Contents (Elt F)) (i i' : grid0.Coords), (∀ a, reads0_40 a = true → i a = i' a) → cc0_transform_40 k0_off1_inb numel1_S1 pf i = cc0_transform_40 k0_off1_inb numel1_S1 pf i'
  hstage0_41 : ∀ j, (stage0_41 j).IsWhole
  nbuf0_41 : grid0.bufCount reads0_41 false = 2
  hreads0_41 : ∀ {F : FTy → Type} [FloatOps F] (pf : pre0.Contents (Elt F)) (i i' : grid0.Coords), (∀ a, reads0_41 a = true → i a = i' a) → cc0_transform_41 k0_off1_inb numel1_S1 pf i = cc0_transform_41 k0_off1_inb numel1_S1 pf i'
  hstage0_42 : ∀ j, (stage0_42 j).IsWhole
  nbuf0_42 : grid0.bufCount reads0_42 false = 2
  hreads0_42 : ∀ {F : FTy → Type} [FloatOps F] (pf : pre0.Contents (Elt F)) (i i' : grid0.Coords), (∀ a, reads0_42 a = true → i a = i' a) → cc0_transform_42 k0_off1_inb numel1_S1 pf i = cc0_transform_42 k0_off1_inb numel1_S1 pf i'
  hstage0_43 : ∀ j, (stage0_43 j).IsWhole
  nbuf0_43 : grid0.bufCount reads0_43 false = 2
  hreads0_43 : ∀ {F : FTy → Type} [FloatOps F] (pf : pre0.Contents (Elt F)) (i i' : grid0.Coords), (∀ a, reads0_43 a = true → i a = i' a) → cc0_transform_43 k0_off1_inb numel1_S1 pf i = cc0_transform_43 k0_off1_inb numel1_S1 pf i'
  hstage0_44 : ∀ j, (stage0_44 j).IsWhole
  nbuf0_44 : grid0.bufCount reads0_44 false = 2
  hreads0_44 : ∀ {F : FTy → Type} [FloatOps F] (pf : pre0.Contents (Elt F)) (i i' : grid0.Coords), (∀ a, reads0_44 a = true → i a = i' a) → cc0_transform_44 k0_off1_inb numel1_S1 pf i = cc0_transform_44 k0_off1_inb numel1_S1 pf i'
  hstage0_45 : ∀ j, (stage0_45 j).IsWhole
  nbuf0_45 : grid0.bufCount reads0_45 false = 2
  hreads0_45 : ∀ {F : FTy → Type} [FloatOps F] (pf : pre0.Contents (Elt F)) (i i' : grid0.Coords), (∀ a, reads0_45 a = true → i a = i' a) → cc0_transform_45 k0_off1_inb numel1_S1 pf i = cc0_transform_45 k0_off1_inb numel1_S1 pf i'
  hstage0_46 : ∀ j, (stage0_46 j).IsWhole
  nbuf0_46 : grid0.bufCount reads0_46 false = 2
  hreads0_46 : ∀ {F : FTy → Type} [FloatOps F] (pf : pre0.Contents (Elt F)) (i i' : grid0.Coords), (∀ a, reads0_46 a = true → i a = i' a) → cc0_transform_46 k0_off1_inb numel1_S1 pf i = cc0_transform_46 k0_off1_inb numel1_S1 pf i'
  hstage0_47 : ∀ j, (stage0_47 j).IsWhole
  nbuf0_47 : grid0.bufCount reads0_47 false = 2
  hreads0_47 : ∀ {F : FTy → Type} [FloatOps F] (pf : pre0.Contents (Elt F)) (i i' : grid0.Coords), (∀ a, reads0_47 a = true → i a = i' a) → cc0_transform_47 k0_off1_inb numel1_S1 pf i = cc0_transform_47 k0_off1_inb numel1_S1 pf i'
  hstage0_48 : ∀ j, (stage0_48 j).IsWhole
  nbuf0_48 : grid0.bufCount reads0_48 false = 2
  hreads0_48 : ∀ {F : FTy → Type} [FloatOps F] (pf : pre0.Contents (Elt F)) (i i' : grid0.Coords), (∀ a, reads0_48 a = true → i a = i' a) → cc0_transform_48 k0_off1_inb numel1_S1 pf i = cc0_transform_48 k0_off1_inb numel1_S1 pf i'
  hstage0_49 : ∀ j, (stage0_49 j).IsWhole
  nbuf0_49 : grid0.bufCount reads0_49 false = 2
  hreads0_49 : ∀ {F : FTy → Type} [FloatOps F] (pf : pre0.Contents (Elt F)) (i i' : grid0.Coords), (∀ a, reads0_49 a = true → i a = i' a) → cc0_transform_49 k0_off1_inb numel1_S1 pf i = cc0_transform_49 k0_off1_inb numel1_S1 pf i'
  hstage0_50 : ∀ j, (stage0_50 j).IsWhole
  nbuf0_50 : grid0.bufCount reads0_50 false = 2
  hreads0_50 : ∀ {F : FTy → Type} [FloatOps F] (pf : pre0.Contents (Elt F)) (i i' : grid0.Coords), (∀ a, reads0_50 a = true → i a = i' a) → cc0_transform_50 k0_off1_inb numel1_S1 pf i = cc0_transform_50 k0_off1_inb numel1_S1 pf i'
  hstage0_51 : ∀ j, (stage0_51 j).IsWhole
  nbuf0_51 : grid0.bufCount reads0_51 false = 2
  hreads0_51 : ∀ {F : FTy → Type} [FloatOps F] (pf : pre0.Contents (Elt F)) (i i' : grid0.Coords), (∀ a, reads0_51 a = true → i a = i' a) → cc0_transform_51 k0_off1_inb numel1_S1 pf i = cc0_transform_51 k0_off1_inb numel1_S1 pf i'
  hstage0_52 : ∀ j, (stage0_52 j).IsWhole
  nbuf0_52 : grid0.bufCount reads0_52 false = 2
  hreads0_52 : ∀ {F : FTy → Type} [FloatOps F] (pf : pre0.Contents (Elt F)) (i i' : grid0.Coords), (∀ a, reads0_52 a = true → i a = i' a) → cc0_transform_52 k0_off1_inb numel1_S1 pf i = cc0_transform_52 k0_off1_inb numel1_S1 pf i'
  hstage0_53 : ∀ j, (stage0_53 j).IsWhole
  nbuf0_53 : grid0.bufCount reads0_53 false = 2
  hreads0_53 : ∀ {F : FTy → Type} [FloatOps F] (pf : pre0.Contents (Elt F)) (i i' : grid0.Coords), (∀ a, reads0_53 a = true → i a = i' a) → cc0_transform_53 k0_off1_inb numel1_S1 pf i = cc0_transform_53 k0_off1_inb numel1_S1 pf i'
  hstage0_54 : ∀ j, (stage0_54 j).IsWhole
  nbuf0_54 : grid0.bufCount reads0_54 false = 2
  hreads0_54 : ∀ {F : FTy → Type} [FloatOps F] (pf : pre0.Contents (Elt F)) (i i' : grid0.Coords), (∀ a, reads0_54 a = true → i a = i' a) → cc0_transform_54 k0_off1_inb numel1_S1 pf i = cc0_transform_54 k0_off1_inb numel1_S1 pf i'
  hstage0_55 : ∀ j, (stage0_55 j).IsWhole
  nbuf0_55 : grid0.bufCount reads0_55 false = 2
  hreads0_55 : ∀ {F : FTy → Type} [FloatOps F] (pf : pre0.Contents (Elt F)) (i i' : grid0.Coords), (∀ a, reads0_55 a = true → i a = i' a) → cc0_transform_55 k0_off1_inb numel1_S1 pf i = cc0_transform_55 k0_off1_inb numel1_S1 pf i'
  hstage0_56 : ∀ j, (stage0_56 j).IsWhole
  nbuf0_56 : grid0.bufCount reads0_56 false = 2
  hreads0_56 : ∀ {F : FTy → Type} [FloatOps F] (pf : pre0.Contents (Elt F)) (i i' : grid0.Coords), (∀ a, reads0_56 a = true → i a = i' a) → cc0_transform_56 k0_off1_inb numel1_S1 pf i = cc0_transform_56 k0_off1_inb numel1_S1 pf i'
  hstage0_57 : ∀ j, (stage0_57 j).IsWhole
  nbuf0_57 : grid0.bufCount reads0_57 false = 2
  hreads0_57 : ∀ {F : FTy → Type} [FloatOps F] (pf : pre0.Contents (Elt F)) (i i' : grid0.Coords), (∀ a, reads0_57 a = true → i a = i' a) → cc0_transform_57 k0_off1_inb numel1_S1 pf i = cc0_transform_57 k0_off1_inb numel1_S1 pf i'
  hstage0_58 : ∀ j, (stage0_58 j).IsWhole
  nbuf0_58 : grid0.bufCount reads0_58 false = 2
  hreads0_58 : ∀ {F : FTy → Type} [FloatOps F] (pf : pre0.Contents (Elt F)) (i i' : grid0.Coords), (∀ a, reads0_58 a = true → i a = i' a) → cc0_transform_58 k0_off1_inb numel1_S1 pf i = cc0_transform_58 k0_off1_inb numel1_S1 pf i'
  hstage0_59 : ∀ j, (stage0_59 j).IsWhole
  nbuf0_59 : grid0.bufCount reads0_59 false = 2
  hreads0_59 : ∀ {F : FTy → Type} [FloatOps F] (pf : pre0.Contents (Elt F)) (i i' : grid0.Coords), (∀ a, reads0_59 a = true → i a = i' a) → cc0_transform_59 k0_off1_inb numel1_S1 pf i = cc0_transform_59 k0_off1_inb numel1_S1 pf i'
  hstage0_60 : ∀ j, (stage0_60 j).IsWhole
  nbuf0_60 : grid0.bufCount reads0_60 false = 2
  hreads0_60 : ∀ {F : FTy → Type} [FloatOps F] (pf : pre0.Contents (Elt F)) (i i' : grid0.Coords), (∀ a, reads0_60 a = true → i a = i' a) → cc0_transform_60 k0_off1_inb numel1_S1 pf i = cc0_transform_60 k0_off1_inb numel1_S1 pf i'
  hstage0_61 : ∀ j, (stage0_61 j).IsWhole
  nbuf0_61 : grid0.bufCount reads0_61 false = 2
  hreads0_61 : ∀ {F : FTy → Type} [FloatOps F] (pf : pre0.Contents (Elt F)) (i i' : grid0.Coords), (∀ a, reads0_61 a = true → i a = i' a) → cc0_transform_61 k0_off1_inb numel1_S1 pf i = cc0_transform_61 k0_off1_inb numel1_S1 pf i'
  hstage0_62 : ∀ j, (stage0_62 j).IsWhole
  nbuf0_62 : grid0.bufCount reads0_62 false = 2
  hreads0_62 : ∀ {F : FTy → Type} [FloatOps F] (pf : pre0.Contents (Elt F)) (i i' : grid0.Coords), (∀ a, reads0_62 a = true → i a = i' a) → cc0_transform_62 k0_off1_inb numel1_S1 pf i = cc0_transform_62 k0_off1_inb numel1_S1 pf i'
  hstage0_63 : ∀ j, (stage0_63 j).IsWhole
  nbuf0_63 : grid0.bufCount reads0_63 false = 2
  hreads0_63 : ∀ {F : FTy → Type} [FloatOps F] (pf : pre0.Contents (Elt F)) (i i' : grid0.Coords), (∀ a, reads0_63 a = true → i a = i' a) → cc0_transform_63 k0_off1_inb numel1_S1 pf i = cc0_transform_63 k0_off1_inb numel1_S1 pf i'
  hstage0_64 : ∀ j, (stage0_64 j).IsWhole
  nbuf0_64 : grid0.bufCount reads0_64 false = 2
  hreads0_64 : ∀ {F : FTy → Type} [FloatOps F] (pf : pre0.Contents (Elt F)) (i i' : grid0.Coords), (∀ a, reads0_64 a = true → i a = i' a) → cc0_transform_64 k0_off1_inb numel1_S1 pf i = cc0_transform_64 k0_off1_inb numel1_S1 pf i'
  hstage0_65 : ∀ j, (stage0_65 j).IsWhole
  nbuf0_65 : grid0.bufCount reads0_65 false = 2
  hreads0_65 : ∀ {F : FTy → Type} [FloatOps F] (pf : pre0.Contents (Elt F)) (i i' : grid0.Coords), (∀ a, reads0_65 a = true → i a = i' a) → cc0_transform_65 k0_off1_inb numel1_S1 pf i = cc0_transform_65 k0_off1_inb numel1_S1 pf i'
  hstage0_66 : ∀ j, (stage0_66 j).IsWhole
  nbuf0_66 : grid0.bufCount reads0_66 false = 2
  hreads0_66 : ∀ {F : FTy → Type} [FloatOps F] (pf : pre0.Contents (Elt F)) (i i' : grid0.Coords), (∀ a, reads0_66 a = true → i a = i' a) → cc0_transform_66 k0_off1_inb numel1_S1 pf i = cc0_transform_66 k0_off1_inb numel1_S1 pf i'
  hstage0_67 : ∀ j, (stage0_67 j).IsWhole
  nbuf0_67 : grid0.bufCount reads0_67 false = 2
  hreads0_67 : ∀ {F : FTy → Type} [FloatOps F] (pf : pre0.Contents (Elt F)) (i i' : grid0.Coords), (∀ a, reads0_67 a = true → i a = i' a) → cc0_transform_67 k0_off1_inb numel1_S1 pf i = cc0_transform_67 k0_off1_inb numel1_S1 pf i'
  hstage0_68 : ∀ j, (stage0_68 j).IsWhole
  nbuf0_68 : grid0.bufCount reads0_68 false = 2
  hreads0_68 : ∀ {F : FTy → Type} [FloatOps F] (pf : pre0.Contents (Elt F)) (i i' : grid0.Coords), (∀ a, reads0_68 a = true → i a = i' a) → cc0_transform_68 k0_off1_inb numel1_S1 pf i = cc0_transform_68 k0_off1_inb numel1_S1 pf i'
  hstage0_69 : ∀ j, (stage0_69 j).IsWhole
  nbuf0_69 : grid0.bufCount reads0_69 false = 2
  hreads0_69 : ∀ {F : FTy → Type} [FloatOps F] (pf : pre0.Contents (Elt F)) (i i' : grid0.Coords), (∀ a, reads0_69 a = true → i a = i' a) → cc0_transform_69 k0_off1_inb numel1_S1 pf i = cc0_transform_69 k0_off1_inb numel1_S1 pf i'
  hstage0_70 : ∀ j, (stage0_70 j).IsWhole
  nbuf0_70 : grid0.bufCount reads0_70 false = 2
  hreads0_70 : ∀ {F : FTy → Type} [FloatOps F] (pf : pre0.Contents (Elt F)) (i i' : grid0.Coords), (∀ a, reads0_70 a = true → i a = i' a) → cc0_transform_70 k0_off1_inb numel1_S1 pf i = cc0_transform_70 k0_off1_inb numel1_S1 pf i'
  hstage0_71 : ∀ j, (stage0_71 j).IsWhole
  nbuf0_71 : grid0.bufCount reads0_71 false = 2
  hreads0_71 : ∀ {F : FTy → Type} [FloatOps F] (pf : pre0.Contents (Elt F)) (i i' : grid0.Coords), (∀ a, reads0_71 a = true → i a = i' a) → cc0_transform_71 k0_off1_inb numel1_S1 pf i = cc0_transform_71 k0_off1_inb numel1_S1 pf i'
  hstage0_72 : ∀ j, (stage0_72 j).IsWhole
  nbuf0_72 : grid0.bufCount reads0_72 false = 2
  hreads0_72 : ∀ {F : FTy → Type} [FloatOps F] (pf : pre0.Contents (Elt F)) (i i' : grid0.Coords), (∀ a, reads0_72 a = true → i a = i' a) → cc0_transform_72 k0_off1_inb numel1_S1 pf i = cc0_transform_72 k0_off1_inb numel1_S1 pf i'
  hstage0_73 : ∀ j, (stage0_73 j).IsWhole
  nbuf0_73 : grid0.bufCount reads0_73 false = 2
  hreads0_73 : ∀ {F : FTy → Type} [FloatOps F] (pf : pre0.Contents (Elt F)) (i i' : grid0.Coords), (∀ a, reads0_73 a = true → i a = i' a) → cc0_transform_73 k0_off1_inb numel1_S1 pf i = cc0_transform_73 k0_off1_inb numel1_S1 pf i'
  hstage0_74 : ∀ j, (stage0_74 j).IsWhole
  nbuf0_74 : grid0.bufCount reads0_74 false = 2
  hreads0_74 : ∀ {F : FTy → Type} [FloatOps F] (pf : pre0.Contents (Elt F)) (i i' : grid0.Coords), (∀ a, reads0_74 a = true → i a = i' a) → cc0_transform_74 k0_off1_inb numel1_S1 pf i = cc0_transform_74 k0_off1_inb numel1_S1 pf i'
  hstage0_75 : ∀ j, (stage0_75 j).IsWhole
  nbuf0_75 : grid0.bufCount reads0_75 false = 2
  hreads0_75 : ∀ {F : FTy → Type} [FloatOps F] (pf : pre0.Contents (Elt F)) (i i' : grid0.Coords), (∀ a, reads0_75 a = true → i a = i' a) → cc0_transform_75 k0_off1_inb numel1_S1 pf i = cc0_transform_75 k0_off1_inb numel1_S1 pf i'
  hstage0_76 : ∀ j, (stage0_76 j).IsWhole
  nbuf0_76 : grid0.bufCount reads0_76 false = 2
  hreads0_76 : ∀ {F : FTy → Type} [FloatOps F] (pf : pre0.Contents (Elt F)) (i i' : grid0.Coords), (∀ a, reads0_76 a = true → i a = i' a) → cc0_transform_76 k0_off1_inb numel1_S1 pf i = cc0_transform_76 k0_off1_inb numel1_S1 pf i'
  hstage0_77 : ∀ j, (stage0_77 j).IsWhole
  nbuf0_77 : grid0.bufCount reads0_77 false = 2
  hreads0_77 : ∀ {F : FTy → Type} [FloatOps F] (pf : pre0.Contents (Elt F)) (i i' : grid0.Coords), (∀ a, reads0_77 a = true → i a = i' a) → cc0_transform_77 k0_off1_inb numel1_S1 pf i = cc0_transform_77 k0_off1_inb numel1_S1 pf i'
  hstage0_78 : ∀ j, (stage0_78 j).IsWhole
  nbuf0_78 : grid0.bufCount reads0_78 false = 2
  hreads0_78 : ∀ {F : FTy → Type} [FloatOps F] (pf : pre0.Contents (Elt F)) (i i' : grid0.Coords), (∀ a, reads0_78 a = true → i a = i' a) → cc0_transform_78 k0_off1_inb numel1_S1 pf i = cc0_transform_78 k0_off1_inb numel1_S1 pf i'
  hstage0_79 : ∀ j, (stage0_79 j).IsWhole
  nbuf0_79 : grid0.bufCount reads0_79 false = 2
  hreads0_79 : ∀ {F : FTy → Type} [FloatOps F] (pf : pre0.Contents (Elt F)) (i i' : grid0.Coords), (∀ a, reads0_79 a = true → i a = i' a) → cc0_transform_79 k0_off1_inb numel1_S1 pf i = cc0_transform_79 k0_off1_inb numel1_S1 pf i'
  hstage0_80 : ∀ j, (stage0_80 j).IsWhole
  nbuf0_80 : grid0.bufCount reads0_80 false = 2
  hreads0_80 : ∀ {F : FTy → Type} [FloatOps F] (pf : pre0.Contents (Elt F)) (i i' : grid0.Coords), (∀ a, reads0_80 a = true → i a = i' a) → cc0_transform_80 k0_off1_inb numel1_S1 pf i = cc0_transform_80 k0_off1_inb numel1_S1 pf i'
  hstage0_81 : ∀ j, (stage0_81 j).IsWhole
  nbuf0_81 : grid0.bufCount reads0_81 false = 2
  hreads0_81 : ∀ {F : FTy → Type} [FloatOps F] (pf : pre0.Contents (Elt F)) (i i' : grid0.Coords), (∀ a, reads0_81 a = true → i a = i' a) → cc0_transform_81 k0_off1_inb numel1_S1 pf i = cc0_transform_81 k0_off1_inb numel1_S1 pf i'
  hstage0_82 : ∀ j, (stage0_82 j).IsWhole
  nbuf0_82 : grid0.bufCount reads0_82 false = 2
  hreads0_82 : ∀ {F : FTy → Type} [FloatOps F] (pf : pre0.Contents (Elt F)) (i i' : grid0.Coords), (∀ a, reads0_82 a = true → i a = i' a) → cc0_transform_82 k0_off1_inb numel1_S1 pf i = cc0_transform_82 k0_off1_inb numel1_S1 pf i'
  hstage0_83 : ∀ j, (stage0_83 j).IsWhole
  nbuf0_83 : grid0.bufCount reads0_83 false = 2
  hreads0_83 : ∀ {F : FTy → Type} [FloatOps F] (pf : pre0.Contents (Elt F)) (i i' : grid0.Coords), (∀ a, reads0_83 a = true → i a = i' a) → cc0_transform_83 k0_off1_inb numel1_S1 pf i = cc0_transform_83 k0_off1_inb numel1_S1 pf i'
  hstage0_84 : ∀ j, (stage0_84 j).IsWhole
  nbuf0_84 : grid0.bufCount reads0_84 false = 2
  hreads0_84 : ∀ {F : FTy → Type} [FloatOps F] (pf : pre0.Contents (Elt F)) (i i' : grid0.Coords), (∀ a, reads0_84 a = true → i a = i' a) → cc0_transform_84 k0_off1_inb numel1_S1 pf i = cc0_transform_84 k0_off1_inb numel1_S1 pf i'
  hstage0_85 : ∀ j, (stage0_85 j).IsWhole
  nbuf0_85 : grid0.bufCount reads0_85 false = 2
  hreads0_85 : ∀ {F : FTy → Type} [FloatOps F] (pf : pre0.Contents (Elt F)) (i i' : grid0.Coords), (∀ a, reads0_85 a = true → i a = i' a) → cc0_transform_85 k0_off1_inb numel1_S1 pf i = cc0_transform_85 k0_off1_inb numel1_S1 pf i'
  hstage0_86 : ∀ j, (stage0_86 j).IsWhole
  nbuf0_86 : grid0.bufCount reads0_86 false = 2
  hreads0_86 : ∀ {F : FTy → Type} [FloatOps F] (pf : pre0.Contents (Elt F)) (i i' : grid0.Coords), (∀ a, reads0_86 a = true → i a = i' a) → cc0_transform_86 k0_off1_inb numel1_S1 pf i = cc0_transform_86 k0_off1_inb numel1_S1 pf i'
  hstage0_87 : ∀ j, (stage0_87 j).IsWhole
  nbuf0_87 : grid0.bufCount reads0_87 false = 2
  hreads0_87 : ∀ {F : FTy → Type} [FloatOps F] (pf : pre0.Contents (Elt F)) (i i' : grid0.Coords), (∀ a, reads0_87 a = true → i a = i' a) → cc0_transform_87 k0_off1_inb numel1_S1 pf i = cc0_transform_87 k0_off1_inb numel1_S1 pf i'
  hstage0_88 : ∀ j, (stage0_88 j).IsWhole
  nbuf0_88 : grid0.bufCount reads0_88 false = 2
  hreads0_88 : ∀ {F : FTy → Type} [FloatOps F] (pf : pre0.Contents (Elt F)) (i i' : grid0.Coords), (∀ a, reads0_88 a = true → i a = i' a) → cc0_transform_88 k0_off1_inb numel1_S1 pf i = cc0_transform_88 k0_off1_inb numel1_S1 pf i'
  hstage0_89 : ∀ j, (stage0_89 j).IsWhole
  nbuf0_89 : grid0.bufCount reads0_89 false = 2
  hreads0_89 : ∀ {F : FTy → Type} [FloatOps F] (pf : pre0.Contents (Elt F)) (i i' : grid0.Coords), (∀ a, reads0_89 a = true → i a = i' a) → cc0_transform_89 k0_off1_inb numel1_S1 pf i = cc0_transform_89 k0_off1_inb numel1_S1 pf i'
  hstage0_90 : ∀ j, (stage0_90 j).IsWhole
  nbuf0_90 : grid0.bufCount reads0_90 false = 2
  hreads0_90 : ∀ {F : FTy → Type} [FloatOps F] (pf : pre0.Contents (Elt F)) (i i' : grid0.Coords), (∀ a, reads0_90 a = true → i a = i' a) → cc0_transform_90 k0_off1_inb numel1_S1 pf i = cc0_transform_90 k0_off1_inb numel1_S1 pf i'
  hstage0_91 : ∀ j, (stage0_91 j).IsWhole
  nbuf0_91 : grid0.bufCount reads0_91 false = 2
  hreads0_91 : ∀ {F : FTy → Type} [FloatOps F] (pf : pre0.Contents (Elt F)) (i i' : grid0.Coords), (∀ a, reads0_91 a = true → i a = i' a) → cc0_transform_91 k0_off1_inb numel1_S1 pf i = cc0_transform_91 k0_off1_inb numel1_S1 pf i'
  hstage0_92 : ∀ j, (stage0_92 j).IsWhole
  nbuf0_92 : grid0.bufCount reads0_92 false = 2
  hreads0_92 : ∀ {F : FTy → Type} [FloatOps F] (pf : pre0.Contents (Elt F)) (i i' : grid0.Coords), (∀ a, reads0_92 a = true → i a = i' a) → cc0_transform_92 k0_off1_inb numel1_S1 pf i = cc0_transform_92 k0_off1_inb numel1_S1 pf i'
  hstage0_93 : ∀ j, (stage0_93 j).IsWhole
  nbuf0_93 : grid0.bufCount reads0_93 false = 2
  hreads0_93 : ∀ {F : FTy → Type} [FloatOps F] (pf : pre0.Contents (Elt F)) (i i' : grid0.Coords), (∀ a, reads0_93 a = true → i a = i' a) → cc0_transform_93 k0_off1_inb numel1_S1 pf i = cc0_transform_93 k0_off1_inb numel1_S1 pf i'
  hstage0_94 : ∀ j, (stage0_94 j).IsWhole
  nbuf0_94 : grid0.bufCount reads0_94 false = 2
  hreads0_94 : ∀ {F : FTy → Type} [FloatOps F] (pf : pre0.Contents (Elt F)) (i i' : grid0.Coords), (∀ a, reads0_94 a = true → i a = i' a) → cc0_transform_94 k0_off1_inb numel1_S1 pf i = cc0_transform_94 k0_off1_inb numel1_S1 pf i'
  hstage0_95 : ∀ j, (stage0_95 j).IsWhole
  nbuf0_95 : grid0.bufCount reads0_95 false = 2
  hreads0_95 : ∀ {F : FTy → Type} [FloatOps F] (pf : pre0.Contents (Elt F)) (i i' : grid0.Coords), (∀ a, reads0_95 a = true → i a = i' a) → cc0_transform_95 k0_off1_inb numel1_S1 pf i = cc0_transform_95 k0_off1_inb numel1_S1 pf i'
  hstage0_96 : ∀ j, (stage0_96 j).IsWhole
  nbuf0_96 : grid0.bufCount reads0_96 true = 1
  hreads0_96 : ∀ i i' : grid0.Coords, (∀ a, reads0_96 a = true → i a = i' a) → cc0_transform_96 i = cc0_transform_96 i'
  hinb0_96 : ∀ (i : grid0.Coords) a, (cc0_transform_96 i a + 1) * S1x1.size a ≤ S1x1.size a
  hwx0_96 : ∀ i : grid0.Coords, EltTy.bits .f32 = 32 ∨ (Rect.block (s := S1x1) S1x1.size (cc0_transform_96 i) (hinb0_96 i)).WholeWords (EltTy.packing .f32)

variable [Facts₀]

abbrev spec0_0 : Pipeline.WinSpec sig grid0.rank :=
  Pipeline.WinSpec.ofSpec (Memref.whole main_v0) S1x1x256.size reads0_0 false false 2 stage0_0 sem0_0 nbuf0_0 hstage0_0

abbrev spec0_1 : Pipeline.WinSpec sig grid0.rank :=
  Pipeline.WinSpec.ofSpec (Memref.whole main_v0) S1x1x256.size reads0_1 false false 2 stage0_1 sem0_1 nbuf0_1 hstage0_1

abbrev spec0_2 : Pipeline.WinSpec sig grid0.rank :=
  Pipeline.WinSpec.ofSpec (Memref.whole main_v0) S1x1x256.size reads0_2 false false 2 stage0_2 sem0_2 nbuf0_2 hstage0_2

abbrev spec0_3 : Pipeline.WinSpec sig grid0.rank :=
  Pipeline.WinSpec.ofSpec (Memref.whole main_v0) S1x1x256.size reads0_3 false false 2 stage0_3 sem0_3 nbuf0_3 hstage0_3

abbrev spec0_4 : Pipeline.WinSpec sig grid0.rank :=
  Pipeline.WinSpec.ofSpec (Memref.whole main_v0) S1x1x256.size reads0_4 false false 2 stage0_4 sem0_4 nbuf0_4 hstage0_4

abbrev spec0_5 : Pipeline.WinSpec sig grid0.rank :=
  Pipeline.WinSpec.ofSpec (Memref.whole main_v0) S1x1x256.size reads0_5 false false 2 stage0_5 sem0_5 nbuf0_5 hstage0_5

abbrev spec0_6 : Pipeline.WinSpec sig grid0.rank :=
  Pipeline.WinSpec.ofSpec (Memref.whole main_v0) S1x1x256.size reads0_6 false false 2 stage0_6 sem0_6 nbuf0_6 hstage0_6

abbrev spec0_7 : Pipeline.WinSpec sig grid0.rank :=
  Pipeline.WinSpec.ofSpec (Memref.whole main_v0) S1x1x256.size reads0_7 false false 2 stage0_7 sem0_7 nbuf0_7 hstage0_7

abbrev spec0_8 : Pipeline.WinSpec sig grid0.rank :=
  Pipeline.WinSpec.ofSpec (Memref.whole main_v0) S1x1x256.size reads0_8 false false 2 stage0_8 sem0_8 nbuf0_8 hstage0_8

abbrev spec0_9 : Pipeline.WinSpec sig grid0.rank :=
  Pipeline.WinSpec.ofSpec (Memref.whole main_v0) S1x1x256.size reads0_9 false false 2 stage0_9 sem0_9 nbuf0_9 hstage0_9

abbrev spec0_10 : Pipeline.WinSpec sig grid0.rank :=
  Pipeline.WinSpec.ofSpec (Memref.whole main_v0) S1x1x256.size reads0_10 false false 2 stage0_10 sem0_10 nbuf0_10 hstage0_10

abbrev spec0_11 : Pipeline.WinSpec sig grid0.rank :=
  Pipeline.WinSpec.ofSpec (Memref.whole main_v0) S1x1x256.size reads0_11 false false 2 stage0_11 sem0_11 nbuf0_11 hstage0_11

abbrev spec0_12 : Pipeline.WinSpec sig grid0.rank :=
  Pipeline.WinSpec.ofSpec (Memref.whole main_v0) S1x1x256.size reads0_12 false false 2 stage0_12 sem0_12 nbuf0_12 hstage0_12

abbrev spec0_13 : Pipeline.WinSpec sig grid0.rank :=
  Pipeline.WinSpec.ofSpec (Memref.whole main_v0) S1x1x256.size reads0_13 false false 2 stage0_13 sem0_13 nbuf0_13 hstage0_13

abbrev spec0_14 : Pipeline.WinSpec sig grid0.rank :=
  Pipeline.WinSpec.ofSpec (Memref.whole main_v0) S1x1x256.size reads0_14 false false 2 stage0_14 sem0_14 nbuf0_14 hstage0_14

abbrev spec0_15 : Pipeline.WinSpec sig grid0.rank :=
  Pipeline.WinSpec.ofSpec (Memref.whole main_v0) S1x1x256.size reads0_15 false false 2 stage0_15 sem0_15 nbuf0_15 hstage0_15

abbrev spec0_16 : Pipeline.WinSpec sig grid0.rank :=
  Pipeline.WinSpec.ofSpec (Memref.whole main_v1) S1x1x256.size reads0_16 false false 2 stage0_16 sem0_16 nbuf0_16 hstage0_16

abbrev spec0_17 : Pipeline.WinSpec sig grid0.rank :=
  Pipeline.WinSpec.ofSpec (Memref.whole main_v1) S1x1x256.size reads0_17 false false 2 stage0_17 sem0_17 nbuf0_17 hstage0_17

abbrev spec0_18 : Pipeline.WinSpec sig grid0.rank :=
  Pipeline.WinSpec.ofSpec (Memref.whole main_v1) S1x1x256.size reads0_18 false false 2 stage0_18 sem0_18 nbuf0_18 hstage0_18

abbrev spec0_19 : Pipeline.WinSpec sig grid0.rank :=
  Pipeline.WinSpec.ofSpec (Memref.whole main_v1) S1x1x256.size reads0_19 false false 2 stage0_19 sem0_19 nbuf0_19 hstage0_19

abbrev spec0_20 : Pipeline.WinSpec sig grid0.rank :=
  Pipeline.WinSpec.ofSpec (Memref.whole main_v1) S1x1x256.size reads0_20 false false 2 stage0_20 sem0_20 nbuf0_20 hstage0_20

abbrev spec0_21 : Pipeline.WinSpec sig grid0.rank :=
  Pipeline.WinSpec.ofSpec (Memref.whole main_v1) S1x1x256.size reads0_21 false false 2 stage0_21 sem0_21 nbuf0_21 hstage0_21

abbrev spec0_22 : Pipeline.WinSpec sig grid0.rank :=
  Pipeline.WinSpec.ofSpec (Memref.whole main_v1) S1x1x256.size reads0_22 false false 2 stage0_22 sem0_22 nbuf0_22 hstage0_22

abbrev spec0_23 : Pipeline.WinSpec sig grid0.rank :=
  Pipeline.WinSpec.ofSpec (Memref.whole main_v1) S1x1x256.size reads0_23 false false 2 stage0_23 sem0_23 nbuf0_23 hstage0_23

abbrev spec0_24 : Pipeline.WinSpec sig grid0.rank :=
  Pipeline.WinSpec.ofSpec (Memref.whole main_v1) S1x1x256.size reads0_24 false false 2 stage0_24 sem0_24 nbuf0_24 hstage0_24

abbrev spec0_25 : Pipeline.WinSpec sig grid0.rank :=
  Pipeline.WinSpec.ofSpec (Memref.whole main_v1) S1x1x256.size reads0_25 false false 2 stage0_25 sem0_25 nbuf0_25 hstage0_25

abbrev spec0_26 : Pipeline.WinSpec sig grid0.rank :=
  Pipeline.WinSpec.ofSpec (Memref.whole main_v1) S1x1x256.size reads0_26 false false 2 stage0_26 sem0_26 nbuf0_26 hstage0_26

abbrev spec0_27 : Pipeline.WinSpec sig grid0.rank :=
  Pipeline.WinSpec.ofSpec (Memref.whole main_v1) S1x1x256.size reads0_27 false false 2 stage0_27 sem0_27 nbuf0_27 hstage0_27

abbrev spec0_28 : Pipeline.WinSpec sig grid0.rank :=
  Pipeline.WinSpec.ofSpec (Memref.whole main_v1) S1x1x256.size reads0_28 false false 2 stage0_28 sem0_28 nbuf0_28 hstage0_28

abbrev spec0_29 : Pipeline.WinSpec sig grid0.rank :=
  Pipeline.WinSpec.ofSpec (Memref.whole main_v1) S1x1x256.size reads0_29 false false 2 stage0_29 sem0_29 nbuf0_29 hstage0_29

abbrev spec0_30 : Pipeline.WinSpec sig grid0.rank :=
  Pipeline.WinSpec.ofSpec (Memref.whole main_v1) S1x1x256.size reads0_30 false false 2 stage0_30 sem0_30 nbuf0_30 hstage0_30

abbrev spec0_31 : Pipeline.WinSpec sig grid0.rank :=
  Pipeline.WinSpec.ofSpec (Memref.whole main_v1) S1x1x256.size reads0_31 false false 2 stage0_31 sem0_31 nbuf0_31 hstage0_31

abbrev spec0_32 : Pipeline.WinSpec sig grid0.rank :=
  Pipeline.WinSpec.ofSpec (Memref.whole main_v0) S1x1x256.size reads0_32 false false 2 stage0_32 sem0_32 nbuf0_32 hstage0_32

abbrev spec0_33 : Pipeline.WinSpec sig grid0.rank :=
  Pipeline.WinSpec.ofSpec (Memref.whole main_v0) S1x1x256.size reads0_33 false false 2 stage0_33 sem0_33 nbuf0_33 hstage0_33

abbrev spec0_34 : Pipeline.WinSpec sig grid0.rank :=
  Pipeline.WinSpec.ofSpec (Memref.whole main_v0) S1x1x256.size reads0_34 false false 2 stage0_34 sem0_34 nbuf0_34 hstage0_34

abbrev spec0_35 : Pipeline.WinSpec sig grid0.rank :=
  Pipeline.WinSpec.ofSpec (Memref.whole main_v0) S1x1x256.size reads0_35 false false 2 stage0_35 sem0_35 nbuf0_35 hstage0_35

abbrev spec0_36 : Pipeline.WinSpec sig grid0.rank :=
  Pipeline.WinSpec.ofSpec (Memref.whole main_v0) S1x1x256.size reads0_36 false false 2 stage0_36 sem0_36 nbuf0_36 hstage0_36

abbrev spec0_37 : Pipeline.WinSpec sig grid0.rank :=
  Pipeline.WinSpec.ofSpec (Memref.whole main_v0) S1x1x256.size reads0_37 false false 2 stage0_37 sem0_37 nbuf0_37 hstage0_37

abbrev spec0_38 : Pipeline.WinSpec sig grid0.rank :=
  Pipeline.WinSpec.ofSpec (Memref.whole main_v0) S1x1x256.size reads0_38 false false 2 stage0_38 sem0_38 nbuf0_38 hstage0_38

abbrev spec0_39 : Pipeline.WinSpec sig grid0.rank :=
  Pipeline.WinSpec.ofSpec (Memref.whole main_v0) S1x1x256.size reads0_39 false false 2 stage0_39 sem0_39 nbuf0_39 hstage0_39

abbrev spec0_40 : Pipeline.WinSpec sig grid0.rank :=
  Pipeline.WinSpec.ofSpec (Memref.whole main_v0) S1x1x256.size reads0_40 false false 2 stage0_40 sem0_40 nbuf0_40 hstage0_40

abbrev spec0_41 : Pipeline.WinSpec sig grid0.rank :=
  Pipeline.WinSpec.ofSpec (Memref.whole main_v0) S1x1x256.size reads0_41 false false 2 stage0_41 sem0_41 nbuf0_41 hstage0_41

abbrev spec0_42 : Pipeline.WinSpec sig grid0.rank :=
  Pipeline.WinSpec.ofSpec (Memref.whole main_v0) S1x1x256.size reads0_42 false false 2 stage0_42 sem0_42 nbuf0_42 hstage0_42

abbrev spec0_43 : Pipeline.WinSpec sig grid0.rank :=
  Pipeline.WinSpec.ofSpec (Memref.whole main_v0) S1x1x256.size reads0_43 false false 2 stage0_43 sem0_43 nbuf0_43 hstage0_43

abbrev spec0_44 : Pipeline.WinSpec sig grid0.rank :=
  Pipeline.WinSpec.ofSpec (Memref.whole main_v0) S1x1x256.size reads0_44 false false 2 stage0_44 sem0_44 nbuf0_44 hstage0_44

abbrev spec0_45 : Pipeline.WinSpec sig grid0.rank :=
  Pipeline.WinSpec.ofSpec (Memref.whole main_v0) S1x1x256.size reads0_45 false false 2 stage0_45 sem0_45 nbuf0_45 hstage0_45

abbrev spec0_46 : Pipeline.WinSpec sig grid0.rank :=
  Pipeline.WinSpec.ofSpec (Memref.whole main_v0) S1x1x256.size reads0_46 false false 2 stage0_46 sem0_46 nbuf0_46 hstage0_46

abbrev spec0_47 : Pipeline.WinSpec sig grid0.rank :=
  Pipeline.WinSpec.ofSpec (Memref.whole main_v0) S1x1x256.size reads0_47 false false 2 stage0_47 sem0_47 nbuf0_47 hstage0_47

abbrev spec0_48 : Pipeline.WinSpec sig grid0.rank :=
  Pipeline.WinSpec.ofSpec (Memref.whole main_v0) S1x1x256.size reads0_48 false false 2 stage0_48 sem0_48 nbuf0_48 hstage0_48

abbrev spec0_49 : Pipeline.WinSpec sig grid0.rank :=
  Pipeline.WinSpec.ofSpec (Memref.whole main_v0) S1x1x256.size reads0_49 false false 2 stage0_49 sem0_49 nbuf0_49 hstage0_49

abbrev spec0_50 : Pipeline.WinSpec sig grid0.rank :=
  Pipeline.WinSpec.ofSpec (Memref.whole main_v0) S1x1x256.size reads0_50 false false 2 stage0_50 sem0_50 nbuf0_50 hstage0_50

abbrev spec0_51 : Pipeline.WinSpec sig grid0.rank :=
  Pipeline.WinSpec.ofSpec (Memref.whole main_v0) S1x1x256.size reads0_51 false false 2 stage0_51 sem0_51 nbuf0_51 hstage0_51

abbrev spec0_52 : Pipeline.WinSpec sig grid0.rank :=
  Pipeline.WinSpec.ofSpec (Memref.whole main_v0) S1x1x256.size reads0_52 false false 2 stage0_52 sem0_52 nbuf0_52 hstage0_52

abbrev spec0_53 : Pipeline.WinSpec sig grid0.rank :=
  Pipeline.WinSpec.ofSpec (Memref.whole main_v0) S1x1x256.size reads0_53 false false 2 stage0_53 sem0_53 nbuf0_53 hstage0_53

abbrev spec0_54 : Pipeline.WinSpec sig grid0.rank :=
  Pipeline.WinSpec.ofSpec (Memref.whole main_v0) S1x1x256.size reads0_54 false false 2 stage0_54 sem0_54 nbuf0_54 hstage0_54

abbrev spec0_55 : Pipeline.WinSpec sig grid0.rank :=
  Pipeline.WinSpec.ofSpec (Memref.whole main_v0) S1x1x256.size reads0_55 false false 2 stage0_55 sem0_55 nbuf0_55 hstage0_55

abbrev spec0_56 : Pipeline.WinSpec sig grid0.rank :=
  Pipeline.WinSpec.ofSpec (Memref.whole main_v0) S1x1x256.size reads0_56 false false 2 stage0_56 sem0_56 nbuf0_56 hstage0_56

abbrev spec0_57 : Pipeline.WinSpec sig grid0.rank :=
  Pipeline.WinSpec.ofSpec (Memref.whole main_v0) S1x1x256.size reads0_57 false false 2 stage0_57 sem0_57 nbuf0_57 hstage0_57

abbrev spec0_58 : Pipeline.WinSpec sig grid0.rank :=
  Pipeline.WinSpec.ofSpec (Memref.whole main_v0) S1x1x256.size reads0_58 false false 2 stage0_58 sem0_58 nbuf0_58 hstage0_58

abbrev spec0_59 : Pipeline.WinSpec sig grid0.rank :=
  Pipeline.WinSpec.ofSpec (Memref.whole main_v0) S1x1x256.size reads0_59 false false 2 stage0_59 sem0_59 nbuf0_59 hstage0_59

abbrev spec0_60 : Pipeline.WinSpec sig grid0.rank :=
  Pipeline.WinSpec.ofSpec (Memref.whole main_v0) S1x1x256.size reads0_60 false false 2 stage0_60 sem0_60 nbuf0_60 hstage0_60

abbrev spec0_61 : Pipeline.WinSpec sig grid0.rank :=
  Pipeline.WinSpec.ofSpec (Memref.whole main_v0) S1x1x256.size reads0_61 false false 2 stage0_61 sem0_61 nbuf0_61 hstage0_61

abbrev spec0_62 : Pipeline.WinSpec sig grid0.rank :=
  Pipeline.WinSpec.ofSpec (Memref.whole main_v0) S1x1x256.size reads0_62 false false 2 stage0_62 sem0_62 nbuf0_62 hstage0_62

abbrev spec0_63 : Pipeline.WinSpec sig grid0.rank :=
  Pipeline.WinSpec.ofSpec (Memref.whole main_v0) S1x1x256.size reads0_63 false false 2 stage0_63 sem0_63 nbuf0_63 hstage0_63

abbrev spec0_64 : Pipeline.WinSpec sig grid0.rank :=
  Pipeline.WinSpec.ofSpec (Memref.whole main_v1) S1x1x256.size reads0_64 false false 2 stage0_64 sem0_64 nbuf0_64 hstage0_64

abbrev spec0_65 : Pipeline.WinSpec sig grid0.rank :=
  Pipeline.WinSpec.ofSpec (Memref.whole main_v1) S1x1x256.size reads0_65 false false 2 stage0_65 sem0_65 nbuf0_65 hstage0_65

abbrev spec0_66 : Pipeline.WinSpec sig grid0.rank :=
  Pipeline.WinSpec.ofSpec (Memref.whole main_v1) S1x1x256.size reads0_66 false false 2 stage0_66 sem0_66 nbuf0_66 hstage0_66

abbrev spec0_67 : Pipeline.WinSpec sig grid0.rank :=
  Pipeline.WinSpec.ofSpec (Memref.whole main_v1) S1x1x256.size reads0_67 false false 2 stage0_67 sem0_67 nbuf0_67 hstage0_67

abbrev spec0_68 : Pipeline.WinSpec sig grid0.rank :=
  Pipeline.WinSpec.ofSpec (Memref.whole main_v1) S1x1x256.size reads0_68 false false 2 stage0_68 sem0_68 nbuf0_68 hstage0_68

abbrev spec0_69 : Pipeline.WinSpec sig grid0.rank :=
  Pipeline.WinSpec.ofSpec (Memref.whole main_v1) S1x1x256.size reads0_69 false false 2 stage0_69 sem0_69 nbuf0_69 hstage0_69

abbrev spec0_70 : Pipeline.WinSpec sig grid0.rank :=
  Pipeline.WinSpec.ofSpec (Memref.whole main_v1) S1x1x256.size reads0_70 false false 2 stage0_70 sem0_70 nbuf0_70 hstage0_70

abbrev spec0_71 : Pipeline.WinSpec sig grid0.rank :=
  Pipeline.WinSpec.ofSpec (Memref.whole main_v1) S1x1x256.size reads0_71 false false 2 stage0_71 sem0_71 nbuf0_71 hstage0_71

abbrev spec0_72 : Pipeline.WinSpec sig grid0.rank :=
  Pipeline.WinSpec.ofSpec (Memref.whole main_v1) S1x1x256.size reads0_72 false false 2 stage0_72 sem0_72 nbuf0_72 hstage0_72

abbrev spec0_73 : Pipeline.WinSpec sig grid0.rank :=
  Pipeline.WinSpec.ofSpec (Memref.whole main_v1) S1x1x256.size reads0_73 false false 2 stage0_73 sem0_73 nbuf0_73 hstage0_73

abbrev spec0_74 : Pipeline.WinSpec sig grid0.rank :=
  Pipeline.WinSpec.ofSpec (Memref.whole main_v1) S1x1x256.size reads0_74 false false 2 stage0_74 sem0_74 nbuf0_74 hstage0_74

abbrev spec0_75 : Pipeline.WinSpec sig grid0.rank :=
  Pipeline.WinSpec.ofSpec (Memref.whole main_v1) S1x1x256.size reads0_75 false false 2 stage0_75 sem0_75 nbuf0_75 hstage0_75

abbrev spec0_76 : Pipeline.WinSpec sig grid0.rank :=
  Pipeline.WinSpec.ofSpec (Memref.whole main_v1) S1x1x256.size reads0_76 false false 2 stage0_76 sem0_76 nbuf0_76 hstage0_76

abbrev spec0_77 : Pipeline.WinSpec sig grid0.rank :=
  Pipeline.WinSpec.ofSpec (Memref.whole main_v1) S1x1x256.size reads0_77 false false 2 stage0_77 sem0_77 nbuf0_77 hstage0_77

abbrev spec0_78 : Pipeline.WinSpec sig grid0.rank :=
  Pipeline.WinSpec.ofSpec (Memref.whole main_v1) S1x1x256.size reads0_78 false false 2 stage0_78 sem0_78 nbuf0_78 hstage0_78

abbrev spec0_79 : Pipeline.WinSpec sig grid0.rank :=
  Pipeline.WinSpec.ofSpec (Memref.whole main_v1) S1x1x256.size reads0_79 false false 2 stage0_79 sem0_79 nbuf0_79 hstage0_79

abbrev spec0_80 : Pipeline.WinSpec sig grid0.rank :=
  Pipeline.WinSpec.ofSpec (Memref.whole main_v0) S1x1x256.size reads0_80 false false 2 stage0_80 sem0_80 nbuf0_80 hstage0_80

abbrev spec0_81 : Pipeline.WinSpec sig grid0.rank :=
  Pipeline.WinSpec.ofSpec (Memref.whole main_v0) S1x1x256.size reads0_81 false false 2 stage0_81 sem0_81 nbuf0_81 hstage0_81

abbrev spec0_82 : Pipeline.WinSpec sig grid0.rank :=
  Pipeline.WinSpec.ofSpec (Memref.whole main_v0) S1x1x256.size reads0_82 false false 2 stage0_82 sem0_82 nbuf0_82 hstage0_82

abbrev spec0_83 : Pipeline.WinSpec sig grid0.rank :=
  Pipeline.WinSpec.ofSpec (Memref.whole main_v0) S1x1x256.size reads0_83 false false 2 stage0_83 sem0_83 nbuf0_83 hstage0_83

abbrev spec0_84 : Pipeline.WinSpec sig grid0.rank :=
  Pipeline.WinSpec.ofSpec (Memref.whole main_v0) S1x1x256.size reads0_84 false false 2 stage0_84 sem0_84 nbuf0_84 hstage0_84

abbrev spec0_85 : Pipeline.WinSpec sig grid0.rank :=
  Pipeline.WinSpec.ofSpec (Memref.whole main_v0) S1x1x256.size reads0_85 false false 2 stage0_85 sem0_85 nbuf0_85 hstage0_85

abbrev spec0_86 : Pipeline.WinSpec sig grid0.rank :=
  Pipeline.WinSpec.ofSpec (Memref.whole main_v0) S1x1x256.size reads0_86 false false 2 stage0_86 sem0_86 nbuf0_86 hstage0_86

abbrev spec0_87 : Pipeline.WinSpec sig grid0.rank :=
  Pipeline.WinSpec.ofSpec (Memref.whole main_v0) S1x1x256.size reads0_87 false false 2 stage0_87 sem0_87 nbuf0_87 hstage0_87

abbrev spec0_88 : Pipeline.WinSpec sig grid0.rank :=
  Pipeline.WinSpec.ofSpec (Memref.whole main_v0) S1x1x256.size reads0_88 false false 2 stage0_88 sem0_88 nbuf0_88 hstage0_88

abbrev spec0_89 : Pipeline.WinSpec sig grid0.rank :=
  Pipeline.WinSpec.ofSpec (Memref.whole main_v0) S1x1x256.size reads0_89 false false 2 stage0_89 sem0_89 nbuf0_89 hstage0_89

abbrev spec0_90 : Pipeline.WinSpec sig grid0.rank :=
  Pipeline.WinSpec.ofSpec (Memref.whole main_v0) S1x1x256.size reads0_90 false false 2 stage0_90 sem0_90 nbuf0_90 hstage0_90

abbrev spec0_91 : Pipeline.WinSpec sig grid0.rank :=
  Pipeline.WinSpec.ofSpec (Memref.whole main_v0) S1x1x256.size reads0_91 false false 2 stage0_91 sem0_91 nbuf0_91 hstage0_91

abbrev spec0_92 : Pipeline.WinSpec sig grid0.rank :=
  Pipeline.WinSpec.ofSpec (Memref.whole main_v0) S1x1x256.size reads0_92 false false 2 stage0_92 sem0_92 nbuf0_92 hstage0_92

abbrev spec0_93 : Pipeline.WinSpec sig grid0.rank :=
  Pipeline.WinSpec.ofSpec (Memref.whole main_v0) S1x1x256.size reads0_93 false false 2 stage0_93 sem0_93 nbuf0_93 hstage0_93

abbrev spec0_94 : Pipeline.WinSpec sig grid0.rank :=
  Pipeline.WinSpec.ofSpec (Memref.whole main_v0) S1x1x256.size reads0_94 false false 2 stage0_94 sem0_94 nbuf0_94 hstage0_94

abbrev spec0_95 : Pipeline.WinSpec sig grid0.rank :=
  Pipeline.WinSpec.ofSpec (Memref.whole main_v0) S1x1x256.size reads0_95 false false 2 stage0_95 sem0_95 nbuf0_95 hstage0_95

abbrev spec0_96 : Pipeline.WinSpec sig grid0.rank :=
  Pipeline.WinSpec.ofSpec (Memref.whole main_v2) S1x1.size reads0_96 true true 1 stage0_96 sem0_96 nbuf0_96 hstage0_96

abbrev spec0 : Fin 97 → Pipeline.WinSpec sig grid0.rank := fun | 0 => spec0_0 | 1 => spec0_1 | 2 => spec0_2 | 3 => spec0_3 | 4 => spec0_4 | 5 => spec0_5 | 6 => spec0_6 | 7 => spec0_7 | 8 => spec0_8 | 9 => spec0_9 | 10 => spec0_10 | 11 => spec0_11 | 12 => spec0_12 | 13 => spec0_13 | 14 => spec0_14 | 15 => spec0_15 | 16 => spec0_16 | 17 => spec0_17 | 18 => spec0_18 | 19 => spec0_19 | 20 => spec0_20 | 21 => spec0_21 | 22 => spec0_22 | 23 => spec0_23 | 24 => spec0_24 | 25 => spec0_25 | 26 => spec0_26 | 27 => spec0_27 | 28 => spec0_28 | 29 => spec0_29 | 30 => spec0_30 | 31 => spec0_31 | 32 => spec0_32 | 33 => spec0_33 | 34 => spec0_34 | 35 => spec0_35 | 36 => spec0_36 | 37 => spec0_37 | 38 => spec0_38 | 39 => spec0_39 | 40 => spec0_40 | 41 => spec0_41 | 42 => spec0_42 | 43 => spec0_43 | 44 => spec0_44 | 45 => spec0_45 | 46 => spec0_46 | 47 => spec0_47 | 48 => spec0_48 | 49 => spec0_49 | 50 => spec0_50 | 51 => spec0_51 | 52 => spec0_52 | 53 => spec0_53 | 54 => spec0_54 | 55 => spec0_55 | 56 => spec0_56 | 57 => spec0_57 | 58 => spec0_58 | 59 => spec0_59 | 60 => spec0_60 | 61 => spec0_61 | 62 => spec0_62 | 63 => spec0_63 | 64 => spec0_64 | 65 => spec0_65 | 66 => spec0_66 | 67 => spec0_67 | 68 => spec0_68 | 69 => spec0_69 | 70 => spec0_70 | 71 => spec0_71 | 72 => spec0_72 | 73 => spec0_73 | 74 => spec0_74 | 75 => spec0_75 | 76 => spec0_76 | 77 => spec0_77 | 78 => spec0_78 | 79 => spec0_79 | 80 => spec0_80 | 81 => spec0_81 | 82 => spec0_82 | 83 => spec0_83 | 84 => spec0_84 | 85 => spec0_85 | 86 => spec0_86 | 87 => spec0_87 | 88 => spec0_88 | 89 => spec0_89 | 90 => spec0_90 | 91 => spec0_91 | 92 => spec0_92 | 93 => spec0_93 | 94 => spec0_94 | 95 => spec0_95 | 96 => spec0_96 | ⟨_ + 97, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | 8 => nbuf0_8 | 9 => nbuf0_9 | 10 => nbuf0_10 | 11 => nbuf0_11 | 12 => nbuf0_12 | 13 => nbuf0_13 | 14 => nbuf0_14 | 15 => nbuf0_15 | 16 => nbuf0_16 | 17 => nbuf0_17 | 18 => nbuf0_18 | 19 => nbuf0_19 | 20 => nbuf0_20 | 21 => nbuf0_21 | 22 => nbuf0_22 | 23 => nbuf0_23 | 24 => nbuf0_24 | 25 => nbuf0_25 | 26 => nbuf0_26 | 27 => nbuf0_27 | 28 => nbuf0_28 | 29 => nbuf0_29 | 30 => nbuf0_30 | 31 => nbuf0_31 | 32 => nbuf0_32 | 33 => nbuf0_33 | 34 => nbuf0_34 | 35 => nbuf0_35 | 36 => nbuf0_36 | 37 => nbuf0_37 | 38 => nbuf0_38 | 39 => nbuf0_39 | 40 => nbuf0_40 | 41 => nbuf0_41 | 42 => nbuf0_42 | 43 => nbuf0_43 | 44 => nbuf0_44 | 45 => nbuf0_45 | 46 => nbuf0_46 | 47 => nbuf0_47 | 48 => nbuf0_48 | 49 => nbuf0_49 | 50 => nbuf0_50 | 51 => nbuf0_51 | 52 => nbuf0_52 | 53 => nbuf0_53 | 54 => nbuf0_54 | 55 => nbuf0_55 | 56 => nbuf0_56 | 57 => nbuf0_57 | 58 => nbuf0_58 | 59 => nbuf0_59 | 60 => nbuf0_60 | 61 => nbuf0_61 | 62 => nbuf0_62 | 63 => nbuf0_63 | 64 => nbuf0_64 | 65 => nbuf0_65 | 66 => nbuf0_66 | 67 => nbuf0_67 | 68 => nbuf0_68 | 69 => nbuf0_69 | 70 => nbuf0_70 | 71 => nbuf0_71 | 72 => nbuf0_72 | 73 => nbuf0_73 | 74 => nbuf0_74 | 75 => nbuf0_75 | 76 => nbuf0_76 | 77 => nbuf0_77 | 78 => nbuf0_78 | 79 => nbuf0_79 | 80 => nbuf0_80 | 81 => nbuf0_81 | 82 => nbuf0_82 | 83 => nbuf0_83 | 84 => nbuf0_84 | 85 => nbuf0_85 | 86 => nbuf0_86 | 87 => nbuf0_87 | 88 => nbuf0_88 | 89 => nbuf0_89 | 90 => nbuf0_90 | 91 => nbuf0_91 | 92 => nbuf0_92 | 93 => nbuf0_93 | 94 => nbuf0_94 | 95 => nbuf0_95 | 96 => nbuf0_96 | ⟨_ + 97, h⟩ => absurd h (Nat.not_lt.2 (Nat.le_add_left _ _))
abbrev ix0 (pf : pre0.Contents (Elt F)) : (w : Fin 97) → grid0.Coords → Fin (spec0 w).shape.rank → Nat := fun | 0 => cc0_transform_0 k0_off1_inb numel1_S1 pf | 1 => cc0_transform_1 k0_off1_inb numel1_S1 pf | 2 => cc0_transform_2 k0_off1_inb numel1_S1 pf | 3 => cc0_transform_3 k0_off1_inb numel1_S1 pf | 4 => cc0_transform_4 k0_off1_inb numel1_S1 pf | 5 => cc0_transform_5 k0_off1_inb numel1_S1 pf | 6 => cc0_transform_6 k0_off1_inb numel1_S1 pf | 7 => cc0_transform_7 k0_off1_inb numel1_S1 pf | 8 => cc0_transform_8 k0_off1_inb numel1_S1 pf | 9 => cc0_transform_9 k0_off1_inb numel1_S1 pf | 10 => cc0_transform_10 k0_off1_inb numel1_S1 pf | 11 => cc0_transform_11 k0_off1_inb numel1_S1 pf | 12 => cc0_transform_12 k0_off1_inb numel1_S1 pf | 13 => cc0_transform_13 k0_off1_inb numel1_S1 pf | 14 => cc0_transform_14 k0_off1_inb numel1_S1 pf | 15 => cc0_transform_15 k0_off1_inb numel1_S1 pf | 16 => cc0_transform_16 k0_off1_inb numel1_S1 pf | 17 => cc0_transform_17 k0_off1_inb numel1_S1 pf | 18 => cc0_transform_18 k0_off1_inb numel1_S1 pf | 19 => cc0_transform_19 k0_off1_inb numel1_S1 pf | 20 => cc0_transform_20 k0_off1_inb numel1_S1 pf | 21 => cc0_transform_21 k0_off1_inb numel1_S1 pf | 22 => cc0_transform_22 k0_off1_inb numel1_S1 pf | 23 => cc0_transform_23 k0_off1_inb numel1_S1 pf | 24 => cc0_transform_24 k0_off1_inb numel1_S1 pf | 25 => cc0_transform_25 k0_off1_inb numel1_S1 pf | 26 => cc0_transform_26 k0_off1_inb numel1_S1 pf | 27 => cc0_transform_27 k0_off1_inb numel1_S1 pf | 28 => cc0_transform_28 k0_off1_inb numel1_S1 pf | 29 => cc0_transform_29 k0_off1_inb numel1_S1 pf | 30 => cc0_transform_30 k0_off1_inb numel1_S1 pf | 31 => cc0_transform_31 k0_off1_inb numel1_S1 pf | 32 => cc0_transform_32 k0_off1_inb numel1_S1 pf | 33 => cc0_transform_33 k0_off1_inb numel1_S1 pf | 34 => cc0_transform_34 k0_off1_inb numel1_S1 pf | 35 => cc0_transform_35 k0_off1_inb numel1_S1 pf | 36 => cc0_transform_36 k0_off1_inb numel1_S1 pf | 37 => cc0_transform_37 k0_off1_inb numel1_S1 pf | 38 => cc0_transform_38 k0_off1_inb numel1_S1 pf | 39 => cc0_transform_39 k0_off1_inb numel1_S1 pf | 40 => cc0_transform_40 k0_off1_inb numel1_S1 pf | 41 => cc0_transform_41 k0_off1_inb numel1_S1 pf | 42 => cc0_transform_42 k0_off1_inb numel1_S1 pf | 43 => cc0_transform_43 k0_off1_inb numel1_S1 pf | 44 => cc0_transform_44 k0_off1_inb numel1_S1 pf | 45 => cc0_transform_45 k0_off1_inb numel1_S1 pf | 46 => cc0_transform_46 k0_off1_inb numel1_S1 pf | 47 => cc0_transform_47 k0_off1_inb numel1_S1 pf | 48 => cc0_transform_48 k0_off1_inb numel1_S1 pf | 49 => cc0_transform_49 k0_off1_inb numel1_S1 pf | 50 => cc0_transform_50 k0_off1_inb numel1_S1 pf | 51 => cc0_transform_51 k0_off1_inb numel1_S1 pf | 52 => cc0_transform_52 k0_off1_inb numel1_S1 pf | 53 => cc0_transform_53 k0_off1_inb numel1_S1 pf | 54 => cc0_transform_54 k0_off1_inb numel1_S1 pf | 55 => cc0_transform_55 k0_off1_inb numel1_S1 pf | 56 => cc0_transform_56 k0_off1_inb numel1_S1 pf | 57 => cc0_transform_57 k0_off1_inb numel1_S1 pf | 58 => cc0_transform_58 k0_off1_inb numel1_S1 pf | 59 => cc0_transform_59 k0_off1_inb numel1_S1 pf | 60 => cc0_transform_60 k0_off1_inb numel1_S1 pf | 61 => cc0_transform_61 k0_off1_inb numel1_S1 pf | 62 => cc0_transform_62 k0_off1_inb numel1_S1 pf | 63 => cc0_transform_63 k0_off1_inb numel1_S1 pf | 64 => cc0_transform_64 k0_off1_inb numel1_S1 pf | 65 => cc0_transform_65 k0_off1_inb numel1_S1 pf | 66 => cc0_transform_66 k0_off1_inb numel1_S1 pf | 67 => cc0_transform_67 k0_off1_inb numel1_S1 pf | 68 => cc0_transform_68 k0_off1_inb numel1_S1 pf | 69 => cc0_transform_69 k0_off1_inb numel1_S1 pf | 70 => cc0_transform_70 k0_off1_inb numel1_S1 pf | 71 => cc0_transform_71 k0_off1_inb numel1_S1 pf | 72 => cc0_transform_72 k0_off1_inb numel1_S1 pf | 73 => cc0_transform_73 k0_off1_inb numel1_S1 pf | 74 => cc0_transform_74 k0_off1_inb numel1_S1 pf | 75 => cc0_transform_75 k0_off1_inb numel1_S1 pf | 76 => cc0_transform_76 k0_off1_inb numel1_S1 pf | 77 => cc0_transform_77 k0_off1_inb numel1_S1 pf | 78 => cc0_transform_78 k0_off1_inb numel1_S1 pf | 79 => cc0_transform_79 k0_off1_inb numel1_S1 pf | 80 => cc0_transform_80 k0_off1_inb numel1_S1 pf | 81 => cc0_transform_81 k0_off1_inb numel1_S1 pf | 82 => cc0_transform_82 k0_off1_inb numel1_S1 pf | 83 => cc0_transform_83 k0_off1_inb numel1_S1 pf | 84 => cc0_transform_84 k0_off1_inb numel1_S1 pf | 85 => cc0_transform_85 k0_off1_inb numel1_S1 pf | 86 => cc0_transform_86 k0_off1_inb numel1_S1 pf | 87 => cc0_transform_87 k0_off1_inb numel1_S1 pf | 88 => cc0_transform_88 k0_off1_inb numel1_S1 pf | 89 => cc0_transform_89 k0_off1_inb numel1_S1 pf | 90 => cc0_transform_90 k0_off1_inb numel1_S1 pf | 91 => cc0_transform_91 k0_off1_inb numel1_S1 pf | 92 => cc0_transform_92 k0_off1_inb numel1_S1 pf | 93 => cc0_transform_93 k0_off1_inb numel1_S1 pf | 94 => cc0_transform_94 k0_off1_inb numel1_S1 pf | 95 => cc0_transform_95 k0_off1_inb numel1_S1 pf | 96 => cc0_transform_96 | ⟨_ + 97, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 pf | 3 => hreads0_3 pf | 4 => hreads0_4 pf | 5 => hreads0_5 pf | 6 => hreads0_6 pf | 7 => hreads0_7 pf | 8 => hreads0_8 pf | 9 => hreads0_9 pf | 10 => hreads0_10 pf | 11 => hreads0_11 pf | 12 => hreads0_12 pf | 13 => hreads0_13 pf | 14 => hreads0_14 pf | 15 => hreads0_15 pf | 16 => hreads0_16 pf | 17 => hreads0_17 pf | 18 => hreads0_18 pf | 19 => hreads0_19 pf | 20 => hreads0_20 pf | 21 => hreads0_21 pf | 22 => hreads0_22 pf | 23 => hreads0_23 pf | 24 => hreads0_24 pf | 25 => hreads0_25 pf | 26 => hreads0_26 pf | 27 => hreads0_27 pf | 28 => hreads0_28 pf | 29 => hreads0_29 pf | 30 => hreads0_30 pf | 31 => hreads0_31 pf | 32 => hreads0_32 pf | 33 => hreads0_33 pf | 34 => hreads0_34 pf | 35 => hreads0_35 pf | 36 => hreads0_36 pf | 37 => hreads0_37 pf | 38 => hreads0_38 pf | 39 => hreads0_39 pf | 40 => hreads0_40 pf | 41 => hreads0_41 pf | 42 => hreads0_42 pf | 43 => hreads0_43 pf | 44 => hreads0_44 pf | 45 => hreads0_45 pf | 46 => hreads0_46 pf | 47 => hreads0_47 pf | 48 => hreads0_48 pf | 49 => hreads0_49 pf | 50 => hreads0_50 pf | 51 => hreads0_51 pf | 52 => hreads0_52 pf | 53 => hreads0_53 pf | 54 => hreads0_54 pf | 55 => hreads0_55 pf | 56 => hreads0_56 pf | 57 => hreads0_57 pf | 58 => hreads0_58 pf | 59 => hreads0_59 pf | 60 => hreads0_60 pf | 61 => hreads0_61 pf | 62 => hreads0_62 pf | 63 => hreads0_63 pf | 64 => hreads0_64 pf | 65 => hreads0_65 pf | 66 => hreads0_66 pf | 67 => hreads0_67 pf | 68 => hreads0_68 pf | 69 => hreads0_69 pf | 70 => hreads0_70 pf | 71 => hreads0_71 pf | 72 => hreads0_72 pf | 73 => hreads0_73 pf | 74 => hreads0_74 pf | 75 => hreads0_75 pf | 76 => hreads0_76 pf | 77 => hreads0_77 pf | 78 => hreads0_78 pf | 79 => hreads0_79 pf | 80 => hreads0_80 pf | 81 => hreads0_81 pf | 82 => hreads0_82 pf | 83 => hreads0_83 pf | 84 => hreads0_84 pf | 85 => hreads0_85 pf | 86 => hreads0_86 pf | 87 => hreads0_87 pf | 88 => hreads0_88 pf | 89 => hreads0_89 pf | 90 => hreads0_90 pf | 91 => hreads0_91 pf | 92 => hreads0_92 pf | 93 => hreads0_93 pf | 94 => hreads0_94 pf | 95 => hreads0_95 pf | 96 => hreads0_96 | ⟨_ + 97, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x256.size a ≤ S500000x1x256.size a), EltTy.bits .f32 = 32 ∨ (Rect.block (s := S500000x1x256) S1x1x256.size (cc0_transform_0 k0_off1_inb numel1_S1 pf i) h).WholeWords (EltTy.packing .f32)) ∧
  (∀ i : grid0.Coords, ∃ h : (∀ a, (cc0_transform_1 k0_off1_inb numel1_S1 pf i a + 1) * S1x1x256.size a ≤ S500000x1x256.size a), EltTy.bits .f32 = 32 ∨ (Rect.block (s := S500000x1x256) S1x1x256.size (cc0_transform_1 k0_off1_inb numel1_S1 pf i) h).WholeWords (EltTy.packing .f32)) ∧
  (∀ i : grid0.Coords, ∃ h : (∀ a, (cc0_transform_2 k0_off1_inb numel1_S1 pf i a + 1) * S1x1x256.size a ≤ S500000x1x256.size a), EltTy.bits .f32 = 32 ∨ (Rect.block (s := S500000x1x256) S1x1x256.size (cc0_transform_2 k0_off1_inb numel1_S1 pf i) h).WholeWords (EltTy.packing .f32)) ∧
  (∀ i : grid0.Coords, ∃ h : (∀ a, (cc0_transform_3 k0_off1_inb numel1_S1 pf i a + 1) * S1x1x256.size a ≤ S500000x1x256.size a), EltTy.bits .f32 = 32 ∨ (Rect.block (s := S500000x1x256) S1x1x256.size (cc0_transform_3 k0_off1_inb numel1_S1 pf i) h).WholeWords (EltTy.packing .f32)) ∧
  (∀ i : grid0.Coords, ∃ h : (∀ a, (cc0_transform_4 k0_off1_inb numel1_S1 pf i a + 1) * S1x1x256.size a ≤ S500000x1x256.size a), EltTy.bits .f32 = 32 ∨ (Rect.block (s := S500000x1x256) S1x1x256.size (cc0_transform_4 k0_off1_inb numel1_S1 pf i) h).WholeWords (EltTy.packing .f32)) ∧
  (∀ i : grid0.Coords, ∃ h : (∀ a, (cc0_transform_5 k0_off1_inb numel1_S1 pf i a + 1) * S1x1x256.size a ≤ S500000x1x256.size a), EltTy.bits .f32 = 32 ∨ (Rect.block (s := S500000x1x256) S1x1x256.size (cc0_transform_5 k0_off1_inb numel1_S1 pf i) h).WholeWords (EltTy.packing .f32)) ∧
  (∀ i : grid0.Coords, ∃ h : (∀ a, (cc0_transform_6 k0_off1_inb numel1_S1 pf i a + 1) * S1x1x256.size a ≤ S500000x1x256.size a), EltTy.bits .f32 = 32 ∨ (Rect.block (s := S500000x1x256) S1x1x256.size (cc0_transform_6 k0_off1_inb numel1_S1 pf i) h).WholeWords (EltTy.packing .f32)) ∧
  (∀ i : grid0.Coords, ∃ h : (∀ a, (cc0_transform_7 k0_off1_inb numel1_S1 pf i a + 1) * S1x1x256.size a ≤ S500000x1x256.size a), EltTy.bits .f32 = 32 ∨ (Rect.block (s := S500000x1x256) S1x1x256.size (cc0_transform_7 k0_off1_inb numel1_S1 pf i) h).WholeWords (EltTy.packing .f32)) ∧
  (∀ i : grid0.Coords, ∃ h : (∀ a, (cc0_transform_8 k0_off1_inb numel1_S1 pf i a + 1) * S1x1x256.size a ≤ S500000x1x256.size a), EltTy.bits .f32 = 32 ∨ (Rect.block (s := S500000x1x256) S1x1x256.size (cc0_transform_8 k0_off1_inb numel1_S1 pf i) h).WholeWords (EltTy.packing .f32)) ∧
  (∀ i : grid0.Coords, ∃ h : (∀ a, (cc0_transform_9 k0_off1_inb numel1_S1 pf i a + 1) * S1x1x256.size a ≤ S500000x1x256.size a), EltTy.bits .f32 = 32 ∨ (Rect.block (s := S500000x1x256) S1x1x256.size (cc0_transform_9 k0_off1_inb numel1_S1 pf i) h).WholeWords (EltTy.packing .f32)) ∧
  (∀ i : grid0.Coords, ∃ h : (∀ a, (cc0_transform_10 k0_off1_inb numel1_S1 pf i a + 1) * S1x1x256.size a ≤ S500000x1x256.size a), EltTy.bits .f32 = 32 ∨ (Rect.block (s := S500000x1x256) S1x1x256.size (cc0_transform_10 k0_off1_inb numel1_S1 pf i) h).WholeWords (EltTy.packing .f32)) ∧
  (∀ i : grid0.Coords, ∃ h : (∀ a, (cc0_transform_11 k0_off1_inb numel1_S1 pf i a + 1) * S1x1x256.size a ≤ S500000x1x256.size a), EltTy.bits .f32 = 32 ∨ (Rect.block (s := S500000x1x256) S1x1x256.size (cc0_transform_11 k0_off1_inb numel1_S1 pf i) h).WholeWords (EltTy.packing .f32)) ∧
  (∀ i : grid0.Coords, ∃ h : (∀ a, (cc0_transform_12 k0_off1_inb numel1_S1 pf i a + 1) * S1x1x256.size a ≤ S500000x1x256.size a), EltTy.bits .f32 = 32 ∨ (Rect.block (s := S500000x1x256) S1x1x256.size (cc0_transform_12 k0_off1_inb numel1_S1 pf i) h).WholeWords (EltTy.packing .f32)) ∧
  (∀ i : grid0.Coords, ∃ h : (∀ a, (cc0_transform_13 k0_off1_inb numel1_S1 pf i a + 1) * S1x1x256.size a ≤ S500000x1x256.size a), EltTy.bits .f32 = 32 ∨ (Rect.block (s := S500000x1x256) S1x1x256.size (cc0_transform_13 k0_off1_inb numel1_S1 pf i) h).WholeWords (EltTy.packing .f32)) ∧
  (∀ i : grid0.Coords, ∃ h : (∀ a, (cc0_transform_14 k0_off1_inb numel1_S1 pf i a + 1) * S1x1x256.size a ≤ S500000x1x256.size a), EltTy.bits .f32 = 32 ∨ (Rect.block (s := S500000x1x256) S1x1x256.size (cc0_transform_14 k0_off1_inb numel1_S1 pf i) h).WholeWords (EltTy.packing .f32)) ∧
  (∀ i : grid0.Coords, ∃ h : (∀ a, (cc0_transform_15 k0_off1_inb numel1_S1 pf i a + 1) * S1x1x256.size a ≤ S500000x1x256.size a), EltTy.bits .f32 = 32 ∨ (Rect.block (s := S500000x1x256) S1x1x256.size (cc0_transform_15 k0_off1_inb numel1_S1 pf i) h).WholeWords (EltTy.packing .f32)) ∧
  (∀ i : grid0.Coords, ∃ h : (∀ a, (cc0_transform_16 k0_off1_inb numel1_S1 pf i a + 1) * S1x1x256.size a ≤ S1000x1x256.size a), EltTy.bits .f32 = 32 ∨ (Rect.block (s := S1000x1x256) S1x1x256.size (cc0_transform_16 k0_off1_inb numel1_S1 pf i) h).WholeWords (EltTy.packing .f32)) ∧
  (∀ i : grid0.Coords, ∃ h : (∀ a, (cc0_transform_17 k0_off1_inb numel1_S1 pf i a + 1) * S1x1x256.size a ≤ S1000x1x256.size a), EltTy.bits .f32 = 32 ∨ (Rect.block (s := S1000x1x256) S1x1x256.size (cc0_transform_17 k0_off1_inb numel1_S1 pf i) h).WholeWords (EltTy.packing .f32)) ∧
  (∀ i : grid0.Coords, ∃ h : (∀ a, (cc0_transform_18 k0_off1_inb numel1_S1 pf i a + 1) * S1x1x256.size a ≤ S1000x1x256.size a), EltTy.bits .f32 = 32 ∨ (Rect.block (s := S1000x1x256) S1x1x256.size (cc0_transform_18 k0_off1_inb numel1_S1 pf i) h).WholeWords (EltTy.packing .f32)) ∧
  (∀ i : grid0.Coords, ∃ h : (∀ a, (cc0_transform_19 k0_off1_inb numel1_S1 pf i a + 1) * S1x1x256.size a ≤ S1000x1x256.size a), EltTy.bits .f32 = 32 ∨ (Rect.block (s := S1000x1x256) S1x1x256.size (cc0_transform_19 k0_off1_inb numel1_S1 pf i) h).WholeWords (EltTy.packing .f32)) ∧
  (∀ i : grid0.Coords, ∃ h : (∀ a, (cc0_transform_20 k0_off1_inb numel1_S1 pf i a + 1) * S1x1x256.size a ≤ S1000x1x256.size a), EltTy.bits .f32 = 32 ∨ (Rect.block (s := S1000x1x256) S1x1x256.size (cc0_transform_20 k0_off1_inb numel1_S1 pf i) h).WholeWords (EltTy.packing .f32)) ∧
  (∀ i : grid0.Coords, ∃ h : (∀ a, (cc0_transform_21 k0_off1_inb numel1_S1 pf i a + 1) * S1x1x256.size a ≤ S1000x1x256.size a), EltTy.bits .f32 = 32 ∨ (Rect.block (s := S1000x1x256) S1x1x256.size (cc0_transform_21 k0_off1_inb numel1_S1 pf i) h).WholeWords (EltTy.packing .f32)) ∧
  (∀ i : grid0.Coords, ∃ h : (∀ a, (cc0_transform_22 k0_off1_inb numel1_S1 pf i a + 1) * S1x1x256.size a ≤ S1000x1x256.size a), EltTy.bits .f32 = 32 ∨ (Rect.block (s := S1000x1x256) S1x1x256.size (cc0_transform_22 k0_off1_inb numel1_S1 pf i) h).WholeWords (EltTy.packing .f32)) ∧
  (∀ i : grid0.Coords, ∃ h : (∀ a, (cc0_transform_23 k0_off1_inb numel1_S1 pf i a + 1) * S1x1x256.size a ≤ S1000x1x256.size a), EltTy.bits .f32 = 32 ∨ (Rect.block (s := S1000x1x256) S1x1x256.size (cc0_transform_23 k0_off1_inb numel1_S1 pf i) h).WholeWords (EltTy.packing .f32)) ∧
  (∀ i : grid0.Coords, ∃ h : (∀ a, (cc0_transform_24 k0_off1_inb numel1_S1 pf i a + 1) * S1x1x256.size a ≤ S1000x1x256.size a), EltTy.bits .f32 = 32 ∨ (Rect.block (s := S1000x1x256) S1x1x256.size (cc0_transform_24 k0_off1_inb numel1_S1 pf i) h).WholeWords (EltTy.packing .f32)) ∧
  (∀ i : grid0.Coords, ∃ h : (∀ a, (cc0_transform_25 k0_off1_inb numel1_S1 pf i a + 1) * S1x1x256.size a ≤ S1000x1x256.size a), EltTy.bits .f32 = 32 ∨ (Rect.block (s := S1000x1x256) S1x1x256.size (cc0_transform_25 k0_off1_inb numel1_S1 pf i) h).WholeWords (EltTy.packing .f32)) ∧
  (∀ i : grid0.Coords, ∃ h : (∀ a, (cc0_transform_26 k0_off1_inb numel1_S1 pf i a + 1) * S1x1x256.size a ≤ S1000x1x256.size a), EltTy.bits .f32 = 32 ∨ (Rect.block (s := S1000x1x256) S1x1x256.size (cc0_transform_26 k0_off1_inb numel1_S1 pf i) h).WholeWords (EltTy.packing .f32)) ∧
  (∀ i : grid0.Coords, ∃ h : (∀ a, (cc0_transform_27 k0_off1_inb numel1_S1 pf i a + 1) * S1x1x256.size a ≤ S1000x1x256.size a), EltTy.bits .f32 = 32 ∨ (Rect.block (s := S1000x1x256) S1x1x256.size (cc0_transform_27 k0_off1_inb numel1_S1 pf i) h).WholeWords (EltTy.packing .f32)) ∧
  (∀ i : grid0.Coords, ∃ h : (∀ a, (cc0_transform_28 k0_off1_inb numel1_S1 pf i a + 1) * S1x1x256.size a ≤ S1000x1x256.size a), EltTy.bits .f32 = 32 ∨ (Rect.block (s := S1000x1x256) S1x1x256.size (cc0_transform_28 k0_off1_inb numel1_S1 pf i) h).WholeWords (EltTy.packing .f32)) ∧
  (∀ i : grid0.Coords, ∃ h : (∀ a, (cc0_transform_29 k0_off1_inb numel1_S1 pf i a + 1) * S1x1x256.size a ≤ S1000x1x256.size a), EltTy.bits .f32 = 32 ∨ (Rect.block (s := S1000x1x256) S1x1x256.size (cc0_transform_29 k0_off1_inb numel1_S1 pf i) h).WholeWords (EltTy.packing .f32)) ∧
  (∀ i : grid0.Coords, ∃ h : (∀ a, (cc0_transform_30 k0_off1_inb numel1_S1 pf i a + 1) * S1x1x256.size a ≤ S1000x1x256.size a), EltTy.bits .f32 = 32 ∨ (Rect.block (s := S1000x1x256) S1x1x256.size (cc0_transform_30 k0_off1_inb numel1_S1 pf i) h).WholeWords (EltTy.packing .f32)) ∧
  (∀ i : grid0.Coords, ∃ h : (∀ a, (cc0_transform_31 k0_off1_inb numel1_S1 pf i a + 1) * S1x1x256.size a ≤ S1000x1x256.size a), EltTy.bits .f32 = 32 ∨ (Rect.block (s := S1000x1x256) S1x1x256.size (cc0_transform_31 k0_off1_inb numel1_S1 pf i) h).WholeWords (EltTy.packing .f32)) ∧
  (∀ i : grid0.Coords, ∃ h : (∀ a, (cc0_transform_32 k0_off1_inb numel1_S1 pf i a + 1) * S1x1x256.size a ≤ S500000x1x256.size a), EltTy.bits .f32 = 32 ∨ (Rect.block (s := S500000x1x256) S1x1x256.size (cc0_transform_32 k0_off1_inb numel1_S1 pf i) h).WholeWords (EltTy.packing .f32)) ∧
  (∀ i : grid0.Coords, ∃ h : (∀ a, (cc0_transform_33 k0_off1_inb numel1_S1 pf i a + 1) * S1x1x256.size a ≤ S500000x1x256.size a), EltTy.bits .f32 = 32 ∨ (Rect.block (s := S500000x1x256) S1x1x256.size (cc0_transform_33 k0_off1_inb numel1_S1 pf i) h).WholeWords (EltTy.packing .f32)) ∧
  (∀ i : grid0.Coords, ∃ h : (∀ a, (cc0_transform_34 k0_off1_inb numel1_S1 pf i a + 1) * S1x1x256.size a ≤ S500000x1x256.size a), EltTy.bits .f32 = 32 ∨ (Rect.block (s := S500000x1x256) S1x1x256.size (cc0_transform_34 k0_off1_inb numel1_S1 pf i) h).WholeWords (EltTy.packing .f32)) ∧
  (∀ i : grid0.Coords, ∃ h : (∀ a, (cc0_transform_35 k0_off1_inb numel1_S1 pf i a + 1) * S1x1x256.size a ≤ S500000x1x256.size a), EltTy.bits .f32 = 32 ∨ (Rect.block (s := S500000x1x256) S1x1x256.size (cc0_transform_35 k0_off1_inb numel1_S1 pf i) h).WholeWords (EltTy.packing .f32)) ∧
  (∀ i : grid0.Coords, ∃ h : (∀ a, (cc0_transform_36 k0_off1_inb numel1_S1 pf i a + 1) * S1x1x256.size a ≤ S500000x1x256.size a), EltTy.bits .f32 = 32 ∨ (Rect.block (s := S500000x1x256) S1x1x256.size (cc0_transform_36 k0_off1_inb numel1_S1 pf i) h).WholeWords (EltTy.packing .f32)) ∧
  (∀ i : grid0.Coords, ∃ h : (∀ a, (cc0_transform_37 k0_off1_inb numel1_S1 pf i a + 1) * S1x1x256.size a ≤ S500000x1x256.size a), EltTy.bits .f32 = 32 ∨ (Rect.block (s := S500000x1x256) S1x1x256.size (cc0_transform_37 k0_off1_inb numel1_S1 pf i) h).WholeWords (EltTy.packing .f32)) ∧
  (∀ i : grid0.Coords, ∃ h : (∀ a, (cc0_transform_38 k0_off1_inb numel1_S1 pf i a + 1) * S1x1x256.size a ≤ S500000x1x256.size a), EltTy.bits .f32 = 32 ∨ (Rect.block (s := S500000x1x256) S1x1x256.size (cc0_transform_38 k0_off1_inb numel1_S1 pf i) h).WholeWords (EltTy.packing .f32)) ∧
  (∀ i : grid0.Coords, ∃ h : (∀ a, (cc0_transform_39 k0_off1_inb numel1_S1 pf i a + 1) * S1x1x256.size a ≤ S500000x1x256.size a), EltTy.bits .f32 = 32 ∨ (Rect.block (s := S500000x1x256) S1x1x256.size (cc0_transform_39 k0_off1_inb numel1_S1 pf i) h).WholeWords (EltTy.packing .f32)) ∧
  (∀ i : grid0.Coords, ∃ h : (∀ a, (cc0_transform_40 k0_off1_inb numel1_S1 pf i a + 1) * S1x1x256.size a ≤ S500000x1x256.size a), EltTy.bits .f32 = 32 ∨ (Rect.block (s := S500000x1x256) S1x1x256.size (cc0_transform_40 k0_off1_inb numel1_S1 pf i) h).WholeWords (EltTy.packing .f32)) ∧
  (∀ i : grid0.Coords, ∃ h : (∀ a, (cc0_transform_41 k0_off1_inb numel1_S1 pf i a + 1) * S1x1x256.size a ≤ S500000x1x256.size a), EltTy.bits .f32 = 32 ∨ (Rect.block (s := S500000x1x256) S1x1x256.size (cc0_transform_41 k0_off1_inb numel1_S1 pf i) h).WholeWords (EltTy.packing .f32)) ∧
  (∀ i : grid0.Coords, ∃ h : (∀ a, (cc0_transform_42 k0_off1_inb numel1_S1 pf i a + 1) * S1x1x256.size a ≤ S500000x1x256.size a), EltTy.bits .f32 = 32 ∨ (Rect.block (s := S500000x1x256) S1x1x256.size (cc0_transform_42 k0_off1_inb numel1_S1 pf i) h).WholeWords (EltTy.packing .f32)) ∧
  (∀ i : grid0.Coords, ∃ h : (∀ a, (cc0_transform_43 k0_off1_inb numel1_S1 pf i a + 1) * S1x1x256.size a ≤ S500000x1x256.size a), EltTy.bits .f32 = 32 ∨ (Rect.block (s := S500000x1x256) S1x1x256.size (cc0_transform_43 k0_off1_inb numel1_S1 pf i) h).WholeWords (EltTy.packing .f32)) ∧
  (∀ i : grid0.Coords, ∃ h : (∀ a, (cc0_transform_44 k0_off1_inb numel1_S1 pf i a + 1) * S1x1x256.size a ≤ S500000x1x256.size a), EltTy.bits .f32 = 32 ∨ (Rect.block (s := S500000x1x256) S1x1x256.size (cc0_transform_44 k0_off1_inb numel1_S1 pf i) h).WholeWords (EltTy.packing .f32)) ∧
  (∀ i : grid0.Coords, ∃ h : (∀ a, (cc0_transform_45 k0_off1_inb numel1_S1 pf i a + 1) * S1x1x256.size a ≤ S500000x1x256.size a), EltTy.bits .f32 = 32 ∨ (Rect.block (s := S500000x1x256) S1x1x256.size (cc0_transform_45 k0_off1_inb numel1_S1 pf i) h).WholeWords (EltTy.packing .f32)) ∧
  (∀ i : grid0.Coords, ∃ h : (∀ a, (cc0_transform_46 k0_off1_inb numel1_S1 pf i a + 1) * S1x1x256.size a ≤ S500000x1x256.size a), EltTy.bits .f32 = 32 ∨ (Rect.block (s := S500000x1x256) S1x1x256.size (cc0_transform_46 k0_off1_inb numel1_S1 pf i) h).WholeWords (EltTy.packing .f32)) ∧
  (∀ i : grid0.Coords, ∃ h : (∀ a, (cc0_transform_47 k0_off1_inb numel1_S1 pf i a + 1) * S1x1x256.size a ≤ S500000x1x256.size a), EltTy.bits .f32 = 32 ∨ (Rect.block (s := S500000x1x256) S1x1x256.size (cc0_transform_47 k0_off1_inb numel1_S1 pf i) h).WholeWords (EltTy.packing .f32)) ∧
  (∀ i : grid0.Coords, ∃ h : (∀ a, (cc0_transform_48 k0_off1_inb numel1_S1 pf i a + 1) * S1x1x256.size a ≤ S500000x1x256.size a), EltTy.bits .f32 = 32 ∨ (Rect.block (s := S500000x1x256) S1x1x256.size (cc0_transform_48 k0_off1_inb numel1_S1 pf i) h).WholeWords (EltTy.packing .f32)) ∧
  (∀ i : grid0.Coords, ∃ h : (∀ a, (cc0_transform_49 k0_off1_inb numel1_S1 pf i a + 1) * S1x1x256.size a ≤ S500000x1x256.size a), EltTy.bits .f32 = 32 ∨ (Rect.block (s := S500000x1x256) S1x1x256.size (cc0_transform_49 k0_off1_inb numel1_S1 pf i) h).WholeWords (EltTy.packing .f32)) ∧
  (∀ i : grid0.Coords, ∃ h : (∀ a, (cc0_transform_50 k0_off1_inb numel1_S1 pf i a + 1) * S1x1x256.size a ≤ S500000x1x256.size a), EltTy.bits .f32 = 32 ∨ (Rect.block (s := S500000x1x256) S1x1x256.size (cc0_transform_50 k0_off1_inb numel1_S1 pf i) h).WholeWords (EltTy.packing .f32)) ∧
  (∀ i : grid0.Coords, ∃ h : (∀ a, (cc0_transform_51 k0_off1_inb numel1_S1 pf i a + 1) * S1x1x256.size a ≤ S500000x1x256.size a), EltTy.bits .f32 = 32 ∨ (Rect.block (s := S500000x1x256) S1x1x256.size (cc0_transform_51 k0_off1_inb numel1_S1 pf i) h).WholeWords (EltTy.packing .f32)) ∧
  (∀ i : grid0.Coords, ∃ h : (∀ a, (cc0_transform_52 k0_off1_inb numel1_S1 pf i a + 1) * S1x1x256.size a ≤ S500000x1x256.size a), EltTy.bits .f32 = 32 ∨ (Rect.block (s := S500000x1x256) S1x1x256.size (cc0_transform_52 k0_off1_inb numel1_S1 pf i) h).WholeWords (EltTy.packing .f32)) ∧
  (∀ i : grid0.Coords, ∃ h : (∀ a, (cc0_transform_53 k0_off1_inb numel1_S1 pf i a + 1) * S1x1x256.size a ≤ S500000x1x256.size a), EltTy.bits .f32 = 32 ∨ (Rect.block (s := S500000x1x256) S1x1x256.size (cc0_transform_53 k0_off1_inb numel1_S1 pf i) h).WholeWords (EltTy.packing .f32)) ∧
  (∀ i : grid0.Coords, ∃ h : (∀ a, (cc0_transform_54 k0_off1_inb numel1_S1 pf i a + 1) * S1x1x256.size a ≤ S500000x1x256.size a), EltTy.bits .f32 = 32 ∨ (Rect.block (s := S500000x1x256) S1x1x256.size (cc0_transform_54 k0_off1_inb numel1_S1 pf i) h).WholeWords (EltTy.packing .f32)) ∧
  (∀ i : grid0.Coords, ∃ h : (∀ a, (cc0_transform_55 k0_off1_inb numel1_S1 pf i a + 1) * S1x1x256.size a ≤ S500000x1x256.size a), EltTy.bits .f32 = 32 ∨ (Rect.block (s := S500000x1x256) S1x1x256.size (cc0_transform_55 k0_off1_inb numel1_S1 pf i) h).WholeWords (EltTy.packing .f32)) ∧
  (∀ i : grid0.Coords, ∃ h : (∀ a, (cc0_transform_56 k0_off1_inb numel1_S1 pf i a + 1) * S1x1x256.size a ≤ S500000x1x256.size a), EltTy.bits .f32 = 32 ∨ (Rect.block (s := S500000x1x256) S1x1x256.size (cc0_transform_56 k0_off1_inb numel1_S1 pf i) h).WholeWords (EltTy.packing .f32)) ∧
  (∀ i : grid0.Coords, ∃ h : (∀ a, (cc0_transform_57 k0_off1_inb numel1_S1 pf i a + 1) * S1x1x256.size a ≤ S500000x1x256.size a), EltTy.bits .f32 = 32 ∨ (Rect.block (s := S500000x1x256) S1x1x256.size (cc0_transform_57 k0_off1_inb numel1_S1 pf i) h).WholeWords (EltTy.packing .f32)) ∧
  (∀ i : grid0.Coords, ∃ h : (∀ a, (cc0_transform_58 k0_off1_inb numel1_S1 pf i a + 1) * S1x1x256.size a ≤ S500000x1x256.size a), EltTy.bits .f32 = 32 ∨ (Rect.block (s := S500000x1x256) S1x1x256.size (cc0_transform_58 k0_off1_inb numel1_S1 pf i) h).WholeWords (EltTy.packing .f32)) ∧
  (∀ i : grid0.Coords, ∃ h : (∀ a, (cc0_transform_59 k0_off1_inb numel1_S1 pf i a + 1) * S1x1x256.size a ≤ S500000x1x256.size a), EltTy.bits .f32 = 32 ∨ (Rect.block (s := S500000x1x256) S1x1x256.size (cc0_transform_59 k0_off1_inb numel1_S1 pf i) h).WholeWords (EltTy.packing .f32)) ∧
  (∀ i : grid0.Coords, ∃ h : (∀ a, (cc0_transform_60 k0_off1_inb numel1_S1 pf i a + 1) * S1x1x256.size a ≤ S500000x1x256.size a), EltTy.bits .f32 = 32 ∨ (Rect.block (s := S500000x1x256) S1x1x256.size (cc0_transform_60 k0_off1_inb numel1_S1 pf i) h).WholeWords (EltTy.packing .f32)) ∧
  (∀ i : grid0.Coords, ∃ h : (∀ a, (cc0_transform_61 k0_off1_inb numel1_S1 pf i a + 1) * S1x1x256.size a ≤ S500000x1x256.size a), EltTy.bits .f32 = 32 ∨ (Rect.block (s := S500000x1x256) S1x1x256.size (cc0_transform_61 k0_off1_inb numel1_S1 pf i) h).WholeWords (EltTy.packing .f32)) ∧
  (∀ i : grid0.Coords, ∃ h : (∀ a, (cc0_transform_62 k0_off1_inb numel1_S1 pf i a + 1) * S1x1x256.size a ≤ S500000x1x256.size a), EltTy.bits .f32 = 32 ∨ (Rect.block (s := S500000x1x256) S1x1x256.size (cc0_transform_62 k0_off1_inb numel1_S1 pf i) h).WholeWords (EltTy.packing .f32)) ∧
  (∀ i : grid0.Coords, ∃ h : (∀ a, (cc0_transform_63 k0_off1_inb numel1_S1 pf i a + 1) * S1x1x256.size a ≤ S500000x1x256.size a), EltTy.bits .f32 = 32 ∨ (Rect.block (s := S500000x1x256) S1x1x256.size (cc0_transform_63 k0_off1_inb numel1_S1 pf i) h).WholeWords (EltTy.packing .f32)) ∧
  (∀ i : grid0.Coords, ∃ h : (∀ a, (cc0_transform_64 k0_off1_inb numel1_S1 pf i a + 1) * S1x1x256.size a ≤ S1000x1x256.size a), EltTy.bits .f32 = 32 ∨ (Rect.block (s := S1000x1x256) S1x1x256.size (cc0_transform_64 k0_off1_inb numel1_S1 pf i) h).WholeWords (EltTy.packing .f32)) ∧
  (∀ i : grid0.Coords, ∃ h : (∀ a, (cc0_transform_65 k0_off1_inb numel1_S1 pf i a + 1) * S1x1x256.size a ≤ S1000x1x256.size a), EltTy.bits .f32 = 32 ∨ (Rect.block (s := S1000x1x256) S1x1x256.size (cc0_transform_65 k0_off1_inb numel1_S1 pf i) h).WholeWords (EltTy.packing .f32)) ∧
  (∀ i : grid0.Coords, ∃ h : (∀ a, (cc0_transform_66 k0_off1_inb numel1_S1 pf i a + 1) * S1x1x256.size a ≤ S1000x1x256.size a), EltTy.bits .f32 = 32 ∨ (Rect.block (s := S1000x1x256) S1x1x256.size (cc0_transform_66 k0_off1_inb numel1_S1 pf i) h).WholeWords (EltTy.packing .f32)) ∧
  (∀ i : grid0.Coords, ∃ h : (∀ a, (cc0_transform_67 k0_off1_inb numel1_S1 pf i a + 1) * S1x1x256.size a ≤ S1000x1x256.size a), EltTy.bits .f32 = 32 ∨ (Rect.block (s := S1000x1x256) S1x1x256.size (cc0_transform_67 k0_off1_inb numel1_S1 pf i) h).WholeWords (EltTy.packing .f32)) ∧
  (∀ i : grid0.Coords, ∃ h : (∀ a, (cc0_transform_68 k0_off1_inb numel1_S1 pf i a + 1) * S1x1x256.size a ≤ S1000x1x256.size a), EltTy.bits .f32 = 32 ∨ (Rect.block (s := S1000x1x256) S1x1x256.size (cc0_transform_68 k0_off1_inb numel1_S1 pf i) h).WholeWords (EltTy.packing .f32)) ∧
  (∀ i : grid0.Coords, ∃ h : (∀ a, (cc0_transform_69 k0_off1_inb numel1_S1 pf i a + 1) * S1x1x256.size a ≤ S1000x1x256.size a), EltTy.bits .f32 = 32 ∨ (Rect.block (s := S1000x1x256) S1x1x256.size (cc0_transform_69 k0_off1_inb numel1_S1 pf i) h).WholeWords (EltTy.packing .f32)) ∧
  (∀ i : grid0.Coords, ∃ h : (∀ a, (cc0_transform_70 k0_off1_inb numel1_S1 pf i a + 1) * S1x1x256.size a ≤ S1000x1x256.size a), EltTy.bits .f32 = 32 ∨ (Rect.block (s := S1000x1x256) S1x1x256.size (cc0_transform_70 k0_off1_inb numel1_S1 pf i) h).WholeWords (EltTy.packing .f32)) ∧
  (∀ i : grid0.Coords, ∃ h : (∀ a, (cc0_transform_71 k0_off1_inb numel1_S1 pf i a + 1) * S1x1x256.size a ≤ S1000x1x256.size a), EltTy.bits .f32 = 32 ∨ (Rect.block (s := S1000x1x256) S1x1x256.size (cc0_transform_71 k0_off1_inb numel1_S1 pf i) h).WholeWords (EltTy.packing .f32)) ∧
  (∀ i : grid0.Coords, ∃ h : (∀ a, (cc0_transform_72 k0_off1_inb numel1_S1 pf i a + 1) * S1x1x256.size a ≤ S1000x1x256.size a), EltTy.bits .f32 = 32 ∨ (Rect.block (s := S1000x1x256) S1x1x256.size (cc0_transform_72 k0_off1_inb numel1_S1 pf i) h).WholeWords (EltTy.packing .f32)) ∧
  (∀ i : grid0.Coords, ∃ h : (∀ a, (cc0_transform_73 k0_off1_inb numel1_S1 pf i a + 1) * S1x1x256.size a ≤ S1000x1x256.size a), EltTy.bits .f32 = 32 ∨ (Rect.block (s := S1000x1x256) S1x1x256.size (cc0_transform_73 k0_off1_inb numel1_S1 pf i) h).WholeWords (EltTy.packing .f32)) ∧
  (∀ i : grid0.Coords, ∃ h : (∀ a, (cc0_transform_74 k0_off1_inb numel1_S1 pf i a + 1) * S1x1x256.size a ≤ S1000x1x256.size a), EltTy.bits .f32 = 32 ∨ (Rect.block (s := S1000x1x256) S1x1x256.size (cc0_transform_74 k0_off1_inb numel1_S1 pf i) h).WholeWords (EltTy.packing .f32)) ∧
  (∀ i : grid0.Coords, ∃ h : (∀ a, (cc0_transform_75 k0_off1_inb numel1_S1 pf i a + 1) * S1x1x256.size a ≤ S1000x1x256.size a), EltTy.bits .f32 = 32 ∨ (Rect.block (s := S1000x1x256) S1x1x256.size (cc0_transform_75 k0_off1_inb numel1_S1 pf i) h).WholeWords (EltTy.packing .f32)) ∧
  (∀ i : grid0.Coords, ∃ h : (∀ a, (cc0_transform_76 k0_off1_inb numel1_S1 pf i a + 1) * S1x1x256.size a ≤ S1000x1x256.size a), EltTy.bits .f32 = 32 ∨ (Rect.block (s := S1000x1x256) S1x1x256.size (cc0_transform_76 k0_off1_inb numel1_S1 pf i) h).WholeWords (EltTy.packing .f32)) ∧
  (∀ i : grid0.Coords, ∃ h : (∀ a, (cc0_transform_77 k0_off1_inb numel1_S1 pf i a + 1) * S1x1x256.size a ≤ S1000x1x256.size a), EltTy.bits .f32 = 32 ∨ (Rect.block (s := S1000x1x256) S1x1x256.size (cc0_transform_77 k0_off1_inb numel1_S1 pf i) h).WholeWords (EltTy.packing .f32)) ∧
  (∀ i : grid0.Coords, ∃ h : (∀ a, (cc0_transform_78 k0_off1_inb numel1_S1 pf i a + 1) * S1x1x256.size a ≤ S1000x1x256.size a), EltTy.bits .f32 = 32 ∨ (Rect.block (s := S1000x1x256) S1x1x256.size (cc0_transform_78 k0_off1_inb numel1_S1 pf i) h).WholeWords (EltTy.packing .f32)) ∧
  (∀ i : grid0.Coords, ∃ h : (∀ a, (cc0_transform_79 k0_off1_inb numel1_S1 pf i a + 1) * S1x1x256.size a ≤ S1000x1x256.size a), EltTy.bits .f32 = 32 ∨ (Rect.block (s := S1000x1x256) S1x1x256.size (cc0_transform_79 k0_off1_inb numel1_S1 pf i) h).WholeWords (EltTy.packing .f32)) ∧
  (∀ i : grid0.Coords, ∃ h : (∀ a, (cc0_transform_80 k0_off1_inb numel1_S1 pf i a + 1) * S1x1x256.size a ≤ S500000x1x256.size a), EltTy.bits .f32 = 32 ∨ (Rect.block (s := S500000x1x256) S1x1x256.size (cc0_transform_80 k0_off1_inb numel1_S1 pf i) h).WholeWords (EltTy.packing .f32)) ∧
  (∀ i : grid0.Coords, ∃ h : (∀ a, (cc0_transform_81 k0_off1_inb numel1_S1 pf i a + 1) * S1x1x256.size a ≤ S500000x1x256.size a), EltTy.bits .f32 = 32 ∨ (Rect.block (s := S500000x1x256) S1x1x256.size (cc0_transform_81 k0_off1_inb numel1_S1 pf i) h).WholeWords (EltTy.packing .f32)) ∧
  (∀ i : grid0.Coords, ∃ h : (∀ a, (cc0_transform_82 k0_off1_inb numel1_S1 pf i a + 1) * S1x1x256.size a ≤ S500000x1x256.size a), EltTy.bits .f32 = 32 ∨ (Rect.block (s := S500000x1x256) S1x1x256.size (cc0_transform_82 k0_off1_inb numel1_S1 pf i) h).WholeWords (EltTy.packing .f32)) ∧
  (∀ i : grid0.Coords, ∃ h : (∀ a, (cc0_transform_83 k0_off1_inb numel1_S1 pf i a + 1) * S1x1x256.size a ≤ S500000x1x256.size a), EltTy.bits .f32 = 32 ∨ (Rect.block (s := S500000x1x256) S1x1x256.size (cc0_transform_83 k0_off1_inb numel1_S1 pf i) h).WholeWords (EltTy.packing .f32)) ∧
  (∀ i : grid0.Coords, ∃ h : (∀ a, (cc0_transform_84 k0_off1_inb numel1_S1 pf i a + 1) * S1x1x256.size a ≤ S500000x1x256.size a), EltTy.bits .f32 = 32 ∨ (Rect.block (s := S500000x1x256) S1x1x256.size (cc0_transform_84 k0_off1_inb numel1_S1 pf i) h).WholeWords (EltTy.packing .f32)) ∧
  (∀ i : grid0.Coords, ∃ h : (∀ a, (cc0_transform_85 k0_off1_inb numel1_S1 pf i a + 1) * S1x1x256.size a ≤ S500000x1x256.size a), EltTy.bits .f32 = 32 ∨ (Rect.block (s := S500000x1x256) S1x1x256.size (cc0_transform_85 k0_off1_inb numel1_S1 pf i) h).WholeWords (EltTy.packing .f32)) ∧
  (∀ i : grid0.Coords, ∃ h : (∀ a, (cc0_transform_86 k0_off1_inb numel1_S1 pf i a + 1) * S1x1x256.size a ≤ S500000x1x256.size a), EltTy.bits .f32 = 32 ∨ (Rect.block (s := S500000x1x256) S1x1x256.size (cc0_transform_86 k0_off1_inb numel1_S1 pf i) h).WholeWords (EltTy.packing .f32)) ∧
  (∀ i : grid0.Coords, ∃ h : (∀ a, (cc0_transform_87 k0_off1_inb numel1_S1 pf i a + 1) * S1x1x256.size a ≤ S500000x1x256.size a), EltTy.bits .f32 = 32 ∨ (Rect.block (s := S500000x1x256) S1x1x256.size (cc0_transform_87 k0_off1_inb numel1_S1 pf i) h).WholeWords (EltTy.packing .f32)) ∧
  (∀ i : grid0.Coords, ∃ h : (∀ a, (cc0_transform_88 k0_off1_inb numel1_S1 pf i a + 1) * S1x1x256.size a ≤ S500000x1x256.size a), EltTy.bits .f32 = 32 ∨ (Rect.block (s := S500000x1x256) S1x1x256.size (cc0_transform_88 k0_off1_inb numel1_S1 pf i) h).WholeWords (EltTy.packing .f32)) ∧
  (∀ i : grid0.Coords, ∃ h : (∀ a, (cc0_transform_89 k0_off1_inb numel1_S1 pf i a + 1) * S1x1x256.size a ≤ S500000x1x256.size a), EltTy.bits .f32 = 32 ∨ (Rect.block (s := S500000x1x256) S1x1x256.size (cc0_transform_89 k0_off1_inb numel1_S1 pf i) h).WholeWords (EltTy.packing .f32)) ∧
  (∀ i : grid0.Coords, ∃ h : (∀ a, (cc0_transform_90 k0_off1_inb numel1_S1 pf i a + 1) * S1x1x256.size a ≤ S500000x1x256.size a), EltTy.bits .f32 = 32 ∨ (Rect.block (s := S500000x1x256) S1x1x256.size (cc0_transform_90 k0_off1_inb numel1_S1 pf i) h).WholeWords (EltTy.packing .f32)) ∧
  (∀ i : grid0.Coords, ∃ h : (∀ a, (cc0_transform_91 k0_off1_inb numel1_S1 pf i a + 1) * S1x1x256.size a ≤ S500000x1x256.size a), EltTy.bits .f32 = 32 ∨ (Rect.block (s := S500000x1x256) S1x1x256.size (cc0_transform_91 k0_off1_inb numel1_S1 pf i) h).WholeWords (EltTy.packing .f32)) ∧
  (∀ i : grid0.Coords, ∃ h : (∀ a, (cc0_transform_92 k0_off1_inb numel1_S1 pf i a + 1) * S1x1x256.size a ≤ S500000x1x256.size a), EltTy.bits .f32 = 32 ∨ (Rect.block (s := S500000x1x256) S1x1x256.size (cc0_transform_92 k0_off1_inb numel1_S1 pf i) h).WholeWords (EltTy.packing .f32)) ∧
  (∀ i : grid0.Coords, ∃ h : (∀ a, (cc0_transform_93 k0_off1_inb numel1_S1 pf i a + 1) * S1x1x256.size a ≤ S500000x1x256.size a), EltTy.bits .f32 = 32 ∨ (Rect.block (s := S500000x1x256) S1x1x256.size (cc0_transform_93 k0_off1_inb numel1_S1 pf i) h).WholeWords (EltTy.packing .f32)) ∧
  (∀ i : grid0.Coords, ∃ h : (∀ a, (cc0_transform_94 k0_off1_inb numel1_S1 pf i a + 1) * S1x1x256.size a ≤ S500000x1x256.size a), EltTy.bits .f32 = 32 ∨ (Rect.block (s := S500000x1x256) S1x1x256.size (cc0_transform_94 k0_off1_inb numel1_S1 pf i) h).WholeWords (EltTy.packing .f32)) ∧
  (∀ i : grid0.Coords, ∃ h : (∀ a, (cc0_transform_95 k0_off1_inb numel1_S1 pf i a + 1) * S1x1x256.size a ≤ S500000x1x256.size a), EltTy.bits .f32 = 32 ∨ (Rect.block (s := S500000x1x256) S1x1x256.size (cc0_transform_95 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2.1 i).elim fun h _ => h a | 4 => fun i a => (hok.2.2.2.2.1 i).elim fun h _ => h a | 5 => fun i a => (hok.2.2.2.2.2.1 i).elim fun h _ => h a | 6 => fun i a => (hok.2.2.2.2.2.2.1 i).elim fun h _ => h a | 7 => fun i a => (hok.2.2.2.2.2.2.2.1 i).elim fun h _ => h a | 8 => fun i a => (hok.2.2.2.2.2.2.2.2.1 i).elim fun h _ => h a | 9 => fun i a => (hok.2.2.2.2.2.2.2.2.2.1 i).elim fun h _ => h a | 10 => fun i a => (hok.2.2.2.2.2.2.2.2.2.2.1 i).elim fun h _ => h a | 11 => fun i a => (hok.2.2.2.2.2.2.2.2.2.2.2.1 i).elim fun h _ => h a | 12 => fun i a => (hok.2.2.2.2.2.2.2.2.2.2.2.2.1 i).elim fun h _ => h a | 13 => fun i a => (hok.2.2.2.2.2.2.2.2.2.2.2.2.2.1 i).elim fun h _ => h a | 14 => fun i a => (hok.2.2.2.2.2.2.2.2.2.2.2.2.2.2.1 i).elim fun h _ => h a | 15 => fun i a => (hok.2.2.2.2.2.2.2.2.2.2.2.2.2.2.2.1 i).elim fun h _ => h a | 16 => fun i a => (hok.2.2.2.2.2.2.2.2.2.2.2.2.2.2.2.2.1 i).elim fun h _ => h a | 17 => fun i a => (hok.2.2.2.2.2.2.2.2.2.2.2.2.2.2.2.2.2.1 i).elim fun h _ => h a | 18 => fun i a => (hok.2.2.2.2.2.2.2.2.2.2.2.2.2.2.2.2.2.2.1 i).elim fun h _ => h a | 19 => fun i a => (hok.2.2.2.2.2.2.2.2.2.2.2.2.2.2.2.2.2.2.2.1 i).elim fun h _ => h a | 20 => fun i a => (hok.2.2.2.2.2.2.2.2.2.2.2.2.2.2.2.2.2.2.2.2.1 i).elim fun h _ => h a | 21 => fun i a => (hok.2.2.2.2.2.2.2.2.2.2.2.2.2.2.2.2.2.2.2.2.2.1 i).elim fun h _ => h a | 22 => fun i a => (hok.2.2.2.2.2.2.2.2.2.2.2.2.2.2.2.2.2.2.2.2.2.2.1 i).elim fun h _ => h a | 23 => fun i a => (hok.2.2.2.2.2.2.2.2.2.2.2.2.2.2.2.2.2.2.2.2.2.2.2.1 i).elim fun h _ => h a | 24 => fun i a => (hok.2.2.2.2.2.2.2.2.2.2.2.2.2.2.2.2.2.2.2.2.2.2.2.2.1 i).elim fun h _ => h a | 25 => fun i a => (hok.2.2.2.2.2.2.2.2.2.2.2.2.2.2.2.2.2.2.2.2.2.2.2.2.2.1 i).elim fun h _ => h a | 26 => fun i a => (hok.2.2.2.2.2.2.2.2.2.2.2.2.2.2.2.2.2.2.2.2.2.2.2.2.2.2.1 i).elim fun h _ => h a | 27 => fun i a => (hok.2.2.2.2.2.2.2.2.2.2.2.2.2.2.2.2.2.2.2.2.2.2.2.2.2.2.2.1 i).elim fun h _ => h a | 28 => fun i a => (hok.2.2.2.2.2.2.2.2.2.2.2.2.2.2.2.2.2.2.2.2.2.2.2.2.2.2.2.2.1 i).elim fun h _ => h a | 29 => fun i a => (hok.2.2.2.2.2.2.2.2.2.2.2.2.2.2.2.2.2.2.2.2.2.2.2.2.2.2.2.2.2.1 i).elim fun h _ => h a | 30 => fun i a => (hok.2.2.2.2.2.2.2.2.2.2.2.2.2.2.2.2.2.2.2.2.2.2.2.2.2.2.2.2.2.2.1 i).elim fun h _ => h a | 31 => fun i a => (hok.2.2.2.2.2.2.2.2.2.2.2.2.2.2.2.2.2.2.2.2.2.2.2.2.2.2.2.2.2.2.2.1 i).elim fun h _ => h a | 32 => fun i a => (hok.2.2.2.2.2.2.2.2.2.2.2.2.2.2.2.2.2.2.2.2.2.2.2.2.2.2.2.2.2.2.2.2.1 i).elim fun h _ => h a | 33 => fun i a => (hok.2.2.2.2.2.2.2.2.2.2.2.2.2.2.2.2.2.2.2.2.2.2.2.2.2.2.2.2.2.2.2.2.2.1 i).elim fun h _ => h a | 34 => fun i a => (hok.2.2.2.2.2.2.2.2.2.2.2.2.2.2.2.2.2.2.2.2.2.2.2.2.2.2.2.2.2.2.2.2.2.2.1 i).elim fun h _ => h a | 35 => fun i a => (hok.2.2.2.2.2.2.2.2.2.2.2.2.2.2.2.2.2.2.2.2.2.2.2.2.2.2.2.2.2.2.2.2.2.2.2.1 i).elim fun h _ => h a | 36 => fun i a => (hok.2.2.2.2.2.2.2.2.2.2.2.2.2.2.2.2.2.2.2.2.2.2.2.2.2.2.2.2.2.2.2.2.2.2.2.2.1 i).elim fun h _ => h a | 37 => fun i a => (hok.2.2.2.2.2.2.2.2.2.2.2.2.2.2.2.2.2.2.2.2.2.2.2.2.2.2.2.2.2.2.2.2.2.2.2.2.2.1 i).elim fun h _ => h a | 38 => fun i a => (hok.2.2.2.2.2.2.2.2.2.2.2.2.2.2.2.2.2.2.2.2.2.2.2.2.2.2.2.2.2.2.2.2.2.2.2.2.2.2.1 i).elim fun h _ => h a | 39 => fun i a => (hok.2.2.2.2.2.2.2.2.2.2.2.2.2.2.2.2.2.2.2.2.2.2.2.2.2.2.2.2.2.2.2.2.2.2.2.2.2.2.2.1 i).elim fun h _ => h a | 40 => fun i a => (hok.2.2.2.2.2.2.2.2.2.2.2.2.2.2.2.2.2.2.2.2.2.2.2.2.2.2.2.2.2.2.2.2.2.2.2.2.2.2.2.2.1 i).elim fun h _ => h a | 41 => fun i a => (hok.2.2.2.2.2.2.2.2.2.2.2.2.2.2.2.2.2.2.2.2.2.2.2.2.2.2.2.2.2.2.2.2.2.2.2.2.2.2.2.2.2.1 i).elim fun h _ => h a | 42 => fun i a => (hok.2.2.2.2.2.2.2.2.2.2.2.2.2.2.2.2.2.2.2.2.2.2.2.2.2.2.2.2.2.2.2.2.2.2.2.2.2.2.2.2.2.2.1 i).elim fun h _ => h a | 43 => fun i a => (hok.2.2.2.2.2.2.2.2.2.2.2.2.2.2.2.2.2.2.2.2.2.2.2.2.2.2.2.2.2.2.2.2.2.2.2.2.2.2.2.2.2.2.2.1 i).elim fun h _ => h a | 44 => fun i a => (hok.2.2.2.2.2.2.2.2.2.2.2.2.2.2.2.2.2.2.2.2.2.2.2.2.2.2.2.2.2.2.2.2.2.2.2.2.2.2.2.2.2.2.2.2.1 i).elim fun h _ => h a | 45 => fun i a => (hok.2.2.2.2.2.2.2.2.2.2.2.2.2.2.2.2.2.2.2.2.2.2.2.2.2.2.2.2.2.2.2.2.2.2.2.2.2.2.2.2.2.2.2.2.2.1 i).elim fun h _ => h a | 46 => fun i a => (hok.2.2.2.2.2.2.2.2.2.2.2.2.2.2.2.2.2.2.2.2.2.2.2.2.2.2.2.2.2.2.2.2.2.2.2.2.2.2.2.2.2.2.2.2.2.2.1 i).elim fun h _ => h a | 47 => fun i a => (hok.2.2.2.2.2.2.2.2.2.2.2.2.2.2.2.2.2.2.2.2.2.2.2.2.2.2.2.2.2.2.2.2.2.2.2.2.2.2.2.2.2.2.2.2.2.2.2.1 i).elim fun h _ => h a | 48 => fun i a => (hok.2.2.2.2.2.2.2.2.2.2.2.2.2.2.2.2.2.2.2.2.2.2.2.2.2.2.2.2.2.2.2.2.2.2.2.2.2.2.2.2.2.2.2.2.2.2.2.2.1 i).elim fun h _ => h a | 49 => fun i a => (hok.2.2.2.2.2.2.2.2.2.2.2.2.2.2.2.2.2.2.2.2.2.2.2.2.2.2.2.2.2.2.2.2.2.2.2.2.2.2.2.2.2.2.2.2.2.2.2.2.2.1 i).elim fun h _ => h a | 50 => fun i a => (hok.2.2.2.2.2.2.2.2.2.2.2.2.2.2.2.2.2.2.2.2.2.2.2.2.2.2.2.2.2.2.2.2.2.2.2.2.2.2.2.2.2.2.2.2.2.2.2.2.2.2.1 i).elim fun h _ => h a | 51 => fun i a => (hok.2.2.2.2.2.2.2.2.2.2.2.2.2.2.2.2.2.2.2.2.2.2.2.2.2.2.2.2.2.2.2.2.2.2.2.2.2.2.2.2.2.2.2.2.2.2.2.2.2.2.2.1 i).elim fun h _ => h a | 52 => fun i a => (hok.2.2.2.2.2.2.2.2.2.2.2.2.2.2.2.2.2.2.2.2.2.2.2.2.2.2.2.2.2.2.2.2.2.2.2.2.2.2.2.2.2.2.2.2.2.2.2.2.2.2.2.2.1 i).elim fun h _ => h a | 53 => fun i a => (hok.2.2.2.2.2.2.2.2.2.2.2.2.2.2.2.2.2.2.2.2.2.2.2.2.2.2.2.2.2.2.2.2.2.2.2.2.2.2.2.2.2.2.2.2.2.2.2.2.2.2.2.2.2.1 i).elim fun h _ => h a | 54 => fun i a => (hok.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 55 => fun i a => (hok.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 56 => fun i a => (hok.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 57 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 58 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 59 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 60 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 61 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 62 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 63 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 64 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 65 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 66 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 67 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 68 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 69 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 70 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 71 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 72 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 73 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 74 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 75 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 76 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 77 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 78 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 79 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 80 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 81 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 82 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 83 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 84 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 85 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 86 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 87 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 88 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 89 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 90 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 91 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 92 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 93 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 94 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun h _ => h a | 95 => fun i a => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2 i).elim fun h _ => h a | 96 => hinb0_96 | ⟨_ + 97, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2.1 i).elim fun _ h => h | 2 => fun i => (hok.2.2.1 i).elim fun _ h => h | 3 => fun i => (hok.2.2.2.1 i).elim fun _ h => h | 4 => fun i => (hok.2.2.2.2.1 i).elim fun _ h => h | 5 => fun i => (hok.2.2.2.2.2.1 i).elim fun _ h => h | 6 => fun i => (hok.2.2.2.2.2.2.1 i).elim fun _ h => h | 7 => fun i => (hok.2.2.2.2.2.2.2.1 i).elim fun _ h => h | 8 => fun i => (hok.2.2.2.2.2.2.2.2.1 i).elim fun _ h => h | 9 => fun i => (hok.2.2.2.2.2.2.2.2.2.1 i).elim fun _ h => h | 10 => fun i => (hok.2.2.2.2.2.2.2.2.2.2.1 i).elim fun _ h => h | 11 => fun i => (hok.2.2.2.2.2.2.2.2.2.2.2.1 i).elim fun _ h => h | 12 => fun i => (hok.2.2.2.2.2.2.2.2.2.2.2.2.1 i).elim fun _ h => h | 13 => fun i => (hok.2.2.2.2.2.2.2.2.2.2.2.2.2.1 i).elim fun _ h => h | 14 => fun i => (hok.2.2.2.2.2.2.2.2.2.2.2.2.2.2.1 i).elim fun _ h => h | 15 => fun i => (hok.2.2.2.2.2.2.2.2.2.2.2.2.2.2.2.1 i).elim fun _ h => h | 16 => fun i => (hok.2.2.2.2.2.2.2.2.2.2.2.2.2.2.2.2.1 i).elim fun _ h => h | 17 => fun i => (hok.2.2.2.2.2.2.2.2.2.2.2.2.2.2.2.2.2.1 i).elim fun _ h => h | 18 => fun i => (hok.2.2.2.2.2.2.2.2.2.2.2.2.2.2.2.2.2.2.1 i).elim fun _ h => h | 19 => fun i => (hok.2.2.2.2.2.2.2.2.2.2.2.2.2.2.2.2.2.2.2.1 i).elim fun _ h => h | 20 => fun i => (hok.2.2.2.2.2.2.2.2.2.2.2.2.2.2.2.2.2.2.2.2.1 i).elim fun _ h => h | 21 => fun i => (hok.2.2.2.2.2.2.2.2.2.2.2.2.2.2.2.2.2.2.2.2.2.1 i).elim fun _ h => h | 22 => fun i => (hok.2.2.2.2.2.2.2.2.2.2.2.2.2.2.2.2.2.2.2.2.2.2.1 i).elim fun _ h => h | 23 => fun i => (hok.2.2.2.2.2.2.2.2.2.2.2.2.2.2.2.2.2.2.2.2.2.2.2.1 i).elim fun _ h => h | 24 => fun i => (hok.2.2.2.2.2.2.2.2.2.2.2.2.2.2.2.2.2.2.2.2.2.2.2.2.1 i).elim fun _ h => h | 25 => fun i => (hok.2.2.2.2.2.2.2.2.2.2.2.2.2.2.2.2.2.2.2.2.2.2.2.2.2.1 i).elim fun _ h => h | 26 => fun i => (hok.2.2.2.2.2.2.2.2.2.2.2.2.2.2.2.2.2.2.2.2.2.2.2.2.2.2.1 i).elim fun _ h => h | 27 => fun i => (hok.2.2.2.2.2.2.2.2.2.2.2.2.2.2.2.2.2.2.2.2.2.2.2.2.2.2.2.1 i).elim fun _ h => h | 28 => fun i => (hok.2.2.2.2.2.2.2.2.2.2.2.2.2.2.2.2.2.2.2.2.2.2.2.2.2.2.2.2.1 i).elim fun _ h => h | 29 => fun i => (hok.2.2.2.2.2.2.2.2.2.2.2.2.2.2.2.2.2.2.2.2.2.2.2.2.2.2.2.2.2.1 i).elim fun _ h => h | 30 => fun i => (hok.2.2.2.2.2.2.2.2.2.2.2.2.2.2.2.2.2.2.2.2.2.2.2.2.2.2.2.2.2.2.1 i).elim fun _ h => h | 31 => fun i => (hok.2.2.2.2.2.2.2.2.2.2.2.2.2.2.2.2.2.2.2.2.2.2.2.2.2.2.2.2.2.2.2.1 i).elim fun _ h => h | 32 => fun i => (hok.2.2.2.2.2.2.2.2.2.2.2.2.2.2.2.2.2.2.2.2.2.2.2.2.2.2.2.2.2.2.2.2.1 i).elim fun _ h => h | 33 => fun i => (hok.2.2.2.2.2.2.2.2.2.2.2.2.2.2.2.2.2.2.2.2.2.2.2.2.2.2.2.2.2.2.2.2.2.1 i).elim fun _ h => h | 34 => fun i => (hok.2.2.2.2.2.2.2.2.2.2.2.2.2.2.2.2.2.2.2.2.2.2.2.2.2.2.2.2.2.2.2.2.2.2.1 i).elim fun _ h => h | 35 => fun i => (hok.2.2.2.2.2.2.2.2.2.2.2.2.2.2.2.2.2.2.2.2.2.2.2.2.2.2.2.2.2.2.2.2.2.2.2.1 i).elim fun _ h => h | 36 => fun i => (hok.2.2.2.2.2.2.2.2.2.2.2.2.2.2.2.2.2.2.2.2.2.2.2.2.2.2.2.2.2.2.2.2.2.2.2.2.1 i).elim fun _ h => h | 37 => fun i => (hok.2.2.2.2.2.2.2.2.2.2.2.2.2.2.2.2.2.2.2.2.2.2.2.2.2.2.2.2.2.2.2.2.2.2.2.2.2.1 i).elim fun _ h => h | 38 => fun i => (hok.2.2.2.2.2.2.2.2.2.2.2.2.2.2.2.2.2.2.2.2.2.2.2.2.2.2.2.2.2.2.2.2.2.2.2.2.2.2.1 i).elim fun _ h => h | 39 => fun i => (hok.2.2.2.2.2.2.2.2.2.2.2.2.2.2.2.2.2.2.2.2.2.2.2.2.2.2.2.2.2.2.2.2.2.2.2.2.2.2.2.1 i).elim fun _ h => h | 40 => fun i => (hok.2.2.2.2.2.2.2.2.2.2.2.2.2.2.2.2.2.2.2.2.2.2.2.2.2.2.2.2.2.2.2.2.2.2.2.2.2.2.2.2.1 i).elim fun _ h => h | 41 => fun i => (hok.2.2.2.2.2.2.2.2.2.2.2.2.2.2.2.2.2.2.2.2.2.2.2.2.2.2.2.2.2.2.2.2.2.2.2.2.2.2.2.2.2.1 i).elim fun _ h => h | 42 => fun i => (hok.2.2.2.2.2.2.2.2.2.2.2.2.2.2.2.2.2.2.2.2.2.2.2.2.2.2.2.2.2.2.2.2.2.2.2.2.2.2.2.2.2.2.1 i).elim fun _ h => h | 43 => fun i => (hok.2.2.2.2.2.2.2.2.2.2.2.2.2.2.2.2.2.2.2.2.2.2.2.2.2.2.2.2.2.2.2.2.2.2.2.2.2.2.2.2.2.2.2.1 i).elim fun _ h => h | 44 => fun i => (hok.2.2.2.2.2.2.2.2.2.2.2.2.2.2.2.2.2.2.2.2.2.2.2.2.2.2.2.2.2.2.2.2.2.2.2.2.2.2.2.2.2.2.2.2.1 i).elim fun _ h => h | 45 => fun i => (hok.2.2.2.2.2.2.2.2.2.2.2.2.2.2.2.2.2.2.2.2.2.2.2.2.2.2.2.2.2.2.2.2.2.2.2.2.2.2.2.2.2.2.2.2.2.1 i).elim fun _ h => h | 46 => fun i => (hok.2.2.2.2.2.2.2.2.2.2.2.2.2.2.2.2.2.2.2.2.2.2.2.2.2.2.2.2.2.2.2.2.2.2.2.2.2.2.2.2.2.2.2.2.2.2.1 i).elim fun _ h => h | 47 => fun i => (hok.2.2.2.2.2.2.2.2.2.2.2.2.2.2.2.2.2.2.2.2.2.2.2.2.2.2.2.2.2.2.2.2.2.2.2.2.2.2.2.2.2.2.2.2.2.2.2.1 i).elim fun _ h => h | 48 => fun i => (hok.2.2.2.2.2.2.2.2.2.2.2.2.2.2.2.2.2.2.2.2.2.2.2.2.2.2.2.2.2.2.2.2.2.2.2.2.2.2.2.2.2.2.2.2.2.2.2.2.1 i).elim fun _ h => h | 49 => fun i => (hok.2.2.2.2.2.2.2.2.2.2.2.2.2.2.2.2.2.2.2.2.2.2.2.2.2.2.2.2.2.2.2.2.2.2.2.2.2.2.2.2.2.2.2.2.2.2.2.2.2.1 i).elim fun _ h => h | 50 => fun i => (hok.2.2.2.2.2.2.2.2.2.2.2.2.2.2.2.2.2.2.2.2.2.2.2.2.2.2.2.2.2.2.2.2.2.2.2.2.2.2.2.2.2.2.2.2.2.2.2.2.2.2.1 i).elim fun _ h => h | 51 => fun i => (hok.2.2.2.2.2.2.2.2.2.2.2.2.2.2.2.2.2.2.2.2.2.2.2.2.2.2.2.2.2.2.2.2.2.2.2.2.2.2.2.2.2.2.2.2.2.2.2.2.2.2.2.1 i).elim fun _ h => h | 52 => fun i => (hok.2.2.2.2.2.2.2.2.2.2.2.2.2.2.2.2.2.2.2.2.2.2.2.2.2.2.2.2.2.2.2.2.2.2.2.2.2.2.2.2.2.2.2.2.2.2.2.2.2.2.2.2.1 i).elim fun _ h => h | 53 => fun i => (hok.2.2.2.2.2.2.2.2.2.2.2.2.2.2.2.2.2.2.2.2.2.2.2.2.2.2.2.2.2.2.2.2.2.2.2.2.2.2.2.2.2.2.2.2.2.2.2.2.2.2.2.2.2.1 i).elim fun _ h => h | 54 => fun i => (hok.2.2.2.2.2.2.2.2.2.2.2.2.2.2.2.2.2.2.2.2.2.2.2.2.2.2.2.2.2.2.2.2.2.2.2.2.2.2.2.2.2.2.2.2.2.2.2.2.2.2.2.2.2.2.1 i).elim fun _ h => h | 55 => fun i => (hok.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 56 => fun i => (hok.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 57 => fun i => (hok.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 58 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 59 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 60 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 61 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 62 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 63 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 64 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 65 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 66 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 67 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 68 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 69 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 70 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 71 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 72 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 73 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 74 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 75 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 76 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 77 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 78 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 79 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 80 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 81 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 82 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 83 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 84 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 85 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 86 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 87 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 88 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 89 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 90 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 91 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 92 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 93 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 94 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.1 i).elim fun _ h => h | 95 => fun i => (hok.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2.2 i).elim fun _ h => h | 96 => hwx0_96 | ⟨_ + 97, h⟩ => absurd h (Nat.not_lt.2 (Nat.le_add_left _ _))
abbrev idle0 : Fin 97 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun _ => false | 26 => fun _ => false | 27 => fun _ => false | 28 => fun _ => false | 29 => fun _ => false | 30 => fun _ => false | 31 => fun _ => false | 32 => fun _ => false | 33 => fun _ => false | 34 => fun _ => false | 35 => fun _ => false | 36 => fun _ => false | 37 => fun _ => false | 38 => fun _ => false | 39 => fun _ => false | 40 => fun _ => false | 41 => fun _ => false | 42 => fun _ => false | 43 => fun _ => false | 44 => fun _ => false | 45 => fun _ => false | 46 => fun _ => false | 47 => fun _ => false | 48 => fun _ => false | 49 => fun _ => false | 50 => fun _ => false | 51 => fun _ => false | 52 => fun _ => false | 53 => fun _ => false | 54 => fun _ => false | 55 => fun _ => false | 56 => fun _ => false | 57 => fun _ => false | 58 => fun _ => false | 59 => fun _ => false | 60 => fun _ => false | 61 => fun _ => false | 62 => fun _ => false | 63 => fun _ => false | 64 => fun _ => false | 65 => fun _ => false | 66 => fun _ => false | 67 => fun _ => false | 68 => fun _ => false | 69 => fun _ => false | 70 => fun _ => false | 71 => fun _ => false | 72 => fun _ => false | 73 => fun _ => false | 74 => fun _ => false | 75 => fun _ => false | 76 => fun _ => false | 77 => fun _ => false | 78 => fun _ => false | 79 => fun _ => false | 80 => fun _ => false | 81 => fun _ => false | 82 => fun _ => false | 83 => fun _ => false | 84 => fun _ => false | 85 => fun _ => false | 86 => fun _ => false | 87 => fun _ => false | 88 => fun _ => false | 89 => fun _ => false | 90 => fun _ => false | 91 => fun _ => false | 92 => fun _ => false | 93 => fun _ => false | 94 => fun _ => false | 95 => fun _ => false | 96 => fun i => !(k0_cond2 i == 1#1) | ⟨_ + 97, h⟩ => absurd h (Nat.not_lt.2 (Nat.le_add_left _ _))

class Facts : Prop extends Facts₀ where
  harr0 : ∀ w, (spec0 w).arr.IsWhole

variable [Facts]
-- ==== ReferenceIdeal.lean ====
abbrev S500000x256 : Shape := ⟨2, ![500000, 256]⟩
abbrev S1000x256 : Shape := ⟨2, ![1000, 256]⟩
abbrev S4096 : Shape := ⟨1, ![4096]⟩
abbrev S_ : Shape := ⟨0, ![]⟩
abbrev S4096x1 : Shape := ⟨2, ![4096, 1]⟩
abbrev S4096x256 : Shape := ⟨2, ![4096, 256]⟩

abbrev nBuf : Space → Nat
  | .hbm => 86
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S1000x256, .f32⟩
  | .hbm, ⟨2, _⟩ => ⟨S4096, .i32⟩
  | .hbm, ⟨3, _⟩ => ⟨S4096, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i32⟩
  | .hbm, ⟨14, _⟩ => ⟨S4096, .i32⟩
  | .hbm, ⟨15, _⟩ => ⟨S4096x1, .i32⟩
  | .hbm, ⟨16, _⟩ => ⟨S4096x256, .f32⟩
  | .hbm, ⟨17, _⟩ => ⟨S_, .i32⟩
  | .hbm, ⟨18, _⟩ => ⟨S4096, .i32⟩
  | .hbm, ⟨19, _⟩ => ⟨S4096, .i1⟩
  | .hbm, ⟨20, _⟩ => ⟨S_, .i32⟩
  | .hbm, ⟨21, _⟩ => ⟨S4096, .i32⟩
  | .hbm, ⟨22, _⟩ => ⟨S4096, .i32⟩
  | .hbm, ⟨23, _⟩ => ⟨S4096, .i32⟩
  | .hbm, ⟨24, _⟩ => ⟨S4096x1, .i32⟩
  | .hbm, ⟨25, _⟩ => ⟨S4096x256, .f32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S4096x256, .f32⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096, .i32⟩
  | .hbm, ⟨42, _⟩ => ⟨S4096x1, .i32⟩
  | .hbm, ⟨43, _⟩ => ⟨S4096x256, .f32⟩
  | .hbm, ⟨44, _⟩ => ⟨S_, .i32⟩
  | .hbm, ⟨45, _⟩ => ⟨S4096, .i32⟩
  | .hbm, ⟨46, _⟩ => ⟨S4096, .i1⟩
  | .hbm, ⟨47, _⟩ => ⟨S_, .i32⟩
  | .hbm, ⟨48, _⟩ => ⟨S4096, .i32⟩
  | .hbm, ⟨49, _⟩ => ⟨S4096, .i32⟩
  | .hbm, ⟨50, _⟩ => ⟨S4096, .i32⟩
  | .hbm, ⟨51, _⟩ => ⟨S4096x1, .i32⟩
  | .hbm, ⟨52, _⟩ => ⟨S4096x256, .f32⟩
  | .hbm, ⟨53, _⟩ => ⟨S_, .i32⟩
  | .hbm, ⟨54, _⟩ => ⟨S4096, .i32⟩
  | .hbm, ⟨55, _⟩ => ⟨S4096, .i1⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S4096, .i32⟩
  | .hbm, ⟨60, _⟩ => ⟨S4096x1, .i32⟩
  | .hbm, ⟨61, _⟩ => ⟨S4096x256, .f32⟩
  | .hbm, ⟨62, _⟩ => ⟨S4096x256, .f32⟩
  | .hbm, ⟨63, _⟩ => ⟨S4096x256, .f32⟩
  | .hbm, ⟨64, _⟩ => ⟨S4096x256, .f32⟩
  | .hbm, ⟨65, _⟩ => ⟨S_, .f32⟩
  | .hbm, ⟨66, _⟩ => ⟨S4096, .f32⟩
  | .hbm, ⟨67, _⟩ => ⟨S4096, .f32⟩
  | .hbm, ⟨68, _⟩ => ⟨S4096x256, .f32⟩
  | .hbm, ⟨69, _⟩ => ⟨S4096x256, .f32⟩
  | .hbm, ⟨70, _⟩ => ⟨S4096x256, .f32⟩
  | .hbm, ⟨71, _⟩ => ⟨S_, .f32⟩
  | .hbm, ⟨72, _⟩ => ⟨S4096, .f32⟩
  | .hbm, ⟨73, _⟩ => ⟨S4096, .f32⟩
  | .hbm, ⟨74, _⟩ => ⟨S_, .f32⟩
  | .hbm, ⟨75, _⟩ => ⟨S4096, .f32⟩
  | .hbm, ⟨76, _⟩ => ⟨S4096, .f32⟩
  | .hbm, ⟨77, _⟩ => ⟨S4096, .f32⟩
  | .hbm, ⟨78, _⟩ => ⟨S_, .f32⟩
  | .hbm, ⟨79, _⟩ => ⟨S4096, .f32⟩
  | .hbm, ⟨80, _⟩ => ⟨S4096, .f32⟩
  | .hbm, ⟨81, _⟩ => ⟨S_, .f32⟩
  | .hbm, ⟨82, _⟩ => ⟨S4096, .f32⟩
  | .hbm, ⟨83, _⟩ => ⟨S4096, .f32⟩
  | .hbm, ⟨84, _⟩ => ⟨S_, .f32⟩
  | .hbm, ⟨85, _⟩ => ⟨S_, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_c_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_c_7 : Ref sig .tc := ⟨.hbm, 44, rfl⟩
abbrev main_v28 : Ref sig .tc := ⟨.hbm, 45, rfl⟩
abbrev main_v29 : Ref sig .tc := ⟨.hbm, 46, rfl⟩
abbrev main_c_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_9 : Ref sig .tc := ⟨.hbm, 53, rfl⟩
abbrev main_v35 : Ref sig .tc := ⟨.hbm, 54, rfl⟩
abbrev main_v36 : Ref sig .tc := ⟨.hbm, 55, rfl⟩
abbrev main_c_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_cst_14 : Ref sig .tc := ⟨.hbm, 81, rfl⟩
abbrev main_v57 : Ref sig .tc := ⟨.hbm, 82, rfl⟩
abbrev main_v58 : Ref sig .tc := ⟨.hbm, 83, rfl⟩
abbrev main_cst_15 : Ref sig .tc := ⟨.hbm, 84, rfl⟩
abbrev main_v59 : Ref sig .tc := ⟨.hbm, 85, rfl⟩

abbrev nD : Nat := 1
abbrev τ : Topo := Topo.v7x

variable {F : FTy → Type} [FloatOps F]

class Facts₀ : Prop where
  bcast_S_S4096 : S_.BroadcastsInDim S4096 (![] : Fin 0 → Fin S4096.rank)
  bcast_S4096_S4096x1_0 : S4096.BroadcastsInDim S4096x1 (![0] : Fin 1 → Fin S4096x1.rank)
  reducesTo_S4096x256_S4096_d1 : S4096x256.ReducesTo [1] S4096
  h_S_ : 0 < S_.numel
  reducesTo_S4096_S_d0 : S4096.ReducesTo [0] S_
  gather_S500000x256_S4096x1_S4096x256_1_0_n_n_0_1_1256_wf : GatherDims.WF S500000x256 S4096x1 S4096x256 [1] [0] [] [0] [] 1 ![1, 256]
  gather_S1000x256_S4096x1_S4096x256_1_0_n_n_0_1_1256_wf : GatherDims.WF S1000x256 S4096x1 S4096x256 [1] [0] [] [0] [] 1 ![1, 256]

variable [Facts₀]

def gather_S500000x256_S4096x1_S4096x256_1_0_n_n_0_1_1256 : GatherDims S500000x256 S4096x1 S4096x256 where
  offsetDims := [1]
  collapsedSliceDims := [0]
  operandBatchingDims := []
  startIndicesBatchingDims := []
  startIndexMap := [0]
  indexVectorDim := 1
  sliceSizes := ![1, 256]
  wf := gather_S500000x256_S4096x1_S4096x256_1_0_n_n_0_1_1256_wf
def gather_S1000x256_S4096x1_S4096x256_1_0_n_n_0_1_1256 : GatherDims S1000x256 S4096x1 S4096x256 where
  offsetDims := [1]
  collapsedSliceDims := [0]
  operandBatchingDims := []
  startIndicesBatchingDims := []
  startIndexMap := [0]
  indexVectorDim := 1
  sliceSizes := ![1, 256]
  wf := gather_S1000x256_S4096x1_S4096x256_1_0_n_n_0_1_1256_wf

class Facts : Prop extends Facts₀ where

variable [Facts]
-- ==== Proof.Setup.lean ====
import proofs.«409637_j57681410785658_2_alg».proof.Defs
import proofs.«409637_j57681410785658_2_alg».proof.Proof.Gen.KernelIdeal
import proofs.«409637_j57681410785658_2_alg».proof.Proof.Gen.KernelIdeal.Skeleton
import proofs.«409637_j57681410785658_2_alg».proof.Proof.Gen.KernelIdeal.Launch
import Idealize.ShloMosaic.Lib.Pipeline.Frame
import Idealize.ShloMosaic.Lib.Pipeline.FrameBody
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

abbrev V₀ (c : Dev nD) : Valuation τ sig (Elt F) := fun b => m ((c : Dev nD), b)

abbrev V (c : Dev nD) (b : Ref sig .tc) : Buf (Elt F) ((c : Thread nD τ).loc b) :=
  StableHlo.after hostOps0 (V₀ m c) b

/-- The six index vectors of a memory. -/
def tbl : pre0.Contents (Elt F) := fun j => m (((0 : Dev nD) : Thread nD τ).loc (pre0.ref j))

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

/-- Window `w`'s block of its array at grid point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

end Cert.KernelIdeal.Hand

end
-- ==== Proof.Tables.lean ====
import proofs.«409637_j57681410785658_2_alg».proof.Proof.Setup
import proofs.«409637_j57681410785658_2_alg».proof.Proof.Gen.Pre_finite_inputs
import Idealize.ShloMosaic.Lib.ReduceAll
import Idealize.ShloMosaic.Lib.Affine

set_option maxRecDepth 16384

noncomputable section

namespace Cert.KernelIdeal.Hand

open Cert.KernelIdeal Cert.KernelIdeal.Gen
open Idealize.ShloMosaic Idealize.ShloMosaic.TcCoe
open Idealize.SL.Sem

variable {F : FTy → Type} [FloatOps F]

structure InRange (w : BitVec 32) (N : Nat) : Prop where
  nonneg : 0 ≤ w.toInt
  lt : w.toInt < (N : Int)

theorem InRange.toNat_lt {w : BitVec 32} {N : Nat} (h : InRange w N) : w.toNat < N := by
  have h0 := h.nonneg
  have h1 := h.lt
  rw [BitVec.toInt_eq_toNat_cond] at h0 h1
  split at h0 <;> omega

theorem InRange.toInt_eq {w : BitVec 32} {N : Nat} (h : InRange w N) : w.toInt = (w.toNat : Int) := by
  have h0 := h.nonneg
  rw [BitVec.toInt_eq_toNat_cond] at h0 ⊢
  split at h0 <;> simp_all <;> omega

instance : Subsingleton Cert.Pre_finite_inputs.S_.Idx := ⟨fun a b => funext fun d => d.elim0⟩

theorem inRange_of_reduce [Cert.Pre_finite_inputs.Facts] (N : Nat) (hN : N < 2 ^ 31)
    (v : IVec Cert.Pre_finite_inputs.S4096 32) (j0 : Cert.Pre_finite_inputs.S_.Idx)
    (h : Host.reduce IntOp.andi
          (andi (cmpi .sge v (broadcastInDim Cert.Pre_finite_inputs.S4096 ![] Cert.Pre_finite_inputs.Facts.bcast_S_S4096
                    (constantI Cert.Pre_finite_inputs.S_ 32 0#32)))
                (cmpi .slt v (broadcastInDim Cert.Pre_finite_inputs.S4096 ![] Cert.Pre_finite_inputs.Facts.bcast_S_S4096
                    (constantI Cert.Pre_finite_inputs.S_ 32 (BitVec.ofNat 32 N)))))
          (constantI Cert.Pre_finite_inputs.S_ 1 1#1) Cert.Pre_finite_inputs.Facts.reducesTo_S4096_S_d0
          Cert.Pre_finite_inputs.Facts.h_S_ j0 = 1#1)
    (x : Cert.Pre_finite_inputs.S4096.Idx) : InRange (v x) N := by
  have e := Host.reduce_andi_all _ _ _ _ j0 h x
  obtain ⟨e1, e2⟩ := IntOp.andi_eq_one.1 e
  have e1' : (0#32).toInt ≤ (v x).toInt := IntOp.cmpi_sge.1 e1
  have e2' : (v x).toInt < (BitVec.ofNat 32 N).toInt := IntOp.cmpi_slt.1 e2
  have hN' : (BitVec.ofNat 32 N).toInt = N := by
    rw [BitVec.toInt_eq_toNat_cond, BitVec.toNat_ofNat]
    have : N % 2 ^ 32 = N := Nat.mod_eq_of_lt (by omega)
    rw [this]; split <;> omega
  exact ⟨by simpa using e1', by rw [hN'] at e2'; exact e2'⟩

theorem range_of_fn [Cert.Pre_finite_inputs.Facts]
    (a0 : FVec F Cert.Pre_finite_inputs.S500000x256 .f32) (a1 : FVec F Cert.Pre_finite_inputs.S1000x256 .f32)
    (a2 a3 a4 a5 a6 a7 : IVec S4096 32)
    (h : Cert.Pre_finite_inputs.fn (F := F) a0 a1 a2 a3 a4 a5 a6 a7 = (fun _ => 1#1)) (x : S4096.Idx) :
    InRange (a2 x) 500000 ∧ InRange (a3 x) 1000 ∧ InRange (a4 x) 500000 ∧
    InRange (a5 x) 500000 ∧ InRange (a6 x) 1000 ∧ InRange (a7 x) 500000 := by
  have j0 : Cert.Pre_finite_inputs.S_.Idx := fun d => d.elim0
  have e := congrFun h j0
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  exact ⟨inRange_of_reduce 500000 (by decide) _ j0 e2 x, inRange_of_reduce 1000 (by decide) _ j0 e3 x,
    inRange_of_reduce 500000 (by decide) _ j0 e4 x, inRange_of_reduce 500000 (by decide) _ j0 e5 x,
    inRange_of_reduce 1000 (by decide) _ j0 e6 x, inRange_of_reduce 500000 (by decide) _ j0 e7 x⟩

variable (m : (ℓ : Loc nD τ sig) → Buf (Elt F) ℓ)

abbrev PreAt [Cert.Pre_finite_inputs.Facts] : Prop :=
  Cert.Pre_finite_inputs.fn (F := F)
    (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3))
    (m (((0 : Dev nD).tc : Thread nD τ).loc main_arg4)) (m (((0 : Dev nD).tc : Thread nD τ).loc main_arg5))
    (m (((0 : Dev nD).tc : Thread nD τ).loc main_arg6)) (m (((0 : Dev nD).tc : Thread nD τ).loc main_arg7))
    = (fun _ => 1#1)

/-- The precondition puts every index word in range of its table. -/
theorem range_of_pre [Cert.Pre_finite_inputs.Facts] (h : PreAt m) (x : S4096.Idx) :
    InRange (tbl m 0 x) 500000 ∧ InRange (tbl m 1 x) 1000 ∧ InRange (tbl m 2 x) 500000 ∧
    InRange (tbl m 3 x) 500000 ∧ InRange (tbl m 4 x) 1000 ∧ InRange (tbl m 5 x) 500000 :=
  range_of_fn _ _ _ _ _ _ _ _ h x

theorem blkE (w : BitVec 32) (hw : w.toNat < 500000) :
    ∃ h : (∀ a, ((![w.toNat, (0#32).toNat, (0#32).toNat] : Fin 3 → Nat) a + 1) * S1x1x256.size a ≤ S500000x1x256.size a),
      EltTy.bits .f32 = 32 ∨ (Rect.block (s := S500000x1x256) S1x1x256.size ![w.toNat, (0#32).toNat, (0#32).toNat] h).WholeWords (EltTy.packing .f32) := by
  refine ⟨fun a => ?_, .inl rfl⟩
  fin_cases a
  · show (w.toNat + 1) * 1 ≤ 500000
    omega
  · show (0 + 1) * 1 ≤ 1
    omega
  · show (0 + 1) * 256 ≤ 256
    omega

theorem blkR (w : BitVec 32) (hw : w.toNat < 1000) :
    ∃ h : (∀ a, ((![w.toNat, (0#32).toNat, (0#32).toNat] : Fin 3 → Nat) a + 1) * S1x1x256.size a ≤ S1000x1x256.size a),
      EltTy.bits .f32 = 32 ∨ (Rect.block (s := S1000x1x256) S1x1x256.size ![w.toNat, (0#32).toNat, (0#32).toNat] h).WholeWords (EltTy.packing .f32) := by
  refine ⟨fun a => ?_, .inl rfl⟩
  fin_cases a
  · show (w.toNat + 1) * 1 ≤ 1000
    omega
  · show (0 + 1) * 1 ≤ 1
    omega
  · show (0 + 1) * 256 ≤ 256
    omega

theorem ok0_of_range (pf : pre0.Contents (Elt F))
    (h0 : ∀ x : S4096.Idx, (pf 0 x).toNat < 500000) (h1 : ∀ x : S4096.Idx, (pf 1 x).toNat < 1000)
    (h2 : ∀ x : S4096.Idx, (pf 2 x).toNat < 500000) (h3 : ∀ x : S4096.Idx, (pf 3 x).toNat < 500000)
    (h4 : ∀ x : S4096.Idx, (pf 4 x).toNat < 1000) (h5 : ∀ x : S4096.Idx, (pf 5 x).toNat < 500000) : ok0 pf := by
  unfold ok0
  repeat' apply And.intro
  all_goals
    intro i
    first
      | exact blkE _ (h0 _)
      | exact blkR _ (h1 _)
      | exact blkE _ (h2 _)
      | exact blkE _ (h3 _)
      | exact blkR _ (h4 _)
      | exact blkE _ (h5 _)

/-- A word in range names a row block that lies inside its table. -/
theorem ok_of_pre [Cert.Pre_finite_inputs.Facts] (h : PreAt m) : Ok m :=
  ok0_of_range (tbl m)
    (fun x => (range_of_pre m h x).1.toNat_lt) (fun x => (range_of_pre m h x).2.1.toNat_lt)
    (fun x => (range_of_pre m h x).2.2.1.toNat_lt) (fun x => (range_of_pre m h x).2.2.2.1.toNat_lt)
    (fun x => (range_of_pre m h x).2.2.2.2.1.toNat_lt) (fun x => (range_of_pre m h x).2.2.2.2.2.toNat_lt)

end Cert.KernelIdeal.Hand

end
-- ==== Proof.SetupBits.lean ====
import proofs.«409637_j57681410785658_2_alg».proof.Defs
import proofs.«409637_j57681410785658_2_alg».proof.Proof.Gen.Kernel
import proofs.«409637_j57681410785658_2_alg».proof.Proof.Gen.Kernel.Skeleton
import proofs.«409637_j57681410785658_2_alg».proof.Proof.Gen.Kernel.Launch
import Idealize.ShloMosaic.Lib.Pipeline.Frame
import Idealize.ShloMosaic.Lib.Pipeline.FrameBody
import Idealize.ShloMosaic.Lib.Pipeline.Regions

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

abbrev V₀ (c : Dev nD) : Valuation τ sig (Elt F) := fun b => m ((c : Dev nD), b)

abbrev V (c : Dev nD) (b : Ref sig .tc) : Buf (Elt F) ((c : Thread nD τ).loc b) :=
  StableHlo.after hostOps0 (V₀ m c) b

/-- The six index vectors of a memory. -/
def tbl : pre0.Contents (Elt F) := fun j => m (((0 : Dev nD) : Thread nD τ).loc (pre0.ref j))

abbrev Ok : Prop := ok0 (F := F) (tbl m)

abbrev adm (hO : Ok m) : (pcfg0 (F := F)).Adm := ⟨tbl m, hO⟩
abbrev cfgM (hO : Ok m) : Pipeline.Cfg sig Λ₀ := cfg0 (adm m hO)

/-- Window `w`'s block of its array at grid point `t`. -/
def iblk (hO : Ok m) (c : Dev nD) (w : Fin (cfgM m hO).W) (t : Fin (cfgM m hO).N) :
    (((cfgM m hO).win w).xblock ((cfgM m hO).grid.coords t)).Idx → Elt F ((cfgM m hO).win w).elt :=
  (((cfgM m hO).win w).blk t).view.read (Elt F) (V m c (Pipeline.arrRef spec0 w))

end Cert.Kernel.Hand

end
-- ==== Proof.TablesBits.lean ====
import proofs.«409637_j57681410785658_2_alg».proof.Proof.SetupBits
import proofs.«409637_j57681410785658_2_alg».proof.Proof.Gen.Pre_finite_inputs
import Idealize.ShloMosaic.Lib.ReduceAll
import Idealize.ShloMosaic.Lib.Affine

set_option maxRecDepth 16384

noncomputable section

namespace Cert.Kernel.Hand

open Cert.Kernel Cert.Kernel.Gen
open Idealize.ShloMosaic Idealize.ShloMosaic.TcCoe
open Idealize.SL.Sem

variable {F : FTy → Type} [FloatOps F]

structure InRange (w : BitVec 32) (N : Nat) : Prop where
  nonneg : 0 ≤ w.toInt
  lt : w.toInt < (N : Int)

theorem InRange.toNat_lt {w : BitVec 32} {N : Nat} (h : InRange w N) : w.toNat < N := by
  have h0 := h.nonneg
  have h1 := h.lt
  rw [BitVec.toInt_eq_toNat_cond] at h0 h1
  split at h0 <;> omega

theorem InRange.toInt_eq {w : BitVec 32} {N : Nat} (h : InRange w N) : w.toInt = (w.toNat : Int) := by
  have h0 := h.nonneg
  rw [BitVec.toInt_eq_toNat_cond] at h0 ⊢
  split at h0 <;> simp_all <;> omega

instance : Subsingleton Cert.Pre_finite_inputs.S_.Idx := ⟨fun a b => funext fun d => d.elim0⟩

theorem inRange_of_reduce [Cert.Pre_finite_inputs.Facts] (N : Nat) (hN : N < 2 ^ 31)
    (v : IVec Cert.Pre_finite_inputs.S4096 32) (j0 : Cert.Pre_finite_inputs.S_.Idx)
    (h : Host.reduce IntOp.andi
          (andi (cmpi .sge v (broadcastInDim Cert.Pre_finite_inputs.S4096 ![] Cert.Pre_finite_inputs.Facts.bcast_S_S4096
                    (constantI Cert.Pre_finite_inputs.S_ 32 0#32)))
                (cmpi .slt v (broadcastInDim Cert.Pre_finite_inputs.S4096 ![] Cert.Pre_finite_inputs.Facts.bcast_S_S4096
                    (constantI Cert.Pre_finite_inputs.S_ 32 (BitVec.ofNat 32 N)))))
          (constantI Cert.Pre_finite_inputs.S_ 1 1#1) Cert.Pre_finite_inputs.Facts.reducesTo_S4096_S_d0
          Cert.Pre_finite_inputs.Facts.h_S_ j0 = 1#1)
    (x : Cert.Pre_finite_inputs.S4096.Idx) : InRange (v x) N := by
  have e := Host.reduce_andi_all _ _ _ _ j0 h x
  obtain ⟨e1, e2⟩ := IntOp.andi_eq_one.1 e
  have e1' : (0#32).toInt ≤ (v x).toInt := IntOp.cmpi_sge.1 e1
  have e2' : (v x).toInt < (BitVec.ofNat 32 N).toInt := IntOp.cmpi_slt.1 e2
  have hN' : (BitVec.ofNat 32 N).toInt = N := by
    rw [BitVec.toInt_eq_toNat_cond, BitVec.toNat_ofNat]
    have : N % 2 ^ 32 = N := Nat.mod_eq_of_lt (by omega)
    rw [this]; split <;> omega
  exact ⟨by simpa using e1', by rw [hN'] at e2'; exact e2'⟩

theorem range_of_fn [Cert.Pre_finite_inputs.Facts]
    (a0 : FVec F Cert.Pre_finite_inputs.S500000x256 .f32) (a1 : FVec F Cert.Pre_finite_inputs.S1000x256 .f32)
    (a2 a3 a4 a5 a6 a7 : IVec S4096 32)
    (h : Cert.Pre_finite_inputs.fn (F := F) a0 a1 a2 a3 a4 a5 a6 a7 = (fun _ => 1#1)) (x : S4096.Idx) :
    InRange (a2 x) 500000 ∧ InRange (a3 x) 1000 ∧ InRange (a4 x) 500000 ∧
    InRange (a5 x) 500000 ∧ InRange (a6 x) 1000 ∧ InRange (a7 x) 500000 := by
  have j0 : Cert.Pre_finite_inputs.S_.Idx := fun d => d.elim0
  have e := congrFun h j0
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  exact ⟨inRange_of_reduce 500000 (by decide) _ j0 e2 x, inRange_of_reduce 1000 (by decide) _ j0 e3 x,
    inRange_of_reduce 500000 (by decide) _ j0 e4 x, inRange_of_reduce 500000 (by decide) _ j0 e5 x,
    inRange_of_reduce 1000 (by decide) _ j0 e6 x, inRange_of_reduce 500000 (by decide) _ j0 e7 x⟩

variable (m : (ℓ : Loc nD τ sig) → Buf (Elt F) ℓ)

abbrev PreAt [Cert.Pre_finite_inputs.Facts] : Prop :=
  Cert.Pre_finite_inputs.fn (F := F)
    (m (((0 : Dev nD).tc : Thread nD τ).loc main_arg0)) (m (((0 : Dev nD).tc : Thread nD τ).loc main_arg1))
    (m (((0 : Dev nD).tc : Thread nD τ).loc main_arg2)) (m (((0 : Dev nD).tc : Thread nD τ).loc main_arg3))
    (m (((0 : Dev nD).tc : Thread nD τ).loc main_arg4)) (m (((0 : Dev nD).tc : Thread nD τ).loc main_arg5))
    (m (((0 : Dev nD).tc : Thread nD τ).loc main_arg6)) (m (((0 : Dev nD).tc : Thread nD τ).loc main_arg7))
    = (fun _ => 1#1)

/-- The precondition puts every index word in range of its table. -/
theorem range_of_pre [Cert.Pre_finite_inputs.Facts] (h : PreAt m) (x : S4096.Idx) :
    InRange (tbl m 0 x) 500000 ∧ InRange (tbl m 1 x) 1000 ∧ InRange (tbl m 2 x) 500000 ∧
    InRange (tbl m 3 x) 500000 ∧ InRange (tbl m 4 x) 1000 ∧ InRange (tbl m 5 x) 500000 :=
  range_of_fn _ _ _ _ _ _ _ _ h x

theorem blkE (w : BitVec 32) (hw : w.toNat < 500000) :
    ∃ h : (∀ a, ((![w.toNat, (0#32).toNat, (0#32).toNat] : Fin 3 → Nat) a + 1) * S1x1x256.size a ≤ S500000x1x256.size a),
      EltTy.bits .f32 = 32 ∨ (Rect.block (s := S500000x1x256) S1x1x256.size ![w.toNat, (0#32).toNat, (0#32).toNat] h).WholeWords (EltTy.packing .f32) := by
  refine ⟨fun a => ?_, .inl rfl⟩
  fin_cases a
  · show (w.toNat + 1) * 1 ≤ 500000
    omega
  · show (0 + 1) * 1 ≤ 1
    omega
  · show (0 + 1) * 256 ≤ 256
    omega

theorem blkR (w : BitVec 32) (hw : w.toNat < 1000) :
    ∃ h : (∀ a, ((![w.toNat, (0#32).toNat, (0#32).toNat] : Fin 3 → Nat) a + 1) * S1x1x256.size a ≤ S1000x1x256.size a),
      EltTy.bits .f32 = 32 ∨ (Rect.block (s := S1000x1x256) S1x1x256.size ![w.toNat, (0#32).toNat, (0#32).toNat] h).WholeWords (EltTy.packing .f32) := by
  refine ⟨fun a => ?_, .inl rfl⟩
  fin_cases a
  · show (w.toNat + 1) * 1 ≤ 1000
    omega
  · show (0 + 1) * 1 ≤ 1
    omega
  · show (0 + 1) * 256 ≤ 256
    omega

theorem ok0_of_range (pf : pre0.Contents (Elt F))
    (h0 : ∀ x : S4096.Idx, (pf 0 x).toNat < 500000) (h1 : ∀ x : S4096.Idx, (pf 1 x).toNat < 1000)
    (h2 : ∀ x : S4096.Idx, (pf 2 x).toNat < 500000) (h3 : ∀ x : S4096.Idx, (pf 3 x).toNat < 500000)
    (h4 : ∀ x : S4096.Idx, (pf 4 x).toNat < 1000) (h5 : ∀ x : S4096.Idx, (pf 5 x).toNat < 500000) : ok0 pf := by
  unfold ok0
  repeat' apply And.intro
  all_goals
    intro i
    first
      | exact blkE _ (h0 _)
      | exact blkR _ (h1 _)
      | exact blkE _ (h2 _)
      | exact blkE _ (h3 _)
      | exact blkR _ (h4 _)
      | exact blkE _ (h5 _)

/-- A word in range names a row block that lies inside its table. -/
theorem ok_of_pre [Cert.Pre_finite_inputs.Facts] (h : PreAt m) : Ok m :=
  ok0_of_range (tbl m)
    (fun x => (range_of_pre m h x).1.toNat_lt) (fun x => (range_of_pre m h x).2.1.toNat_lt)
    (fun x => (range_of_pre m h x).2.2.1.toNat_lt) (fun x => (range_of_pre m h x).2.2.2.1.toNat_lt)
    (fun x => (range_of_pre m h x).2.2.2.2.1.toNat_lt) (fun x => (range_of_pre m h x).2.2.2.2.2.toNat_lt)

end Cert.Kernel.Hand

end
-- ==== Proof.RowTab.lean ====
import proofs.«409637_j57681410785658_2_alg».proof.Proof.Setup

/-! Two tables by window. `rows`: the ninety-six row blocks a grid point is handed, as vectors of
their literal shape. `afterTab`: what each window's staging buffer holds after the body at a point:
a row window its row, the output window the given accumulator value. -/

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

def rows (hO : Ok m) (c : Dev nD) (t : Fin (cfgM m hO).N) : Fin 96 → Vec F S1x1x256 .f32 :=
  fun w => match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => iblk m hO c 38 t
    | ⟨39, _⟩ => iblk m hO c 39 t
    | ⟨40, _⟩ => iblk m hO c 40 t
    | ⟨41, _⟩ => iblk m hO c 41 t
    | ⟨42, _⟩ => iblk m hO c 42 t
    | ⟨43, _⟩ => iblk m hO c 43 t
    | ⟨44, _⟩ => iblk m hO c 44 t
    | ⟨45, _⟩ => iblk m hO c 45 t
    | ⟨46, _⟩ => iblk m hO c 46 t
    | ⟨47, _⟩ => iblk m hO c 47 t
    | ⟨48, _⟩ => iblk m hO c 48 t
    | ⟨49, _⟩ => iblk m hO c 49 t
    | ⟨50, _⟩ => iblk m hO c 50 t
    | ⟨51, _⟩ => iblk m hO c 51 t
    | ⟨52, _⟩ => iblk m hO c 52 t
    | ⟨53, _⟩ => iblk m hO c 53 t
    | ⟨54, _⟩ => iblk m hO c 54 t
    | ⟨55, _⟩ => iblk m hO c 55 t
    | ⟨56, _⟩ => iblk m hO c 56 t
    | ⟨57, _⟩ => iblk m hO c 57 t
    | ⟨58, _⟩ => iblk m hO c 58 t
    | ⟨59, _⟩ => iblk m hO c 59 t
    | ⟨60, _⟩ => iblk m hO c 60 t
    | ⟨61, _⟩ => iblk m hO c 61 t
    | ⟨62, _⟩ => iblk m hO c 62 t
    | ⟨63, _⟩ => iblk m hO c 63 t
    | ⟨64, _⟩ => iblk m hO c 64 t
    | ⟨65, _⟩ => iblk m hO c 65 t
    | ⟨66, _⟩ => iblk m hO c 66 t
    | ⟨67, _⟩ => iblk m hO c 67 t
    | ⟨68, _⟩ => iblk m hO c 68 t
    | ⟨69, _⟩ => iblk m hO c 69 t
    | ⟨70, _⟩ => iblk m hO c 70 t
    | ⟨71, _⟩ => iblk m hO c 71 t
    | ⟨72, _⟩ => iblk m hO c 72 t
    | ⟨73, _⟩ => iblk m hO c 73 t
    | ⟨74, _⟩ => iblk m hO c 74 t
    | ⟨75, _⟩ => iblk m hO c 75 t
    | ⟨76, _⟩ => iblk m hO c 76 t
    | ⟨77, _⟩ => iblk m hO c 77 t
    | ⟨78, _⟩ => iblk m hO c 78 t
    | ⟨79, _⟩ => iblk m hO c 79 t
    | ⟨80, _⟩ => iblk m hO c 80 t
    | ⟨81, _⟩ => iblk m hO c 81 t
    | ⟨82, _⟩ => iblk m hO c 82 t
    | ⟨83, _⟩ => iblk m hO c 83 t
    | ⟨84, _⟩ => iblk m hO c 84 t
    | ⟨85, _⟩ => iblk m hO c 85 t
    | ⟨86, _⟩ => iblk m hO c 86 t
    | ⟨87, _⟩ => iblk m hO c 87 t
    | ⟨88, _⟩ => iblk m hO c 88 t
    | ⟨89, _⟩ => iblk m hO c 89 t
    | ⟨90, _⟩ => iblk m hO c 90 t
    | ⟨91, _⟩ => iblk m hO c 91 t
    | ⟨92, _⟩ => iblk m hO c 92 t
    | ⟨93, _⟩ => iblk m hO c 93 t
    | ⟨94, _⟩ => iblk m hO c 94 t
    | ⟨95, _⟩ => iblk m hO c 95 t
    | ⟨_ + 96, h⟩ => absurd h (Nat.not_lt.2 (Nat.le_add_left _ _))

def afterTab (hO : Ok m) (c : Dev nD) (acc : Vec F S1x1 .f32) (w : Fin (cfgM m hO).W) (t : Fin (cfgM m hO).N) :
    ((cfgM m hO).win w).block.Idx → Elt F ((cfgM m hO).win w).elt :=
  match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => iblk m hO c 38 t
    | ⟨39, _⟩ => iblk m hO c 39 t
    | ⟨40, _⟩ => iblk m hO c 40 t
    | ⟨41, _⟩ => iblk m hO c 41 t
    | ⟨42, _⟩ => iblk m hO c 42 t
    | ⟨43, _⟩ => iblk m hO c 43 t
    | ⟨44, _⟩ => iblk m hO c 44 t
    | ⟨45, _⟩ => iblk m hO c 45 t
    | ⟨46, _⟩ => iblk m hO c 46 t
    | ⟨47, _⟩ => iblk m hO c 47 t
    | ⟨48, _⟩ => iblk m hO c 48 t
    | ⟨49, _⟩ => iblk m hO c 49 t
    | ⟨50, _⟩ => iblk m hO c 50 t
    | ⟨51, _⟩ => iblk m hO c 51 t
    | ⟨52, _⟩ => iblk m hO c 52 t
    | ⟨53, _⟩ => iblk m hO c 53 t
    | ⟨54, _⟩ => iblk m hO c 54 t
    | ⟨55, _⟩ => iblk m hO c 55 t
    | ⟨56, _⟩ => iblk m hO c 56 t
    | ⟨57, _⟩ => iblk m hO c 57 t
    | ⟨58, _⟩ => iblk m hO c 58 t
    | ⟨59, _⟩ => iblk m hO c 59 t
    | ⟨60, _⟩ => iblk m hO c 60 t
    | ⟨61, _⟩ => iblk m hO c 61 t
    | ⟨62, _⟩ => iblk m hO c 62 t
    | ⟨63, _⟩ => iblk m hO c 63 t
    | ⟨64, _⟩ => iblk m hO c 64 t
    | ⟨65, _⟩ => iblk m hO c 65 t
    | ⟨66, _⟩ => iblk m hO c 66 t
    | ⟨67, _⟩ => iblk m hO c 67 t
    | ⟨68, _⟩ => iblk m hO c 68 t
    | ⟨69, _⟩ => iblk m hO c 69 t
    | ⟨70, _⟩ => iblk m hO c 70 t
    | ⟨71, _⟩ => iblk m hO c 71 t
    | ⟨72, _⟩ => iblk m hO c 72 t
    | ⟨73, _⟩ => iblk m hO c 73 t
    | ⟨74, _⟩ => iblk m hO c 74 t
    | ⟨75, _⟩ => iblk m hO c 75 t
    | ⟨76, _⟩ => iblk m hO c 76 t
    | ⟨77, _⟩ => iblk m hO c 77 t
    | ⟨78, _⟩ => iblk m hO c 78 t
    | ⟨79, _⟩ => iblk m hO c 79 t
    | ⟨80, _⟩ => iblk m hO c 80 t
    | ⟨81, _⟩ => iblk m hO c 81 t
    | ⟨82, _⟩ => iblk m hO c 82 t
    | ⟨83, _⟩ => iblk m hO c 83 t
    | ⟨84, _⟩ => iblk m hO c 84 t
    | ⟨85, _⟩ => iblk m hO c 85 t
    | ⟨86, _⟩ => iblk m hO c 86 t
    | ⟨87, _⟩ => iblk m hO c 87 t
    | ⟨88, _⟩ => iblk m hO c 88 t
    | ⟨89, _⟩ => iblk m hO c 89 t
    | ⟨90, _⟩ => iblk m hO c 90 t
    | ⟨91, _⟩ => iblk m hO c 91 t
    | ⟨92, _⟩ => iblk m hO c 92 t
    | ⟨93, _⟩ => iblk m hO c 93 t
    | ⟨94, _⟩ => iblk m hO c 94 t
    | ⟨95, _⟩ => iblk m hO c 95 t
    | ⟨96, _⟩ => acc
    | ⟨_ + 97, h⟩ => absurd h (Nat.not_lt.2 (Nat.le_add_left _ _))

end Cert.KernelIdeal.Hand

end
-- ==== Proof.Step.lean ====
import proofs.«409637_j57681410785658_2_alg».proof.Proof.Setup

noncomputable section

namespace Cert.KernelIdeal.Hand

open Cert.KernelIdeal Cert.KernelIdeal.Gen
open Idealize.ShloMosaic

variable {F : FTy → Type} [FloatOps F]

/-- The accumulator after one grid point, from the point's ninety-six rows and what it held. -/
def step (x : Fin 96 → Vec F S1x1x256 .f32) (s : Vec F S1x1 .f32) : Vec F S1x1 .f32 :=

  let v3 : FVec F S1x1 .f32 := k0_pay2
  let v32 : FVec F S1x1 .f32 := k0_pay3 (x 0) (x 16) (x 32) (x 48) (x 64) (x 80)

  let v67 : FVec F S1x1 .f32 := k0_pay4 v3 v32 (x 1) (x 17) (x 33) (x 49) (x 65) (x 81)

  let v99 : FVec F S1x1 .f32 := k0_pay5 v67 (x 2) (x 18) (x 34) (x 50) (x 66) (x 82)
  let v101 : FVec F S1x256 .f32 := k0_pay6 (x 3)

  let v131 : FVec F S1x1 .f32 := k0_pay7 v99 v101 (x 19) (x 35) (x 51) (x 67) (x 83)
  let v133 : FVec F S1x256 .f32 := k0_pay8 (x 4)
  let v135 : FVec F S1x256 .f32 := k0_pay9 (x 20)

  let v163 : FVec F S1x1 .f32 := k0_pay10 v131 v133 v135 (x 36) (x 52) (x 68) (x 84)
  let v165 : FVec F S1x256 .f32 := k0_pay11 (x 5)
  let v167 : FVec F S1x256 .f32 := k0_pay12 (x 21)
  let v169 : FVec F S1x256 .f32 := k0_pay13 (x 37)

  let v195 : FVec F S1x1 .f32 := k0_pay14 v163 v165 v167 v169 (x 53) (x 69) (x 85)
  let v197 : FVec F S1x256 .f32 := k0_pay15 (x 6)
  let v199 : FVec F S1x256 .f32 := k0_pay16 (x 22)
  let v201 : FVec F S1x256 .f32 := k0_pay17 (x 38)
  let v203 : FVec F S1x256 .f32 := k0_pay18 (x 54)

  let v227 : FVec F S1x1 .f32 := k0_pay19 v195 v197 v199 v201 v203 (x 70) (x 86)
  let v229 : FVec F S1x256 .f32 := k0_pay20 (x 7)
  let v231 : FVec F S1x256 .f32 := k0_pay21 (x 23)
  let v233 : FVec F S1x256 .f32 := k0_pay22 (x 39)
  let v235 : FVec F S1x256 .f32 := k0_pay23 (x 55)
  let v237 : FVec F S1x256 .f32 := k0_pay24 (x 71)

  let v259 : FVec F S1x1 .f32 := k0_pay25 v227 v229 v231 v233 v235 v237 (x 87)
  let v265 : FVec F S1x256 .f32 := k0_pay26 (x 40)
  let v267 : FVec F S1x256 .f32 := k0_pay27 (x 56)
  let v269 : FVec F S1x256 .f32 := k0_pay28 (x 72)
  let v271 : FVec F S1x256 .f32 := k0_pay29 (x 88)
  let v272 : FVec F S1x256 .f32 := k0_pay30 (x 8) (x 24)

  let v291 : FVec F S1x1 .f32 := k0_pay31 v259 v265 v267 v269 v271 v272
  let v307 : FVec F S1x256 .f32 := k0_pay32 (x 57) (x 73) (x 89)
  let v308 : FVec F S1x256 .f32 := k0_pay33 (x 9) (x 25) (x 41)

  let v323 : FVec F S1x1 .f32 := k0_pay34 v291 v307 v308
  let v343 : FVec F S1x1 .f32 := k0_pay35 (x 10) (x 26) (x 42)
  let v344 : FVec F S1x256 .f32 := k0_pay36 (x 58) (x 74) (x 90)

  let v355 : FVec F S1x1 .f32 := k0_pay37 v323 v343 v344
  let v375 : FVec F S1x1 .f32 := k0_pay38 (x 11) (x 27) (x 43)
  let v379 : FVec F S1x1 .f32 := k0_pay39 (x 59) (x 75) (x 91)
  let v380 : FVec F S1x1 .f32 := k0_pay40

  let v387 : FVec F S1x1 .f32 := k0_pay41 v355 v375 v379 v380
  let v416 : FVec F S1x1 .f32 := k0_pay42 (x 12) (x 28) (x 44) (x 60) (x 76) (x 92)

  let v451 : FVec F S1x1 .f32 := k0_pay43 v387 v416 (x 13) (x 29) (x 45) (x 61) (x 77) (x 93)

  let v483 : FVec F S1x1 .f32 := k0_pay44 v451 (x 14) (x 30) (x 46) (x 62) (x 78) (x 94)
  let v485 : FVec F S1x256 .f32 := k0_pay45 (x 15)

  k0_pay46 v483 v485 (x 31) (x 47) (x 63) (x 79) (x 95) s

/-- The value the first point resets the accumulator to. -/
def acc0 : Vec F S1x1 .f32 := k0_pay1

end Cert.KernelIdeal.Hand

end
-- ==== Proof.Data.lean ====
import proofs.«409637_j57681410785658_2_alg».proof.Proof.RowTab
import proofs.«409637_j57681410785658_2_alg».proof.Proof.Step

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The accumulator before point `n`: the reset value, then one step per point. -/
def accAt (hO : Ok m) (c : Dev nD) : Nat → Vec F S1x1 .f32
  | 0 => acc0
  | n + 1 => if h : n < (cfgM m hO).N then step (rows m hO c ⟨n, h⟩) (accAt hO c n) else accAt hO c n

/-- Between points: the index vectors, and the accumulator at `accAt` (at anything before the first point). -/
def ΦAcc (hO : Ok m) (c : Dev nD) (t : Fin ((cfgM m hO).N + 1)) : sProp 𝕄 :=
  iprop(Pipeline.prefHeld (Ix := Unit) (Name := ℕ) (U := UR sig nD τ) (Lvl := ℕ) (Val := Elt F) pre0 c (fun _ => fullShare) (tbl m)
    ∗ ∃ X : Vec F S1x1 .f32, owns (c : Thread nD τ) (Memref.whole cc0_scratch0) fullShare X ∗ ⌜t.val ≠ 0 → X = accAt m hO c t.val⌝)

/-- After the body a row window holds its row and the output window the accumulator. -/
def dats (q : Fin 97 → PosShare TreeShare) (hO : Ok m) (_ : Fin 1) (c : Dev nD) :
    Dat τ (Elt F) Unit ℕ (UR sig nD τ) ℕ (cfgM m hO) c where
  A w := V m c (Pipeline.arrRef spec0 w)
  after w t := afterTab m hO c (accAt m hO c (t.val + 1)) w t
  Φ t := ΦAcc m hO c t
  q := q
  owed _ := 0

end Cert.KernelIdeal.Hand

end
-- ==== Proof.Shares.lean ====
import proofs.«409637_j57681410785658_2_alg».proof.Proof.Setup
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

section Deal

variable {ι : Type} [DecidableEq ι]

def deal (q : PosShare TreeShare) : List ι → ι → PosShare TreeShare
  | [], _ => q
  | [_], _ => q
  | a :: b :: l, i => if i = a then q.right else deal q.left (b :: l) i

theorem bigSepL_congr {M : Type} [URA M] {Φ Ψ : ι → sProp M} :
    ∀ {l : List ι}, (∀ i ∈ l, Φ i = Ψ i) → bigSepL l Φ = bigSepL l Ψ
  | [], _ => rfl
  | a :: l, h => by
    rw [bigSepL_cons, bigSepL_cons, h a (List.mem_cons_self ..),
      bigSepL_congr fun i hi => h i (List.mem_cons_of_mem _ hi)]

variable {Ix : Type} [DecidableEq Ix] {Val : EltTy → Type} {Name : Type} [DecidableEq Name]
  {U : Type} [URA U] {Lvl : Type}

local notation "𝕄" => MT nD τ sig Ix Val Name U Lvl

/-- Halving what is left at every window but the last deals a whole points-to along a list without remainder. -/
theorem pointsTo_deal {ℓ : Loc nD τ sig} {S : Finset (Idx ℓ)} (f : Buf Val ℓ) :
    ∀ (l : List ι), l.Nodup → l ≠ [] → ∀ q : PosShare TreeShare,
      (ℓ ↦[S]{q} f : sProp 𝕄) = bigSepL l fun i => (ℓ ↦[S]{deal q l i} f : sProp 𝕄)
  | [], _, h, _ => absurd rfl h
  | [a], _, _, q => rfl
  | a :: b :: l, hl, _, q => by
    obtain ⟨ha, hl'⟩ := List.nodup_cons.mp hl
    have ih : (ℓ ↦[S]{q.left} f : sProp 𝕄) = bigSepL (b :: l) fun i => (ℓ ↦[S]{deal q.left (b :: l) i} f : sProp 𝕄) :=
      pointsTo_deal f (b :: l) hl' (List.cons_ne_nil _ _) q.left
    have hs : (ℓ ↦[S]{q} f : sProp 𝕄) ⊣⊢ iprop((ℓ ↦[S]{q.left} f) ∗ ℓ ↦[S]{q.right} f) :=
      pointsTo_share (PosShare.mem_left_op_right q)
    have htail : (bigSepL (b :: l) fun i => (ℓ ↦[S]{deal q (a :: b :: l) i} f : sProp 𝕄))
        = bigSepL (b :: l) fun i => (ℓ ↦[S]{deal q.left (b :: l) i} f : sProp 𝕄) :=
      bigSepL_congr fun i hi => by
        have hia : i ≠ a := fun e => ha (e ▸ hi)
        show (ℓ ↦[S]{if i = a then q.right else deal q.left (b :: l) i} f : sProp 𝕄) = _
        rw [if_neg hia]
    rw [bigSepL_cons_cons, htail, ← ih]
    show _ = iprop((ℓ ↦[S]{if a = a then q.right else deal q.left (b :: l) a} f) ∗ ℓ ↦[S]{q.left} f)
    rw [if_pos rfl]
    exact equiv_iff.mp ⟨hs.1.trans sep_comm, sep_comm.trans hs.2⟩

end Deal

def onEnt (w : Fin 97) : Prop := w.val < 16 ∨ (32 ≤ w.val ∧ w.val < 64) ∨ (80 ≤ w.val ∧ w.val < 96)

def onRel (w : Fin 97) : Prop := (16 ≤ w.val ∧ w.val < 32) ∨ (64 ≤ w.val ∧ w.val < 80)

instance : DecidablePred onEnt := fun w => by unfold onEnt; infer_instance
instance : DecidablePred onRel := fun w => by unfold onRel; infer_instance

def entWins : List (Fin 97) := (List.finRange 97).filter fun w => onEnt w
def relWins : List (Fin 97) := (List.finRange 97).filter fun w => onRel w

theorem mem_entWins {w : Fin 97} : w ∈ entWins ↔ onEnt w := by
  simp [entWins, List.mem_filter, List.mem_finRange]

theorem mem_relWins {w : Fin 97} : w ∈ relWins ↔ onRel w := by
  simp [relWins, List.mem_filter, List.mem_finRange]

theorem entWins_nodup : entWins.Nodup := (List.nodup_finRange 97).filter _
theorem relWins_nodup : relWins.Nodup := (List.nodup_finRange 97).filter _

theorem entWins_ne_nil : entWins ≠ [] :=
  List.ne_nil_of_mem (mem_entWins.mpr (show onEnt 0 from Or.inl (by decide)))
theorem relWins_ne_nil : relWins ≠ [] :=
  List.ne_nil_of_mem (mem_relWins.mpr (show onRel 16 from Or.inl (by decide)))

def qOf (w : Fin 97) : PosShare TreeShare :=
  if onEnt w then deal fullShare entWins w else deal fullShare relWins w

theorem arrRef_spec0 : ∀ w : Fin 97,
    Pipeline.arrRef spec0 w = if onEnt w then main_v0 else if onRel w then main_v1 else main_v2 := by
  decide

theorem isOut_spec0 : ∀ w : Fin 97, (spec0 w).isOut = decide (w = 96) := by decide

section Split

variable {Ix : Type} [DecidableEq Ix] {Val : EltTy → Type} {Name : Type} [DecidableEq Name]
  {U : Type} [URA U] {Lvl : Type}

local notation "𝕄" => MT nD τ sig Ix Val Name U Lvl

theorem tables_eq_windows (c : Dev nD) (V' : (b : Ref sig .tc) → Buf Val ((c : Thread nD τ).loc b)) :
    (iprop((((c : Thread nD τ).loc main_v0) ↦{fullShare} V' main_v0)
        ∗ (((c : Thread nD τ).loc main_v1) ↦{fullShare} V' main_v1)
        ∗ (((c : Thread nD τ).loc main_v2) ↦{fullShare} V' main_v2)) : sProp 𝕄)
      = bigSep Finset.univ fun w : Fin 97 =>
          ((spec0 w).arr.view.loc (c : Thread nD τ) ↦[(spec0 w).arr.view.set]{if (spec0 w).isOut then fullShare else qOf w}
            V' (Pipeline.arrRef spec0 w) : sProp 𝕄) := by
  classical

  let P : Ref sig .tc → PosShare TreeShare → sProp 𝕄 := fun b q => ((c : Thread nD τ).loc b ↦{q} V' b)

  have hΦ : ∀ w : Fin 97,
      ((spec0 w).arr.view.loc (c : Thread nD τ) ↦[(spec0 w).arr.view.set]{if (spec0 w).isOut then fullShare else qOf w}
          V' (Pipeline.arrRef spec0 w) : sProp 𝕄)
        = P (if onEnt w then main_v0 else if onRel w then main_v1 else main_v2) (if w = 96 then fullShare else qOf w) := fun w => by
    rw [(arr_whole0 w).set_eq_univ, isOut_spec0 w]
    show P (Pipeline.arrRef spec0 w) (if decide (w = 96) = true then fullShare else qOf w) = _
    rw [arrRef_spec0 w]
    simp only [decide_eq_true_eq]
  rw [bigSep_congr fun w _ => hΦ w]

  have hU : (Finset.univ : Finset (Fin 97)) = entWins.toFinset ∪ (relWins.toFinset ∪ {96}) := by
    ext w
    simp only [Finset.mem_univ, Finset.mem_union, List.mem_toFinset, Finset.mem_singleton, mem_entWins, mem_relWins,
      onEnt, onRel, Fin.ext_iff, true_iff]
    omega
  have hd₁ : Disjoint entWins.toFinset (relWins.toFinset ∪ {96}) := by
    rw [Finset.disjoint_left]
    intro w h₀ h₁
    simp only [Finset.mem_union, List.mem_toFinset, Finset.mem_singleton, mem_entWins, mem_relWins, onEnt, onRel,
      Fin.ext_iff] at h₀ h₁
    omega
  have hd₂ : Disjoint relWins.toFinset ({96} : Finset (Fin 97)) := by
    rw [Finset.disjoint_left]
    intro w h₀ h₁
    simp only [List.mem_toFinset, Finset.mem_singleton, mem_relWins, onRel, Fin.ext_iff] at h₀ h₁
    omega
  rw [hU, bigSep_union hd₁, bigSep_union hd₂, bigSep_singleton, bigSep_eq_bigSepL _ entWins_nodup,
    bigSep_eq_bigSepL _ relWins_nodup]

  have h₀ : (bigSepL entWins fun w : Fin 97 =>
        P (if onEnt w then main_v0 else if onRel w then main_v1 else main_v2) (if w = 96 then fullShare else qOf w))
      = bigSepL entWins fun w => P main_v0 (deal fullShare entWins w) :=
    bigSepL_congr fun w hw => by
      have he : onEnt w := mem_entWins.mp hw
      have h96 : w ≠ 96 := fun e => by subst e; revert he; decide
      simp only [if_pos he, if_neg h96, qOf]
  have h₁ : (bigSepL relWins fun w : Fin 97 =>
        P (if onEnt w then main_v0 else if onRel w then main_v1 else main_v2) (if w = 96 then fullShare else qOf w))
      = bigSepL relWins fun w => P main_v1 (deal fullShare relWins w) :=
    bigSepL_congr fun w hw => by
      have hr : onRel w := mem_relWins.mp hw
      have he : ¬ onEnt w := fun he => by unfold onEnt at he; unfold onRel at hr; omega
      have h96 : w ≠ 96 := fun e => by subst e; revert hr; decide
      simp only [if_pos hr, if_neg he, if_neg h96, qOf]
  have h₂ : (if onEnt (96 : Fin 97) then main_v0 else if onRel 96 then main_v1 else main_v2) = main_v2 := by decide
  rw [h₀, h₁, h₂, if_pos rfl]
  rw [← pointsTo_deal (V' main_v0) entWins entWins_nodup entWins_ne_nil fullShare,
    ← pointsTo_deal (V' main_v1) relWins relWins_nodup relWins_ne_nil fullShare]
  rfl

variable {F : FTy → Type} [FloatOps F]

/-- Each table's points-to is the separating conjunction of its windows' shares of it. -/
theorem tables_eq_arrays {Lvl' : Type} (a : (pcfg0 (F := F)).Adm) (c : Dev nD)
    (dat : Dat τ (Elt F) Ix Name U Lvl' (cfg0 a) c) (hq : dat.q = qOf)
    (V' : (b : Ref sig .tc) → Buf (Elt F) ((c : Thread nD τ).loc b)) :
    (iprop((((c : Thread nD τ).loc main_v0) ↦{fullShare} V' main_v0)
        ∗ (((c : Thread nD τ).loc main_v1) ↦{fullShare} V' main_v1)
        ∗ (((c : Thread nD τ).loc main_v2) ↦{fullShare} V' main_v2)) : sProp (MT nD τ sig Ix (Elt F) Name U Lvl'))
      = dat.arrays fun w => V' (Pipeline.arrRef spec0 w) := by
  refine (tables_eq_windows c V').trans ?_
  unfold Dat.arrays Dat.share
  rw [hq]

theorem arrays_take_out {Lvl' : Type} (a : (pcfg0 (F := F)).Adm) (c : Dev nD)
    (dat : Dat τ (Elt F) Ix Name U Lvl' (cfg0 a) c)
    (G : (w : Fin (cfg0 a).W) → Buf (Elt F) (((cfg0 a).win w).arr.view.loc (c.tc : Thread nD τ))) :
    dat.arrays G
      = (iprop((((c : Thread nD τ).loc main_v2) ↦{fullShare} G (96 : Fin 97))
          ∗ bigSep (Finset.univ.erase (96 : Fin 97)) fun w =>
              (((cfg0 a).win w).arr.view.loc (c.tc : Thread nD τ) ↦[((cfg0 a).win w).arr.view.set]{dat.share w} G w))
          : sProp (MT nD τ sig Ix (Elt F) Name U Lvl')) := by
  unfold Dat.arrays
  rw [bigSep_erase (Finset.mem_univ (96 : Fin 97))]
  refine congrArg (fun X => BI.sep X _) ?_
  show (((c : Thread nD τ).loc main_v2) ↦[(spec0 96).arr.view.set]{fullShare} G (96 : Fin 97)) = _
  rw [(arr_whole0 96).set_eq_univ]

end Split

end Cert.KernelIdeal.Hand

end
-- ==== Proof.BeforeRows.lean ====
import proofs.«409637_j57681410785658_2_alg».proof.Proof.Data
import proofs.«409637_j57681410785658_2_alg».proof.Proof.Shares
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

/-- An input window the body does not change holds before the body what it holds after it. -/
theorem before_eq_after_of_uncut {Ix : Type} [DecidableEq Ix] {Val : EltTy → Type} {Name : Type} [DecidableEq Name]
    {U : Type} [URA U] {Lvl : Type} {cfg : Cfg sig Λ₀} {c : Dev nD} (dat : Dat τ Val Ix Name U Lvl cfg c)
    (w : Fin cfg.W) (hin : (cfg.win w).isOut = false) (hlive : ∀ i, cfg.idle w i = false)
    (hnone : ∀ i a, (cfg.win w).clip i a = none)
    (hkeep : ∀ t, (cfg.win w).cut (cfg.grid.coords t) (dat.after w t) = dat.blockOf w t)
    (t : Fin cfg.N) (d : (cfg.win w).block.Idx → Val (cfg.win w).elt) :
    dat.before w t d = dat.after w t := by
  rw [dat.before_in_eq_fetched w hin hlive
      (fun t t' _ => funext fun a => (hnone _ a).trans (hnone _ a).symm) hkeep t d,
    dat.fetched_of_clip_none w t (hnone _) d (dat.after w t)]
  unfold Dat.fetched
  rw [← hkeep t]
  exact (cfg.win w).fill_cut _ _

variable {F : FTy → Type} [FloatOps F]

theorem isOut_row (a : (pcfg0 (F := F)).Adm) (w : Fin 97) (hw : w ≠ 96) : ((cfg0 a).win w).isOut = false :=
  (isOut_spec0 w).trans (decide_eq_false hw)

theorem idle0_row : ∀ w : Fin 97, w ≠ 96 → idle0 w = fun _ => false := by
  intro w hw
  fin_cases w <;> first | rfl | exact absurd rfl hw

theorem idle_row (a : (pcfg0 (F := F)).Adm) (w : Fin 97) (hw : w ≠ 96) (i : (cfg0 a).grid.Coords) :
    (cfg0 a).idle w i = false :=
  congrFun (idle0_row w hw) i

theorem clip_none (a : (pcfg0 (F := F)).Adm) (w : Fin 97) (i : (cfg0 a).grid.Coords)
    (x : Fin ((cfg0 a).win w).shape.rank) : ((cfg0 a).win w).clip i x = none := rfl

variable (m : (ℓ : Loc nD τ sig) → Buf (Elt F) ℓ)

set_option maxHeartbeats 4000000 in
theorem after_row (q : Fin 97 → PosShare TreeShare) (hO : Ok m) (c : Dev nD) (w : Fin 97) (hw : w ≠ 96)
    (t : Fin (cfgM m hO).N) : (dats m q hO 0 c).after w t = iblk m hO c w t := by
  obtain ⟨n, hn⟩ := w
  interval_cases n <;> first | exact absurd rfl hw | (dsimp only [dats, afterTab]; rfl)

theorem before_row (q : Fin 97 → PosShare TreeShare) (hO : Ok m) (c : Dev nD) (w : Fin 97) (hw : w ≠ 96)
    (t : Fin (cfgM m hO).N) (d : ((cfgM m hO).win w).block.Idx → Elt F ((cfgM m hO).win w).elt) :
    (dats m q hO 0 c).before w t d = (dats m q hO 0 c).after w t :=
  before_eq_after_of_uncut (dats m q hO 0 c) w (isOut_row _ w hw) (idle_row _ w hw) (clip_none _ w)
    (fun t => by rw [after_row m q hO c w hw t]; unfold Dat.blockOf iblk; dsimp only [dats]) t d

/-- Each row window holds its row of the table whenever the body runs. -/
theorem before_w (q : Fin 97 → PosShare TreeShare) (hO : Ok m) (c : Dev nD) (w : Fin 97) (hw : w ≠ 96)
    (t : Fin (cfgM m hO).N) (d : ((cfgM m hO).win w).block.Idx → Elt F ((cfgM m hO).win w).elt) :
    (dats m q hO 0 c).before w t d = iblk m hO c w t :=
  (before_row m q hO c w hw t d).trans (after_row m q hO c w hw t)

end Cert.KernelIdeal.Hand

end
-- ==== Proof.ObligationTab.lean ====
import proofs.«409637_j57681410785658_2_alg».proof.Proof.BeforeRows
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The kernel function on each window's current buffer at point `t`. -/
abbrev bodyAt (a : (pcfg0 (F := F)).Adm) (t : Fin (cfg0 a).N) : Prog (TpuEff nD τ sig (Elt F) Λ₀ .tc) PUnit :=
  cc0__kernel (grid0.coords t) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (spec0_20.stage ((cfg0 a).slots t 20)) (hstage0_20 (((cfg0 a).slots t 20).cast nbuf0_20)) (spec0_21.stage ((cfg0 a).slots t 21)) (hstage0_21 (((cfg0 a).slots t 21).cast nbuf0_21)) (spec0_22.stage ((cfg0 a).slots t 22)) (hstage0_22 (((cfg0 a).slots t 22).cast nbuf0_22)) (spec0_23.stage ((cfg0 a).slots t 23)) (hstage0_23 (((cfg0 a).slots t 23).cast nbuf0_23)) (spec0_24.stage ((cfg0 a).slots t 24)) (hstage0_24 (((cfg0 a).slots t 24).cast nbuf0_24)) (spec0_25.stage ((cfg0 a).slots t 25)) (hstage0_25 (((cfg0 a).slots t 25).cast nbuf0_25)) (spec0_26.stage ((cfg0 a).slots t 26)) (hstage0_26 (((cfg0 a).slots t 26).cast nbuf0_26)) (spec0_27.stage ((cfg0 a).slots t 27)) (hstage0_27 (((cfg0 a).slots t 27).cast nbuf0_27)) (spec0_28.stage ((cfg0 a).slots t 28)) (hstage0_28 (((cfg0 a).slots t 28).cast nbuf0_28)) (spec0_29.stage ((cfg0 a).slots t 29)) (hstage0_29 (((cfg0 a).slots t 29).cast nbuf0_29)) (spec0_30.stage ((cfg0 a).slots t 30)) (hstage0_30 (((cfg0 a).slots t 30).cast nbuf0_30)) (spec0_31.stage ((cfg0 a).slots t 31)) (hstage0_31 (((cfg0 a).slots t 31).cast nbuf0_31)) (spec0_32.stage ((cfg0 a).slots t 32)) (hstage0_32 (((cfg0 a).slots t 32).cast nbuf0_32)) (spec0_33.stage ((cfg0 a).slots t 33)) (hstage0_33 (((cfg0 a).slots t 33).cast nbuf0_33)) (spec0_34.stage ((cfg0 a).slots t 34)) (hstage0_34 (((cfg0 a).slots t 34).cast nbuf0_34)) (spec0_35.stage ((cfg0 a).slots t 35)) (hstage0_35 (((cfg0 a).slots t 35).cast nbuf0_35)) (spec0_36.stage ((cfg0 a).slots t 36)) (hstage0_36 (((cfg0 a).slots t 36).cast nbuf0_36)) (spec0_37.stage ((cfg0 a).slots t 37)) (hstage0_37 (((cfg0 a).slots t 37).cast nbuf0_37)) (spec0_38.stage ((cfg0 a).slots t 38)) (hstage0_38 (((cfg0 a).slots t 38).cast nbuf0_38)) (spec0_39.stage ((cfg0 a).slots t 39)) (hstage0_39 (((cfg0 a).slots t 39).cast nbuf0_39)) (spec0_40.stage ((cfg0 a).slots t 40)) (hstage0_40 (((cfg0 a).slots t 40).cast nbuf0_40)) (spec0_41.stage ((cfg0 a).slots t 41)) (hstage0_41 (((cfg0 a).slots t 41).cast nbuf0_41)) (spec0_42.stage ((cfg0 a).slots t 42)) (hstage0_42 (((cfg0 a).slots t 42).cast nbuf0_42)) (spec0_43.stage ((cfg0 a).slots t 43)) (hstage0_43 (((cfg0 a).slots t 43).cast nbuf0_43)) (spec0_44.stage ((cfg0 a).slots t 44)) (hstage0_44 (((cfg0 a).slots t 44).cast nbuf0_44)) (spec0_45.stage ((cfg0 a).slots t 45)) (hstage0_45 (((cfg0 a).slots t 45).cast nbuf0_45)) (spec0_46.stage ((cfg0 a).slots t 46)) (hstage0_46 (((cfg0 a).slots t 46).cast nbuf0_46)) (spec0_47.stage ((cfg0 a).slots t 47)) (hstage0_47 (((cfg0 a).slots t 47).cast nbuf0_47)) (spec0_48.stage ((cfg0 a).slots t 48)) (hstage0_48 (((cfg0 a).slots t 48).cast nbuf0_48)) (spec0_49.stage ((cfg0 a).slots t 49)) (hstage0_49 (((cfg0 a).slots t 49).cast nbuf0_49)) (spec0_50.stage ((cfg0 a).slots t 50)) (hstage0_50 (((cfg0 a).slots t 50).cast nbuf0_50)) (spec0_51.stage ((cfg0 a).slots t 51)) (hstage0_51 (((cfg0 a).slots t 51).cast nbuf0_51)) (spec0_52.stage ((cfg0 a).slots t 52)) (hstage0_52 (((cfg0 a).slots t 52).cast nbuf0_52)) (spec0_53.stage ((cfg0 a).slots t 53)) (hstage0_53 (((cfg0 a).slots t 53).cast nbuf0_53)) (spec0_54.stage ((cfg0 a).slots t 54)) (hstage0_54 (((cfg0 a).slots t 54).cast nbuf0_54)) (spec0_55.stage ((cfg0 a).slots t 55)) (hstage0_55 (((cfg0 a).slots t 55).cast nbuf0_55)) (spec0_56.stage ((cfg0 a).slots t 56)) (hstage0_56 (((cfg0 a).slots t 56).cast nbuf0_56)) (spec0_57.stage ((cfg0 a).slots t 57)) (hstage0_57 (((cfg0 a).slots t 57).cast nbuf0_57)) (spec0_58.stage ((cfg0 a).slots t 58)) (hstage0_58 (((cfg0 a).slots t 58).cast nbuf0_58)) (spec0_59.stage ((cfg0 a).slots t 59)) (hstage0_59 (((cfg0 a).slots t 59).cast nbuf0_59)) (spec0_60.stage ((cfg0 a).slots t 60)) (hstage0_60 (((cfg0 a).slots t 60).cast nbuf0_60)) (spec0_61.stage ((cfg0 a).slots t 61)) (hstage0_61 (((cfg0 a).slots t 61).cast nbuf0_61)) (spec0_62.stage ((cfg0 a).slots t 62)) (hstage0_62 (((cfg0 a).slots t 62).cast nbuf0_62)) (spec0_63.stage ((cfg0 a).slots t 63)) (hstage0_63 (((cfg0 a).slots t 63).cast nbuf0_63)) (spec0_64.stage ((cfg0 a).slots t 64)) (hstage0_64 (((cfg0 a).slots t 64).cast nbuf0_64)) (spec0_65.stage ((cfg0 a).slots t 65)) (hstage0_65 (((cfg0 a).slots t 65).cast nbuf0_65)) (spec0_66.stage ((cfg0 a).slots t 66)) (hstage0_66 (((cfg0 a).slots t 66).cast nbuf0_66)) (spec0_67.stage ((cfg0 a).slots t 67)) (hstage0_67 (((cfg0 a).slots t 67).cast nbuf0_67)) (spec0_68.stage ((cfg0 a).slots t 68)) (hstage0_68 (((cfg0 a).slots t 68).cast nbuf0_68)) (spec0_69.stage ((cfg0 a).slots t 69)) (hstage0_69 (((cfg0 a).slots t 69).cast nbuf0_69)) (spec0_70.stage ((cfg0 a).slots t 70)) (hstage0_70 (((cfg0 a).slots t 70).cast nbuf0_70)) (spec0_71.stage ((cfg0 a).slots t 71)) (hstage0_71 (((cfg0 a).slots t 71).cast nbuf0_71)) (spec0_72.stage ((cfg0 a).slots t 72)) (hstage0_72 (((cfg0 a).slots t 72).cast nbuf0_72)) (spec0_73.stage ((cfg0 a).slots t 73)) (hstage0_73 (((cfg0 a).slots t 73).cast nbuf0_73)) (spec0_74.stage ((cfg0 a).slots t 74)) (hstage0_74 (((cfg0 a).slots t 74).cast nbuf0_74)) (spec0_75.stage ((cfg0 a).slots t 75)) (hstage0_75 (((cfg0 a).slots t 75).cast nbuf0_75)) (spec0_76.stage ((cfg0 a).slots t 76)) (hstage0_76 (((cfg0 a).slots t 76).cast nbuf0_76)) (spec0_77.stage ((cfg0 a).slots t 77)) (hstage0_77 (((cfg0 a).slots t 77).cast nbuf0_77)) (spec0_78.stage ((cfg0 a).slots t 78)) (hstage0_78 (((cfg0 a).slots t 78).cast nbuf0_78)) (spec0_79.stage ((cfg0 a).slots t 79)) (hstage0_79 (((cfg0 a).slots t 79).cast nbuf0_79)) (spec0_80.stage ((cfg0 a).slots t 80)) (hstage0_80 (((cfg0 a).slots t 80).cast nbuf0_80)) (spec0_81.stage ((cfg0 a).slots t 81)) (hstage0_81 (((cfg0 a).slots t 81).cast nbuf0_81)) (spec0_82.stage ((cfg0 a).slots t 82)) (hstage0_82 (((cfg0 a).slots t 82).cast nbuf0_82)) (spec0_83.stage ((cfg0 a).slots t 83)) (hstage0_83 (((cfg0 a).slots t 83).cast nbuf0_83)) (spec0_84.stage ((cfg0 a).slots t 84)) (hstage0_84 (((cfg0 a).slots t 84).cast nbuf0_84)) (spec0_85.stage ((cfg0 a).slots t 85)) (hstage0_85 (((cfg0 a).slots t 85).cast nbuf0_85)) (spec0_86.stage ((cfg0 a).slots t 86)) (hstage0_86 (((cfg0 a).slots t 86).cast nbuf0_86)) (spec0_87.stage ((cfg0 a).slots t 87)) (hstage0_87 (((cfg0 a).slots t 87).cast nbuf0_87)) (spec0_88.stage ((cfg0 a).slots t 88)) (hstage0_88 (((cfg0 a).slots t 88).cast nbuf0_88)) (spec0_89.stage ((cfg0 a).slots t 89)) (hstage0_89 (((cfg0 a).slots t 89).cast nbuf0_89)) (spec0_90.stage ((cfg0 a).slots t 90)) (hstage0_90 (((cfg0 a).slots t 90).cast nbuf0_90)) (spec0_91.stage ((cfg0 a).slots t 91)) (hstage0_91 (((cfg0 a).slots t 91).cast nbuf0_91)) (spec0_92.stage ((cfg0 a).slots t 92)) (hstage0_92 (((cfg0 a).slots t 92).cast nbuf0_92)) (spec0_93.stage ((cfg0 a).slots t 93)) (hstage0_93 (((cfg0 a).slots t 93).cast nbuf0_93)) (spec0_94.stage ((cfg0 a).slots t 94)) (hstage0_94 (((cfg0 a).slots t 94).cast nbuf0_94)) (spec0_95.stage ((cfg0 a).slots t 95)) (hstage0_95 (((cfg0 a).slots t 95).cast nbuf0_95)) (spec0_96.stage ((cfg0 a).slots t 96)) (hstage0_96 (((cfg0 a).slots t 96).cast nbuf0_96)) (Memref.whole cc0_scratch0) (Memref.isWhole_whole _)

/-- What the body is handed at point `t`: the invariant, what the core owes, and every window's buffer. -/
def bodyPre (q : Fin 97 → PosShare TreeShare) (hO : Ok m) (c : Dev nD) (t : Fin (cfgM m hO).N) : sProp 𝕄 :=
  iprop(ΦAcc m hO c t.castSucc ∗ (dats m q hO 0 c).owesAt () t.castSucc
    ∗ bigSep Finset.univ fun w : Fin (cfgM m hO).W =>
        iprop(∃ d, owns (c : Thread nD τ) (((cfgM m hO).win w).stage ((cfgM m hO).slots t w)) fullShare ((dats m q hO 0 c).before w t d)))

/-- What it hands back: every window's buffer at what the body leaves there, but one left alone at this point as it was found. -/
def bodyPost (q : Fin 97 → PosShare TreeShare) (hO : Ok m) (c : Dev nD) (t : Fin (cfgM m hO).N) : sProp 𝕄 :=
  iprop(ΦAcc m hO c t.succ ∗ (dats m q hO 0 c).owesAt () t.castSucc
    ∗ bigSep Finset.univ fun w : Fin (cfgM m hO).W =>
        match (cfgM m hO).idle w ((cfgM m hO).grid.coords t) with
        | true =>
          match ((cfgM m hO).win w).flush t with
          | false => iprop(∃ d, owns (c : Thread nD τ) (((cfgM m hO).win w).stage ((cfgM m hO).slots t w)) fullShare ((dats m q hO 0 c).before w t d))
          | true => owns (c : Thread nD τ) (((cfgM m hO).win w).stage ((cfgM m hO).slots t w)) fullShare ((dats m q hO 0 c).after w t)
        | false => owns (c : Thread nD τ) (((cfgM m hO).win w).stage ((cfgM m hO).slots t w)) fullShare ((dats m q hO 0 c).after w t))

set_option hygiene false in
macro "obl_intro" : tactic => `(tactic| iintro ⟨⟨HT, %X, HAcc, %hX⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩, ⟨%d79, H79⟩, ⟨%d80, H80⟩, ⟨%d81, H81⟩, ⟨%d82, H82⟩, ⟨%d83, H83⟩, ⟨%d84, H84⟩, ⟨%d85, H85⟩, ⟨%d86, H86⟩, ⟨%d87, H87⟩, ⟨%d88, H88⟩, ⟨%d89, H89⟩, ⟨%d90, H90⟩, ⟨%d91, H91⟩, ⟨%d92, H92⟩, ⟨%d93, H93⟩, ⟨%d94, H94⟩, ⟨%d95, H95⟩, ⟨%d96, H96⟩⟩)

set_option hygiene false in
macro "obl_give" : tactic => `(tactic| ((isplitl [H0]; · iexact H0); (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9); (isplitl [H10]; · iexact H10); (isplitl [H11]; · iexact H11); (isplitl [H12]; · iexact H12); (isplitl [H13]; · iexact H13); (isplitl [H14]; · iexact H14); (isplitl [H15]; · iexact H15); (isplitl [H16]; · iexact H16); (isplitl [H17]; · iexact H17); (isplitl [H18]; · iexact H18); (isplitl [H19]; · iexact H19); (isplitl [H20]; · iexact H20); (isplitl [H21]; · iexact H21); (isplitl [H22]; · iexact H22); (isplitl [H23]; · iexact H23); (isplitl [H24]; · iexact H24); (isplitl [H25]; · iexact H25); (isplitl [H26]; · iexact H26); (isplitl [H27]; · iexact H27); (isplitl [H28]; · iexact H28); (isplitl [H29]; · iexact H29); (isplitl [H30]; · iexact H30); (isplitl [H31]; · iexact H31); (isplitl [H32]; · iexact H32); (isplitl [H33]; · iexact H33); (isplitl [H34]; · iexact H34); (isplitl [H35]; · iexact H35); (isplitl [H36]; · iexact H36); (isplitl [H37]; · iexact H37); (isplitl [H38]; · iexact H38); (isplitl [H39]; · iexact H39); (isplitl [H40]; · iexact H40); (isplitl [H41]; · iexact H41); (isplitl [H42]; · iexact H42); (isplitl [H43]; · iexact H43); (isplitl [H44]; · iexact H44); (isplitl [H45]; · iexact H45); (isplitl [H46]; · iexact H46); (isplitl [H47]; · iexact H47); (isplitl [H48]; · iexact H48); (isplitl [H49]; · iexact H49); (isplitl [H50]; · iexact H50); (isplitl [H51]; · iexact H51); (isplitl [H52]; · iexact H52); (isplitl [H53]; · iexact H53); (isplitl [H54]; · iexact H54); (isplitl [H55]; · iexact H55); (isplitl [H56]; · iexact H56); (isplitl [H57]; · iexact H57); (isplitl [H58]; · iexact H58); (isplitl [H59]; · iexact H59); (isplitl [H60]; · iexact H60); (isplitl [H61]; · iexact H61); (isplitl [H62]; · iexact H62); (isplitl [H63]; · iexact H63); (isplitl [H64]; · iexact H64); (isplitl [H65]; · iexact H65); (isplitl [H66]; · iexact H66); (isplitl [H67]; · iexact H67); (isplitl [H68]; · iexact H68); (isplitl [H69]; · iexact H69); (isplitl [H70]; · iexact H70); (isplitl [H71]; · iexact H71); (isplitl [H72]; · iexact H72); (isplitl [H73]; · iexact H73); (isplitl [H74]; · iexact H74); (isplitl [H75]; · iexact H75); (isplitl [H76]; · iexact H76); (isplitl [H77]; · iexact H77); (isplitl [H78]; · iexact H78); (isplitl [H79]; · iexact H79); (isplitl [H80]; · iexact H80); (isplitl [H81]; · iexact H81); (isplitl [H82]; · iexact H82); (isplitl [H83]; · iexact H83); (isplitl [H84]; · iexact H84); (isplitl [H85]; · iexact H85); (isplitl [H86]; · iexact H86); (isplitl [H87]; · iexact H87); (isplitl [H88]; · iexact H88); (isplitl [H89]; · iexact H89); (isplitl [H90]; · iexact H90); (isplitl [H91]; · iexact H91); (isplitl [H92]; · iexact H92); (isplitl [H93]; · iexact H93); (isplitl [H94]; · iexact H94); (isplitl [H95]; · iexact H95); (isplitl [H96]; · iexact H96); iexact HAcc))

set_option hygiene false in
macro "obl_take" : tactic => `(tactic| iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, H84, H85, H86, H87, H88, H89, H90, H91, H92, H93, H94, H95, H96, HAcc⟩)

set_option hygiene false in
macro "obl_return_rows" : tactic => `(tactic| ((isplitl [H0]; · iexact H0); (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9); (isplitl [H10]; · iexact H10); (isplitl [H11]; · iexact H11); (isplitl [H12]; · iexact H12); (isplitl [H13]; · iexact H13); (isplitl [H14]; · iexact H14); (isplitl [H15]; · iexact H15); (isplitl [H16]; · iexact H16); (isplitl [H17]; · iexact H17); (isplitl [H18]; · iexact H18); (isplitl [H19]; · iexact H19); (isplitl [H20]; · iexact H20); (isplitl [H21]; · iexact H21); (isplitl [H22]; · iexact H22); (isplitl [H23]; · iexact H23); (isplitl [H24]; · iexact H24); (isplitl [H25]; · iexact H25); (isplitl [H26]; · iexact H26); (isplitl [H27]; · iexact H27); (isplitl [H28]; · iexact H28); (isplitl [H29]; · iexact H29); (isplitl [H30]; · iexact H30); (isplitl [H31]; · iexact H31); (isplitl [H32]; · iexact H32); (isplitl [H33]; · iexact H33); (isplitl [H34]; · iexact H34); (isplitl [H35]; · iexact H35); (isplitl [H36]; · iexact H36); (isplitl [H37]; · iexact H37); (isplitl [H38]; · iexact H38); (isplitl [H39]; · iexact H39); (isplitl [H40]; · iexact H40); (isplitl [H41]; · iexact H41); (isplitl [H42]; · iexact H42); (isplitl [H43]; · iexact H43); (isplitl [H44]; · iexact H44); (isplitl [H45]; · iexact H45); (isplitl [H46]; · iexact H46); (isplitl [H47]; · iexact H47); (isplitl [H48]; · iexact H48); (isplitl [H49]; · iexact H49); (isplitl [H50]; · iexact H50); (isplitl [H51]; · iexact H51); (isplitl [H52]; · iexact H52); (isplitl [H53]; · iexact H53); (isplitl [H54]; · iexact H54); (isplitl [H55]; · iexact H55); (isplitl [H56]; · iexact H56); (isplitl [H57]; · iexact H57); (isplitl [H58]; · iexact H58); (isplitl [H59]; · iexact H59); (isplitl [H60]; · iexact H60); (isplitl [H61]; · iexact H61); (isplitl [H62]; · iexact H62); (isplitl [H63]; · iexact H63); (isplitl [H64]; · iexact H64); (isplitl [H65]; · iexact H65); (isplitl [H66]; · iexact H66); (isplitl [H67]; · iexact H67); (isplitl [H68]; · iexact H68); (isplitl [H69]; · iexact H69); (isplitl [H70]; · iexact H70); (isplitl [H71]; · iexact H71); (isplitl [H72]; · iexact H72); (isplitl [H73]; · iexact H73); (isplitl [H74]; · iexact H74); (isplitl [H75]; · iexact H75); (isplitl [H76]; · iexact H76); (isplitl [H77]; · iexact H77); (isplitl [H78]; · iexact H78); (isplitl [H79]; · iexact H79); (isplitl [H80]; · iexact H80); (isplitl [H81]; · iexact H81); (isplitl [H82]; · iexact H82); (isplitl [H83]; · iexact H83); (isplitl [H84]; · iexact H84); (isplitl [H85]; · iexact H85); (isplitl [H86]; · iexact H86); (isplitl [H87]; · iexact H87); (isplitl [H88]; · iexact H88); (isplitl [H89]; · iexact H89); (isplitl [H90]; · iexact H90); (isplitl [H91]; · iexact H91); (isplitl [H92]; · iexact H92); (isplitl [H93]; · iexact H93); (isplitl [H94]; · iexact H94); (isplitl [H95]; · iexact H95)))

macro "obl_at(" f:term ", " c:term ")" : term => `($f $c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.KernelIdeal.Hand

end
-- ==== Proof.BodyCond.lean ====
import proofs.«409637_j57681410785658_2_alg».proof.Proof.Step
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid0.Coords) : Prop :=
  (Scalar.cmpi .ne (Scalar.extui (Scalar.cmpi .eq (BitVec.ofNat 32 (i 0).val) 0#32)) 0#32) = 1#1

abbrev condLast (i : grid0.Coords) : Prop := k0_cond2 i = 1#1

theorem hz2 : (![0, 0] : Fin 2 → Nat) = fun _ => 0 := funext fun a => by fin_cases a <;> rfl
theorem hz3 : (![0, 0, 0] : Fin 3 → Nat) = fun _ => 0 := funext fun a => by fin_cases a <;> rfl

theorem read_writes_cons_whole {sig : RefSig} {κ : Kind} {sp : Space} (v : View sig κ sp S1x1 .f32)
    (f : v.ty.Contents (Elt F)) (inb : ∀ a, (![0, 0] : Fin 2 → Nat) a + S1x1.size a ≤ S1x1.size a)
    (w : S1x1.Idx → Elt F .f32) (L : List (View.Piece (Elt F) S1x1 .f32)) :
    v.read (Elt F) (v.writes (Elt F) f (⟨Rect.unit ![0, 0] S1x1.size inb, w⟩ :: L)) = w := by
  have hcov : ∀ y : S1x1.Idx, ∃ p ∈ ((⟨Rect.unit ![0, 0] S1x1.size inb, w⟩ : View.Piece (Elt F) S1x1 .f32) :: L), y ∈ p.1.set :=
    fun y => ⟨_, List.mem_cons_self, View.mem_set_unit_zero hz2 inb y⟩
  rw [View.read_writes_eq_canon _ _ _ hcov, View.canon_cons_unit_zero hz2]

/-- The triple of the kernel function at grid point `i`: from the ninety-six rows `x`, the output buffer at `o` and the
    accumulator at `s` it runs to the same rows, the output buffer at `o'` and the accumulator at `s'`. -/
def BodyTriple (i : grid0.Coords) (x : Fin 96 → Vec F S1x1x256 .f32) (o s o' s' : Vec F S1x1 .f32) : Prop :=
  ∀ (c : Dev nD) (t1 : Memref sig .tc .smem S4096 .i32) (ht1 : t1.IsWhole) (t2 : Memref sig .tc .smem S4096 .i32) (ht2 : t2.IsWhole) (t3 : Memref sig .tc .smem S4096 .i32) (ht3 : t3.IsWhole) (t4 : Memref sig .tc .smem S4096 .i32) (ht4 : t4.IsWhole) (t5 : Memref sig .tc .smem S4096 .i32) (ht5 : t5.IsWhole) (t6 : Memref sig .tc .smem S4096 .i32) (ht6 : t6.IsWhole) (a0 : Memref sig .tc .vmem S1x1x256 .f32) (h0 : a0.IsWhole) (a1 : Memref sig .tc .vmem S1x1x256 .f32) (h1 : a1.IsWhole) (a2 : Memref sig .tc .vmem S1x1x256 .f32) (h2 : a2.IsWhole) (a3 : Memref sig .tc .vmem S1x1x256 .f32) (h3 : a3.IsWhole) (a4 : Memref sig .tc .vmem S1x1x256 .f32) (h4 : a4.IsWhole) (a5 : Memref sig .tc .vmem S1x1x256 .f32) (h5 : a5.IsWhole) (a6 : Memref sig .tc .vmem S1x1x256 .f32) (h6 : a6.IsWhole) (a7 : Memref sig .tc .vmem S1x1x256 .f32) (h7 : a7.IsWhole) (a8 : Memref sig .tc .vmem S1x1x256 .f32) (h8 : a8.IsWhole) (a9 : Memref sig .tc .vmem S1x1x256 .f32) (h9 : a9.IsWhole) (a10 : Memref sig .tc .vmem S1x1x256 .f32) (h10 : a10.IsWhole) (a11 : Memref sig .tc .vmem S1x1x256 .f32) (h11 : a11.IsWhole) (a12 : Memref sig .tc .vmem S1x1x256 .f32) (h12 : a12.IsWhole) (a13 : Memref sig .tc .vmem S1x1x256 .f32) (h13 : a13.IsWhole) (a14 : Memref sig .tc .vmem S1x1x256 .f32) (h14 : a14.IsWhole) (a15 : Memref sig .tc .vmem S1x1x256 .f32) (h15 : a15.IsWhole) (a16 : Memref sig .tc .vmem S1x1x256 .f32) (h16 : a16.IsWhole) (a17 : Memref sig .tc .vmem S1x1x256 .f32) (h17 : a17.IsWhole) (a18 : Memref sig .tc .vmem S1x1x256 .f32) (h18 : a18.IsWhole) (a19 : Memref sig .tc .vmem S1x1x256 .f32) (h19 : a19.IsWhole) (a20 : Memref sig .tc .vmem S1x1x256 .f32) (h20 : a20.IsWhole) (a21 : Memref sig .tc .vmem S1x1x256 .f32) (h21 : a21.IsWhole) (a22 : Memref sig .tc .vmem S1x1x256 .f32) (h22 : a22.IsWhole) (a23 : Memref sig .tc .vmem S1x1x256 .f32) (h23 : a23.IsWhole) (a24 : Memref sig .tc .vmem S1x1x256 .f32) (h24 : a24.IsWhole) (a25 : Memref sig .tc .vmem S1x1x256 .f32) (h25 : a25.IsWhole) (a26 : Memref sig .tc .vmem S1x1x256 .f32) (h26 : a26.IsWhole) (a27 : Memref sig .tc .vmem S1x1x256 .f32) (h27 : a27.IsWhole) (a28 : Memref sig .tc .vmem S1x1x256 .f32) (h28 : a28.IsWhole) (a29 : Memref sig .tc .vmem S1x1x256 .f32) (h29 : a29.IsWhole) (a30 : Memref sig .tc .vmem S1x1x256 .f32) (h30 : a30.IsWhole) (a31 : Memref sig .tc .vmem S1x1x256 .f32) (h31 : a31.IsWhole) (a32 : Memref sig .tc .vmem S1x1x256 .f32) (h32 : a32.IsWhole) (a33 : Memref sig .tc .vmem S1x1x256 .f32) (h33 : a33.IsWhole) (a34 : Memref sig .tc .vmem S1x1x256 .f32) (h34 : a34.IsWhole) (a35 : Memref sig .tc .vmem S1x1x256 .f32) (h35 : a35.IsWhole) (a36 : Memref sig .tc .vmem S1x1x256 .f32) (h36 : a36.IsWhole) (a37 : Memref sig .tc .vmem S1x1x256 .f32) (h37 : a37.IsWhole) (a38 : Memref sig .tc .vmem S1x1x256 .f32) (h38 : a38.IsWhole) (a39 : Memref sig .tc .vmem S1x1x256 .f32) (h39 : a39.IsWhole) (a40 : Memref sig .tc .vmem S1x1x256 .f32) (h40 : a40.IsWhole) (a41 : Memref sig .tc .vmem S1x1x256 .f32) (h41 : a41.IsWhole) (a42 : Memref sig .tc .vmem S1x1x256 .f32) (h42 : a42.IsWhole) (a43 : Memref sig .tc .vmem S1x1x256 .f32) (h43 : a43.IsWhole) (a44 : Memref sig .tc .vmem S1x1x256 .f32) (h44 : a44.IsWhole) (a45 : Memref sig .tc .vmem S1x1x256 .f32) (h45 : a45.IsWhole) (a46 : Memref sig .tc .vmem S1x1x256 .f32) (h46 : a46.IsWhole) (a47 : Memref sig .tc .vmem S1x1x256 .f32) (h47 : a47.IsWhole) (a48 : Memref sig .tc .vmem S1x1x256 .f32) (h48 : a48.IsWhole) (a49 : Memref sig .tc .vmem S1x1x256 .f32) (h49 : a49.IsWhole) (a50 : Memref sig .tc .vmem S1x1x256 .f32) (h50 : a50.IsWhole) (a51 : Memref sig .tc .vmem S1x1x256 .f32) (h51 : a51.IsWhole) (a52 : Memref sig .tc .vmem S1x1x256 .f32) (h52 : a52.IsWhole) (a53 : Memref sig .tc .vmem S1x1x256 .f32) (h53 : a53.IsWhole) (a54 : Memref sig .tc .vmem S1x1x256 .f32) (h54 : a54.IsWhole) (a55 : Memref sig .tc .vmem S1x1x256 .f32) (h55 : a55.IsWhole) (a56 : Memref sig .tc .vmem S1x1x256 .f32) (h56 : a56.IsWhole) (a57 : Memref sig .tc .vmem S1x1x256 .f32) (h57 : a57.IsWhole) (a58 : Memref sig .tc .vmem S1x1x256 .f32) (h58 : a58.IsWhole) (a59 : Memref sig .tc .vmem S1x1x256 .f32) (h59 : a59.IsWhole) (a60 : Memref sig .tc .vmem S1x1x256 .f32) (h60 : a60.IsWhole) (a61 : Memref sig .tc .vmem S1x1x256 .f32) (h61 : a61.IsWhole) (a62 : Memref sig .tc .vmem S1x1x256 .f32) (h62 : a62.IsWhole) (a63 : Memref sig .tc .vmem S1x1x256 .f32) (h63 : a63.IsWhole) (a64 : Memref sig .tc .vmem S1x1x256 .f32) (h64 : a64.IsWhole) (a65 : Memref sig .tc .vmem S1x1x256 .f32) (h65 : a65.IsWhole) (a66 : Memref sig .tc .vmem S1x1x256 .f32) (h66 : a66.IsWhole) (a67 : Memref sig .tc .vmem S1x1x256 .f32) (h67 : a67.IsWhole) (a68 : Memref sig .tc .vmem S1x1x256 .f32) (h68 : a68.IsWhole) (a69 : Memref sig .tc .vmem S1x1x256 .f32) (h69 : a69.IsWhole) (a70 : Memref sig .tc .vmem S1x1x256 .f32) (h70 : a70.IsWhole) (a71 : Memref sig .tc .vmem S1x1x256 .f32) (h71 : a71.IsWhole) (a72 : Memref sig .tc .vmem S1x1x256 .f32) (h72 : a72.IsWhole) (a73 : Memref sig .tc .vmem S1x1x256 .f32) (h73 : a73.IsWhole) (a74 : Memref sig .tc .vmem S1x1x256 .f32) (h74 : a74.IsWhole) (a75 : Memref sig .tc .vmem S1x1x256 .f32) (h75 : a75.IsWhole) (a76 : Memref sig .tc .vmem S1x1x256 .f32) (h76 : a76.IsWhole) (a77 : Memref sig .tc .vmem S1x1x256 .f32) (h77 : a77.IsWhole) (a78 : Memref sig .tc .vmem S1x1x256 .f32) (h78 : a78.IsWhole) (a79 : Memref sig .tc .vmem S1x1x256 .f32) (h79 : a79.IsWhole) (a80 : Memref sig .tc .vmem S1x1x256 .f32) (h80 : a80.IsWhole) (a81 : Memref sig .tc .vmem S1x1x256 .f32) (h81 : a81.IsWhole) (a82 : Memref sig .tc .vmem S1x1x256 .f32) (h82 : a82.IsWhole) (a83 : Memref sig .tc .vmem S1x1x256 .f32) (h83 : a83.IsWhole) (a84 : Memref sig .tc .vmem S1x1x256 .f32) (h84 : a84.IsWhole) (a85 : Memref sig .tc .vmem S1x1x256 .f32) (h85 : a85.IsWhole) (a86 : Memref sig .tc .vmem S1x1x256 .f32) (h86 : a86.IsWhole) (a87 : Memref sig .tc .vmem S1x1x256 .f32) (h87 : a87.IsWhole) (a88 : Memref sig .tc .vmem S1x1x256 .f32) (h88 : a88.IsWhole) (a89 : Memref sig .tc .vmem S1x1x256 .f32) (h89 : a89.IsWhole) (a90 : Memref sig .tc .vmem S1x1x256 .f32) (h90 : a90.IsWhole) (a91 : Memref sig .tc .vmem S1x1x256 .f32) (h91 : a91.IsWhole) (a92 : Memref sig .tc .vmem S1x1x256 .f32) (h92 : a92.IsWhole) (a93 : Memref sig .tc .vmem S1x1x256 .f32) (h93 : a93.IsWhole) (a94 : Memref sig .tc .vmem S1x1x256 .f32) (h94 : a94.IsWhole) (a95 : Memref sig .tc .vmem S1x1x256 .f32) (h95 : a95.IsWhole) (aOut : Memref sig .tc .vmem S1x1 .f32) (hOut : aOut.IsWhole) (aAcc : Memref sig .tc .vmem S1x1 .f32) (hAcc : aAcc.IsWhole) (E : Set ℕ),
    (iprop(owns (c : Thread nD τ) a0 fullShare (x 0) ∗ owns (c : Thread nD τ) a1 fullShare (x 1) ∗ owns (c : Thread nD τ) a2 fullShare (x 2) ∗ owns (c : Thread nD τ) a3 fullShare (x 3) ∗ owns (c : Thread nD τ) a4 fullShare (x 4) ∗ owns (c : Thread nD τ) a5 fullShare (x 5) ∗ owns (c : Thread nD τ) a6 fullShare (x 6) ∗ owns (c : Thread nD τ) a7 fullShare (x 7) ∗ owns (c : Thread nD τ) a8 fullShare (x 8) ∗ owns (c : Thread nD τ) a9 fullShare (x 9) ∗ owns (c : Thread nD τ) a10 fullShare (x 10) ∗ owns (c : Thread nD τ) a11 fullShare (x 11) ∗ owns (c : Thread nD τ) a12 fullShare (x 12) ∗ owns (c : Thread nD τ) a13 fullShare (x 13) ∗ owns (c : Thread nD τ) a14 fullShare (x 14) ∗ owns (c : Thread nD τ) a15 fullShare (x 15) ∗ owns (c : Thread nD τ) a16 fullShare (x 16) ∗ owns (c : Thread nD τ) a17 fullShare (x 17) ∗ owns (c : Thread nD τ) a18 fullShare (x 18) ∗ owns (c : Thread nD τ) a19 fullShare (x 19) ∗ owns (c : Thread nD τ) a20 fullShare (x 20) ∗ owns (c : Thread nD τ) a21 fullShare (x 21) ∗ owns (c : Thread nD τ) a22 fullShare (x 22) ∗ owns (c : Thread nD τ) a23 fullShare (x 23) ∗ owns (c : Thread nD τ) a24 fullShare (x 24) ∗ owns (c : Thread nD τ) a25 fullShare (x 25) ∗ owns (c : Thread nD τ) a26 fullShare (x 26) ∗ owns (c : Thread nD τ) a27 fullShare (x 27) ∗ owns (c : Thread nD τ) a28 fullShare (x 28) ∗ owns (c : Thread nD τ) a29 fullShare (x 29) ∗ owns (c : Thread nD τ) a30 fullShare (x 30) ∗ owns (c : Thread nD τ) a31 fullShare (x 31) ∗ owns (c : Thread nD τ) a32 fullShare (x 32) ∗ owns (c : Thread nD τ) a33 fullShare (x 33) ∗ owns (c : Thread nD τ) a34 fullShare (x 34) ∗ owns (c : Thread nD τ) a35 fullShare (x 35) ∗ owns (c : Thread nD τ) a36 fullShare (x 36) ∗ owns (c : Thread nD τ) a37 fullShare (x 37) ∗ owns (c : Thread nD τ) a38 fullShare (x 38) ∗ owns (c : Thread nD τ) a39 fullShare (x 39) ∗ owns (c : Thread nD τ) a40 fullShare (x 40) ∗ owns (c : Thread nD τ) a41 fullShare (x 41) ∗ owns (c : Thread nD τ) a42 fullShare (x 42) ∗ owns (c : Thread nD τ) a43 fullShare (x 43) ∗ owns (c : Thread nD τ) a44 fullShare (x 44) ∗ owns (c : Thread nD τ) a45 fullShare (x 45) ∗ owns (c : Thread nD τ) a46 fullShare (x 46) ∗ owns (c : Thread nD τ) a47 fullShare (x 47) ∗ owns (c : Thread nD τ) a48 fullShare (x 48) ∗ owns (c : Thread nD τ) a49 fullShare (x 49) ∗ owns (c : Thread nD τ) a50 fullShare (x 50) ∗ owns (c : Thread nD τ) a51 fullShare (x 51) ∗ owns (c : Thread nD τ) a52 fullShare (x 52) ∗ owns (c : Thread nD τ) a53 fullShare (x 53) ∗ owns (c : Thread nD τ) a54 fullShare (x 54) ∗ owns (c : Thread nD τ) a55 fullShare (x 55) ∗ owns (c : Thread nD τ) a56 fullShare (x 56) ∗ owns (c : Thread nD τ) a57 fullShare (x 57) ∗ owns (c : Thread nD τ) a58 fullShare (x 58) ∗ owns (c : Thread nD τ) a59 fullShare (x 59) ∗ owns (c : Thread nD τ) a60 fullShare (x 60) ∗ owns (c : Thread nD τ) a61 fullShare (x 61) ∗ owns (c : Thread nD τ) a62 fullShare (x 62) ∗ owns (c : Thread nD τ) a63 fullShare (x 63) ∗ owns (c : Thread nD τ) a64 fullShare (x 64) ∗ owns (c : Thread nD τ) a65 fullShare (x 65) ∗ owns (c : Thread nD τ) a66 fullShare (x 66) ∗ owns (c : Thread nD τ) a67 fullShare (x 67) ∗ owns (c : Thread nD τ) a68 fullShare (x 68) ∗ owns (c : Thread nD τ) a69 fullShare (x 69) ∗ owns (c : Thread nD τ) a70 fullShare (x 70) ∗ owns (c : Thread nD τ) a71 fullShare (x 71) ∗ owns (c : Thread nD τ) a72 fullShare (x 72) ∗ owns (c : Thread nD τ) a73 fullShare (x 73) ∗ owns (c : Thread nD τ) a74 fullShare (x 74) ∗ owns (c : Thread nD τ) a75 fullShare (x 75) ∗ owns (c : Thread nD τ) a76 fullShare (x 76) ∗ owns (c : Thread nD τ) a77 fullShare (x 77) ∗ owns (c : Thread nD τ) a78 fullShare (x 78) ∗ owns (c : Thread nD τ) a79 fullShare (x 79) ∗ owns (c : Thread nD τ) a80 fullShare (x 80) ∗ owns (c : Thread nD τ) a81 fullShare (x 81) ∗ owns (c : Thread nD τ) a82 fullShare (x 82) ∗ owns (c : Thread nD τ) a83 fullShare (x 83) ∗ owns (c : Thread nD τ) a84 fullShare (x 84) ∗ owns (c : Thread nD τ) a85 fullShare (x 85) ∗ owns (c : Thread nD τ) a86 fullShare (x 86) ∗ owns (c : Thread nD τ) a87 fullShare (x 87) ∗ owns (c : Thread nD τ) a88 fullShare (x 88) ∗ owns (c : Thread nD τ) a89 fullShare (x 89) ∗ owns (c : Thread nD τ) a90 fullShare (x 90) ∗ owns (c : Thread nD τ) a91 fullShare (x 91) ∗ owns (c : Thread nD τ) a92 fullShare (x 92) ∗ owns (c : Thread nD τ) a93 fullShare (x 93) ∗ owns (c : Thread nD τ) a94 fullShare (x 94) ∗ owns (c : Thread nD τ) a95 fullShare (x 95)
        ∗ owns (c : Thread nD τ) aOut fullShare o ∗ owns (c : Thread nD τ) aAcc fullShare s) : sProp 𝕄)
      ⊢ wp frame (wpE (defs₀ (F := F)) Variants.none c none) E
          (cc0__kernel i t1 ht1 t2 ht2 t3 ht3 t4 ht4 t5 ht5 t6 ht6 a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79 a80 h80 a81 h81 a82 h82 a83 h83 a84 h84 a85 h85 a86 h86 a87 h87 a88 h88 a89 h89 a90 h90 a91 h91 a92 h92 a93 h93 a94 h94 a95 h95 aOut hOut aAcc hAcc)
          (fun _ => (iprop(owns (c : Thread nD τ) a0 fullShare (x 0) ∗ owns (c : Thread nD τ) a1 fullShare (x 1) ∗ owns (c : Thread nD τ) a2 fullShare (x 2) ∗ owns (c : Thread nD τ) a3 fullShare (x 3) ∗ owns (c : Thread nD τ) a4 fullShare (x 4) ∗ owns (c : Thread nD τ) a5 fullShare (x 5) ∗ owns (c : Thread nD τ) a6 fullShare (x 6) ∗ owns (c : Thread nD τ) a7 fullShare (x 7) ∗ owns (c : Thread nD τ) a8 fullShare (x 8) ∗ owns (c : Thread nD τ) a9 fullShare (x 9) ∗ owns (c : Thread nD τ) a10 fullShare (x 10) ∗ owns (c : Thread nD τ) a11 fullShare (x 11) ∗ owns (c : Thread nD τ) a12 fullShare (x 12) ∗ owns (c : Thread nD τ) a13 fullShare (x 13) ∗ owns (c : Thread nD τ) a14 fullShare (x 14) ∗ owns (c : Thread nD τ) a15 fullShare (x 15) ∗ owns (c : Thread nD τ) a16 fullShare (x 16) ∗ owns (c : Thread nD τ) a17 fullShare (x 17) ∗ owns (c : Thread nD τ) a18 fullShare (x 18) ∗ owns (c : Thread nD τ) a19 fullShare (x 19) ∗ owns (c : Thread nD τ) a20 fullShare (x 20) ∗ owns (c : Thread nD τ) a21 fullShare (x 21) ∗ owns (c : Thread nD τ) a22 fullShare (x 22) ∗ owns (c : Thread nD τ) a23 fullShare (x 23) ∗ owns (c : Thread nD τ) a24 fullShare (x 24) ∗ owns (c : Thread nD τ) a25 fullShare (x 25) ∗ owns (c : Thread nD τ) a26 fullShare (x 26) ∗ owns (c : Thread nD τ) a27 fullShare (x 27) ∗ owns (c : Thread nD τ) a28 fullShare (x 28) ∗ owns (c : Thread nD τ) a29 fullShare (x 29) ∗ owns (c : Thread nD τ) a30 fullShare (x 30) ∗ owns (c : Thread nD τ) a31 fullShare (x 31) ∗ owns (c : Thread nD τ) a32 fullShare (x 32) ∗ owns (c : Thread nD τ) a33 fullShare (x 33) ∗ owns (c : Thread nD τ) a34 fullShare (x 34) ∗ owns (c : Thread nD τ) a35 fullShare (x 35) ∗ owns (c : Thread nD τ) a36 fullShare (x 36) ∗ owns (c : Thread nD τ) a37 fullShare (x 37) ∗ owns (c : Thread nD τ) a38 fullShare (x 38) ∗ owns (c : Thread nD τ) a39 fullShare (x 39) ∗ owns (c : Thread nD τ) a40 fullShare (x 40) ∗ owns (c : Thread nD τ) a41 fullShare (x 41) ∗ owns (c : Thread nD τ) a42 fullShare (x 42) ∗ owns (c : Thread nD τ) a43 fullShare (x 43) ∗ owns (c : Thread nD τ) a44 fullShare (x 44) ∗ owns (c : Thread nD τ) a45 fullShare (x 45) ∗ owns (c : Thread nD τ) a46 fullShare (x 46) ∗ owns (c : Thread nD τ) a47 fullShare (x 47) ∗ owns (c : Thread nD τ) a48 fullShare (x 48) ∗ owns (c : Thread nD τ) a49 fullShare (x 49) ∗ owns (c : Thread nD τ) a50 fullShare (x 50) ∗ owns (c : Thread nD τ) a51 fullShare (x 51) ∗ owns (c : Thread nD τ) a52 fullShare (x 52) ∗ owns (c : Thread nD τ) a53 fullShare (x 53) ∗ owns (c : Thread nD τ) a54 fullShare (x 54) ∗ owns (c : Thread nD τ) a55 fullShare (x 55) ∗ owns (c : Thread nD τ) a56 fullShare (x 56) ∗ owns (c : Thread nD τ) a57 fullShare (x 57) ∗ owns (c : Thread nD τ) a58 fullShare (x 58) ∗ owns (c : Thread nD τ) a59 fullShare (x 59) ∗ owns (c : Thread nD τ) a60 fullShare (x 60) ∗ owns (c : Thread nD τ) a61 fullShare (x 61) ∗ owns (c : Thread nD τ) a62 fullShare (x 62) ∗ owns (c : Thread nD τ) a63 fullShare (x 63) ∗ owns (c : Thread nD τ) a64 fullShare (x 64) ∗ owns (c : Thread nD τ) a65 fullShare (x 65) ∗ owns (c : Thread nD τ) a66 fullShare (x 66) ∗ owns (c : Thread nD τ) a67 fullShare (x 67) ∗ owns (c : Thread nD τ) a68 fullShare (x 68) ∗ owns (c : Thread nD τ) a69 fullShare (x 69) ∗ owns (c : Thread nD τ) a70 fullShare (x 70) ∗ owns (c : Thread nD τ) a71 fullShare (x 71) ∗ owns (c : Thread nD τ) a72 fullShare (x 72) ∗ owns (c : Thread nD τ) a73 fullShare (x 73) ∗ owns (c : Thread nD τ) a74 fullShare (x 74) ∗ owns (c : Thread nD τ) a75 fullShare (x 75) ∗ owns (c : Thread nD τ) a76 fullShare (x 76) ∗ owns (c : Thread nD τ) a77 fullShare (x 77) ∗ owns (c : Thread nD τ) a78 fullShare (x 78) ∗ owns (c : Thread nD τ) a79 fullShare (x 79) ∗ owns (c : Thread nD τ) a80 fullShare (x 80) ∗ owns (c : Thread nD τ) a81 fullShare (x 81) ∗ owns (c : Thread nD τ) a82 fullShare (x 82) ∗ owns (c : Thread nD τ) a83 fullShare (x 83) ∗ owns (c : Thread nD τ) a84 fullShare (x 84) ∗ owns (c : Thread nD τ) a85 fullShare (x 85) ∗ owns (c : Thread nD τ) a86 fullShare (x 86) ∗ owns (c : Thread nD τ) a87 fullShare (x 87) ∗ owns (c : Thread nD τ) a88 fullShare (x 88) ∗ owns (c : Thread nD τ) a89 fullShare (x 89) ∗ owns (c : Thread nD τ) a90 fullShare (x 90) ∗ owns (c : Thread nD τ) a91 fullShare (x 91) ∗ owns (c : Thread nD τ) a92 fullShare (x 92) ∗ owns (c : Thread nD τ) a93 fullShare (x 93) ∗ owns (c : Thread nD τ) a94 fullShare (x 94) ∗ owns (c : Thread nD τ) a95 fullShare (x 95)
        ∗ owns (c : Thread nD τ) aOut fullShare o' ∗ owns (c : Thread nD τ) aAcc fullShare s') : sProp 𝕄))

/-- A stored one-by-one value read back: the last store wins, a reload sees the store before it, and what is stored
    is one step over the rows. -/
macro_rules | `(tactic| sl_pure) => `(tactic| (
  refine (read_writes_cons_whole _ _ _ _ _).trans ?_
  try rw [View.readCov_unit_zero (S := S1x1) _ hz2]
  unfold step
  try unfold acc0
  simp only [View.readAt_eq_ld, *, View.ld_unit_zero (S := S1x1x256) hz3, View.ld_unit_zero (S := S1x1) hz2]))

end Cert.KernelIdeal.Hand

end
-- ==== Proof.BodyFirst.lean ====
import proofs.«409637_j57681410785658_2_alg».proof.Proof.BodyCond
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At the first point the accumulator is reset before the terms are added, so it ends one step from the reset value. -/
theorem body_first (i : grid0.Coords) (hc1 : condFirst i) (hc2 : ¬ condLast i)
    (x : Fin 96 → Vec F S1x1x256 .f32) (o s : Vec F S1x1 .f32) : BodyTriple i x o s o (step x acc0) := by
  unfold BodyTriple
  intro c t1 ht1 t2 ht2 t3 ht3 t4 ht4 t5 ht5 t6 ht6 a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79 a80 h80 a81 h81 a82 h82 a83 h83 a84 h84 a85 h85 a86 h86 a87 h87 a88 h88 a89 h89 a90 h90 a91 h91 a92 h92 a93 h93 a94 h94 a95 h95 aOut hOut aAcc hAcc E
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩, ⟨%f56, %hf56, H56⟩, ⟨%f57, %hf57, H57⟩, ⟨%f58, %hf58, H58⟩, ⟨%f59, %hf59, H59⟩, ⟨%f60, %hf60, H60⟩, ⟨%f61, %hf61, H61⟩, ⟨%f62, %hf62, H62⟩, ⟨%f63, %hf63, H63⟩, ⟨%f64, %hf64, H64⟩, ⟨%f65, %hf65, H65⟩, ⟨%f66, %hf66, H66⟩, ⟨%f67, %hf67, H67⟩, ⟨%f68, %hf68, H68⟩, ⟨%f69, %hf69, H69⟩, ⟨%f70, %hf70, H70⟩, ⟨%f71, %hf71, H71⟩, ⟨%f72, %hf72, H72⟩, ⟨%f73, %hf73, H73⟩, ⟨%f74, %hf74, H74⟩, ⟨%f75, %hf75, H75⟩, ⟨%f76, %hf76, H76⟩, ⟨%f77, %hf77, H77⟩, ⟨%f78, %hf78, H78⟩, ⟨%f79, %hf79, H79⟩, ⟨%f80, %hf80, H80⟩, ⟨%f81, %hf81, H81⟩, ⟨%f82, %hf82, H82⟩, ⟨%f83, %hf83, H83⟩, ⟨%f84, %hf84, H84⟩, ⟨%f85, %hf85, H85⟩, ⟨%f86, %hf86, H86⟩, ⟨%f87, %hf87, H87⟩, ⟨%f88, %hf88, H88⟩, ⟨%f89, %hf89, H89⟩, ⟨%f90, %hf90, H90⟩, ⟨%f91, %hf91, H91⟩, ⟨%f92, %hf92, H92⟩, ⟨%f93, %hf93, H93⟩, ⟨%f94, %hf94, H94⟩, ⟨%f95, %hf95, H95⟩, ⟨%fo, %hfo, Ho⟩, ⟨%fs, %hfs, Hs⟩⟩
  sl_exec (disch := first | exact hc1 | exact hc2)
  sl_step
  sl_unfold_run_names
  sl_close

end Cert.KernelIdeal.Hand

end
-- ==== Proof.BodyMid.lean ====
import proofs.«409637_j57681410785658_2_alg».proof.Proof.BodyCond
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- Between the first and the last point the accumulator goes one step on and the output buffer is left alone. -/
theorem body_mid (i : grid0.Coords) (hc1 : ¬ condFirst i) (hc2 : ¬ condLast i)
    (x : Fin 96 → Vec F S1x1x256 .f32) (o s : Vec F S1x1 .f32) : BodyTriple i x o s o (step x s) := by
  unfold BodyTriple
  intro c t1 ht1 t2 ht2 t3 ht3 t4 ht4 t5 ht5 t6 ht6 a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79 a80 h80 a81 h81 a82 h82 a83 h83 a84 h84 a85 h85 a86 h86 a87 h87 a88 h88 a89 h89 a90 h90 a91 h91 a92 h92 a93 h93 a94 h94 a95 h95 aOut hOut aAcc hAcc E
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩, ⟨%f56, %hf56, H56⟩, ⟨%f57, %hf57, H57⟩, ⟨%f58, %hf58, H58⟩, ⟨%f59, %hf59, H59⟩, ⟨%f60, %hf60, H60⟩, ⟨%f61, %hf61, H61⟩, ⟨%f62, %hf62, H62⟩, ⟨%f63, %hf63, H63⟩, ⟨%f64, %hf64, H64⟩, ⟨%f65, %hf65, H65⟩, ⟨%f66, %hf66, H66⟩, ⟨%f67, %hf67, H67⟩, ⟨%f68, %hf68, H68⟩, ⟨%f69, %hf69, H69⟩, ⟨%f70, %hf70, H70⟩, ⟨%f71, %hf71, H71⟩, ⟨%f72, %hf72, H72⟩, ⟨%f73, %hf73, H73⟩, ⟨%f74, %hf74, H74⟩, ⟨%f75, %hf75, H75⟩, ⟨%f76, %hf76, H76⟩, ⟨%f77, %hf77, H77⟩, ⟨%f78, %hf78, H78⟩, ⟨%f79, %hf79, H79⟩, ⟨%f80, %hf80, H80⟩, ⟨%f81, %hf81, H81⟩, ⟨%f82, %hf82, H82⟩, ⟨%f83, %hf83, H83⟩, ⟨%f84, %hf84, H84⟩, ⟨%f85, %hf85, H85⟩, ⟨%f86, %hf86, H86⟩, ⟨%f87, %hf87, H87⟩, ⟨%f88, %hf88, H88⟩, ⟨%f89, %hf89, H89⟩, ⟨%f90, %hf90, H90⟩, ⟨%f91, %hf91, H91⟩, ⟨%f92, %hf92, H92⟩, ⟨%f93, %hf93, H93⟩, ⟨%f94, %hf94, H94⟩, ⟨%f95, %hf95, H95⟩, ⟨%fo, %hfo, Ho⟩, ⟨%fs, %hfs, Hs⟩⟩
  sl_exec (disch := first | exact hc1 | exact hc2)
  sl_step
  sl_unfold_run_names
  sl_close

end Cert.KernelIdeal.Hand

end
-- ==== Proof.BodyLast.lean ====
import proofs.«409637_j57681410785658_2_alg».proof.Proof.BodyCond
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At the last point the accumulator goes one step on and is copied to the output buffer. -/
theorem body_last (i : grid0.Coords) (hc1 : ¬ condFirst i) (hc2 : condLast i)
    (x : Fin 96 → Vec F S1x1x256 .f32) (o s : Vec F S1x1 .f32) : BodyTriple i x o s (step x s) (step x s) := by
  unfold BodyTriple
  intro c t1 ht1 t2 ht2 t3 ht3 t4 ht4 t5 ht5 t6 ht6 a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79 a80 h80 a81 h81 a82 h82 a83 h83 a84 h84 a85 h85 a86 h86 a87 h87 a88 h88 a89 h89 a90 h90 a91 h91 a92 h92 a93 h93 a94 h94 a95 h95 aOut hOut aAcc hAcc E
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩, ⟨%f56, %hf56, H56⟩, ⟨%f57, %hf57, H57⟩, ⟨%f58, %hf58, H58⟩, ⟨%f59, %hf59, H59⟩, ⟨%f60, %hf60, H60⟩, ⟨%f61, %hf61, H61⟩, ⟨%f62, %hf62, H62⟩, ⟨%f63, %hf63, H63⟩, ⟨%f64, %hf64, H64⟩, ⟨%f65, %hf65, H65⟩, ⟨%f66, %hf66, H66⟩, ⟨%f67, %hf67, H67⟩, ⟨%f68, %hf68, H68⟩, ⟨%f69, %hf69, H69⟩, ⟨%f70, %hf70, H70⟩, ⟨%f71, %hf71, H71⟩, ⟨%f72, %hf72, H72⟩, ⟨%f73, %hf73, H73⟩, ⟨%f74, %hf74, H74⟩, ⟨%f75, %hf75, H75⟩, ⟨%f76, %hf76, H76⟩, ⟨%f77, %hf77, H77⟩, ⟨%f78, %hf78, H78⟩, ⟨%f79, %hf79, H79⟩, ⟨%f80, %hf80, H80⟩, ⟨%f81, %hf81, H81⟩, ⟨%f82, %hf82, H82⟩, ⟨%f83, %hf83, H83⟩, ⟨%f84, %hf84, H84⟩, ⟨%f85, %hf85, H85⟩, ⟨%f86, %hf86, H86⟩, ⟨%f87, %hf87, H87⟩, ⟨%f88, %hf88, H88⟩, ⟨%f89, %hf89, H89⟩, ⟨%f90, %hf90, H90⟩, ⟨%f91, %hf91, H91⟩, ⟨%f92, %hf92, H92⟩, ⟨%f93, %hf93, H93⟩, ⟨%f94, %hf94, H94⟩, ⟨%f95, %hf95, H95⟩, ⟨%fo, %hfo, Ho⟩, ⟨%fs, %hfs, Hs⟩⟩
  sl_exec (disch := first | exact hc1 | exact hc2)
  sl_step
  sl_unfold_run_names
  sl_close

end Cert.KernelIdeal.Hand

end
-- ==== Proof.Body.lean ====
import proofs.«409637_j57681410785658_2_alg».proof.Proof.BodyFirst
import proofs.«409637_j57681410785658_2_alg».proof.Proof.BodyMid
import proofs.«409637_j57681410785658_2_alg».proof.Proof.BodyLast
-- ==== Proof.OutArray.lean ====
import proofs.«409637_j57681410785658_2_alg».proof.Proof.Data
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]
variable (m : (ℓ : Loc nD τ sig) → Buf (Elt F) ℓ)

section Sched
variable (a : (pcfg0 (F := F)).Adm)

theorem isOut96 : ((cfg0 a).win 96).isOut = true := rfl

theorem index96 (t t' : Fin (cfg0 a).N) : ((cfg0 a).win 96).index t = ((cfg0 a).win 96).index t' := rfl

theorem flush96 (t : Fin (cfg0 a).N) : ((cfg0 a).win 96).flush t = decide (t.val + 1 = 256) := by
  unfold Window.flush
  rw [isOut96 a, Bool.true_and]
  have hN : (cfg0 a).grid.N = 256 := N_0
  have hd : decide (∃ h : t.val + 1 < (cfg0 a).grid.N, ((cfg0 a).win 96).index ⟨t.val + 1, h⟩ ≠ ((cfg0 a).win 96).index t) = false := by
    rw [decide_eq_false_iff_not]
    rintro ⟨h, hne⟩
    exact hne (index96 a _ _)
  rw [hd, Bool.or_false]
  exact decide_eq_decide.mpr ⟨fun h => h.trans hN, fun h => h.trans hN.symm⟩

theorem off96 (t : Fin (cfg0 a).N) :
    (fun b => ((cfg0 a).win 96).index t b * main_v2.ty.shape.size b) = fun _ => 0 :=
  funext fun b => by match b with | ⟨0, _⟩ => rfl | ⟨1, _⟩ => rfl

theorem read96 (t : Fin (cfg0 a).N) (G : Vec F S1x1 .f32) :
    (((cfg0 a).win 96).blk t).view.read (Elt F) G = G :=
  Memref.read_access_unit_zero (Elt F) main_v2 (off96 a t) (fun b => by rw [congrFun (off96 a t) b]; simp) G

theorem mem96 (t : Fin (cfg0 a).N) (i : S1x1.Idx) : i ∈ (((cfg0 a).win 96).blk t).view.set := by
  have inb : ∀ b, ((cfg0 a).win 96).index t b * main_v2.ty.shape.size b + main_v2.ty.shape.size b
      ≤ main_v2.ty.shape.size b := fun b => by rw [congrFun (off96 a t) b]; simp
  show i ∈ ((View.whole main_v2).slice (Rect.unit
    (fun b => ((cfg0 a).win 96).index t b * main_v2.ty.shape.size b) main_v2.ty.shape.size inb)).set
  rw [View.set_slice_whole]
  exact View.mem_set_unit_zero (off96 a t) inb i

end Sched

section Final
variable (q : Fin 97 → PosShare TreeShare) (hO : Ok m) (c : Dev nD)

theorem after96 (t : Fin (cfgM m hO).N) : (dats m q hO 0 c).after (96 : Fin 97) t = accAt m hO c (t.val + 1) := rfl

theorem flushed96 (t : Fin (cfgM m hO).N) (hf : ((cfgM m hO).win 96).flush t = true) :
    (dats m q hO 0 c).flushed (96 : Fin 97) t
      = (((cfgM m hO).win 96).blk t).view.read (Elt F) (accAt m hO c 256) := by
  have ht : t.val + 1 = 256 := of_decide_eq_true ((flush96 (adm m hO) t).symm.trans hf)
  rw [read96 (adm m hO) t]
  show (dats m q hO 0 c).after (96 : Fin 97) t = _
  rw [after96, ht]

/-- The output array after the run is the accumulator after all 256 points. -/
theorem arrAt_out : (dats m q hO 0 c).arrAt (96 : Fin 97) (cfgM m hO).N = accAt m hO c 256 :=
  (dats m q hO 0 c).arrAt_eq_of_cover (96 : Fin 97) (accAt m hO c 256) (flushed96 m q hO c) fun i =>
    ⟨⟨255, by rw [show (cfgM m hO).N = 256 from N_0]; decide⟩,
      (flush96 (adm m hO) _).trans (decide_eq_true rfl), mem96 (adm m hO) _ i⟩

theorem arrAt_out_apply (i : S1x1.Idx) :
    (dats m q hO 0 c).arrAt (96 : Fin 97) (cfgM m hO).N i = accAt m hO c 256 i :=
  congrFun (arrAt_out m q hO c) i

end Final

end Cert.KernelIdeal.Hand

end
-- ==== Proof.Obligation.lean ====
import proofs.«409637_j57681410785658_2_alg».proof.Proof.ObligationTab
import proofs.«409637_j57681410785658_2_alg».proof.Proof.Body
import proofs.«409637_j57681410785658_2_alg».proof.Proof.OutArray
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem idle_out (a : (pcfg0 (F := F)).Adm) (i : (cfg0 a).grid.Coords) : (cfg0 a).idle 96 i = !(k0_cond2 i == 1#1) := rfl

theorem condFirst_iff : ∀ t : Fin grid0.N, condFirst (grid0.coords t) ↔ t.val = 0 := by decide +kernel

theorem condLast_iff : ∀ t : Fin grid0.N, condLast (grid0.coords t) ↔ t.val = 255 := by decide +kernel

theorem accAt_succ (hO : Ok m) (c : Dev nD) (t : Fin (cfgM m hO).N) :
    accAt m hO c (t.val + 1) = step (rows m hO c t) (accAt m hO c t.val) := by
  rw [accAt, dif_pos t.isLt]

/-- A triple used under a frame: what is left over waits for the triple's post. -/
theorem run_with {prog : Prog (TpuEff nD τ sig (Elt F) Λ₀ .tc) PUnit} {c : Dev nD} {E : Set ℕ} {P Q R : sProp 𝕄}
    (h : P ⊢ wp frame (wpE (defs₀ (F := F)) Variants.none c none) E prog (fun _ => Q)) :
    iprop(P ∗ (Q -∗ R)) ⊢ wp frame (wpE (defs₀ (F := F)) Variants.none c none) E prog (fun _ => R) :=
  (sep_mono_l h).trans ((wp_frame_r _ _ _).trans (wp_mono _ _ _ fun _ => wand_elim_right))

set_option maxHeartbeats 1000000 in
/-- The first point: the step starts from the reset value whatever the buffer held. -/
theorem sound_first (q : Fin 97 → PosShare TreeShare) (hO : Ok m) (c : Dev nD) (t : Fin (cfgM m hO).N) (h0 : t.val = 0) :
    bodyPre m q hO c t ⊢ wp frame (wpE (defs₀ (F := F)) Variants.none c none) Set.univ (bodyAt (adm m hO) t)
      (fun _ => bodyPost m q hO c t) := by
  have hlast : t.val ≠ 255 := by omega
  unfold bodyPre bodyPost
  rw [bigSep_W0, bigSep_W0]
  beta_reduce
  have hN : t.val < 256 := t.isLt
  have hc2 : ¬ condLast (grid0.coords t) := fun h => hlast ((condLast_iff t).mp h)
  have hidle : (cfgM m hO).idle (96 : Fin 97) ((cfgM m hO).grid.coords t) = true := by
    have : (!(k0_cond2 (grid0.coords t) == 1#1)) = true := by simpa using hc2
    exact this
  have hflush : ((cfgM m hO).win (96 : Fin 97)).flush t = false := by
    rw [flush96]; exact decide_eq_false (by omega)
  rewrite [hidle, hflush]
  dsimp only
  simp (disch := decide) only [before_w]
  unfold ΦAcc
  simp only [Fin.coe_castSucc, Fin.val_succ]
  obl_intro
  have hc1 : condFirst (grid0.coords t) := (condFirst_iff t).mpr h0
  iapply (run_with (obl_at(body_first (grid0.coords t) hc1 hc2 (rows m hO c t) _ X, c) Set.univ))
  isplitr [HT Ho]
  · obl_give
  obl_take
  isplitl [HT HAcc]
  · isplitl [HT]
    · iexact HT
    iexists _
    isplitl [HAcc]
    · iexact HAcc
    ipureintro
    intro _
    rw [accAt_succ, h0, accAt]
  isplitl [Ho]
  · iexact Ho
  obl_return_rows
  iexists _
  iexact H96

set_option maxHeartbeats 1000000 in
/-- A point between: the accumulator, at `accAt` by the invariant, goes one step on. -/
theorem sound_mid (q : Fin 97 → PosShare TreeShare) (hO : Ok m) (c : Dev nD) (t : Fin (cfgM m hO).N) (h0 : t.val ≠ 0) (hlast : t.val ≠ 255) :
    bodyPre m q hO c t ⊢ wp frame (wpE (defs₀ (F := F)) Variants.none c none) Set.univ (bodyAt (adm m hO) t)
      (fun _ => bodyPost m q hO c t) := by
  unfold bodyPre bodyPost
  rw [bigSep_W0, bigSep_W0]
  beta_reduce
  have hN : t.val < 256 := t.isLt
  have hc2 : ¬ condLast (grid0.coords t) := fun h => hlast ((condLast_iff t).mp h)
  have hidle : (cfgM m hO).idle (96 : Fin 97) ((cfgM m hO).grid.coords t) = true := by
    have : (!(k0_cond2 (grid0.coords t) == 1#1)) = true := by simpa using hc2
    exact this
  have hflush : ((cfgM m hO).win (96 : Fin 97)).flush t = false := by
    rw [flush96]; exact decide_eq_false (by omega)
  rewrite [hidle, hflush]
  dsimp only
  simp (disch := decide) only [before_w]
  unfold ΦAcc
  simp only [Fin.coe_castSucc, Fin.val_succ]
  obl_intro
  have hc1 : ¬ condFirst (grid0.coords t) := fun h => h0 ((condFirst_iff t).mp h)
  iapply (run_with (obl_at(body_mid (grid0.coords t) hc1 hc2 (rows m hO c t) _ X, c) Set.univ))
  isplitr [HT Ho]
  · obl_give
  obl_take
  isplitl [HT HAcc]
  · isplitl [HT]
    · iexact HT
    iexists _
    isplitl [HAcc]
    · iexact HAcc
    ipureintro
    intro _
    rw [accAt_succ, hX h0]
  isplitl [Ho]
  · iexact Ho
  obl_return_rows
  iexists _
  iexact H96

set_option maxHeartbeats 1000000 in
/-- The last point: one more step, and the output window takes the accumulator's value. -/
theorem sound_last (q : Fin 97 → PosShare TreeShare) (hO : Ok m) (c : Dev nD) (t : Fin (cfgM m hO).N) (hlast : t.val = 255) :
    bodyPre m q hO c t ⊢ wp frame (wpE (defs₀ (F := F)) Variants.none c none) Set.univ (bodyAt (adm m hO) t)
      (fun _ => bodyPost m q hO c t) := by
  unfold bodyPre bodyPost
  rw [bigSep_W0, bigSep_W0]
  beta_reduce
  have h0 : t.val ≠ 0 := by omega
  have hc1 : ¬ condFirst (grid0.coords t) := fun h => h0 ((condFirst_iff t).mp h)
  have hc2 : condLast (grid0.coords t) := (condLast_iff t).mpr hlast
  have hidle : (cfgM m hO).idle (96 : Fin 97) ((cfgM m hO).grid.coords t) = false := by
    have : (!(k0_cond2 (grid0.coords t) == 1#1)) = false := by
      rw [show k0_cond2 (grid0.coords t) = 1#1 from hc2]; rfl
    exact this
  rewrite [hidle]
  dsimp only
  simp (disch := decide) only [before_w]
  unfold ΦAcc
  simp only [Fin.coe_castSucc, Fin.val_succ]
  obl_intro
  rw [after96 m q hO c t, accAt_succ, ← hX h0]
  iapply (run_with (obl_at(body_last (grid0.coords t) hc1 hc2 (rows m hO c t) _ X, c) Set.univ))
  isplitr [HT Ho]
  · obl_give
  obl_take
  isplitl [HT HAcc]
  · isplitl [HT]
    · iexact HT
    iexists _
    isplitl [HAcc]
    · iexact HAcc
    ipureintro
    intro _
    rfl
  isplitl [Ho]
  · iexact Ho
  obl_return_rows
  iexact H96

theorem sound_body (q : Fin 97 → PosShare TreeShare) (hO : Ok m) (c : Dev nD) (t : Fin (cfgM m hO).N)  :
    bodyPre m q hO c t ⊢ wp frame (wpE (defs₀ (F := F)) Variants.none c none) Set.univ (bodyAt (adm m hO) t)
      (fun _ => bodyPost m q hO c t) := by
  by_cases hlast : t.val = 255
  · exact sound_last m q hO c t hlast
  · by_cases h0 : t.val = 0
    · exact sound_first m q hO c t h0
    · exact sound_mid m q hO c t h0 hlast

set_option maxHeartbeats 1000000 in
/-- The obligation at every point is the body's triple, by the point's place in the grid. -/
theorem body_obligation (q : Fin 97 → PosShare TreeShare) (hO : Ok m) (c : Dev nD) :
    BodyObligation (dats m q hO 0 c) (defs₀ (F := F)) Variants.none () Set.univ := fun t => by
  sl_whnfR [defs₀, Defs.onTc]
  exact sound_body m q hO c t

end Cert.KernelIdeal.Hand

end
-- ==== Proof.Launch.lean ====
import proofs.«409637_j57681410785658_2_alg».proof.Proof.Data
import proofs.«409637_j57681410785658_2_alg».proof.Proof.Shares
import proofs.«409637_j57681410785658_2_alg».proof.Proof.Obligation
import Idealize.ShloMosaic.Lib.Pipeline.Regions
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev pt (c : Dev nD) (b : Ref sig .tc) (f : Buf (Elt F) ((c : Thread nD τ).loc b)) : sProp 𝕄 :=
  ((c : Thread nD τ).loc b) ↦{fullShare} f

def bufsAll : Finset (DevRef τ sig) :=
  {Proc.devRef .tc main_arg0, Proc.devRef .tc main_arg1, Proc.devRef .tc main_arg2, Proc.devRef .tc main_arg3,
   Proc.devRef .tc main_arg4, Proc.devRef .tc main_arg5, Proc.devRef .tc main_arg6, Proc.devRef .tc main_arg7,
   Proc.devRef .tc main_v0, Proc.devRef .tc main_v1, Proc.devRef .tc main_v2, Proc.devRef .tc main_v3}

def bufsOut : Finset (DevRef τ sig) := {Proc.devRef .tc main_v2, Proc.devRef .tc main_v3}

def all12 (c : Dev nD) (W : Valuation τ sig (Elt F)) : sProp 𝕄 :=
  iprop(pt c main_arg0 (W main_arg0) ∗ pt c main_arg1 (W main_arg1) ∗ pt c main_arg2 (W main_arg2) ∗ pt c main_arg3 (W main_arg3)
    ∗ pt c main_arg4 (W main_arg4) ∗ pt c main_arg5 (W main_arg5) ∗ pt c main_arg6 (W main_arg6) ∗ pt c main_arg7 (W main_arg7)
    ∗ pt c main_v0 (W main_v0) ∗ pt c main_v1 (W main_v1) ∗ pt c main_v2 (W main_v2) ∗ pt c main_v3 (W main_v3))

omit [FloatOps F] in
theorem held_all_eq (c : Dev nD) (W : Valuation τ sig (Elt F)) :
    (StableHlo.held (c : Thread nD τ) bufsAll W : sProp 𝕄) = all12 c W := by
  unfold StableHlo.held all12
  rw [bigSep_eq_bigSepL_of_eq [Proc.devRef .tc main_arg0, Proc.devRef .tc main_arg1, Proc.devRef .tc main_arg2, Proc.devRef .tc main_arg3,
    Proc.devRef .tc main_arg4, Proc.devRef .tc main_arg5, Proc.devRef .tc main_arg6, Proc.devRef .tc main_arg7,
    Proc.devRef .tc main_v0, Proc.devRef .tc main_v1, Proc.devRef .tc main_v2, Proc.devRef .tc main_v3] (by decide) (by decide)]
  rfl

omit [FloatOps F] in
theorem unscopedBufs_eq (c : Dev nD) (W : Valuation τ sig (Elt F)) :
    (unscopedBufs c (fun b => W b) : sProp 𝕄) = all12 c W := by
  unfold unscopedBufs all12
  rw [bigSep_eq_bigSepL_of_eq [main_arg0, main_arg1, main_arg2, main_arg3, main_arg4, main_arg5, main_arg6, main_arg7,
    main_v0, main_v1, main_v2, main_v3] (by decide) (by decide)]
  rfl

omit [FloatOps F] in
theorem held_out_eq (c : Dev nD) (W : Valuation τ sig (Elt F)) :
    (StableHlo.held (c : Thread nD τ) bufsOut W : sProp 𝕄) = iprop(pt c main_v2 (W main_v2) ∗ pt c main_v3 (W main_v3)) := by
  unfold StableHlo.held
  rw [bigSep_eq_bigSepL_of_eq [Proc.devRef .tc main_v2, Proc.devRef .tc main_v3] (by decide) (by decide)]
  rfl

theorem V_keep (c : Dev nD) (b : Ref sig .tc) (h0 : b ≠ main_v0) (h1 : b ≠ main_v1) :
    V m c b = m ((c : Thread nD τ).loc b) := by
  show StableHlo.after hostOps0 (V₀ m c) (Proc.devRef .tc b) = _
  rw [StableHlo.after_cons, StableHlo.after_cons, StableHlo.after_nil, StableHlo.reshape_result_ne _ _ _ _ _ _ _ h1,
    StableHlo.reshape_result_ne _ _ _ _ _ _ _ h0]

theorem V_pre (c : Dev nD) (j : Fin 6) : V m c (pre0.ref j) = tbl m j := by
  obtain rfl : c = 0 := Subsingleton.elim _ _
  unfold tbl
  match j with
  | 0 => exact V_keep m 0 _ (by decide) (by decide)
  | 1 => exact V_keep m 0 _ (by decide) (by decide)
  | 2 => exact V_keep m 0 _ (by decide) (by decide)
  | 3 => exact V_keep m 0 _ (by decide) (by decide)
  | 4 => exact V_keep m 0 _ (by decide) (by decide)
  | 5 => exact V_keep m 0 _ (by decide) (by decide)

theorem prefHeld_eq (c : Dev nD) (T : pre0.Contents (Elt F)) :
    (Pipeline.prefHeld (Ix := Unit) (Name := ℕ) (U := UR sig nD τ) (Lvl := ℕ) (Val := Elt F) pre0 c (fun _ => fullShare) T : sProp 𝕄)
      = iprop(pt c main_arg2 (T 0) ∗ pt c main_arg3 (T 1) ∗ pt c main_arg4 (T 2) ∗ pt c main_arg5 (T 3) ∗ pt c main_arg6 (T 4) ∗ pt c main_arg7 (T 5)) := by
  unfold Pipeline.prefHeld
  rw [bigSep_univ_eq_bigSepL [(0 : Fin 6), 1, 2, 3, 4, 5] (by decide) (by decide)]
  rfl

theorem tbl_eq (c : Dev nD) (j : Fin 6) : tbl m j = m ((c : Thread nD τ).loc (pre0.ref j)) := by
  obtain rfl : c = 0 := Subsingleton.elim _ _
  rfl

abbrev L : GSem nD τ sig → Finset Unit := fun _ => ∅
abbrev lv : GSem nD τ sig → Unit → ℕ := fun _ _ => 0
abbrev 𝒱₀ : Variants := Variants.none

abbrev EP : Emb (UR sig nD τ) 𝕄 := emb₁

abbrev admF (hO : Ok m) : (p : Fin 1) → (pcfgs (F := F) p).Adm := fun _ => adm m hO

abbrev R (c : Dev nD) : sProp 𝕄 := iprop(∃ W, owes (c : Thread nD τ) (0 : CellTallies nD τ sig Unit) W)

abbrev resAt (hO : Ok m) (c : Dev nD) : Buf (Elt F) ((c : Thread nD τ).loc main_v2) :=
  (dats m qOf hO 0 c).arrAt (96 : Fin 97) (cfgM m hO).N

abbrev V₂ (hO : Ok m) (c : Dev nD) : Valuation τ sig (Elt F) :=
  Function.update (StableHlo.after hostOps0 (V₀ m c)) (Proc.devRef .tc main_v2) (resAt m hO c)

theorem V₂_res (hO : Ok m) (c : Dev nD) : V₂ m hO c (Proc.devRef .tc main_v2) = resAt m hO c := Function.update_self ..
theorem V₂_ne (hO : Ok m) (c : Dev nD) (b : Ref sig .tc) (h : b ≠ main_v2) : V₂ m hO c (Proc.devRef .tc b) = V m c b :=
  Function.update_of_ne (StableHlo.devRef_ne_of_ne h) ..

def outVal (hO : Ok m) (c : Dev nD) : Buf (Elt F) ((c : Thread nD τ).loc main_v3) :=
  fun i => shapeCast S_ (resAt m hO c) shapeCasts_S1x1_S_ i

theorem after_out (hO : Ok m) (c : Dev nD) :
    StableHlo.after hostOps1 (V₂ m hO c) (Proc.devRef .tc main_v3) = outVal m hO c := by
  rw [StableHlo.after_cons, StableHlo.after_nil, StableHlo.reshape_result', V₂_res]
  rfl

def inputsAt (hO : Ok m) (c : Dev nD) : sProp 𝕄 :=
  bigSep (Finset.univ.erase (96 : Fin 97)) fun w : Fin (cfgM m hO).W =>
    (((cfgM m hO).win w).arr.view.loc (c : Thread nD τ)
      ↦[((cfgM m hO).win w).arr.view.set]{(dats m qOf hO 0 c).share w} (dats m qOf hO 0 c).arrAt w (cfgM m hO).N : sProp 𝕄)

theorem arrays_exit (hO : Ok m) (c : Dev nD) :
    ((dats m qOf hO 0 c).arrays ((dats m qOf hO 0 c).arrAt · (cfgM m hO).N) : sProp 𝕄)
      = iprop(pt c main_v2 (resAt m hO c) ∗ inputsAt m hO c) := by
  unfold Dat.arrays inputsAt
  rw [bigSep_erase (Finset.mem_univ (96 : Fin 97))]
  rfl

theorem owes_in (hO : Ok m) (c : Dev nD) (t : Fin ((cfgM m hO).N + 1)) : R c ⊢ ((dats m qOf hO 0 c).owesAt () t : sProp 𝕄) := by
  unfold Pipeline.Dat.owesAt Pipeline.owesWithin
  iintro ⟨%W, HO⟩
  iexists W
  isplitr
  · ipureintro; exact fun _ _ => Or.inl trivial
  iexact HO
theorem owes_out (hO : Ok m) (c : Dev nD) (t : Fin ((cfgM m hO).N + 1)) : ((dats m qOf hO 0 c).owesAt () t : sProp 𝕄) ⊢ R c := by
  unfold Pipeline.Dat.owesAt Pipeline.owesWithin
  iintro ⟨%W, -, HO⟩
  iexists W
  iexact HO

theorem ops0_sub : ∀ op ∈ (hostOps0 : List (HloOp τ sig (Elt F))), op.bufs ⊆ bufsAll := fun op h => by
  simp only [List.mem_cons, List.mem_nil_iff, or_false] at h
  rcases h with rfl | rfl
  · show ({Proc.devRef .tc main_arg0, Proc.devRef .tc main_v0} : Finset (DevRef τ sig)) ⊆ bufsAll; decide
  · show ({Proc.devRef .tc main_arg1, Proc.devRef .tc main_v1} : Finset (DevRef τ sig)) ⊆ bufsAll; decide
theorem ops0_fresh : ∀ op ∈ (hostOps0 : List (HloOp τ sig (Elt F))), op.fresh = ∅ := fun op h => by
  simp only [List.mem_cons, List.mem_nil_iff, or_false] at h
  rcases h with rfl | rfl <;> rfl
theorem ops1_sub : ∀ op ∈ (hostOps1 : List (HloOp τ sig (Elt F))), op.bufs ⊆ bufsOut := fun op h => by
  simp only [List.mem_singleton] at h; subst h
  show ({Proc.devRef .tc main_v2, Proc.devRef .tc main_v3} : Finset (DevRef τ sig)) ⊆ bufsOut; decide
theorem ops1_fresh : ∀ op ∈ (hostOps1 : List (HloOp τ sig (Elt F))), op.fresh = ∅ := fun op h => by
  simp only [List.mem_singleton] at h; subst h; rfl

def seg0 : Pipeline.HostSeg (Name := ℕ) (U := UR sig nD τ) (pcfgs (F := F)) defs₀ 𝒱₀ L lv :=
  Pipeline.HostSeg.ofOps _ _ _ _ _ bufsAll hostOps0 ops0_sub ops0_fresh (V₀ m) R

abbrev R₂ (hO : Ok m) (c : Dev nD) : sProp 𝕄 :=
  iprop(inputsAt m hO c
    ∗ Pipeline.prefHeld (Ix := Unit) (Name := ℕ) (U := UR sig nD τ) (Lvl := ℕ) (Val := Elt F) pre0 c (fun _ => fullShare) (tbl m)
    ∗ pt c main_arg0 (V m c main_arg0) ∗ pt c main_arg1 (V m c main_arg1) ∗ R c)

def seg2 (hO : Ok m) : Pipeline.HostSeg (Name := ℕ) (U := UR sig nD τ) (pcfgs (F := F)) defs₀ 𝒱₀ L lv :=
  Pipeline.HostSeg.ofOps _ _ _ _ _ bufsOut hostOps1 ops1_sub ops1_fresh (V₂ m hO) (R₂ m hO)

theorem tables_in (c : Dev nD) :
    iprop(pt c main_arg2 (V m c main_arg2) ∗ pt c main_arg3 (V m c main_arg3) ∗ pt c main_arg4 (V m c main_arg4)
      ∗ pt c main_arg5 (V m c main_arg5) ∗ pt c main_arg6 (V m c main_arg6) ∗ pt c main_arg7 (V m c main_arg7))
    ⊢ (Pipeline.prefHeld (Ix := Unit) (Name := ℕ) (U := UR sig nD τ) (Lvl := ℕ) (Val := Elt F) pre0 c (fun _ => fullShare) (tbl m) : sProp 𝕄) := by
  rw [prefHeld_eq, ← V_pre m c 0, ← V_pre m c 1, ← V_pre m c 2, ← V_pre m c 3, ← V_pre m c 4, ← V_pre m c 5]
  exact .rfl

set_option backward.isDefEq.respectTransparency.types false in
/-- The kernel region between the two host stretches, with what it takes at entry and gives back at exit. -/
def reg0 (hO : Ok m) : Pipeline.RegionSeg (pcfgs (F := F)) (admF m hO) (dats m qOf hO) () defs₀ 𝒱₀ L lv 0 where
  win := winFacts₀0
  block_pos := block_pos0
  stage_whole := stage_whole0
  K := PEmpty
  osem k := k.elim
  ho := Pipeline.OwnSemFacts.none _
  hbody c := (body_obligation m qOf hO c).loose
  hwaits := Pipeline.hwaits_of_owed_zero _ _ _ _ L lv 0 fun _ _ => rfl
  pre c := iprop(StableHlo.held (c : Thread nD τ) bufsAll (StableHlo.after hostOps0 (V₀ m c)) ∗ R c)
  post c := iprop(StableHlo.held (c : Thread nD τ) bufsOut (V₂ m hO c) ∗ R₂ m hO c)
  X _ := iprop(emp)
  Y c := Pipeline.prefHeld (Ix := Unit) (Name := ℕ) (U := UR sig nD τ) (Lvl := ℕ) (Val := Elt F) pre0 c (fun _ => fullShare) (tbl m)
  Z c := iprop(pt c main_arg0 (V m c main_arg0) ∗ pt c main_arg1 (V m c main_arg1) ∗ pt c main_v3 (V m c main_v3))
  hentry c := by
    rw [held_all_eq, Pipeline.ownSems0_none]
    unfold all12
    iintro ⟨⟨⟨H0, H1, H2, H3, H4, H5, H6, H7, Hv0, Hv1, Hv2, Hv3⟩, HO⟩, -, -⟩
    imodintro
    isplitl [Hv0 Hv1 Hv2]
    · rw [show ((dats m qOf hO 0 c).arrAt · 0) = fun w => V m c (Pipeline.arrRef spec0 w) from rfl,
        ← tables_eq_arrays (adm m hO) c (dats m qOf hO 0 c) rfl (V m c)]
      isplitl [Hv0]; · iexact Hv0
      isplitl [Hv1] <;> iassumption
    isplitl [H2 H3 H4 H5 H6 H7]
    · iapply (tables_in m c)
      isplitl [H2]; · iexact H2
      isplitl [H3]; · iexact H3
      isplitl [H4]; · iexact H4
      isplitl [H5]; · iexact H5
      isplitl [H6] <;> iassumption
    isplitl [HO]; · iapply (owes_in m hO c 0); iexact HO
    isplitr; · iempintro
    isplitl [H0]; · iexact H0
    isplitl [H1] <;> iassumption
  hin c := by
    rw [show (dats m qOf hO 0 c).Φ 0 = ΦAcc m hO c 0 from rfl, scopedRest0_eq]
    unfold ΦAcc
    iintro ⟨-, Ht, ⟨%f, Hs⟩⟩
    isplitl [Ht]; · iexact Ht
    iexists f
    rw [owns_whole_eq]
    isplitl [Hs]
    · iexists f; isplitr; · ipureintro; rfl
      iexact Hs
    ipureintro; intro h; exact absurd rfl h
  hout c := by
    rw [show (dats m qOf hO 0 c).Φ (Fin.last _) = ΦAcc m hO c (Fin.last _) from rfl, Pipeline.ownSems0_none, scopedRest0_eq]
    unfold ΦAcc
    simp only [owns_whole_eq]
    iintro ⟨Ht, ⟨%X, ⟨%f, -, Hs⟩, -⟩⟩
    isplitl [Ht]; · iexact Ht
    isplitr; · iempintro
    iexists f; iexact Hs
  hexit c := by
    rw [arrays_exit, held_out_eq, V₂_res, V₂_ne m hO c main_v3 (by decide)]
    iintro ⟨⟨Hr, Hin⟩, HO, Ht, ⟨H0, H1, H3⟩⟩
    imodintro
    isplitl [Hr H3]
    · isplitl [Hr] <;> iassumption
    isplitl [Hin]; · iexact Hin
    isplitl [Ht]; · iexact Ht
    isplitl [H0]; · iexact H0
    isplitl [H1]; · iexact H1
    iapply (owes_out m hO c _); iexact HO

abbrev segs (hO : Ok m) : List (Pipeline.Seg (pcfgs (F := F)) (admF m hO) (dats m qOf hO) () defs₀ 𝒱₀ L lv) :=
  [.host (seg0 m), .region (reg0 m hO), .host (seg2 m hO)]

abbrev Tₙ (hO : Ok m) (c : Dev nD) : sProp 𝕄 :=
  iprop(pt c main_v3 (outVal m hO c) ∗ pt c main_arg0 (m ((c : Thread nD τ).loc main_arg0)) ∗ pt c main_arg1 (m ((c : Thread nD τ).loc main_arg1))
    ∗ Pipeline.prefHeld (Ix := Unit) (Name := ℕ) (U := UR sig nD τ) (Lvl := ℕ) (Val := Elt F) pre0 c (fun _ => fullShare) (tbl m))

def QY (hO : Ok m) (c : Dev nD) (s : MemSt nD τ sig (Elt F)) : Prop :=
  s.mem ((c : Thread nD τ).loc main_v3) = outVal m hO c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)

set_option backward.isDefEq.respectTransparency.types false in
/-- Every fair run of the program ends, without a fault, at the scalar result and the arguments unchanged. -/
theorem run_main (hO : Ok m) : θ_run defs (onTc (τ := τ) (main (F := F))) ⟨m, fun _ => 0, ρ⟩ (fun r => ∀ c : Dev nD,
    r.2.mem ((c : Thread nD τ).loc main_v3) = outVal m hO c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  Pipeline.θ_run_regions_kit (pcfgs (F := F)) (admF m hO) (dats m qOf hO) () (cellOf_inj (admF m hO)) EP defs₀ 𝒱₀ L lv m ρ main (segs m hO)
    (fun c Q => by rw [main_segs (admF m hO) (dats m qOf hO) () 𝒱₀ L lv (seg0 m) (seg2 m hO) (reg0 m hO) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (admF m hO)) (cellOf_inj (admF m hO)))
      (Pipeline.launchToks (Pipeline.pin (pcfgs (F := F)) (admF m hO)) (cellOf_inj (admF m hO))))
    (hu₀ := by
      iintro Hu
      imodintro
      isplitl [Hu]
      · iapply (show (ownU _ : sProp 𝕄) ⊢ BI.own (EP (initOf (Pipeline.cells (Pipeline.pin (pcfgs (F := F)) (admF m hO)) (cellOf_inj (admF m hO)))
          (Pipeline.launchToks (Pipeline.pin (pcfgs (F := F)) (admF m hO)) (cellOf_inj (admF m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) bufsAll (V₀ m c) ∗ R c)) (Tₙ := Tₙ m hO)
    (hch := by
      refine ⟨fun c => .rfl, fun c => .rfl, fun c => .rfl, fun c => ?_⟩
      show iprop(StableHlo.held (c : Thread nD τ) bufsOut (StableHlo.after hostOps1 (V₂ m hO c)) ∗ R₂ m hO c)
        ⊢ iprop(Tₙ m hO c ∗ ∃ W, owes (c : Thread nD τ) (0 : CellTallies nD τ sig Unit) W)
      unfold R₂ Tₙ
      rw [held_out_eq, after_out, V_keep m c main_arg0 (by decide) (by decide), V_keep m c main_arg1 (by decide) (by decide)]
      iintro ⟨⟨-, H3⟩, -, Ht, H0, H1, HO⟩
      isplitr [HO]
      · isplitl [H3]; · iexact H3
        isplitl [H0]; · iexact H0
        isplitl [H1] <;> iassumption
      · iexact HO)
    (hinit := by
      refine Pipeline.initEach L lv fun c => ?_
      rw [show unscopedBufs c (fun b => m ((c : Thread nD τ).loc b)) = StableHlo.held (c : Thread nD τ) bufsAll (V₀ m c) from
        (unscopedBufs_eq c (V₀ m c)).trans (held_all_eq c (V₀ m c)).symm]
      iintro ⟨⟨Hh, -, HO, -, -, -⟩, -⟩
      imodintro
      isplitl [Hh]; · iexact Hh
      iexists ∅; iexact HO)
    (QY := QY m hO)
    (hfin := fun c s' => by
      dsimp only [Tₙ]
      rw [prefHeld_eq, tbl_eq m c 0, tbl_eq m c 1, tbl_eq m c 2, tbl_eq m c 3, tbl_eq m c 4, tbl_eq m c 5]
      iintro ⟨⟨H3, H0, H1, T0, T1, T2, T3, T4, T5⟩, HSI⟩
      icombine HSI H3 gives %h3
      icombine HSI H0 gives %h0
      icombine HSI H1 gives %h1
      icombine HSI T0 gives %k0
      icombine HSI T1 gives %k1
      icombine HSI T2 gives %k2
      icombine HSI T3 gives %k3
      icombine HSI T4 gives %k4
      icombine HSI T5 gives %k5
      imodintro
      isplitr
      · ipureintro
        exact ⟨Buf.eq_of_forall_mem_univ h3, Buf.eq_of_forall_mem_univ h0, Buf.eq_of_forall_mem_univ h1, Buf.eq_of_forall_mem_univ k0,
          Buf.eq_of_forall_mem_univ k1, Buf.eq_of_forall_mem_univ k2, Buf.eq_of_forall_mem_univ k3, Buf.eq_of_forall_mem_univ k4,
          Buf.eq_of_forall_mem_univ k5⟩
      iexact HSI)
    (hQ := fun _ h => h)

/-- info: 'Cert.KernelIdeal.Hand.run_main' depends on axioms: [propext, Classical.choice, Quot.sound] -/
#guard_msgs in #print axioms run_main

end Cert.KernelIdeal.Hand

end
-- ==== Proof.RowTabBits.lean ====
import proofs.«409637_j57681410785658_2_alg».proof.Proof.SetupBits

/-! Two tables by window. `rows`: the ninety-six row blocks a grid point is handed, as vectors of
their literal shape. `afterTab`: what each window's staging buffer holds after the body at a point:
a row window its row, the output window the given accumulator value. -/

set_option maxRecDepth 16384

noncomputable section

namespace Cert.Kernel.Hand

open Cert.Kernel Cert.Kernel.Gen
open Idealize.ShloMosaic Idealize.ShloMosaic.TcCoe Idealize.SL.Sem

variable {F : FTy → Type} [FloatOps F]
variable (m : (ℓ : Loc nD τ sig) → Buf (Elt F) ℓ)

def rows (hO : Ok m) (c : Dev nD) (t : Fin (cfgM m hO).N) : Fin 96 → Vec F S1x1x256 .f32 :=
  fun w => match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => iblk m hO c 38 t
    | ⟨39, _⟩ => iblk m hO c 39 t
    | ⟨40, _⟩ => iblk m hO c 40 t
    | ⟨41, _⟩ => iblk m hO c 41 t
    | ⟨42, _⟩ => iblk m hO c 42 t
    | ⟨43, _⟩ => iblk m hO c 43 t
    | ⟨44, _⟩ => iblk m hO c 44 t
    | ⟨45, _⟩ => iblk m hO c 45 t
    | ⟨46, _⟩ => iblk m hO c 46 t
    | ⟨47, _⟩ => iblk m hO c 47 t
    | ⟨48, _⟩ => iblk m hO c 48 t
    | ⟨49, _⟩ => iblk m hO c 49 t
    | ⟨50, _⟩ => iblk m hO c 50 t
    | ⟨51, _⟩ => iblk m hO c 51 t
    | ⟨52, _⟩ => iblk m hO c 52 t
    | ⟨53, _⟩ => iblk m hO c 53 t
    | ⟨54, _⟩ => iblk m hO c 54 t
    | ⟨55, _⟩ => iblk m hO c 55 t
    | ⟨56, _⟩ => iblk m hO c 56 t
    | ⟨57, _⟩ => iblk m hO c 57 t
    | ⟨58, _⟩ => iblk m hO c 58 t
    | ⟨59, _⟩ => iblk m hO c 59 t
    | ⟨60, _⟩ => iblk m hO c 60 t
    | ⟨61, _⟩ => iblk m hO c 61 t
    | ⟨62, _⟩ => iblk m hO c 62 t
    | ⟨63, _⟩ => iblk m hO c 63 t
    | ⟨64, _⟩ => iblk m hO c 64 t
    | ⟨65, _⟩ => iblk m hO c 65 t
    | ⟨66, _⟩ => iblk m hO c 66 t
    | ⟨67, _⟩ => iblk m hO c 67 t
    | ⟨68, _⟩ => iblk m hO c 68 t
    | ⟨69, _⟩ => iblk m hO c 69 t
    | ⟨70, _⟩ => iblk m hO c 70 t
    | ⟨71, _⟩ => iblk m hO c 71 t
    | ⟨72, _⟩ => iblk m hO c 72 t
    | ⟨73, _⟩ => iblk m hO c 73 t
    | ⟨74, _⟩ => iblk m hO c 74 t
    | ⟨75, _⟩ => iblk m hO c 75 t
    | ⟨76, _⟩ => iblk m hO c 76 t
    | ⟨77, _⟩ => iblk m hO c 77 t
    | ⟨78, _⟩ => iblk m hO c 78 t
    | ⟨79, _⟩ => iblk m hO c 79 t
    | ⟨80, _⟩ => iblk m hO c 80 t
    | ⟨81, _⟩ => iblk m hO c 81 t
    | ⟨82, _⟩ => iblk m hO c 82 t
    | ⟨83, _⟩ => iblk m hO c 83 t
    | ⟨84, _⟩ => iblk m hO c 84 t
    | ⟨85, _⟩ => iblk m hO c 85 t
    | ⟨86, _⟩ => iblk m hO c 86 t
    | ⟨87, _⟩ => iblk m hO c 87 t
    | ⟨88, _⟩ => iblk m hO c 88 t
    | ⟨89, _⟩ => iblk m hO c 89 t
    | ⟨90, _⟩ => iblk m hO c 90 t
    | ⟨91, _⟩ => iblk m hO c 91 t
    | ⟨92, _⟩ => iblk m hO c 92 t
    | ⟨93, _⟩ => iblk m hO c 93 t
    | ⟨94, _⟩ => iblk m hO c 94 t
    | ⟨95, _⟩ => iblk m hO c 95 t
    | ⟨_ + 96, h⟩ => absurd h (Nat.not_lt.2 (Nat.le_add_left _ _))

def afterTab (hO : Ok m) (c : Dev nD) (acc : Vec F S1x1 .f32) (w : Fin (cfgM m hO).W) (t : Fin (cfgM m hO).N) :
    ((cfgM m hO).win w).block.Idx → Elt F ((cfgM m hO).win w).elt :=
  match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => iblk m hO c 14 t
    | ⟨15, _⟩ => iblk m hO c 15 t
    | ⟨16, _⟩ => iblk m hO c 16 t
    | ⟨17, _⟩ => iblk m hO c 17 t
    | ⟨18, _⟩ => iblk m hO c 18 t
    | ⟨19, _⟩ => iblk m hO c 19 t
    | ⟨20, _⟩ => iblk m hO c 20 t
    | ⟨21, _⟩ => iblk m hO c 21 t
    | ⟨22, _⟩ => iblk m hO c 22 t
    | ⟨23, _⟩ => iblk m hO c 23 t
    | ⟨24, _⟩ => iblk m hO c 24 t
    | ⟨25, _⟩ => iblk m hO c 25 t
    | ⟨26, _⟩ => iblk m hO c 26 t
    | ⟨27, _⟩ => iblk m hO c 27 t
    | ⟨28, _⟩ => iblk m hO c 28 t
    | ⟨29, _⟩ => iblk m hO c 29 t
    | ⟨30, _⟩ => iblk m hO c 30 t
    | ⟨31, _⟩ => iblk m hO c 31 t
    | ⟨32, _⟩ => iblk m hO c 32 t
    | ⟨33, _⟩ => iblk m hO c 33 t
    | ⟨34, _⟩ => iblk m hO c 34 t
    | ⟨35, _⟩ => iblk m hO c 35 t
    | ⟨36, _⟩ => iblk m hO c 36 t
    | ⟨37, _⟩ => iblk m hO c 37 t
    | ⟨38, _⟩ => iblk m hO c 38 t
    | ⟨39, _⟩ => iblk m hO c 39 t
    | ⟨40, _⟩ => iblk m hO c 40 t
    | ⟨41, _⟩ => iblk m hO c 41 t
    | ⟨42, _⟩ => iblk m hO c 42 t
    | ⟨43, _⟩ => iblk m hO c 43 t
    | ⟨44, _⟩ => iblk m hO c 44 t
    | ⟨45, _⟩ => iblk m hO c 45 t
    | ⟨46, _⟩ => iblk m hO c 46 t
    | ⟨47, _⟩ => iblk m hO c 47 t
    | ⟨48, _⟩ => iblk m hO c 48 t
    | ⟨49, _⟩ => iblk m hO c 49 t
    | ⟨50, _⟩ => iblk m hO c 50 t
    | ⟨51, _⟩ => iblk m hO c 51 t
    | ⟨52, _⟩ => iblk m hO c 52 t
    | ⟨53, _⟩ => iblk m hO c 53 t
    | ⟨54, _⟩ => iblk m hO c 54 t
    | ⟨55, _⟩ => iblk m hO c 55 t
    | ⟨56, _⟩ => iblk m hO c 56 t
    | ⟨57, _⟩ => iblk m hO c 57 t
    | ⟨58, _⟩ => iblk m hO c 58 t
    | ⟨59, _⟩ => iblk m hO c 59 t
    | ⟨60, _⟩ => iblk m hO c 60 t
    | ⟨61, _⟩ => iblk m hO c 61 t
    | ⟨62, _⟩ => iblk m hO c 62 t
    | ⟨63, _⟩ => iblk m hO c 63 t
    | ⟨64, _⟩ => iblk m hO c 64 t
    | ⟨65, _⟩ => iblk m hO c 65 t
    | ⟨66, _⟩ => iblk m hO c 66 t
    | ⟨67, _⟩ => iblk m hO c 67 t
    | ⟨68, _⟩ => iblk m hO c 68 t
    | ⟨69, _⟩ => iblk m hO c 69 t
    | ⟨70, _⟩ => iblk m hO c 70 t
    | ⟨71, _⟩ => iblk m hO c 71 t
    | ⟨72, _⟩ => iblk m hO c 72 t
    | ⟨73, _⟩ => iblk m hO c 73 t
    | ⟨74, _⟩ => iblk m hO c 74 t
    | ⟨75, _⟩ => iblk m hO c 75 t
    | ⟨76, _⟩ => iblk m hO c 76 t
    | ⟨77, _⟩ => iblk m hO c 77 t
    | ⟨78, _⟩ => iblk m hO c 78 t
    | ⟨79, _⟩ => iblk m hO c 79 t
    | ⟨80, _⟩ => iblk m hO c 80 t
    | ⟨81, _⟩ => iblk m hO c 81 t
    | ⟨82, _⟩ => iblk m hO c 82 t
    | ⟨83, _⟩ => iblk m hO c 83 t
    | ⟨84, _⟩ => iblk m hO c 84 t
    | ⟨85, _⟩ => iblk m hO c 85 t
    | ⟨86, _⟩ => iblk m hO c 86 t
    | ⟨87, _⟩ => iblk m hO c 87 t
    | ⟨88, _⟩ => iblk m hO c 88 t
    | ⟨89, _⟩ => iblk m hO c 89 t
    | ⟨90, _⟩ => iblk m hO c 90 t
    | ⟨91, _⟩ => iblk m hO c 91 t
    | ⟨92, _⟩ => iblk m hO c 92 t
    | ⟨93, _⟩ => iblk m hO c 93 t
    | ⟨94, _⟩ => iblk m hO c 94 t
    | ⟨95, _⟩ => iblk m hO c 95 t
    | ⟨96, _⟩ => acc
    | ⟨_ + 97, h⟩ => absurd h (Nat.not_lt.2 (Nat.le_add_left _ _))

end Cert.Kernel.Hand

end
-- ==== Proof.StepBits.lean ====
import proofs.«409637_j57681410785658_2_alg».proof.Proof.SetupBits

noncomputable section

namespace Cert.Kernel.Hand

open Cert.Kernel Cert.Kernel.Gen
open Idealize.ShloMosaic

variable {F : FTy → Type} [FloatOps F]

/-- The accumulator after one grid point, from the point's ninety-six rows and what it held. -/
def step (x : Fin 96 → Vec F S1x1x256 .f32) (s : Vec F S1x1 .f32) : Vec F S1x1 .f32 :=

  let v3 : FVec F S1x1 .f32 := k0_pay2
  let v32 : FVec F S1x1 .f32 := k0_pay3 (x 0) (x 16) (x 32) (x 48) (x 64) (x 80)

  let v67 : FVec F S1x1 .f32 := k0_pay4 v3 v32 (x 1) (x 17) (x 33) (x 49) (x 65) (x 81)

  let v99 : FVec F S1x1 .f32 := k0_pay5 v67 (x 2) (x 18) (x 34) (x 50) (x 66) (x 82)
  let v101 : FVec F S1x256 .f32 := k0_pay6 (x 3)

  let v131 : FVec F S1x1 .f32 := k0_pay7 v99 v101 (x 19) (x 35) (x 51) (x 67) (x 83)
  let v133 : FVec F S1x256 .f32 := k0_pay8 (x 4)
  let v135 : FVec F S1x256 .f32 := k0_pay9 (x 20)

  let v163 : FVec F S1x1 .f32 := k0_pay10 v131 v133 v135 (x 36) (x 52) (x 68) (x 84)
  let v165 : FVec F S1x256 .f32 := k0_pay11 (x 5)
  let v167 : FVec F S1x256 .f32 := k0_pay12 (x 21)
  let v169 : FVec F S1x256 .f32 := k0_pay13 (x 37)

  let v195 : FVec F S1x1 .f32 := k0_pay14 v163 v165 v167 v169 (x 53) (x 69) (x 85)
  let v197 : FVec F S1x256 .f32 := k0_pay15 (x 6)
  let v199 : FVec F S1x256 .f32 := k0_pay16 (x 22)
  let v201 : FVec F S1x256 .f32 := k0_pay17 (x 38)
  let v203 : FVec F S1x256 .f32 := k0_pay18 (x 54)

  let v227 : FVec F S1x1 .f32 := k0_pay19 v195 v197 v199 v201 v203 (x 70) (x 86)
  let v229 : FVec F S1x256 .f32 := k0_pay20 (x 7)
  let v231 : FVec F S1x256 .f32 := k0_pay21 (x 23)
  let v233 : FVec F S1x256 .f32 := k0_pay22 (x 39)
  let v235 : FVec F S1x256 .f32 := k0_pay23 (x 55)
  let v237 : FVec F S1x256 .f32 := k0_pay24 (x 71)

  let v259 : FVec F S1x1 .f32 := k0_pay25 v227 v229 v231 v233 v235 v237 (x 87)
  let v265 : FVec F S1x256 .f32 := k0_pay26 (x 40)
  let v267 : FVec F S1x256 .f32 := k0_pay27 (x 56)
  let v269 : FVec F S1x256 .f32 := k0_pay28 (x 72)
  let v271 : FVec F S1x256 .f32 := k0_pay29 (x 88)
  let v272 : FVec F S1x256 .f32 := k0_pay30 (x 8) (x 24)

  let v291 : FVec F S1x1 .f32 := k0_pay31 v259 v265 v267 v269 v271 v272
  let v307 : FVec F S1x256 .f32 := k0_pay32 (x 57) (x 73) (x 89)
  let v308 : FVec F S1x256 .f32 := k0_pay33 (x 9) (x 25) (x 41)

  let v323 : FVec F S1x1 .f32 := k0_pay34 v291 v307 v308
  let v343 : FVec F S1x1 .f32 := k0_pay35 (x 10) (x 26) (x 42)
  let v344 : FVec F S1x256 .f32 := k0_pay36 (x 58) (x 74) (x 90)

  let v355 : FVec F S1x1 .f32 := k0_pay37 v323 v343 v344
  let v375 : FVec F S1x1 .f32 := k0_pay38 (x 11) (x 27) (x 43)
  let v379 : FVec F S1x1 .f32 := k0_pay39 (x 59) (x 75) (x 91)
  let v380 : FVec F S1x1 .f32 := k0_pay40

  let v387 : FVec F S1x1 .f32 := k0_pay41 v355 v375 v379 v380
  let v416 : FVec F S1x1 .f32 := k0_pay42 (x 12) (x 28) (x 44) (x 60) (x 76) (x 92)

  let v451 : FVec F S1x1 .f32 := k0_pay43 v387 v416 (x 13) (x 29) (x 45) (x 61) (x 77) (x 93)

  let v483 : FVec F S1x1 .f32 := k0_pay44 v451 (x 14) (x 30) (x 46) (x 62) (x 78) (x 94)
  let v485 : FVec F S1x256 .f32 := k0_pay45 (x 15)

  k0_pay46 v483 v485 (x 31) (x 47) (x 63) (x 79) (x 95) s

/-- The value the first point resets the accumulator to. -/
def acc0 : Vec F S1x1 .f32 := k0_pay1

end Cert.Kernel.Hand

end
-- ==== Proof.DataBits.lean ====
import proofs.«409637_j57681410785658_2_alg».proof.Proof.RowTabBits
import proofs.«409637_j57681410785658_2_alg».proof.Proof.StepBits

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The accumulator before point `n`: the reset value, then one step per point. -/
def accAt (hO : Ok m) (c : Dev nD) : Nat → Vec F S1x1 .f32
  | 0 => acc0
  | n + 1 => if h : n < (cfgM m hO).N then step (rows m hO c ⟨n, h⟩) (accAt hO c n) else accAt hO c n

/-- Between points: the index vectors, and the accumulator at `accAt` (at anything before the first point). -/
def ΦAcc (hO : Ok m) (c : Dev nD) (t : Fin ((cfgM m hO).N + 1)) : sProp 𝕄 :=
  iprop(Pipeline.prefHeld (Ix := Unit) (Name := ℕ) (U := UR sig nD τ) (Lvl := ℕ) (Val := Elt F) pre0 c (fun _ => fullShare) (tbl m)
    ∗ ∃ X : Vec F S1x1 .f32, owns (c : Thread nD τ) (Memref.whole cc0_scratch0) fullShare X ∗ ⌜t.val ≠ 0 → X = accAt m hO c t.val⌝)

/-- After the body a row window holds its row and the output window the accumulator. -/
def dats (q : Fin 97 → PosShare TreeShare) (hO : Ok m) (_ : Fin 1) (c : Dev nD) :
    Dat τ (Elt F) Unit ℕ (UR sig nD τ) ℕ (cfgM m hO) c where
  A w := V m c (Pipeline.arrRef spec0 w)
  after w t := afterTab m hO c (accAt m hO c (t.val + 1)) w t
  Φ t := ΦAcc m hO c t
  q := q
  owed _ := 0

end Cert.Kernel.Hand

end
-- ==== Proof.SharesBits.lean ====
import proofs.«409637_j57681410785658_2_alg».proof.Proof.SetupBits
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

section Deal

variable {ι : Type} [DecidableEq ι]

def deal (q : PosShare TreeShare) : List ι → ι → PosShare TreeShare
  | [], _ => q
  | [_], _ => q
  | a :: b :: l, i => if i = a then q.right else deal q.left (b :: l) i

theorem bigSepL_congr {M : Type} [URA M] {Φ Ψ : ι → sProp M} :
    ∀ {l : List ι}, (∀ i ∈ l, Φ i = Ψ i) → bigSepL l Φ = bigSepL l Ψ
  | [], _ => rfl
  | a :: l, h => by
    rw [bigSepL_cons, bigSepL_cons, h a (List.mem_cons_self ..),
      bigSepL_congr fun i hi => h i (List.mem_cons_of_mem _ hi)]

variable {Ix : Type} [DecidableEq Ix] {Val : EltTy → Type} {Name : Type} [DecidableEq Name]
  {U : Type} [URA U] {Lvl : Type}

local notation "𝕄" => MT nD τ sig Ix Val Name U Lvl

/-- Halving what is left at every window but the last deals a whole points-to along a list without remainder. -/
theorem pointsTo_deal {ℓ : Loc nD τ sig} {S : Finset (Idx ℓ)} (f : Buf Val ℓ) :
    ∀ (l : List ι), l.Nodup → l ≠ [] → ∀ q : PosShare TreeShare,
      (ℓ ↦[S]{q} f : sProp 𝕄) = bigSepL l fun i => (ℓ ↦[S]{deal q l i} f : sProp 𝕄)
  | [], _, h, _ => absurd rfl h
  | [a], _, _, q => rfl
  | a :: b :: l, hl, _, q => by
    obtain ⟨ha, hl'⟩ := List.nodup_cons.mp hl
    have ih : (ℓ ↦[S]{q.left} f : sProp 𝕄) = bigSepL (b :: l) fun i => (ℓ ↦[S]{deal q.left (b :: l) i} f : sProp 𝕄) :=
      pointsTo_deal f (b :: l) hl' (List.cons_ne_nil _ _) q.left
    have hs : (ℓ ↦[S]{q} f : sProp 𝕄) ⊣⊢ iprop((ℓ ↦[S]{q.left} f) ∗ ℓ ↦[S]{q.right} f) :=
      pointsTo_share (PosShare.mem_left_op_right q)
    have htail : (bigSepL (b :: l) fun i => (ℓ ↦[S]{deal q (a :: b :: l) i} f : sProp 𝕄))
        = bigSepL (b :: l) fun i => (ℓ ↦[S]{deal q.left (b :: l) i} f : sProp 𝕄) :=
      bigSepL_congr fun i hi => by
        have hia : i ≠ a := fun e => ha (e ▸ hi)
        show (ℓ ↦[S]{if i = a then q.right else deal q.left (b :: l) i} f : sProp 𝕄) = _
        rw [if_neg hia]
    rw [bigSepL_cons_cons, htail, ← ih]
    show _ = iprop((ℓ ↦[S]{if a = a then q.right else deal q.left (b :: l) a} f) ∗ ℓ ↦[S]{q.left} f)
    rw [if_pos rfl]
    exact equiv_iff.mp ⟨hs.1.trans sep_comm, sep_comm.trans hs.2⟩

end Deal

def onEnt (w : Fin 97) : Prop := w.val < 16 ∨ (32 ≤ w.val ∧ w.val < 64) ∨ (80 ≤ w.val ∧ w.val < 96)

def onRel (w : Fin 97) : Prop := (16 ≤ w.val ∧ w.val < 32) ∨ (64 ≤ w.val ∧ w.val < 80)

instance : DecidablePred onEnt := fun w => by unfold onEnt; infer_instance
instance : DecidablePred onRel := fun w => by unfold onRel; infer_instance

def entWins : List (Fin 97) := (List.finRange 97).filter fun w => onEnt w
def relWins : List (Fin 97) := (List.finRange 97).filter fun w => onRel w

theorem mem_entWins {w : Fin 97} : w ∈ entWins ↔ onEnt w := by
  simp [entWins, List.mem_filter, List.mem_finRange]

theorem mem_relWins {w : Fin 97} : w ∈ relWins ↔ onRel w := by
  simp [relWins, List.mem_filter, List.mem_finRange]

theorem entWins_nodup : entWins.Nodup := (List.nodup_finRange 97).filter _
theorem relWins_nodup : relWins.Nodup := (List.nodup_finRange 97).filter _

theorem entWins_ne_nil : entWins ≠ [] :=
  List.ne_nil_of_mem (mem_entWins.mpr (show onEnt 0 from Or.inl (by decide)))
theorem relWins_ne_nil : relWins ≠ [] :=
  List.ne_nil_of_mem (mem_relWins.mpr (show onRel 16 from Or.inl (by decide)))

def qOf (w : Fin 97) : PosShare TreeShare :=
  if onEnt w then deal fullShare entWins w else deal fullShare relWins w

theorem arrRef_spec0 : ∀ w : Fin 97,
    Pipeline.arrRef spec0 w = if onEnt w then main_v0 else if onRel w then main_v1 else main_v2 := by
  decide

theorem isOut_spec0 : ∀ w : Fin 97, (spec0 w).isOut = decide (w = 96) := by decide

section Split

variable {Ix : Type} [DecidableEq Ix] {Val : EltTy → Type} {Name : Type} [DecidableEq Name]
  {U : Type} [URA U] {Lvl : Type}

local notation "𝕄" => MT nD τ sig Ix Val Name U Lvl

theorem tables_eq_windows (c : Dev nD) (V' : (b : Ref sig .tc) → Buf Val ((c : Thread nD τ).loc b)) :
    (iprop((((c : Thread nD τ).loc main_v0) ↦{fullShare} V' main_v0)
        ∗ (((c : Thread nD τ).loc main_v1) ↦{fullShare} V' main_v1)
        ∗ (((c : Thread nD τ).loc main_v2) ↦{fullShare} V' main_v2)) : sProp 𝕄)
      = bigSep Finset.univ fun w : Fin 97 =>
          ((spec0 w).arr.view.loc (c : Thread nD τ) ↦[(spec0 w).arr.view.set]{if (spec0 w).isOut then fullShare else qOf w}
            V' (Pipeline.arrRef spec0 w) : sProp 𝕄) := by
  classical

  let P : Ref sig .tc → PosShare TreeShare → sProp 𝕄 := fun b q => ((c : Thread nD τ).loc b ↦{q} V' b)

  have hΦ : ∀ w : Fin 97,
      ((spec0 w).arr.view.loc (c : Thread nD τ) ↦[(spec0 w).arr.view.set]{if (spec0 w).isOut then fullShare else qOf w}
          V' (Pipeline.arrRef spec0 w) : sProp 𝕄)
        = P (if onEnt w then main_v0 else if onRel w then main_v1 else main_v2) (if w = 96 then fullShare else qOf w) := fun w => by
    rw [(arr_whole0 w).set_eq_univ, isOut_spec0 w]
    show P (Pipeline.arrRef spec0 w) (if decide (w = 96) = true then fullShare else qOf w) = _
    rw [arrRef_spec0 w]
    simp only [decide_eq_true_eq]
  rw [bigSep_congr fun w _ => hΦ w]

  have hU : (Finset.univ : Finset (Fin 97)) = entWins.toFinset ∪ (relWins.toFinset ∪ {96}) := by
    ext w
    simp only [Finset.mem_univ, Finset.mem_union, List.mem_toFinset, Finset.mem_singleton, mem_entWins, mem_relWins,
      onEnt, onRel, Fin.ext_iff, true_iff]
    omega
  have hd₁ : Disjoint entWins.toFinset (relWins.toFinset ∪ {96}) := by
    rw [Finset.disjoint_left]
    intro w h₀ h₁
    simp only [Finset.mem_union, List.mem_toFinset, Finset.mem_singleton, mem_entWins, mem_relWins, onEnt, onRel,
      Fin.ext_iff] at h₀ h₁
    omega
  have hd₂ : Disjoint relWins.toFinset ({96} : Finset (Fin 97)) := by
    rw [Finset.disjoint_left]
    intro w h₀ h₁
    simp only [List.mem_toFinset, Finset.mem_singleton, mem_relWins, onRel, Fin.ext_iff] at h₀ h₁
    omega
  rw [hU, bigSep_union hd₁, bigSep_union hd₂, bigSep_singleton, bigSep_eq_bigSepL _ entWins_nodup,
    bigSep_eq_bigSepL _ relWins_nodup]

  have h₀ : (bigSepL entWins fun w : Fin 97 =>
        P (if onEnt w then main_v0 else if onRel w then main_v1 else main_v2) (if w = 96 then fullShare else qOf w))
      = bigSepL entWins fun w => P main_v0 (deal fullShare entWins w) :=
    bigSepL_congr fun w hw => by
      have he : onEnt w := mem_entWins.mp hw
      have h96 : w ≠ 96 := fun e => by subst e; revert he; decide
      simp only [if_pos he, if_neg h96, qOf]
  have h₁ : (bigSepL relWins fun w : Fin 97 =>
        P (if onEnt w then main_v0 else if onRel w then main_v1 else main_v2) (if w = 96 then fullShare else qOf w))
      = bigSepL relWins fun w => P main_v1 (deal fullShare relWins w) :=
    bigSepL_congr fun w hw => by
      have hr : onRel w := mem_relWins.mp hw
      have he : ¬ onEnt w := fun he => by unfold onEnt at he; unfold onRel at hr; omega
      have h96 : w ≠ 96 := fun e => by subst e; revert hr; decide
      simp only [if_pos hr, if_neg he, if_neg h96, qOf]
  have h₂ : (if onEnt (96 : Fin 97) then main_v0 else if onRel 96 then main_v1 else main_v2) = main_v2 := by decide
  rw [h₀, h₁, h₂, if_pos rfl]
  rw [← pointsTo_deal (V' main_v0) entWins entWins_nodup entWins_ne_nil fullShare,
    ← pointsTo_deal (V' main_v1) relWins relWins_nodup relWins_ne_nil fullShare]
  rfl

variable {F : FTy → Type} [FloatOps F]

/-- Each table's points-to is the separating conjunction of its windows' shares of it. -/
theorem tables_eq_arrays {Lvl' : Type} (a : (pcfg0 (F := F)).Adm) (c : Dev nD)
    (dat : Dat τ (Elt F) Ix Name U Lvl' (cfg0 a) c) (hq : dat.q = qOf)
    (V' : (b : Ref sig .tc) → Buf (Elt F) ((c : Thread nD τ).loc b)) :
    (iprop((((c : Thread nD τ).loc main_v0) ↦{fullShare} V' main_v0)
        ∗ (((c : Thread nD τ).loc main_v1) ↦{fullShare} V' main_v1)
        ∗ (((c : Thread nD τ).loc main_v2) ↦{fullShare} V' main_v2)) : sProp (MT nD τ sig Ix (Elt F) Name U Lvl'))
      = dat.arrays fun w => V' (Pipeline.arrRef spec0 w) := by
  refine (tables_eq_windows c V').trans ?_
  unfold Dat.arrays Dat.share
  rw [hq]

theorem arrays_take_out {Lvl' : Type} (a : (pcfg0 (F := F)).Adm) (c : Dev nD)
    (dat : Dat τ (Elt F) Ix Name U Lvl' (cfg0 a) c)
    (G : (w : Fin (cfg0 a).W) → Buf (Elt F) (((cfg0 a).win w).arr.view.loc (c.tc : Thread nD τ))) :
    dat.arrays G
      = (iprop((((c : Thread nD τ).loc main_v2) ↦{fullShare} G (96 : Fin 97))
          ∗ bigSep (Finset.univ.erase (96 : Fin 97)) fun w =>
              (((cfg0 a).win w).arr.view.loc (c.tc : Thread nD τ) ↦[((cfg0 a).win w).arr.view.set]{dat.share w} G w))
          : sProp (MT nD τ sig Ix (Elt F) Name U Lvl')) := by
  unfold Dat.arrays
  rw [bigSep_erase (Finset.mem_univ (96 : Fin 97))]
  refine congrArg (fun X => BI.sep X _) ?_
  show (((c : Thread nD τ).loc main_v2) ↦[(spec0 96).arr.view.set]{fullShare} G (96 : Fin 97)) = _
  rw [(arr_whole0 96).set_eq_univ]

end Split

end Cert.Kernel.Hand

end
-- ==== Proof.BeforeRowsBits.lean ====
import proofs.«409637_j57681410785658_2_alg».proof.Proof.DataBits
import proofs.«409637_j57681410785658_2_alg».proof.Proof.SharesBits
import Idealize.ShloMosaic.Lib.Pipeline.FrameBody

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

/-- An input window the body does not change holds before the body what it holds after it. -/
theorem before_eq_after_of_uncut {Ix : Type} [DecidableEq Ix] {Val : EltTy → Type} {Name : Type} [DecidableEq Name]
    {U : Type} [URA U] {Lvl : Type} {cfg : Cfg sig Λ₀} {c : Dev nD} (dat : Dat τ Val Ix Name U Lvl cfg c)
    (w : Fin cfg.W) (hin : (cfg.win w).isOut = false) (hlive : ∀ i, cfg.idle w i = false)
    (hnone : ∀ i a, (cfg.win w).clip i a = none)
    (hkeep : ∀ t, (cfg.win w).cut (cfg.grid.coords t) (dat.after w t) = dat.blockOf w t)
    (t : Fin cfg.N) (d : (cfg.win w).block.Idx → Val (cfg.win w).elt) :
    dat.before w t d = dat.after w t := by
  rw [dat.before_in_eq_fetched w hin hlive
      (fun t t' _ => funext fun a => (hnone _ a).trans (hnone _ a).symm) hkeep t d,
    dat.fetched_of_clip_none w t (hnone _) d (dat.after w t)]
  unfold Dat.fetched
  rw [← hkeep t]
  exact (cfg.win w).fill_cut _ _

variable {F : FTy → Type} [FloatOps F]

theorem isOut_row (a : (pcfg0 (F := F)).Adm) (w : Fin 97) (hw : w ≠ 96) : ((cfg0 a).win w).isOut = false :=
  (isOut_spec0 w).trans (decide_eq_false hw)

theorem idle0_row : ∀ w : Fin 97, w ≠ 96 → idle0 w = fun _ => false := by
  intro w hw
  fin_cases w <;> first | rfl | exact absurd rfl hw

theorem idle_row (a : (pcfg0 (F := F)).Adm) (w : Fin 97) (hw : w ≠ 96) (i : (cfg0 a).grid.Coords) :
    (cfg0 a).idle w i = false :=
  congrFun (idle0_row w hw) i

theorem clip_none (a : (pcfg0 (F := F)).Adm) (w : Fin 97) (i : (cfg0 a).grid.Coords)
    (x : Fin ((cfg0 a).win w).shape.rank) : ((cfg0 a).win w).clip i x = none := rfl

variable (m : (ℓ : Loc nD τ sig) → Buf (Elt F) ℓ)

set_option maxHeartbeats 4000000 in
theorem after_row (q : Fin 97 → PosShare TreeShare) (hO : Ok m) (c : Dev nD) (w : Fin 97) (hw : w ≠ 96)
    (t : Fin (cfgM m hO).N) : (dats m q hO 0 c).after w t = iblk m hO c w t := by
  obtain ⟨n, hn⟩ := w
  interval_cases n <;> first | exact absurd rfl hw | (dsimp only [dats, afterTab]; rfl)

theorem before_row (q : Fin 97 → PosShare TreeShare) (hO : Ok m) (c : Dev nD) (w : Fin 97) (hw : w ≠ 96)
    (t : Fin (cfgM m hO).N) (d : ((cfgM m hO).win w).block.Idx → Elt F ((cfgM m hO).win w).elt) :
    (dats m q hO 0 c).before w t d = (dats m q hO 0 c).after w t :=
  before_eq_after_of_uncut (dats m q hO 0 c) w (isOut_row _ w hw) (idle_row _ w hw) (clip_none _ w)
    (fun t => by rw [after_row m q hO c w hw t]; unfold Dat.blockOf iblk; dsimp only [dats]) t d

/-- Each row window holds its row of the table whenever the body runs. -/
theorem before_w (q : Fin 97 → PosShare TreeShare) (hO : Ok m) (c : Dev nD) (w : Fin 97) (hw : w ≠ 96)
    (t : Fin (cfgM m hO).N) (d : ((cfgM m hO).win w).block.Idx → Elt F ((cfgM m hO).win w).elt) :
    (dats m q hO 0 c).before w t d = iblk m hO c w t :=
  (before_row m q hO c w hw t d).trans (after_row m q hO c w hw t)

end Cert.Kernel.Hand

end
-- ==== Proof.ObligationTabBits.lean ====
import proofs.«409637_j57681410785658_2_alg».proof.Proof.BeforeRowsBits
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- The kernel function on each window's current buffer at point `t`. -/
abbrev bodyAt (a : (pcfg0 (F := F)).Adm) (t : Fin (cfg0 a).N) : Prog (TpuEff nD τ sig (Elt F) Λ₀ .tc) PUnit :=
  cc0__kernel (grid0.coords t) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (spec0_13.stage ((cfg0 a).slots t 13)) (hstage0_13 (((cfg0 a).slots t 13).cast nbuf0_13)) (spec0_14.stage ((cfg0 a).slots t 14)) (hstage0_14 (((cfg0 a).slots t 14).cast nbuf0_14)) (spec0_15.stage ((cfg0 a).slots t 15)) (hstage0_15 (((cfg0 a).slots t 15).cast nbuf0_15)) (spec0_16.stage ((cfg0 a).slots t 16)) (hstage0_16 (((cfg0 a).slots t 16).cast nbuf0_16)) (spec0_17.stage ((cfg0 a).slots t 17)) (hstage0_17 (((cfg0 a).slots t 17).cast nbuf0_17)) (spec0_18.stage ((cfg0 a).slots t 18)) (hstage0_18 (((cfg0 a).slots t 18).cast nbuf0_18)) (spec0_19.stage ((cfg0 a).slots t 19)) (hstage0_19 (((cfg0 a).slots t 19).cast nbuf0_19)) (spec0_20.stage ((cfg0 a).slots t 20)) (hstage0_20 (((cfg0 a).slots t 20).cast nbuf0_20)) (spec0_21.stage ((cfg0 a).slots t 21)) (hstage0_21 (((cfg0 a).slots t 21).cast nbuf0_21)) (spec0_22.stage ((cfg0 a).slots t 22)) (hstage0_22 (((cfg0 a).slots t 22).cast nbuf0_22)) (spec0_23.stage ((cfg0 a).slots t 23)) (hstage0_23 (((cfg0 a).slots t 23).cast nbuf0_23)) (spec0_24.stage ((cfg0 a).slots t 24)) (hstage0_24 (((cfg0 a).slots t 24).cast nbuf0_24)) (spec0_25.stage ((cfg0 a).slots t 25)) (hstage0_25 (((cfg0 a).slots t 25).cast nbuf0_25)) (spec0_26.stage ((cfg0 a).slots t 26)) (hstage0_26 (((cfg0 a).slots t 26).cast nbuf0_26)) (spec0_27.stage ((cfg0 a).slots t 27)) (hstage0_27 (((cfg0 a).slots t 27).cast nbuf0_27)) (spec0_28.stage ((cfg0 a).slots t 28)) (hstage0_28 (((cfg0 a).slots t 28).cast nbuf0_28)) (spec0_29.stage ((cfg0 a).slots t 29)) (hstage0_29 (((cfg0 a).slots t 29).cast nbuf0_29)) (spec0_30.stage ((cfg0 a).slots t 30)) (hstage0_30 (((cfg0 a).slots t 30).cast nbuf0_30)) (spec0_31.stage ((cfg0 a).slots t 31)) (hstage0_31 (((cfg0 a).slots t 31).cast nbuf0_31)) (spec0_32.stage ((cfg0 a).slots t 32)) (hstage0_32 (((cfg0 a).slots t 32).cast nbuf0_32)) (spec0_33.stage ((cfg0 a).slots t 33)) (hstage0_33 (((cfg0 a).slots t 33).cast nbuf0_33)) (spec0_34.stage ((cfg0 a).slots t 34)) (hstage0_34 (((cfg0 a).slots t 34).cast nbuf0_34)) (spec0_35.stage ((cfg0 a).slots t 35)) (hstage0_35 (((cfg0 a).slots t 35).cast nbuf0_35)) (spec0_36.stage ((cfg0 a).slots t 36)) (hstage0_36 (((cfg0 a).slots t 36).cast nbuf0_36)) (spec0_37.stage ((cfg0 a).slots t 37)) (hstage0_37 (((cfg0 a).slots t 37).cast nbuf0_37)) (spec0_38.stage ((cfg0 a).slots t 38)) (hstage0_38 (((cfg0 a).slots t 38).cast nbuf0_38)) (spec0_39.stage ((cfg0 a).slots t 39)) (hstage0_39 (((cfg0 a).slots t 39).cast nbuf0_39)) (spec0_40.stage ((cfg0 a).slots t 40)) (hstage0_40 (((cfg0 a).slots t 40).cast nbuf0_40)) (spec0_41.stage ((cfg0 a).slots t 41)) (hstage0_41 (((cfg0 a).slots t 41).cast nbuf0_41)) (spec0_42.stage ((cfg0 a).slots t 42)) (hstage0_42 (((cfg0 a).slots t 42).cast nbuf0_42)) (spec0_43.stage ((cfg0 a).slots t 43)) (hstage0_43 (((cfg0 a).slots t 43).cast nbuf0_43)) (spec0_44.stage ((cfg0 a).slots t 44)) (hstage0_44 (((cfg0 a).slots t 44).cast nbuf0_44)) (spec0_45.stage ((cfg0 a).slots t 45)) (hstage0_45 (((cfg0 a).slots t 45).cast nbuf0_45)) (spec0_46.stage ((cfg0 a).slots t 46)) (hstage0_46 (((cfg0 a).slots t 46).cast nbuf0_46)) (spec0_47.stage ((cfg0 a).slots t 47)) (hstage0_47 (((cfg0 a).slots t 47).cast nbuf0_47)) (spec0_48.stage ((cfg0 a).slots t 48)) (hstage0_48 (((cfg0 a).slots t 48).cast nbuf0_48)) (spec0_49.stage ((cfg0 a).slots t 49)) (hstage0_49 (((cfg0 a).slots t 49).cast nbuf0_49)) (spec0_50.stage ((cfg0 a).slots t 50)) (hstage0_50 (((cfg0 a).slots t 50).cast nbuf0_50)) (spec0_51.stage ((cfg0 a).slots t 51)) (hstage0_51 (((cfg0 a).slots t 51).cast nbuf0_51)) (spec0_52.stage ((cfg0 a).slots t 52)) (hstage0_52 (((cfg0 a).slots t 52).cast nbuf0_52)) (spec0_53.stage ((cfg0 a).slots t 53)) (hstage0_53 (((cfg0 a).slots t 53).cast nbuf0_53)) (spec0_54.stage ((cfg0 a).slots t 54)) (hstage0_54 (((cfg0 a).slots t 54).cast nbuf0_54)) (spec0_55.stage ((cfg0 a).slots t 55)) (hstage0_55 (((cfg0 a).slots t 55).cast nbuf0_55)) (spec0_56.stage ((cfg0 a).slots t 56)) (hstage0_56 (((cfg0 a).slots t 56).cast nbuf0_56)) (spec0_57.stage ((cfg0 a).slots t 57)) (hstage0_57 (((cfg0 a).slots t 57).cast nbuf0_57)) (spec0_58.stage ((cfg0 a).slots t 58)) (hstage0_58 (((cfg0 a).slots t 58).cast nbuf0_58)) (spec0_59.stage ((cfg0 a).slots t 59)) (hstage0_59 (((cfg0 a).slots t 59).cast nbuf0_59)) (spec0_60.stage ((cfg0 a).slots t 60)) (hstage0_60 (((cfg0 a).slots t 60).cast nbuf0_60)) (spec0_61.stage ((cfg0 a).slots t 61)) (hstage0_61 (((cfg0 a).slots t 61).cast nbuf0_61)) (spec0_62.stage ((cfg0 a).slots t 62)) (hstage0_62 (((cfg0 a).slots t 62).cast nbuf0_62)) (spec0_63.stage ((cfg0 a).slots t 63)) (hstage0_63 (((cfg0 a).slots t 63).cast nbuf0_63)) (spec0_64.stage ((cfg0 a).slots t 64)) (hstage0_64 (((cfg0 a).slots t 64).cast nbuf0_64)) (spec0_65.stage ((cfg0 a).slots t 65)) (hstage0_65 (((cfg0 a).slots t 65).cast nbuf0_65)) (spec0_66.stage ((cfg0 a).slots t 66)) (hstage0_66 (((cfg0 a).slots t 66).cast nbuf0_66)) (spec0_67.stage ((cfg0 a).slots t 67)) (hstage0_67 (((cfg0 a).slots t 67).cast nbuf0_67)) (spec0_68.stage ((cfg0 a).slots t 68)) (hstage0_68 (((cfg0 a).slots t 68).cast nbuf0_68)) (spec0_69.stage ((cfg0 a).slots t 69)) (hstage0_69 (((cfg0 a).slots t 69).cast nbuf0_69)) (spec0_70.stage ((cfg0 a).slots t 70)) (hstage0_70 (((cfg0 a).slots t 70).cast nbuf0_70)) (spec0_71.stage ((cfg0 a).slots t 71)) (hstage0_71 (((cfg0 a).slots t 71).cast nbuf0_71)) (spec0_72.stage ((cfg0 a).slots t 72)) (hstage0_72 (((cfg0 a).slots t 72).cast nbuf0_72)) (spec0_73.stage ((cfg0 a).slots t 73)) (hstage0_73 (((cfg0 a).slots t 73).cast nbuf0_73)) (spec0_74.stage ((cfg0 a).slots t 74)) (hstage0_74 (((cfg0 a).slots t 74).cast nbuf0_74)) (spec0_75.stage ((cfg0 a).slots t 75)) (hstage0_75 (((cfg0 a).slots t 75).cast nbuf0_75)) (spec0_76.stage ((cfg0 a).slots t 76)) (hstage0_76 (((cfg0 a).slots t 76).cast nbuf0_76)) (spec0_77.stage ((cfg0 a).slots t 77)) (hstage0_77 (((cfg0 a).slots t 77).cast nbuf0_77)) (spec0_78.stage ((cfg0 a).slots t 78)) (hstage0_78 (((cfg0 a).slots t 78).cast nbuf0_78)) (spec0_79.stage ((cfg0 a).slots t 79)) (hstage0_79 (((cfg0 a).slots t 79).cast nbuf0_79)) (spec0_80.stage ((cfg0 a).slots t 80)) (hstage0_80 (((cfg0 a).slots t 80).cast nbuf0_80)) (spec0_81.stage ((cfg0 a).slots t 81)) (hstage0_81 (((cfg0 a).slots t 81).cast nbuf0_81)) (spec0_82.stage ((cfg0 a).slots t 82)) (hstage0_82 (((cfg0 a).slots t 82).cast nbuf0_82)) (spec0_83.stage ((cfg0 a).slots t 83)) (hstage0_83 (((cfg0 a).slots t 83).cast nbuf0_83)) (spec0_84.stage ((cfg0 a).slots t 84)) (hstage0_84 (((cfg0 a).slots t 84).cast nbuf0_84)) (spec0_85.stage ((cfg0 a).slots t 85)) (hstage0_85 (((cfg0 a).slots t 85).cast nbuf0_85)) (spec0_86.stage ((cfg0 a).slots t 86)) (hstage0_86 (((cfg0 a).slots t 86).cast nbuf0_86)) (spec0_87.stage ((cfg0 a).slots t 87)) (hstage0_87 (((cfg0 a).slots t 87).cast nbuf0_87)) (spec0_88.stage ((cfg0 a).slots t 88)) (hstage0_88 (((cfg0 a).slots t 88).cast nbuf0_88)) (spec0_89.stage ((cfg0 a).slots t 89)) (hstage0_89 (((cfg0 a).slots t 89).cast nbuf0_89)) (spec0_90.stage ((cfg0 a).slots t 90)) (hstage0_90 (((cfg0 a).slots t 90).cast nbuf0_90)) (spec0_91.stage ((cfg0 a).slots t 91)) (hstage0_91 (((cfg0 a).slots t 91).cast nbuf0_91)) (spec0_92.stage ((cfg0 a).slots t 92)) (hstage0_92 (((cfg0 a).slots t 92).cast nbuf0_92)) (spec0_93.stage ((cfg0 a).slots t 93)) (hstage0_93 (((cfg0 a).slots t 93).cast nbuf0_93)) (spec0_94.stage ((cfg0 a).slots t 94)) (hstage0_94 (((cfg0 a).slots t 94).cast nbuf0_94)) (spec0_95.stage ((cfg0 a).slots t 95)) (hstage0_95 (((cfg0 a).slots t 95).cast nbuf0_95)) (spec0_96.stage ((cfg0 a).slots t 96)) (hstage0_96 (((cfg0 a).slots t 96).cast nbuf0_96)) (Memref.whole cc0_scratch0) (Memref.isWhole_whole _)

/-- What the body is handed at point `t`: the invariant, what the core owes, and every window's buffer. -/
def bodyPre (q : Fin 97 → PosShare TreeShare) (hO : Ok m) (c : Dev nD) (t : Fin (cfgM m hO).N) : sProp 𝕄 :=
  iprop(ΦAcc m hO c t.castSucc ∗ (dats m q hO 0 c).owesAt () t.castSucc
    ∗ bigSep Finset.univ fun w : Fin (cfgM m hO).W =>
        iprop(∃ d, owns (c : Thread nD τ) (((cfgM m hO).win w).stage ((cfgM m hO).slots t w)) fullShare ((dats m q hO 0 c).before w t d)))

/-- What it hands back: every window's buffer at what the body leaves there, but one left alone at this point as it was found. -/
def bodyPost (q : Fin 97 → PosShare TreeShare) (hO : Ok m) (c : Dev nD) (t : Fin (cfgM m hO).N) : sProp 𝕄 :=
  iprop(ΦAcc m hO c t.succ ∗ (dats m q hO 0 c).owesAt () t.castSucc
    ∗ bigSep Finset.univ fun w : Fin (cfgM m hO).W =>
        match (cfgM m hO).idle w ((cfgM m hO).grid.coords t) with
        | true =>
          match ((cfgM m hO).win w).flush t with
          | false => iprop(∃ d, owns (c : Thread nD τ) (((cfgM m hO).win w).stage ((cfgM m hO).slots t w)) fullShare ((dats m q hO 0 c).before w t d))
          | true => owns (c : Thread nD τ) (((cfgM m hO).win w).stage ((cfgM m hO).slots t w)) fullShare ((dats m q hO 0 c).after w t)
        | false => owns (c : Thread nD τ) (((cfgM m hO).win w).stage ((cfgM m hO).slots t w)) fullShare ((dats m q hO 0 c).after w t))

set_option hygiene false in
macro "obl_intro" : tactic => `(tactic| iintro ⟨⟨HT, %X, HAcc, %hX⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩, ⟨%d44, H44⟩, ⟨%d45, H45⟩, ⟨%d46, H46⟩, ⟨%d47, H47⟩, ⟨%d48, H48⟩, ⟨%d49, H49⟩, ⟨%d50, H50⟩, ⟨%d51, H51⟩, ⟨%d52, H52⟩, ⟨%d53, H53⟩, ⟨%d54, H54⟩, ⟨%d55, H55⟩, ⟨%d56, H56⟩, ⟨%d57, H57⟩, ⟨%d58, H58⟩, ⟨%d59, H59⟩, ⟨%d60, H60⟩, ⟨%d61, H61⟩, ⟨%d62, H62⟩, ⟨%d63, H63⟩, ⟨%d64, H64⟩, ⟨%d65, H65⟩, ⟨%d66, H66⟩, ⟨%d67, H67⟩, ⟨%d68, H68⟩, ⟨%d69, H69⟩, ⟨%d70, H70⟩, ⟨%d71, H71⟩, ⟨%d72, H72⟩, ⟨%d73, H73⟩, ⟨%d74, H74⟩, ⟨%d75, H75⟩, ⟨%d76, H76⟩, ⟨%d77, H77⟩, ⟨%d78, H78⟩, ⟨%d79, H79⟩, ⟨%d80, H80⟩, ⟨%d81, H81⟩, ⟨%d82, H82⟩, ⟨%d83, H83⟩, ⟨%d84, H84⟩, ⟨%d85, H85⟩, ⟨%d86, H86⟩, ⟨%d87, H87⟩, ⟨%d88, H88⟩, ⟨%d89, H89⟩, ⟨%d90, H90⟩, ⟨%d91, H91⟩, ⟨%d92, H92⟩, ⟨%d93, H93⟩, ⟨%d94, H94⟩, ⟨%d95, H95⟩, ⟨%d96, H96⟩⟩)

set_option hygiene false in
macro "obl_give" : tactic => `(tactic| ((isplitl [H0]; · iexact H0); (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9); (isplitl [H10]; · iexact H10); (isplitl [H11]; · iexact H11); (isplitl [H12]; · iexact H12); (isplitl [H13]; · iexact H13); (isplitl [H14]; · iexact H14); (isplitl [H15]; · iexact H15); (isplitl [H16]; · iexact H16); (isplitl [H17]; · iexact H17); (isplitl [H18]; · iexact H18); (isplitl [H19]; · iexact H19); (isplitl [H20]; · iexact H20); (isplitl [H21]; · iexact H21); (isplitl [H22]; · iexact H22); (isplitl [H23]; · iexact H23); (isplitl [H24]; · iexact H24); (isplitl [H25]; · iexact H25); (isplitl [H26]; · iexact H26); (isplitl [H27]; · iexact H27); (isplitl [H28]; · iexact H28); (isplitl [H29]; · iexact H29); (isplitl [H30]; · iexact H30); (isplitl [H31]; · iexact H31); (isplitl [H32]; · iexact H32); (isplitl [H33]; · iexact H33); (isplitl [H34]; · iexact H34); (isplitl [H35]; · iexact H35); (isplitl [H36]; · iexact H36); (isplitl [H37]; · iexact H37); (isplitl [H38]; · iexact H38); (isplitl [H39]; · iexact H39); (isplitl [H40]; · iexact H40); (isplitl [H41]; · iexact H41); (isplitl [H42]; · iexact H42); (isplitl [H43]; · iexact H43); (isplitl [H44]; · iexact H44); (isplitl [H45]; · iexact H45); (isplitl [H46]; · iexact H46); (isplitl [H47]; · iexact H47); (isplitl [H48]; · iexact H48); (isplitl [H49]; · iexact H49); (isplitl [H50]; · iexact H50); (isplitl [H51]; · iexact H51); (isplitl [H52]; · iexact H52); (isplitl [H53]; · iexact H53); (isplitl [H54]; · iexact H54); (isplitl [H55]; · iexact H55); (isplitl [H56]; · iexact H56); (isplitl [H57]; · iexact H57); (isplitl [H58]; · iexact H58); (isplitl [H59]; · iexact H59); (isplitl [H60]; · iexact H60); (isplitl [H61]; · iexact H61); (isplitl [H62]; · iexact H62); (isplitl [H63]; · iexact H63); (isplitl [H64]; · iexact H64); (isplitl [H65]; · iexact H65); (isplitl [H66]; · iexact H66); (isplitl [H67]; · iexact H67); (isplitl [H68]; · iexact H68); (isplitl [H69]; · iexact H69); (isplitl [H70]; · iexact H70); (isplitl [H71]; · iexact H71); (isplitl [H72]; · iexact H72); (isplitl [H73]; · iexact H73); (isplitl [H74]; · iexact H74); (isplitl [H75]; · iexact H75); (isplitl [H76]; · iexact H76); (isplitl [H77]; · iexact H77); (isplitl [H78]; · iexact H78); (isplitl [H79]; · iexact H79); (isplitl [H80]; · iexact H80); (isplitl [H81]; · iexact H81); (isplitl [H82]; · iexact H82); (isplitl [H83]; · iexact H83); (isplitl [H84]; · iexact H84); (isplitl [H85]; · iexact H85); (isplitl [H86]; · iexact H86); (isplitl [H87]; · iexact H87); (isplitl [H88]; · iexact H88); (isplitl [H89]; · iexact H89); (isplitl [H90]; · iexact H90); (isplitl [H91]; · iexact H91); (isplitl [H92]; · iexact H92); (isplitl [H93]; · iexact H93); (isplitl [H94]; · iexact H94); (isplitl [H95]; · iexact H95); (isplitl [H96]; · iexact H96); iexact HAcc))

set_option hygiene false in
macro "obl_take" : tactic => `(tactic| iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, H84, H85, H86, H87, H88, H89, H90, H91, H92, H93, H94, H95, H96, HAcc⟩)

set_option hygiene false in
macro "obl_return_rows" : tactic => `(tactic| ((isplitl [H0]; · iexact H0); (isplitl [H1]; · iexact H1); (isplitl [H2]; · iexact H2); (isplitl [H3]; · iexact H3); (isplitl [H4]; · iexact H4); (isplitl [H5]; · iexact H5); (isplitl [H6]; · iexact H6); (isplitl [H7]; · iexact H7); (isplitl [H8]; · iexact H8); (isplitl [H9]; · iexact H9); (isplitl [H10]; · iexact H10); (isplitl [H11]; · iexact H11); (isplitl [H12]; · iexact H12); (isplitl [H13]; · iexact H13); (isplitl [H14]; · iexact H14); (isplitl [H15]; · iexact H15); (isplitl [H16]; · iexact H16); (isplitl [H17]; · iexact H17); (isplitl [H18]; · iexact H18); (isplitl [H19]; · iexact H19); (isplitl [H20]; · iexact H20); (isplitl [H21]; · iexact H21); (isplitl [H22]; · iexact H22); (isplitl [H23]; · iexact H23); (isplitl [H24]; · iexact H24); (isplitl [H25]; · iexact H25); (isplitl [H26]; · iexact H26); (isplitl [H27]; · iexact H27); (isplitl [H28]; · iexact H28); (isplitl [H29]; · iexact H29); (isplitl [H30]; · iexact H30); (isplitl [H31]; · iexact H31); (isplitl [H32]; · iexact H32); (isplitl [H33]; · iexact H33); (isplitl [H34]; · iexact H34); (isplitl [H35]; · iexact H35); (isplitl [H36]; · iexact H36); (isplitl [H37]; · iexact H37); (isplitl [H38]; · iexact H38); (isplitl [H39]; · iexact H39); (isplitl [H40]; · iexact H40); (isplitl [H41]; · iexact H41); (isplitl [H42]; · iexact H42); (isplitl [H43]; · iexact H43); (isplitl [H44]; · iexact H44); (isplitl [H45]; · iexact H45); (isplitl [H46]; · iexact H46); (isplitl [H47]; · iexact H47); (isplitl [H48]; · iexact H48); (isplitl [H49]; · iexact H49); (isplitl [H50]; · iexact H50); (isplitl [H51]; · iexact H51); (isplitl [H52]; · iexact H52); (isplitl [H53]; · iexact H53); (isplitl [H54]; · iexact H54); (isplitl [H55]; · iexact H55); (isplitl [H56]; · iexact H56); (isplitl [H57]; · iexact H57); (isplitl [H58]; · iexact H58); (isplitl [H59]; · iexact H59); (isplitl [H60]; · iexact H60); (isplitl [H61]; · iexact H61); (isplitl [H62]; · iexact H62); (isplitl [H63]; · iexact H63); (isplitl [H64]; · iexact H64); (isplitl [H65]; · iexact H65); (isplitl [H66]; · iexact H66); (isplitl [H67]; · iexact H67); (isplitl [H68]; · iexact H68); (isplitl [H69]; · iexact H69); (isplitl [H70]; · iexact H70); (isplitl [H71]; · iexact H71); (isplitl [H72]; · iexact H72); (isplitl [H73]; · iexact H73); (isplitl [H74]; · iexact H74); (isplitl [H75]; · iexact H75); (isplitl [H76]; · iexact H76); (isplitl [H77]; · iexact H77); (isplitl [H78]; · iexact H78); (isplitl [H79]; · iexact H79); (isplitl [H80]; · iexact H80); (isplitl [H81]; · iexact H81); (isplitl [H82]; · iexact H82); (isplitl [H83]; · iexact H83); (isplitl [H84]; · iexact H84); (isplitl [H85]; · iexact H85); (isplitl [H86]; · iexact H86); (isplitl [H87]; · iexact H87); (isplitl [H88]; · iexact H88); (isplitl [H89]; · iexact H89); (isplitl [H90]; · iexact H90); (isplitl [H91]; · iexact H91); (isplitl [H92]; · iexact H92); (isplitl [H93]; · iexact H93); (isplitl [H94]; · iexact H94); (isplitl [H95]; · iexact H95)))

macro "obl_at(" f:term ", " c:term ")" : term => `($f $c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

end Cert.Kernel.Hand

end
-- ==== Proof.BodyCondBits.lean ====
import proofs.«409637_j57681410785658_2_alg».proof.Proof.StepBits
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev condFirst (i : grid0.Coords) : Prop :=
  (Scalar.cmpi .ne (Scalar.extui (Scalar.cmpi .eq (BitVec.ofNat 32 (i 0).val) 0#32)) 0#32) = 1#1

abbrev condLast (i : grid0.Coords) : Prop := k0_cond2 i = 1#1

theorem hz2 : (![0, 0] : Fin 2 → Nat) = fun _ => 0 := funext fun a => by fin_cases a <;> rfl
theorem hz3 : (![0, 0, 0] : Fin 3 → Nat) = fun _ => 0 := funext fun a => by fin_cases a <;> rfl

theorem read_writes_cons_whole {sig : RefSig} {κ : Kind} {sp : Space} (v : View sig κ sp S1x1 .f32)
    (f : v.ty.Contents (Elt F)) (inb : ∀ a, (![0, 0] : Fin 2 → Nat) a + S1x1.size a ≤ S1x1.size a)
    (w : S1x1.Idx → Elt F .f32) (L : List (View.Piece (Elt F) S1x1 .f32)) :
    v.read (Elt F) (v.writes (Elt F) f (⟨Rect.unit ![0, 0] S1x1.size inb, w⟩ :: L)) = w := by
  have hcov : ∀ y : S1x1.Idx, ∃ p ∈ ((⟨Rect.unit ![0, 0] S1x1.size inb, w⟩ : View.Piece (Elt F) S1x1 .f32) :: L), y ∈ p.1.set :=
    fun y => ⟨_, List.mem_cons_self, View.mem_set_unit_zero hz2 inb y⟩
  rw [View.read_writes_eq_canon _ _ _ hcov, View.canon_cons_unit_zero hz2]

/-- The triple of the kernel function at grid point `i`: from the ninety-six rows `x`, the output buffer at `o` and the
    accumulator at `s` it runs to the same rows, the output buffer at `o'` and the accumulator at `s'`. -/
def BodyTriple (i : grid0.Coords) (x : Fin 96 → Vec F S1x1x256 .f32) (o s o' s' : Vec F S1x1 .f32) : Prop :=
  ∀ (c : Dev nD) (t1 : Memref sig .tc .smem S4096 .i32) (ht1 : t1.IsWhole) (t2 : Memref sig .tc .smem S4096 .i32) (ht2 : t2.IsWhole) (t3 : Memref sig .tc .smem S4096 .i32) (ht3 : t3.IsWhole) (t4 : Memref sig .tc .smem S4096 .i32) (ht4 : t4.IsWhole) (t5 : Memref sig .tc .smem S4096 .i32) (ht5 : t5.IsWhole) (t6 : Memref sig .tc .smem S4096 .i32) (ht6 : t6.IsWhole) (a0 : Memref sig .tc .vmem S1x1x256 .f32) (h0 : a0.IsWhole) (a1 : Memref sig .tc .vmem S1x1x256 .f32) (h1 : a1.IsWhole) (a2 : Memref sig .tc .vmem S1x1x256 .f32) (h2 : a2.IsWhole) (a3 : Memref sig .tc .vmem S1x1x256 .f32) (h3 : a3.IsWhole) (a4 : Memref sig .tc .vmem S1x1x256 .f32) (h4 : a4.IsWhole) (a5 : Memref sig .tc .vmem S1x1x256 .f32) (h5 : a5.IsWhole) (a6 : Memref sig .tc .vmem S1x1x256 .f32) (h6 : a6.IsWhole) (a7 : Memref sig .tc .vmem S1x1x256 .f32) (h7 : a7.IsWhole) (a8 : Memref sig .tc .vmem S1x1x256 .f32) (h8 : a8.IsWhole) (a9 : Memref sig .tc .vmem S1x1x256 .f32) (h9 : a9.IsWhole) (a10 : Memref sig .tc .vmem S1x1x256 .f32) (h10 : a10.IsWhole) (a11 : Memref sig .tc .vmem S1x1x256 .f32) (h11 : a11.IsWhole) (a12 : Memref sig .tc .vmem S1x1x256 .f32) (h12 : a12.IsWhole) (a13 : Memref sig .tc .vmem S1x1x256 .f32) (h13 : a13.IsWhole) (a14 : Memref sig .tc .vmem S1x1x256 .f32) (h14 : a14.IsWhole) (a15 : Memref sig .tc .vmem S1x1x256 .f32) (h15 : a15.IsWhole) (a16 : Memref sig .tc .vmem S1x1x256 .f32) (h16 : a16.IsWhole) (a17 : Memref sig .tc .vmem S1x1x256 .f32) (h17 : a17.IsWhole) (a18 : Memref sig .tc .vmem S1x1x256 .f32) (h18 : a18.IsWhole) (a19 : Memref sig .tc .vmem S1x1x256 .f32) (h19 : a19.IsWhole) (a20 : Memref sig .tc .vmem S1x1x256 .f32) (h20 : a20.IsWhole) (a21 : Memref sig .tc .vmem S1x1x256 .f32) (h21 : a21.IsWhole) (a22 : Memref sig .tc .vmem S1x1x256 .f32) (h22 : a22.IsWhole) (a23 : Memref sig .tc .vmem S1x1x256 .f32) (h23 : a23.IsWhole) (a24 : Memref sig .tc .vmem S1x1x256 .f32) (h24 : a24.IsWhole) (a25 : Memref sig .tc .vmem S1x1x256 .f32) (h25 : a25.IsWhole) (a26 : Memref sig .tc .vmem S1x1x256 .f32) (h26 : a26.IsWhole) (a27 : Memref sig .tc .vmem S1x1x256 .f32) (h27 : a27.IsWhole) (a28 : Memref sig .tc .vmem S1x1x256 .f32) (h28 : a28.IsWhole) (a29 : Memref sig .tc .vmem S1x1x256 .f32) (h29 : a29.IsWhole) (a30 : Memref sig .tc .vmem S1x1x256 .f32) (h30 : a30.IsWhole) (a31 : Memref sig .tc .vmem S1x1x256 .f32) (h31 : a31.IsWhole) (a32 : Memref sig .tc .vmem S1x1x256 .f32) (h32 : a32.IsWhole) (a33 : Memref sig .tc .vmem S1x1x256 .f32) (h33 : a33.IsWhole) (a34 : Memref sig .tc .vmem S1x1x256 .f32) (h34 : a34.IsWhole) (a35 : Memref sig .tc .vmem S1x1x256 .f32) (h35 : a35.IsWhole) (a36 : Memref sig .tc .vmem S1x1x256 .f32) (h36 : a36.IsWhole) (a37 : Memref sig .tc .vmem S1x1x256 .f32) (h37 : a37.IsWhole) (a38 : Memref sig .tc .vmem S1x1x256 .f32) (h38 : a38.IsWhole) (a39 : Memref sig .tc .vmem S1x1x256 .f32) (h39 : a39.IsWhole) (a40 : Memref sig .tc .vmem S1x1x256 .f32) (h40 : a40.IsWhole) (a41 : Memref sig .tc .vmem S1x1x256 .f32) (h41 : a41.IsWhole) (a42 : Memref sig .tc .vmem S1x1x256 .f32) (h42 : a42.IsWhole) (a43 : Memref sig .tc .vmem S1x1x256 .f32) (h43 : a43.IsWhole) (a44 : Memref sig .tc .vmem S1x1x256 .f32) (h44 : a44.IsWhole) (a45 : Memref sig .tc .vmem S1x1x256 .f32) (h45 : a45.IsWhole) (a46 : Memref sig .tc .vmem S1x1x256 .f32) (h46 : a46.IsWhole) (a47 : Memref sig .tc .vmem S1x1x256 .f32) (h47 : a47.IsWhole) (a48 : Memref sig .tc .vmem S1x1x256 .f32) (h48 : a48.IsWhole) (a49 : Memref sig .tc .vmem S1x1x256 .f32) (h49 : a49.IsWhole) (a50 : Memref sig .tc .vmem S1x1x256 .f32) (h50 : a50.IsWhole) (a51 : Memref sig .tc .vmem S1x1x256 .f32) (h51 : a51.IsWhole) (a52 : Memref sig .tc .vmem S1x1x256 .f32) (h52 : a52.IsWhole) (a53 : Memref sig .tc .vmem S1x1x256 .f32) (h53 : a53.IsWhole) (a54 : Memref sig .tc .vmem S1x1x256 .f32) (h54 : a54.IsWhole) (a55 : Memref sig .tc .vmem S1x1x256 .f32) (h55 : a55.IsWhole) (a56 : Memref sig .tc .vmem S1x1x256 .f32) (h56 : a56.IsWhole) (a57 : Memref sig .tc .vmem S1x1x256 .f32) (h57 : a57.IsWhole) (a58 : Memref sig .tc .vmem S1x1x256 .f32) (h58 : a58.IsWhole) (a59 : Memref sig .tc .vmem S1x1x256 .f32) (h59 : a59.IsWhole) (a60 : Memref sig .tc .vmem S1x1x256 .f32) (h60 : a60.IsWhole) (a61 : Memref sig .tc .vmem S1x1x256 .f32) (h61 : a61.IsWhole) (a62 : Memref sig .tc .vmem S1x1x256 .f32) (h62 : a62.IsWhole) (a63 : Memref sig .tc .vmem S1x1x256 .f32) (h63 : a63.IsWhole) (a64 : Memref sig .tc .vmem S1x1x256 .f32) (h64 : a64.IsWhole) (a65 : Memref sig .tc .vmem S1x1x256 .f32) (h65 : a65.IsWhole) (a66 : Memref sig .tc .vmem S1x1x256 .f32) (h66 : a66.IsWhole) (a67 : Memref sig .tc .vmem S1x1x256 .f32) (h67 : a67.IsWhole) (a68 : Memref sig .tc .vmem S1x1x256 .f32) (h68 : a68.IsWhole) (a69 : Memref sig .tc .vmem S1x1x256 .f32) (h69 : a69.IsWhole) (a70 : Memref sig .tc .vmem S1x1x256 .f32) (h70 : a70.IsWhole) (a71 : Memref sig .tc .vmem S1x1x256 .f32) (h71 : a71.IsWhole) (a72 : Memref sig .tc .vmem S1x1x256 .f32) (h72 : a72.IsWhole) (a73 : Memref sig .tc .vmem S1x1x256 .f32) (h73 : a73.IsWhole) (a74 : Memref sig .tc .vmem S1x1x256 .f32) (h74 : a74.IsWhole) (a75 : Memref sig .tc .vmem S1x1x256 .f32) (h75 : a75.IsWhole) (a76 : Memref sig .tc .vmem S1x1x256 .f32) (h76 : a76.IsWhole) (a77 : Memref sig .tc .vmem S1x1x256 .f32) (h77 : a77.IsWhole) (a78 : Memref sig .tc .vmem S1x1x256 .f32) (h78 : a78.IsWhole) (a79 : Memref sig .tc .vmem S1x1x256 .f32) (h79 : a79.IsWhole) (a80 : Memref sig .tc .vmem S1x1x256 .f32) (h80 : a80.IsWhole) (a81 : Memref sig .tc .vmem S1x1x256 .f32) (h81 : a81.IsWhole) (a82 : Memref sig .tc .vmem S1x1x256 .f32) (h82 : a82.IsWhole) (a83 : Memref sig .tc .vmem S1x1x256 .f32) (h83 : a83.IsWhole) (a84 : Memref sig .tc .vmem S1x1x256 .f32) (h84 : a84.IsWhole) (a85 : Memref sig .tc .vmem S1x1x256 .f32) (h85 : a85.IsWhole) (a86 : Memref sig .tc .vmem S1x1x256 .f32) (h86 : a86.IsWhole) (a87 : Memref sig .tc .vmem S1x1x256 .f32) (h87 : a87.IsWhole) (a88 : Memref sig .tc .vmem S1x1x256 .f32) (h88 : a88.IsWhole) (a89 : Memref sig .tc .vmem S1x1x256 .f32) (h89 : a89.IsWhole) (a90 : Memref sig .tc .vmem S1x1x256 .f32) (h90 : a90.IsWhole) (a91 : Memref sig .tc .vmem S1x1x256 .f32) (h91 : a91.IsWhole) (a92 : Memref sig .tc .vmem S1x1x256 .f32) (h92 : a92.IsWhole) (a93 : Memref sig .tc .vmem S1x1x256 .f32) (h93 : a93.IsWhole) (a94 : Memref sig .tc .vmem S1x1x256 .f32) (h94 : a94.IsWhole) (a95 : Memref sig .tc .vmem S1x1x256 .f32) (h95 : a95.IsWhole) (aOut : Memref sig .tc .vmem S1x1 .f32) (hOut : aOut.IsWhole) (aAcc : Memref sig .tc .vmem S1x1 .f32) (hAcc : aAcc.IsWhole) (E : Set ℕ),
    (iprop(owns (c : Thread nD τ) a0 fullShare (x 0) ∗ owns (c : Thread nD τ) a1 fullShare (x 1) ∗ owns (c : Thread nD τ) a2 fullShare (x 2) ∗ owns (c : Thread nD τ) a3 fullShare (x 3) ∗ owns (c : Thread nD τ) a4 fullShare (x 4) ∗ owns (c : Thread nD τ) a5 fullShare (x 5) ∗ owns (c : Thread nD τ) a6 fullShare (x 6) ∗ owns (c : Thread nD τ) a7 fullShare (x 7) ∗ owns (c : Thread nD τ) a8 fullShare (x 8) ∗ owns (c : Thread nD τ) a9 fullShare (x 9) ∗ owns (c : Thread nD τ) a10 fullShare (x 10) ∗ owns (c : Thread nD τ) a11 fullShare (x 11) ∗ owns (c : Thread nD τ) a12 fullShare (x 12) ∗ owns (c : Thread nD τ) a13 fullShare (x 13) ∗ owns (c : Thread nD τ) a14 fullShare (x 14) ∗ owns (c : Thread nD τ) a15 fullShare (x 15) ∗ owns (c : Thread nD τ) a16 fullShare (x 16) ∗ owns (c : Thread nD τ) a17 fullShare (x 17) ∗ owns (c : Thread nD τ) a18 fullShare (x 18) ∗ owns (c : Thread nD τ) a19 fullShare (x 19) ∗ owns (c : Thread nD τ) a20 fullShare (x 20) ∗ owns (c : Thread nD τ) a21 fullShare (x 21) ∗ owns (c : Thread nD τ) a22 fullShare (x 22) ∗ owns (c : Thread nD τ) a23 fullShare (x 23) ∗ owns (c : Thread nD τ) a24 fullShare (x 24) ∗ owns (c : Thread nD τ) a25 fullShare (x 25) ∗ owns (c : Thread nD τ) a26 fullShare (x 26) ∗ owns (c : Thread nD τ) a27 fullShare (x 27) ∗ owns (c : Thread nD τ) a28 fullShare (x 28) ∗ owns (c : Thread nD τ) a29 fullShare (x 29) ∗ owns (c : Thread nD τ) a30 fullShare (x 30) ∗ owns (c : Thread nD τ) a31 fullShare (x 31) ∗ owns (c : Thread nD τ) a32 fullShare (x 32) ∗ owns (c : Thread nD τ) a33 fullShare (x 33) ∗ owns (c : Thread nD τ) a34 fullShare (x 34) ∗ owns (c : Thread nD τ) a35 fullShare (x 35) ∗ owns (c : Thread nD τ) a36 fullShare (x 36) ∗ owns (c : Thread nD τ) a37 fullShare (x 37) ∗ owns (c : Thread nD τ) a38 fullShare (x 38) ∗ owns (c : Thread nD τ) a39 fullShare (x 39) ∗ owns (c : Thread nD τ) a40 fullShare (x 40) ∗ owns (c : Thread nD τ) a41 fullShare (x 41) ∗ owns (c : Thread nD τ) a42 fullShare (x 42) ∗ owns (c : Thread nD τ) a43 fullShare (x 43) ∗ owns (c : Thread nD τ) a44 fullShare (x 44) ∗ owns (c : Thread nD τ) a45 fullShare (x 45) ∗ owns (c : Thread nD τ) a46 fullShare (x 46) ∗ owns (c : Thread nD τ) a47 fullShare (x 47) ∗ owns (c : Thread nD τ) a48 fullShare (x 48) ∗ owns (c : Thread nD τ) a49 fullShare (x 49) ∗ owns (c : Thread nD τ) a50 fullShare (x 50) ∗ owns (c : Thread nD τ) a51 fullShare (x 51) ∗ owns (c : Thread nD τ) a52 fullShare (x 52) ∗ owns (c : Thread nD τ) a53 fullShare (x 53) ∗ owns (c : Thread nD τ) a54 fullShare (x 54) ∗ owns (c : Thread nD τ) a55 fullShare (x 55) ∗ owns (c : Thread nD τ) a56 fullShare (x 56) ∗ owns (c : Thread nD τ) a57 fullShare (x 57) ∗ owns (c : Thread nD τ) a58 fullShare (x 58) ∗ owns (c : Thread nD τ) a59 fullShare (x 59) ∗ owns (c : Thread nD τ) a60 fullShare (x 60) ∗ owns (c : Thread nD τ) a61 fullShare (x 61) ∗ owns (c : Thread nD τ) a62 fullShare (x 62) ∗ owns (c : Thread nD τ) a63 fullShare (x 63) ∗ owns (c : Thread nD τ) a64 fullShare (x 64) ∗ owns (c : Thread nD τ) a65 fullShare (x 65) ∗ owns (c : Thread nD τ) a66 fullShare (x 66) ∗ owns (c : Thread nD τ) a67 fullShare (x 67) ∗ owns (c : Thread nD τ) a68 fullShare (x 68) ∗ owns (c : Thread nD τ) a69 fullShare (x 69) ∗ owns (c : Thread nD τ) a70 fullShare (x 70) ∗ owns (c : Thread nD τ) a71 fullShare (x 71) ∗ owns (c : Thread nD τ) a72 fullShare (x 72) ∗ owns (c : Thread nD τ) a73 fullShare (x 73) ∗ owns (c : Thread nD τ) a74 fullShare (x 74) ∗ owns (c : Thread nD τ) a75 fullShare (x 75) ∗ owns (c : Thread nD τ) a76 fullShare (x 76) ∗ owns (c : Thread nD τ) a77 fullShare (x 77) ∗ owns (c : Thread nD τ) a78 fullShare (x 78) ∗ owns (c : Thread nD τ) a79 fullShare (x 79) ∗ owns (c : Thread nD τ) a80 fullShare (x 80) ∗ owns (c : Thread nD τ) a81 fullShare (x 81) ∗ owns (c : Thread nD τ) a82 fullShare (x 82) ∗ owns (c : Thread nD τ) a83 fullShare (x 83) ∗ owns (c : Thread nD τ) a84 fullShare (x 84) ∗ owns (c : Thread nD τ) a85 fullShare (x 85) ∗ owns (c : Thread nD τ) a86 fullShare (x 86) ∗ owns (c : Thread nD τ) a87 fullShare (x 87) ∗ owns (c : Thread nD τ) a88 fullShare (x 88) ∗ owns (c : Thread nD τ) a89 fullShare (x 89) ∗ owns (c : Thread nD τ) a90 fullShare (x 90) ∗ owns (c : Thread nD τ) a91 fullShare (x 91) ∗ owns (c : Thread nD τ) a92 fullShare (x 92) ∗ owns (c : Thread nD τ) a93 fullShare (x 93) ∗ owns (c : Thread nD τ) a94 fullShare (x 94) ∗ owns (c : Thread nD τ) a95 fullShare (x 95)
        ∗ owns (c : Thread nD τ) aOut fullShare o ∗ owns (c : Thread nD τ) aAcc fullShare s) : sProp 𝕄)
      ⊢ wp frame (wpE (defs₀ (F := F)) Variants.none c none) E
          (cc0__kernel i t1 ht1 t2 ht2 t3 ht3 t4 ht4 t5 ht5 t6 ht6 a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79 a80 h80 a81 h81 a82 h82 a83 h83 a84 h84 a85 h85 a86 h86 a87 h87 a88 h88 a89 h89 a90 h90 a91 h91 a92 h92 a93 h93 a94 h94 a95 h95 aOut hOut aAcc hAcc)
          (fun _ => (iprop(owns (c : Thread nD τ) a0 fullShare (x 0) ∗ owns (c : Thread nD τ) a1 fullShare (x 1) ∗ owns (c : Thread nD τ) a2 fullShare (x 2) ∗ owns (c : Thread nD τ) a3 fullShare (x 3) ∗ owns (c : Thread nD τ) a4 fullShare (x 4) ∗ owns (c : Thread nD τ) a5 fullShare (x 5) ∗ owns (c : Thread nD τ) a6 fullShare (x 6) ∗ owns (c : Thread nD τ) a7 fullShare (x 7) ∗ owns (c : Thread nD τ) a8 fullShare (x 8) ∗ owns (c : Thread nD τ) a9 fullShare (x 9) ∗ owns (c : Thread nD τ) a10 fullShare (x 10) ∗ owns (c : Thread nD τ) a11 fullShare (x 11) ∗ owns (c : Thread nD τ) a12 fullShare (x 12) ∗ owns (c : Thread nD τ) a13 fullShare (x 13) ∗ owns (c : Thread nD τ) a14 fullShare (x 14) ∗ owns (c : Thread nD τ) a15 fullShare (x 15) ∗ owns (c : Thread nD τ) a16 fullShare (x 16) ∗ owns (c : Thread nD τ) a17 fullShare (x 17) ∗ owns (c : Thread nD τ) a18 fullShare (x 18) ∗ owns (c : Thread nD τ) a19 fullShare (x 19) ∗ owns (c : Thread nD τ) a20 fullShare (x 20) ∗ owns (c : Thread nD τ) a21 fullShare (x 21) ∗ owns (c : Thread nD τ) a22 fullShare (x 22) ∗ owns (c : Thread nD τ) a23 fullShare (x 23) ∗ owns (c : Thread nD τ) a24 fullShare (x 24) ∗ owns (c : Thread nD τ) a25 fullShare (x 25) ∗ owns (c : Thread nD τ) a26 fullShare (x 26) ∗ owns (c : Thread nD τ) a27 fullShare (x 27) ∗ owns (c : Thread nD τ) a28 fullShare (x 28) ∗ owns (c : Thread nD τ) a29 fullShare (x 29) ∗ owns (c : Thread nD τ) a30 fullShare (x 30) ∗ owns (c : Thread nD τ) a31 fullShare (x 31) ∗ owns (c : Thread nD τ) a32 fullShare (x 32) ∗ owns (c : Thread nD τ) a33 fullShare (x 33) ∗ owns (c : Thread nD τ) a34 fullShare (x 34) ∗ owns (c : Thread nD τ) a35 fullShare (x 35) ∗ owns (c : Thread nD τ) a36 fullShare (x 36) ∗ owns (c : Thread nD τ) a37 fullShare (x 37) ∗ owns (c : Thread nD τ) a38 fullShare (x 38) ∗ owns (c : Thread nD τ) a39 fullShare (x 39) ∗ owns (c : Thread nD τ) a40 fullShare (x 40) ∗ owns (c : Thread nD τ) a41 fullShare (x 41) ∗ owns (c : Thread nD τ) a42 fullShare (x 42) ∗ owns (c : Thread nD τ) a43 fullShare (x 43) ∗ owns (c : Thread nD τ) a44 fullShare (x 44) ∗ owns (c : Thread nD τ) a45 fullShare (x 45) ∗ owns (c : Thread nD τ) a46 fullShare (x 46) ∗ owns (c : Thread nD τ) a47 fullShare (x 47) ∗ owns (c : Thread nD τ) a48 fullShare (x 48) ∗ owns (c : Thread nD τ) a49 fullShare (x 49) ∗ owns (c : Thread nD τ) a50 fullShare (x 50) ∗ owns (c : Thread nD τ) a51 fullShare (x 51) ∗ owns (c : Thread nD τ) a52 fullShare (x 52) ∗ owns (c : Thread nD τ) a53 fullShare (x 53) ∗ owns (c : Thread nD τ) a54 fullShare (x 54) ∗ owns (c : Thread nD τ) a55 fullShare (x 55) ∗ owns (c : Thread nD τ) a56 fullShare (x 56) ∗ owns (c : Thread nD τ) a57 fullShare (x 57) ∗ owns (c : Thread nD τ) a58 fullShare (x 58) ∗ owns (c : Thread nD τ) a59 fullShare (x 59) ∗ owns (c : Thread nD τ) a60 fullShare (x 60) ∗ owns (c : Thread nD τ) a61 fullShare (x 61) ∗ owns (c : Thread nD τ) a62 fullShare (x 62) ∗ owns (c : Thread nD τ) a63 fullShare (x 63) ∗ owns (c : Thread nD τ) a64 fullShare (x 64) ∗ owns (c : Thread nD τ) a65 fullShare (x 65) ∗ owns (c : Thread nD τ) a66 fullShare (x 66) ∗ owns (c : Thread nD τ) a67 fullShare (x 67) ∗ owns (c : Thread nD τ) a68 fullShare (x 68) ∗ owns (c : Thread nD τ) a69 fullShare (x 69) ∗ owns (c : Thread nD τ) a70 fullShare (x 70) ∗ owns (c : Thread nD τ) a71 fullShare (x 71) ∗ owns (c : Thread nD τ) a72 fullShare (x 72) ∗ owns (c : Thread nD τ) a73 fullShare (x 73) ∗ owns (c : Thread nD τ) a74 fullShare (x 74) ∗ owns (c : Thread nD τ) a75 fullShare (x 75) ∗ owns (c : Thread nD τ) a76 fullShare (x 76) ∗ owns (c : Thread nD τ) a77 fullShare (x 77) ∗ owns (c : Thread nD τ) a78 fullShare (x 78) ∗ owns (c : Thread nD τ) a79 fullShare (x 79) ∗ owns (c : Thread nD τ) a80 fullShare (x 80) ∗ owns (c : Thread nD τ) a81 fullShare (x 81) ∗ owns (c : Thread nD τ) a82 fullShare (x 82) ∗ owns (c : Thread nD τ) a83 fullShare (x 83) ∗ owns (c : Thread nD τ) a84 fullShare (x 84) ∗ owns (c : Thread nD τ) a85 fullShare (x 85) ∗ owns (c : Thread nD τ) a86 fullShare (x 86) ∗ owns (c : Thread nD τ) a87 fullShare (x 87) ∗ owns (c : Thread nD τ) a88 fullShare (x 88) ∗ owns (c : Thread nD τ) a89 fullShare (x 89) ∗ owns (c : Thread nD τ) a90 fullShare (x 90) ∗ owns (c : Thread nD τ) a91 fullShare (x 91) ∗ owns (c : Thread nD τ) a92 fullShare (x 92) ∗ owns (c : Thread nD τ) a93 fullShare (x 93) ∗ owns (c : Thread nD τ) a94 fullShare (x 94) ∗ owns (c : Thread nD τ) a95 fullShare (x 95)
        ∗ owns (c : Thread nD τ) aOut fullShare o' ∗ owns (c : Thread nD τ) aAcc fullShare s') : sProp 𝕄))

/-- A stored one-by-one value read back: the last store wins, a reload sees the store before it, and what is stored
    is one step over the rows. -/
macro_rules | `(tactic| sl_pure) => `(tactic| (
  refine (read_writes_cons_whole _ _ _ _ _).trans ?_
  try rw [View.readCov_unit_zero (S := S1x1) _ hz2]
  unfold step
  try unfold acc0
  simp only [View.readAt_eq_ld, *, View.ld_unit_zero (S := S1x1x256) hz3, View.ld_unit_zero (S := S1x1) hz2]))

end Cert.Kernel.Hand

end
-- ==== Proof.BodyFirstBits.lean ====
import proofs.«409637_j57681410785658_2_alg».proof.Proof.BodyCondBits
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At the first point the accumulator is reset before the terms are added, so it ends one step from the reset value. -/
theorem body_first (i : grid0.Coords) (hc1 : condFirst i) (hc2 : ¬ condLast i)
    (x : Fin 96 → Vec F S1x1x256 .f32) (o s : Vec F S1x1 .f32) : BodyTriple i x o s o (step x acc0) := by
  unfold BodyTriple
  intro c t1 ht1 t2 ht2 t3 ht3 t4 ht4 t5 ht5 t6 ht6 a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79 a80 h80 a81 h81 a82 h82 a83 h83 a84 h84 a85 h85 a86 h86 a87 h87 a88 h88 a89 h89 a90 h90 a91 h91 a92 h92 a93 h93 a94 h94 a95 h95 aOut hOut aAcc hAcc E
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩, ⟨%f56, %hf56, H56⟩, ⟨%f57, %hf57, H57⟩, ⟨%f58, %hf58, H58⟩, ⟨%f59, %hf59, H59⟩, ⟨%f60, %hf60, H60⟩, ⟨%f61, %hf61, H61⟩, ⟨%f62, %hf62, H62⟩, ⟨%f63, %hf63, H63⟩, ⟨%f64, %hf64, H64⟩, ⟨%f65, %hf65, H65⟩, ⟨%f66, %hf66, H66⟩, ⟨%f67, %hf67, H67⟩, ⟨%f68, %hf68, H68⟩, ⟨%f69, %hf69, H69⟩, ⟨%f70, %hf70, H70⟩, ⟨%f71, %hf71, H71⟩, ⟨%f72, %hf72, H72⟩, ⟨%f73, %hf73, H73⟩, ⟨%f74, %hf74, H74⟩, ⟨%f75, %hf75, H75⟩, ⟨%f76, %hf76, H76⟩, ⟨%f77, %hf77, H77⟩, ⟨%f78, %hf78, H78⟩, ⟨%f79, %hf79, H79⟩, ⟨%f80, %hf80, H80⟩, ⟨%f81, %hf81, H81⟩, ⟨%f82, %hf82, H82⟩, ⟨%f83, %hf83, H83⟩, ⟨%f84, %hf84, H84⟩, ⟨%f85, %hf85, H85⟩, ⟨%f86, %hf86, H86⟩, ⟨%f87, %hf87, H87⟩, ⟨%f88, %hf88, H88⟩, ⟨%f89, %hf89, H89⟩, ⟨%f90, %hf90, H90⟩, ⟨%f91, %hf91, H91⟩, ⟨%f92, %hf92, H92⟩, ⟨%f93, %hf93, H93⟩, ⟨%f94, %hf94, H94⟩, ⟨%f95, %hf95, H95⟩, ⟨%fo, %hfo, Ho⟩, ⟨%fs, %hfs, Hs⟩⟩
  sl_exec (disch := first | exact hc1 | exact hc2)
  sl_step
  sl_unfold_run_names
  sl_close

end Cert.Kernel.Hand

end
-- ==== Proof.BodyMidBits.lean ====
import proofs.«409637_j57681410785658_2_alg».proof.Proof.BodyCondBits
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- Between the first and the last point the accumulator goes one step on and the output buffer is left alone. -/
theorem body_mid (i : grid0.Coords) (hc1 : ¬ condFirst i) (hc2 : ¬ condLast i)
    (x : Fin 96 → Vec F S1x1x256 .f32) (o s : Vec F S1x1 .f32) : BodyTriple i x o s o (step x s) := by
  unfold BodyTriple
  intro c t1 ht1 t2 ht2 t3 ht3 t4 ht4 t5 ht5 t6 ht6 a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79 a80 h80 a81 h81 a82 h82 a83 h83 a84 h84 a85 h85 a86 h86 a87 h87 a88 h88 a89 h89 a90 h90 a91 h91 a92 h92 a93 h93 a94 h94 a95 h95 aOut hOut aAcc hAcc E
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩, ⟨%f56, %hf56, H56⟩, ⟨%f57, %hf57, H57⟩, ⟨%f58, %hf58, H58⟩, ⟨%f59, %hf59, H59⟩, ⟨%f60, %hf60, H60⟩, ⟨%f61, %hf61, H61⟩, ⟨%f62, %hf62, H62⟩, ⟨%f63, %hf63, H63⟩, ⟨%f64, %hf64, H64⟩, ⟨%f65, %hf65, H65⟩, ⟨%f66, %hf66, H66⟩, ⟨%f67, %hf67, H67⟩, ⟨%f68, %hf68, H68⟩, ⟨%f69, %hf69, H69⟩, ⟨%f70, %hf70, H70⟩, ⟨%f71, %hf71, H71⟩, ⟨%f72, %hf72, H72⟩, ⟨%f73, %hf73, H73⟩, ⟨%f74, %hf74, H74⟩, ⟨%f75, %hf75, H75⟩, ⟨%f76, %hf76, H76⟩, ⟨%f77, %hf77, H77⟩, ⟨%f78, %hf78, H78⟩, ⟨%f79, %hf79, H79⟩, ⟨%f80, %hf80, H80⟩, ⟨%f81, %hf81, H81⟩, ⟨%f82, %hf82, H82⟩, ⟨%f83, %hf83, H83⟩, ⟨%f84, %hf84, H84⟩, ⟨%f85, %hf85, H85⟩, ⟨%f86, %hf86, H86⟩, ⟨%f87, %hf87, H87⟩, ⟨%f88, %hf88, H88⟩, ⟨%f89, %hf89, H89⟩, ⟨%f90, %hf90, H90⟩, ⟨%f91, %hf91, H91⟩, ⟨%f92, %hf92, H92⟩, ⟨%f93, %hf93, H93⟩, ⟨%f94, %hf94, H94⟩, ⟨%f95, %hf95, H95⟩, ⟨%fo, %hfo, Ho⟩, ⟨%fs, %hfs, Hs⟩⟩
  sl_exec (disch := first | exact hc1 | exact hc2)
  sl_step
  sl_unfold_run_names
  sl_close

end Cert.Kernel.Hand

end
-- ==== Proof.BodyLastBits.lean ====
import proofs.«409637_j57681410785658_2_alg».proof.Proof.BodyCondBits
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 4000000 in
/-- At the last point the accumulator goes one step on and is copied to the output buffer. -/
theorem body_last (i : grid0.Coords) (hc1 : ¬ condFirst i) (hc2 : condLast i)
    (x : Fin 96 → Vec F S1x1x256 .f32) (o s : Vec F S1x1 .f32) : BodyTriple i x o s (step x s) (step x s) := by
  unfold BodyTriple
  intro c t1 ht1 t2 ht2 t3 ht3 t4 ht4 t5 ht5 t6 ht6 a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79 a80 h80 a81 h81 a82 h82 a83 h83 a84 h84 a85 h85 a86 h86 a87 h87 a88 h88 a89 h89 a90 h90 a91 h91 a92 h92 a93 h93 a94 h94 a95 h95 aOut hOut aAcc hAcc E
  simp only [cc0__kernel_eq_skeleton]; unfold cc0__kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%f41, %hf41, H41⟩, ⟨%f42, %hf42, H42⟩, ⟨%f43, %hf43, H43⟩, ⟨%f44, %hf44, H44⟩, ⟨%f45, %hf45, H45⟩, ⟨%f46, %hf46, H46⟩, ⟨%f47, %hf47, H47⟩, ⟨%f48, %hf48, H48⟩, ⟨%f49, %hf49, H49⟩, ⟨%f50, %hf50, H50⟩, ⟨%f51, %hf51, H51⟩, ⟨%f52, %hf52, H52⟩, ⟨%f53, %hf53, H53⟩, ⟨%f54, %hf54, H54⟩, ⟨%f55, %hf55, H55⟩, ⟨%f56, %hf56, H56⟩, ⟨%f57, %hf57, H57⟩, ⟨%f58, %hf58, H58⟩, ⟨%f59, %hf59, H59⟩, ⟨%f60, %hf60, H60⟩, ⟨%f61, %hf61, H61⟩, ⟨%f62, %hf62, H62⟩, ⟨%f63, %hf63, H63⟩, ⟨%f64, %hf64, H64⟩, ⟨%f65, %hf65, H65⟩, ⟨%f66, %hf66, H66⟩, ⟨%f67, %hf67, H67⟩, ⟨%f68, %hf68, H68⟩, ⟨%f69, %hf69, H69⟩, ⟨%f70, %hf70, H70⟩, ⟨%f71, %hf71, H71⟩, ⟨%f72, %hf72, H72⟩, ⟨%f73, %hf73, H73⟩, ⟨%f74, %hf74, H74⟩, ⟨%f75, %hf75, H75⟩, ⟨%f76, %hf76, H76⟩, ⟨%f77, %hf77, H77⟩, ⟨%f78, %hf78, H78⟩, ⟨%f79, %hf79, H79⟩, ⟨%f80, %hf80, H80⟩, ⟨%f81, %hf81, H81⟩, ⟨%f82, %hf82, H82⟩, ⟨%f83, %hf83, H83⟩, ⟨%f84, %hf84, H84⟩, ⟨%f85, %hf85, H85⟩, ⟨%f86, %hf86, H86⟩, ⟨%f87, %hf87, H87⟩, ⟨%f88, %hf88, H88⟩, ⟨%f89, %hf89, H89⟩, ⟨%f90, %hf90, H90⟩, ⟨%f91, %hf91, H91⟩, ⟨%f92, %hf92, H92⟩, ⟨%f93, %hf93, H93⟩, ⟨%f94, %hf94, H94⟩, ⟨%f95, %hf95, H95⟩, ⟨%fo, %hfo, Ho⟩, ⟨%fs, %hfs, Hs⟩⟩
  sl_exec (disch := first | exact hc1 | exact hc2)
  sl_step
  sl_unfold_run_names
  sl_close

end Cert.Kernel.Hand

end
-- ==== Proof.BodyBits.lean ====
import proofs.«409637_j57681410785658_2_alg».proof.Proof.BodyFirstBits
import proofs.«409637_j57681410785658_2_alg».proof.Proof.BodyMidBits
import proofs.«409637_j57681410785658_2_alg».proof.Proof.BodyLastBits
-- ==== Proof.OutArrayBits.lean ====
import proofs.«409637_j57681410785658_2_alg».proof.Proof.DataBits
import Idealize.ShloMosaic.Lib.Pipeline.Value

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]
variable (m : (ℓ : Loc nD τ sig) → Buf (Elt F) ℓ)

section Sched
variable (a : (pcfg0 (F := F)).Adm)

theorem isOut96 : ((cfg0 a).win 96).isOut = true := rfl

theorem index96 (t t' : Fin (cfg0 a).N) : ((cfg0 a).win 96).index t = ((cfg0 a).win 96).index t' := rfl

theorem flush96 (t : Fin (cfg0 a).N) : ((cfg0 a).win 96).flush t = decide (t.val + 1 = 256) := by
  unfold Window.flush
  rw [isOut96 a, Bool.true_and]
  have hN : (cfg0 a).grid.N = 256 := N_0
  have hd : decide (∃ h : t.val + 1 < (cfg0 a).grid.N, ((cfg0 a).win 96).index ⟨t.val + 1, h⟩ ≠ ((cfg0 a).win 96).index t) = false := by
    rw [decide_eq_false_iff_not]
    rintro ⟨h, hne⟩
    exact hne (index96 a _ _)
  rw [hd, Bool.or_false]
  exact decide_eq_decide.mpr ⟨fun h => h.trans hN, fun h => h.trans hN.symm⟩

theorem off96 (t : Fin (cfg0 a).N) :
    (fun b => ((cfg0 a).win 96).index t b * main_v2.ty.shape.size b) = fun _ => 0 :=
  funext fun b => by match b with | ⟨0, _⟩ => rfl | ⟨1, _⟩ => rfl

theorem read96 (t : Fin (cfg0 a).N) (G : Vec F S1x1 .f32) :
    (((cfg0 a).win 96).blk t).view.read (Elt F) G = G :=
  Memref.read_access_unit_zero (Elt F) main_v2 (off96 a t) (fun b => by rw [congrFun (off96 a t) b]; simp) G

theorem mem96 (t : Fin (cfg0 a).N) (i : S1x1.Idx) : i ∈ (((cfg0 a).win 96).blk t).view.set := by
  have inb : ∀ b, ((cfg0 a).win 96).index t b * main_v2.ty.shape.size b + main_v2.ty.shape.size b
      ≤ main_v2.ty.shape.size b := fun b => by rw [congrFun (off96 a t) b]; simp
  show i ∈ ((View.whole main_v2).slice (Rect.unit
    (fun b => ((cfg0 a).win 96).index t b * main_v2.ty.shape.size b) main_v2.ty.shape.size inb)).set
  rw [View.set_slice_whole]
  exact View.mem_set_unit_zero (off96 a t) inb i

end Sched

section Final
variable (q : Fin 97 → PosShare TreeShare) (hO : Ok m) (c : Dev nD)

theorem after96 (t : Fin (cfgM m hO).N) : (dats m q hO 0 c).after (96 : Fin 97) t = accAt m hO c (t.val + 1) := rfl

theorem flushed96 (t : Fin (cfgM m hO).N) (hf : ((cfgM m hO).win 96).flush t = true) :
    (dats m q hO 0 c).flushed (96 : Fin 97) t
      = (((cfgM m hO).win 96).blk t).view.read (Elt F) (accAt m hO c 256) := by
  have ht : t.val + 1 = 256 := of_decide_eq_true ((flush96 (adm m hO) t).symm.trans hf)
  rw [read96 (adm m hO) t]
  show (dats m q hO 0 c).after (96 : Fin 97) t = _
  rw [after96, ht]

/-- The output array after the run is the accumulator after all 256 points. -/
theorem arrAt_out : (dats m q hO 0 c).arrAt (96 : Fin 97) (cfgM m hO).N = accAt m hO c 256 :=
  (dats m q hO 0 c).arrAt_eq_of_cover (96 : Fin 97) (accAt m hO c 256) (flushed96 m q hO c) fun i =>
    ⟨⟨255, by rw [show (cfgM m hO).N = 256 from N_0]; decide⟩,
      (flush96 (adm m hO) _).trans (decide_eq_true rfl), mem96 (adm m hO) _ i⟩

theorem arrAt_out_apply (i : S1x1.Idx) :
    (dats m q hO 0 c).arrAt (96 : Fin 97) (cfgM m hO).N i = accAt m hO c 256 i :=
  congrFun (arrAt_out m q hO c) i

end Final

end Cert.Kernel.Hand

end
-- ==== Proof.ObligationBits.lean ====
import proofs.«409637_j57681410785658_2_alg».proof.Proof.ObligationTabBits
import proofs.«409637_j57681410785658_2_alg».proof.Proof.BodyBits
import proofs.«409637_j57681410785658_2_alg».proof.Proof.OutArrayBits
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

theorem idle_out (a : (pcfg0 (F := F)).Adm) (i : (cfg0 a).grid.Coords) : (cfg0 a).idle 96 i = !(k0_cond2 i == 1#1) := rfl

theorem condFirst_iff : ∀ t : Fin grid0.N, condFirst (grid0.coords t) ↔ t.val = 0 := by decide +kernel

theorem condLast_iff : ∀ t : Fin grid0.N, condLast (grid0.coords t) ↔ t.val = 255 := by decide +kernel

theorem accAt_succ (hO : Ok m) (c : Dev nD) (t : Fin (cfgM m hO).N) :
    accAt m hO c (t.val + 1) = step (rows m hO c t) (accAt m hO c t.val) := by
  rw [accAt, dif_pos t.isLt]

/-- A triple used under a frame: what is left over waits for the triple's post. -/
theorem run_with {prog : Prog (TpuEff nD τ sig (Elt F) Λ₀ .tc) PUnit} {c : Dev nD} {E : Set ℕ} {P Q R : sProp 𝕄}
    (h : P ⊢ wp frame (wpE (defs₀ (F := F)) Variants.none c none) E prog (fun _ => Q)) :
    iprop(P ∗ (Q -∗ R)) ⊢ wp frame (wpE (defs₀ (F := F)) Variants.none c none) E prog (fun _ => R) :=
  (sep_mono_l h).trans ((wp_frame_r _ _ _).trans (wp_mono _ _ _ fun _ => wand_elim_right))

set_option maxHeartbeats 1000000 in
/-- The first point: the step starts from the reset value whatever the buffer held. -/
theorem sound_first (q : Fin 97 → PosShare TreeShare) (hO : Ok m) (c : Dev nD) (t : Fin (cfgM m hO).N) (h0 : t.val = 0) :
    bodyPre m q hO c t ⊢ wp frame (wpE (defs₀ (F := F)) Variants.none c none) Set.univ (bodyAt (adm m hO) t)
      (fun _ => bodyPost m q hO c t) := by
  have hlast : t.val ≠ 255 := by omega
  unfold bodyPre bodyPost
  rw [bigSep_W0, bigSep_W0]
  beta_reduce
  have hN : t.val < 256 := t.isLt
  have hc2 : ¬ condLast (grid0.coords t) := fun h => hlast ((condLast_iff t).mp h)
  have hidle : (cfgM m hO).idle (96 : Fin 97) ((cfgM m hO).grid.coords t) = true := by
    have : (!(k0_cond2 (grid0.coords t) == 1#1)) = true := by simpa using hc2
    exact this
  have hflush : ((cfgM m hO).win (96 : Fin 97)).flush t = false := by
    rw [flush96]; exact decide_eq_false (by omega)
  rewrite [hidle, hflush]
  dsimp only
  simp (disch := decide) only [before_w]
  unfold ΦAcc
  simp only [Fin.coe_castSucc, Fin.val_succ]
  obl_intro
  have hc1 : condFirst (grid0.coords t) := (condFirst_iff t).mpr h0
  iapply (run_with (obl_at(body_first (grid0.coords t) hc1 hc2 (rows m hO c t) _ X, c) Set.univ))
  isplitr [HT Ho]
  · obl_give
  obl_take
  isplitl [HT HAcc]
  · isplitl [HT]
    · iexact HT
    iexists _
    isplitl [HAcc]
    · iexact HAcc
    ipureintro
    intro _
    rw [accAt_succ, h0, accAt]
  isplitl [Ho]
  · iexact Ho
  obl_return_rows
  iexists _
  iexact H96

set_option maxHeartbeats 1000000 in
/-- A point between: the accumulator, at `accAt` by the invariant, goes one step on. -/
theorem sound_mid (q : Fin 97 → PosShare TreeShare) (hO : Ok m) (c : Dev nD) (t : Fin (cfgM m hO).N) (h0 : t.val ≠ 0) (hlast : t.val ≠ 255) :
    bodyPre m q hO c t ⊢ wp frame (wpE (defs₀ (F := F)) Variants.none c none) Set.univ (bodyAt (adm m hO) t)
      (fun _ => bodyPost m q hO c t) := by
  unfold bodyPre bodyPost
  rw [bigSep_W0, bigSep_W0]
  beta_reduce
  have hN : t.val < 256 := t.isLt
  have hc2 : ¬ condLast (grid0.coords t) := fun h => hlast ((condLast_iff t).mp h)
  have hidle : (cfgM m hO).idle (96 : Fin 97) ((cfgM m hO).grid.coords t) = true := by
    have : (!(k0_cond2 (grid0.coords t) == 1#1)) = true := by simpa using hc2
    exact this
  have hflush : ((cfgM m hO).win (96 : Fin 97)).flush t = false := by
    rw [flush96]; exact decide_eq_false (by omega)
  rewrite [hidle, hflush]
  dsimp only
  simp (disch := decide) only [before_w]
  unfold ΦAcc
  simp only [Fin.coe_castSucc, Fin.val_succ]
  obl_intro
  have hc1 : ¬ condFirst (grid0.coords t) := fun h => h0 ((condFirst_iff t).mp h)
  iapply (run_with (obl_at(body_mid (grid0.coords t) hc1 hc2 (rows m hO c t) _ X, c) Set.univ))
  isplitr [HT Ho]
  · obl_give
  obl_take
  isplitl [HT HAcc]
  · isplitl [HT]
    · iexact HT
    iexists _
    isplitl [HAcc]
    · iexact HAcc
    ipureintro
    intro _
    rw [accAt_succ, hX h0]
  isplitl [Ho]
  · iexact Ho
  obl_return_rows
  iexists _
  iexact H96

set_option maxHeartbeats 1000000 in
/-- The last point: one more step, and the output window takes the accumulator's value. -/
theorem sound_last (q : Fin 97 → PosShare TreeShare) (hO : Ok m) (c : Dev nD) (t : Fin (cfgM m hO).N) (hlast : t.val = 255) :
    bodyPre m q hO c t ⊢ wp frame (wpE (defs₀ (F := F)) Variants.none c none) Set.univ (bodyAt (adm m hO) t)
      (fun _ => bodyPost m q hO c t) := by
  unfold bodyPre bodyPost
  rw [bigSep_W0, bigSep_W0]
  beta_reduce
  have h0 : t.val ≠ 0 := by omega
  have hc1 : ¬ condFirst (grid0.coords t) := fun h => h0 ((condFirst_iff t).mp h)
  have hc2 : condLast (grid0.coords t) := (condLast_iff t).mpr hlast
  have hidle : (cfgM m hO).idle (96 : Fin 97) ((cfgM m hO).grid.coords t) = false := by
    have : (!(k0_cond2 (grid0.coords t) == 1#1)) = false := by
      rw [show k0_cond2 (grid0.coords t) = 1#1 from hc2]; rfl
    exact this
  rewrite [hidle]
  dsimp only
  simp (disch := decide) only [before_w]
  unfold ΦAcc
  simp only [Fin.coe_castSucc, Fin.val_succ]
  obl_intro
  rw [after96 m q hO c t, accAt_succ, ← hX h0]
  iapply (run_with (obl_at(body_last (grid0.coords t) hc1 hc2 (rows m hO c t) _ X, c) Set.univ))
  isplitr [HT Ho]
  · obl_give
  obl_take
  isplitl [HT HAcc]
  · isplitl [HT]
    · iexact HT
    iexists _
    isplitl [HAcc]
    · iexact HAcc
    ipureintro
    intro _
    rfl
  isplitl [Ho]
  · iexact Ho
  obl_return_rows
  iexact H96

theorem sound_body (q : Fin 97 → PosShare TreeShare) (hO : Ok m) (c : Dev nD) (t : Fin (cfgM m hO).N)  :
    bodyPre m q hO c t ⊢ wp frame (wpE (defs₀ (F := F)) Variants.none c none) Set.univ (bodyAt (adm m hO) t)
      (fun _ => bodyPost m q hO c t) := by
  by_cases hlast : t.val = 255
  · exact sound_last m q hO c t hlast
  · by_cases h0 : t.val = 0
    · exact sound_first m q hO c t h0
    · exact sound_mid m q hO c t h0 hlast

set_option maxHeartbeats 1000000 in
/-- The obligation at every point is the body's triple, by the point's place in the grid. -/
theorem body_obligation (q : Fin 97 → PosShare TreeShare) (hO : Ok m) (c : Dev nD) :
    BodyObligation (dats m q hO 0 c) (defs₀ (F := F)) Variants.none () Set.univ := fun t => by
  sl_whnfR [defs₀, Defs.onTc]
  exact sound_body m q hO c t

end Cert.Kernel.Hand

end
-- ==== Proof.LaunchBits.lean ====
import proofs.«409637_j57681410785658_2_alg».proof.Proof.DataBits
import proofs.«409637_j57681410785658_2_alg».proof.Proof.SharesBits
import proofs.«409637_j57681410785658_2_alg».proof.Proof.ObligationBits
import Idealize.ShloMosaic.Lib.Pipeline.Regions
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev pt (c : Dev nD) (b : Ref sig .tc) (f : Buf (Elt F) ((c : Thread nD τ).loc b)) : sProp 𝕄 :=
  ((c : Thread nD τ).loc b) ↦{fullShare} f

def bufsAll : Finset (DevRef τ sig) :=
  {Proc.devRef .tc main_arg0, Proc.devRef .tc main_arg1, Proc.devRef .tc main_arg2, Proc.devRef .tc main_arg3,
   Proc.devRef .tc main_arg4, Proc.devRef .tc main_arg5, Proc.devRef .tc main_arg6, Proc.devRef .tc main_arg7,
   Proc.devRef .tc main_v0, Proc.devRef .tc main_v1, Proc.devRef .tc main_v2, Proc.devRef .tc main_v3}

def bufsOut : Finset (DevRef τ sig) := {Proc.devRef .tc main_v2, Proc.devRef .tc main_v3}

def all12 (c : Dev nD) (W : Valuation τ sig (Elt F)) : sProp 𝕄 :=
  iprop(pt c main_arg0 (W main_arg0) ∗ pt c main_arg1 (W main_arg1) ∗ pt c main_arg2 (W main_arg2) ∗ pt c main_arg3 (W main_arg3)
    ∗ pt c main_arg4 (W main_arg4) ∗ pt c main_arg5 (W main_arg5) ∗ pt c main_arg6 (W main_arg6) ∗ pt c main_arg7 (W main_arg7)
    ∗ pt c main_v0 (W main_v0) ∗ pt c main_v1 (W main_v1) ∗ pt c main_v2 (W main_v2) ∗ pt c main_v3 (W main_v3))

omit [FloatOps F] in
theorem held_all_eq (c : Dev nD) (W : Valuation τ sig (Elt F)) :
    (StableHlo.held (c : Thread nD τ) bufsAll W : sProp 𝕄) = all12 c W := by
  unfold StableHlo.held all12
  rw [bigSep_eq_bigSepL_of_eq [Proc.devRef .tc main_arg0, Proc.devRef .tc main_arg1, Proc.devRef .tc main_arg2, Proc.devRef .tc main_arg3,
    Proc.devRef .tc main_arg4, Proc.devRef .tc main_arg5, Proc.devRef .tc main_arg6, Proc.devRef .tc main_arg7,
    Proc.devRef .tc main_v0, Proc.devRef .tc main_v1, Proc.devRef .tc main_v2, Proc.devRef .tc main_v3] (by decide) (by decide)]
  rfl

omit [FloatOps F] in
theorem unscopedBufs_eq (c : Dev nD) (W : Valuation τ sig (Elt F)) :
    (unscopedBufs c (fun b => W b) : sProp 𝕄) = all12 c W := by
  unfold unscopedBufs all12
  rw [bigSep_eq_bigSepL_of_eq [main_arg0, main_arg1, main_arg2, main_arg3, main_arg4, main_arg5, main_arg6, main_arg7,
    main_v0, main_v1, main_v2, main_v3] (by decide) (by decide)]
  rfl

omit [FloatOps F] in
theorem held_out_eq (c : Dev nD) (W : Valuation τ sig (Elt F)) :
    (StableHlo.held (c : Thread nD τ) bufsOut W : sProp 𝕄) = iprop(pt c main_v2 (W main_v2) ∗ pt c main_v3 (W main_v3)) := by
  unfold StableHlo.held
  rw [bigSep_eq_bigSepL_of_eq [Proc.devRef .tc main_v2, Proc.devRef .tc main_v3] (by decide) (by decide)]
  rfl

theorem V_keep (c : Dev nD) (b : Ref sig .tc) (h0 : b ≠ main_v0) (h1 : b ≠ main_v1) :
    V m c b = m ((c : Thread nD τ).loc b) := by
  show StableHlo.after hostOps0 (V₀ m c) (Proc.devRef .tc b) = _
  rw [StableHlo.after_cons, StableHlo.after_cons, StableHlo.after_nil, StableHlo.reshape_result_ne _ _ _ _ _ _ _ h1,
    StableHlo.reshape_result_ne _ _ _ _ _ _ _ h0]

theorem V_pre (c : Dev nD) (j : Fin 6) : V m c (pre0.ref j) = tbl m j := by
  obtain rfl : c = 0 := Subsingleton.elim _ _
  unfold tbl
  match j with
  | 0 => exact V_keep m 0 _ (by decide) (by decide)
  | 1 => exact V_keep m 0 _ (by decide) (by decide)
  | 2 => exact V_keep m 0 _ (by decide) (by decide)
  | 3 => exact V_keep m 0 _ (by decide) (by decide)
  | 4 => exact V_keep m 0 _ (by decide) (by decide)
  | 5 => exact V_keep m 0 _ (by decide) (by decide)

theorem prefHeld_eq (c : Dev nD) (T : pre0.Contents (Elt F)) :
    (Pipeline.prefHeld (Ix := Unit) (Name := ℕ) (U := UR sig nD τ) (Lvl := ℕ) (Val := Elt F) pre0 c (fun _ => fullShare) T : sProp 𝕄)
      = iprop(pt c main_arg2 (T 0) ∗ pt c main_arg3 (T 1) ∗ pt c main_arg4 (T 2) ∗ pt c main_arg5 (T 3) ∗ pt c main_arg6 (T 4) ∗ pt c main_arg7 (T 5)) := by
  unfold Pipeline.prefHeld
  rw [bigSep_univ_eq_bigSepL [(0 : Fin 6), 1, 2, 3, 4, 5] (by decide) (by decide)]
  rfl

theorem tbl_eq (c : Dev nD) (j : Fin 6) : tbl m j = m ((c : Thread nD τ).loc (pre0.ref j)) := by
  obtain rfl : c = 0 := Subsingleton.elim _ _
  rfl

abbrev L : GSem nD τ sig → Finset Unit := fun _ => ∅
abbrev lv : GSem nD τ sig → Unit → ℕ := fun _ _ => 0
abbrev 𝒱₀ : Variants := Variants.none

abbrev EP : Emb (UR sig nD τ) 𝕄 := emb₁

abbrev admF (hO : Ok m) : (p : Fin 1) → (pcfgs (F := F) p).Adm := fun _ => adm m hO

abbrev R (c : Dev nD) : sProp 𝕄 := iprop(∃ W, owes (c : Thread nD τ) (0 : CellTallies nD τ sig Unit) W)

abbrev resAt (hO : Ok m) (c : Dev nD) : Buf (Elt F) ((c : Thread nD τ).loc main_v2) :=
  (dats m qOf hO 0 c).arrAt (96 : Fin 97) (cfgM m hO).N

abbrev V₂ (hO : Ok m) (c : Dev nD) : Valuation τ sig (Elt F) :=
  Function.update (StableHlo.after hostOps0 (V₀ m c)) (Proc.devRef .tc main_v2) (resAt m hO c)

theorem V₂_res (hO : Ok m) (c : Dev nD) : V₂ m hO c (Proc.devRef .tc main_v2) = resAt m hO c := Function.update_self ..
theorem V₂_ne (hO : Ok m) (c : Dev nD) (b : Ref sig .tc) (h : b ≠ main_v2) : V₂ m hO c (Proc.devRef .tc b) = V m c b :=
  Function.update_of_ne (StableHlo.devRef_ne_of_ne h) ..

def outVal (hO : Ok m) (c : Dev nD) : Buf (Elt F) ((c : Thread nD τ).loc main_v3) :=
  fun i => shapeCast S_ (resAt m hO c) shapeCasts_S1x1_S_ i

theorem after_out (hO : Ok m) (c : Dev nD) :
    StableHlo.after hostOps1 (V₂ m hO c) (Proc.devRef .tc main_v3) = outVal m hO c := by
  rw [StableHlo.after_cons, StableHlo.after_nil, StableHlo.reshape_result', V₂_res]
  rfl

def inputsAt (hO : Ok m) (c : Dev nD) : sProp 𝕄 :=
  bigSep (Finset.univ.erase (96 : Fin 97)) fun w : Fin (cfgM m hO).W =>
    (((cfgM m hO).win w).arr.view.loc (c : Thread nD τ)
      ↦[((cfgM m hO).win w).arr.view.set]{(dats m qOf hO 0 c).share w} (dats m qOf hO 0 c).arrAt w (cfgM m hO).N : sProp 𝕄)

theorem arrays_exit (hO : Ok m) (c : Dev nD) :
    ((dats m qOf hO 0 c).arrays ((dats m qOf hO 0 c).arrAt · (cfgM m hO).N) : sProp 𝕄)
      = iprop(pt c main_v2 (resAt m hO c) ∗ inputsAt m hO c) := by
  unfold Dat.arrays inputsAt
  rw [bigSep_erase (Finset.mem_univ (96 : Fin 97))]
  rfl

theorem owes_in (hO : Ok m) (c : Dev nD) (t : Fin ((cfgM m hO).N + 1)) : R c ⊢ ((dats m qOf hO 0 c).owesAt () t : sProp 𝕄) := by
  unfold Pipeline.Dat.owesAt Pipeline.owesWithin
  iintro ⟨%W, HO⟩
  iexists W
  isplitr
  · ipureintro; exact fun _ _ => Or.inl trivial
  iexact HO
theorem owes_out (hO : Ok m) (c : Dev nD) (t : Fin ((cfgM m hO).N + 1)) : ((dats m qOf hO 0 c).owesAt () t : sProp 𝕄) ⊢ R c := by
  unfold Pipeline.Dat.owesAt Pipeline.owesWithin
  iintro ⟨%W, -, HO⟩
  iexists W
  iexact HO

theorem ops0_sub : ∀ op ∈ (hostOps0 : List (HloOp τ sig (Elt F))), op.bufs ⊆ bufsAll := fun op h => by
  simp only [List.mem_cons, List.mem_nil_iff, or_false] at h
  rcases h with rfl | rfl
  · show ({Proc.devRef .tc main_arg0, Proc.devRef .tc main_v0} : Finset (DevRef τ sig)) ⊆ bufsAll; decide
  · show ({Proc.devRef .tc main_arg1, Proc.devRef .tc main_v1} : Finset (DevRef τ sig)) ⊆ bufsAll; decide
theorem ops0_fresh : ∀ op ∈ (hostOps0 : List (HloOp τ sig (Elt F))), op.fresh = ∅ := fun op h => by
  simp only [List.mem_cons, List.mem_nil_iff, or_false] at h
  rcases h with rfl | rfl <;> rfl
theorem ops1_sub : ∀ op ∈ (hostOps1 : List (HloOp τ sig (Elt F))), op.bufs ⊆ bufsOut := fun op h => by
  simp only [List.mem_singleton] at h; subst h
  show ({Proc.devRef .tc main_v2, Proc.devRef .tc main_v3} : Finset (DevRef τ sig)) ⊆ bufsOut; decide
theorem ops1_fresh : ∀ op ∈ (hostOps1 : List (HloOp τ sig (Elt F))), op.fresh = ∅ := fun op h => by
  simp only [List.mem_singleton] at h; subst h; rfl

def seg0 : Pipeline.HostSeg (Name := ℕ) (U := UR sig nD τ) (pcfgs (F := F)) defs₀ 𝒱₀ L lv :=
  Pipeline.HostSeg.ofOps _ _ _ _ _ bufsAll hostOps0 ops0_sub ops0_fresh (V₀ m) R

abbrev R₂ (hO : Ok m) (c : Dev nD) : sProp 𝕄 :=
  iprop(inputsAt m hO c
    ∗ Pipeline.prefHeld (Ix := Unit) (Name := ℕ) (U := UR sig nD τ) (Lvl := ℕ) (Val := Elt F) pre0 c (fun _ => fullShare) (tbl m)
    ∗ pt c main_arg0 (V m c main_arg0) ∗ pt c main_arg1 (V m c main_arg1) ∗ R c)

def seg2 (hO : Ok m) : Pipeline.HostSeg (Name := ℕ) (U := UR sig nD τ) (pcfgs (F := F)) defs₀ 𝒱₀ L lv :=
  Pipeline.HostSeg.ofOps _ _ _ _ _ bufsOut hostOps1 ops1_sub ops1_fresh (V₂ m hO) (R₂ m hO)

theorem tables_in (c : Dev nD) :
    iprop(pt c main_arg2 (V m c main_arg2) ∗ pt c main_arg3 (V m c main_arg3) ∗ pt c main_arg4 (V m c main_arg4)
      ∗ pt c main_arg5 (V m c main_arg5) ∗ pt c main_arg6 (V m c main_arg6) ∗ pt c main_arg7 (V m c main_arg7))
    ⊢ (Pipeline.prefHeld (Ix := Unit) (Name := ℕ) (U := UR sig nD τ) (Lvl := ℕ) (Val := Elt F) pre0 c (fun _ => fullShare) (tbl m) : sProp 𝕄) := by
  rw [prefHeld_eq, ← V_pre m c 0, ← V_pre m c 1, ← V_pre m c 2, ← V_pre m c 3, ← V_pre m c 4, ← V_pre m c 5]
  exact .rfl

set_option backward.isDefEq.respectTransparency.types false in
/-- The kernel region between the two host stretches, with what it takes at entry and gives back at exit. -/
def reg0 (hO : Ok m) : Pipeline.RegionSeg (pcfgs (F := F)) (admF m hO) (dats m qOf hO) () defs₀ 𝒱₀ L lv 0 where
  win := winFacts₀0
  block_pos := block_pos0
  stage_whole := stage_whole0
  K := PEmpty
  osem k := k.elim
  ho := Pipeline.OwnSemFacts.none _
  hbody c := (body_obligation m qOf hO c).loose
  hwaits := Pipeline.hwaits_of_owed_zero _ _ _ _ L lv 0 fun _ _ => rfl
  pre c := iprop(StableHlo.held (c : Thread nD τ) bufsAll (StableHlo.after hostOps0 (V₀ m c)) ∗ R c)
  post c := iprop(StableHlo.held (c : Thread nD τ) bufsOut (V₂ m hO c) ∗ R₂ m hO c)
  X _ := iprop(emp)
  Y c := Pipeline.prefHeld (Ix := Unit) (Name := ℕ) (U := UR sig nD τ) (Lvl := ℕ) (Val := Elt F) pre0 c (fun _ => fullShare) (tbl m)
  Z c := iprop(pt c main_arg0 (V m c main_arg0) ∗ pt c main_arg1 (V m c main_arg1) ∗ pt c main_v3 (V m c main_v3))
  hentry c := by
    rw [held_all_eq, Pipeline.ownSems0_none]
    unfold all12
    iintro ⟨⟨⟨H0, H1, H2, H3, H4, H5, H6, H7, Hv0, Hv1, Hv2, Hv3⟩, HO⟩, -, -⟩
    imodintro
    isplitl [Hv0 Hv1 Hv2]
    · rw [show ((dats m qOf hO 0 c).arrAt · 0) = fun w => V m c (Pipeline.arrRef spec0 w) from rfl,
        ← tables_eq_arrays (adm m hO) c (dats m qOf hO 0 c) rfl (V m c)]
      isplitl [Hv0]; · iexact Hv0
      isplitl [Hv1] <;> iassumption
    isplitl [H2 H3 H4 H5 H6 H7]
    · iapply (tables_in m c)
      isplitl [H2]; · iexact H2
      isplitl [H3]; · iexact H3
      isplitl [H4]; · iexact H4
      isplitl [H5]; · iexact H5
      isplitl [H6] <;> iassumption
    isplitl [HO]; · iapply (owes_in m hO c 0); iexact HO
    isplitr; · iempintro
    isplitl [H0]; · iexact H0
    isplitl [H1] <;> iassumption
  hin c := by
    rw [show (dats m qOf hO 0 c).Φ 0 = ΦAcc m hO c 0 from rfl, scopedRest0_eq]
    unfold ΦAcc
    iintro ⟨-, Ht, ⟨%f, Hs⟩⟩
    isplitl [Ht]; · iexact Ht
    iexists f
    rw [owns_whole_eq]
    isplitl [Hs]
    · iexists f; isplitr; · ipureintro; rfl
      iexact Hs
    ipureintro; intro h; exact absurd rfl h
  hout c := by
    rw [show (dats m qOf hO 0 c).Φ (Fin.last _) = ΦAcc m hO c (Fin.last _) from rfl, Pipeline.ownSems0_none, scopedRest0_eq]
    unfold ΦAcc
    simp only [owns_whole_eq]
    iintro ⟨Ht, ⟨%X, ⟨%f, -, Hs⟩, -⟩⟩
    isplitl [Ht]; · iexact Ht
    isplitr; · iempintro
    iexists f; iexact Hs
  hexit c := by
    rw [arrays_exit, held_out_eq, V₂_res, V₂_ne m hO c main_v3 (by decide)]
    iintro ⟨⟨Hr, Hin⟩, HO, Ht, ⟨H0, H1, H3⟩⟩
    imodintro
    isplitl [Hr H3]
    · isplitl [Hr] <;> iassumption
    isplitl [Hin]; · iexact Hin
    isplitl [Ht]; · iexact Ht
    isplitl [H0]; · iexact H0
    isplitl [H1]; · iexact H1
    iapply (owes_out m hO c _); iexact HO

abbrev segs (hO : Ok m) : List (Pipeline.Seg (pcfgs (F := F)) (admF m hO) (dats m qOf hO) () defs₀ 𝒱₀ L lv) :=
  [.host (seg0 m), .region (reg0 m hO), .host (seg2 m hO)]

abbrev Tₙ (hO : Ok m) (c : Dev nD) : sProp 𝕄 :=
  iprop(pt c main_v3 (outVal m hO c) ∗ pt c main_arg0 (m ((c : Thread nD τ).loc main_arg0)) ∗ pt c main_arg1 (m ((c : Thread nD τ).loc main_arg1))
    ∗ Pipeline.prefHeld (Ix := Unit) (Name := ℕ) (U := UR sig nD τ) (Lvl := ℕ) (Val := Elt F) pre0 c (fun _ => fullShare) (tbl m))

def QY (hO : Ok m) (c : Dev nD) (s : MemSt nD τ sig (Elt F)) : Prop :=
  s.mem ((c : Thread nD τ).loc main_v3) = outVal m hO c
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)
    ∧ s.mem ((c : Thread nD τ).loc main_arg7) = m ((c : Thread nD τ).loc main_arg7)

set_option backward.isDefEq.respectTransparency.types false in
/-- Every fair run of the program ends, without a fault, at the scalar result and the arguments unchanged. -/
theorem run_main (hO : Ok m) : θ_run defs (onTc (τ := τ) (main (F := F))) ⟨m, fun _ => 0, ρ⟩ (fun r => ∀ c : Dev nD,
    r.2.mem ((c : Thread nD τ).loc main_v3) = outVal m hO c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)) :=
  Pipeline.θ_run_regions_kit (pcfgs (F := F)) (admF m hO) (dats m qOf hO) () (cellOf_inj (admF m hO)) EP defs₀ 𝒱₀ L lv m ρ main (segs m hO)
    (fun c Q => by rw [main_segs (admF m hO) (dats m qOf hO) () 𝒱₀ L lv (seg0 m) (seg2 m hO) (reg0 m hO) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) (admF m hO)) (cellOf_inj (admF m hO)))
      (Pipeline.launchToks (Pipeline.pin (pcfgs (F := F)) (admF m hO)) (cellOf_inj (admF m hO))))
    (hu₀ := by
      iintro Hu
      imodintro
      isplitl [Hu]
      · iapply (show (ownU _ : sProp 𝕄) ⊢ BI.own (EP (initOf (Pipeline.cells (Pipeline.pin (pcfgs (F := F)) (admF m hO)) (cellOf_inj (admF m hO)))
          (Pipeline.launchToks (Pipeline.pin (pcfgs (F := F)) (admF m hO)) (cellOf_inj (admF m hO))))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) bufsAll (V₀ m c) ∗ R c)) (Tₙ := Tₙ m hO)
    (hch := by
      refine ⟨fun c => .rfl, fun c => .rfl, fun c => .rfl, fun c => ?_⟩
      show iprop(StableHlo.held (c : Thread nD τ) bufsOut (StableHlo.after hostOps1 (V₂ m hO c)) ∗ R₂ m hO c)
        ⊢ iprop(Tₙ m hO c ∗ ∃ W, owes (c : Thread nD τ) (0 : CellTallies nD τ sig Unit) W)
      unfold R₂ Tₙ
      rw [held_out_eq, after_out, V_keep m c main_arg0 (by decide) (by decide), V_keep m c main_arg1 (by decide) (by decide)]
      iintro ⟨⟨-, H3⟩, -, Ht, H0, H1, HO⟩
      isplitr [HO]
      · isplitl [H3]; · iexact H3
        isplitl [H0]; · iexact H0
        isplitl [H1] <;> iassumption
      · iexact HO)
    (hinit := by
      refine Pipeline.initEach L lv fun c => ?_
      rw [show unscopedBufs c (fun b => m ((c : Thread nD τ).loc b)) = StableHlo.held (c : Thread nD τ) bufsAll (V₀ m c) from
        (unscopedBufs_eq c (V₀ m c)).trans (held_all_eq c (V₀ m c)).symm]
      iintro ⟨⟨Hh, -, HO, -, -, -⟩, -⟩
      imodintro
      isplitl [Hh]; · iexact Hh
      iexists ∅; iexact HO)
    (QY := QY m hO)
    (hfin := fun c s' => by
      dsimp only [Tₙ]
      rw [prefHeld_eq, tbl_eq m c 0, tbl_eq m c 1, tbl_eq m c 2, tbl_eq m c 3, tbl_eq m c 4, tbl_eq m c 5]
      iintro ⟨⟨H3, H0, H1, T0, T1, T2, T3, T4, T5⟩, HSI⟩
      icombine HSI H3 gives %h3
      icombine HSI H0 gives %h0
      icombine HSI H1 gives %h1
      icombine HSI T0 gives %k0
      icombine HSI T1 gives %k1
      icombine HSI T2 gives %k2
      icombine HSI T3 gives %k3
      icombine HSI T4 gives %k4
      icombine HSI T5 gives %k5
      imodintro
      isplitr
      · ipureintro
        exact ⟨Buf.eq_of_forall_mem_univ h3, Buf.eq_of_forall_mem_univ h0, Buf.eq_of_forall_mem_univ h1, Buf.eq_of_forall_mem_univ k0,
          Buf.eq_of_forall_mem_univ k1, Buf.eq_of_forall_mem_univ k2, Buf.eq_of_forall_mem_univ k3, Buf.eq_of_forall_mem_univ k4,
          Buf.eq_of_forall_mem_univ k5⟩
      iexact HSI)
    (hQ := fun _ h => h)

/-- info: 'Cert.Kernel.Hand.run_main' depends on axioms: [propext, Classical.choice, Quot.sound] -/
#guard_msgs in #print axioms run_main

end Cert.Kernel.Hand

end
-- ==== Proof.Spec.lean ====
import Idealize.ShloMosaic.PureOps.Ideal
import Idealize.ShloMosaic.PureOps.Ideal.Laws
import Idealize.ShloMosaic.Lib.ValueIdx

noncomputable section

namespace Cert.KernelIdeal.Hand.Spec

open Idealize.ShloMosaic Idealize.ShloMosaic.ValueIdx
open scoped BigOperators

abbrev ShEnt : Shape := ⟨2, ![500000, 256]⟩
abbrev ShRel : Shape := ⟨2, ![1000, 256]⟩
abbrev ShIdx : Shape := ⟨1, ![4096]⟩

def rowAt {N : Nat} (tab : (⟨2, ![N, 256]⟩ : Shape).Idx → EReal) (r : Nat) : Fin 256 → EReal :=
  fun l => if h : r < N then tab (ix2 ⟨r, h⟩ l) else 0

theorem rowAt_of_lt {N : Nat} (tab : (⟨2, ![N, 256]⟩ : Shape).Idx → EReal) {r : Nat} (h : r < N)
    (l : Fin 256) : rowAt tab r l = tab (ix2 ⟨r, h⟩ l) := dif_pos h

/-- The Euclidean norm of `a + b - d` over the 256 lanes. -/
def dist (a b d : Fin 256 → EReal) : EReal :=
  Ideal.sqrt (Ideal.ofBits .f32 0x00000000#32 + ∑ l : Fin 256, (a l + b l - d l) * (a l + b l - d l))

/-- The hinge term of one positive and one negative distance. -/
def hinge (dp dn : EReal) : EReal :=
  max (Ideal.div ((Ideal.ofBits .f32 0x3F800000#32 + dp) - dn) (Ideal.ofBits .f32 0x45800000#32))
    (Ideal.ofBits .f32 0x00000000#32)

section
variable (ent : ShEnt.Idx → EReal) (rel : ShRel.Idx → EReal)
  (ph pr pt nh nr nt : ShIdx.Idx → BitVec 32)

def dpos (j : Fin 4096) : EReal :=
  dist (rowAt ent (ph (ix1 j)).toNat) (rowAt rel (pr (ix1 j)).toNat) (rowAt ent (pt (ix1 j)).toNat)

def dneg (j : Fin 4096) : EReal :=
  dist (rowAt ent (nh (ix1 j)).toNat) (rowAt rel (nr (ix1 j)).toNat) (rowAt ent (nt (ix1 j)).toNat)

def per (j : Fin 4096) : EReal :=
  hinge (dpos ent rel ph pr pt j) (dneg ent rel nh nr nt j)

/-- The loss: the sum of the 4096 hinge terms. -/
def total : EReal :=
  Ideal.ofBits .f32 0x00000000#32 + ∑ j : Fin 4096, per ent rel ph pr pt nh nr nt j

theorem total_eq : total ent rel ph pr pt nh nr nt = ∑ j : Fin 4096, per ent rel ph pr pt nh nr nt j := by
  rw [total, Ideal.ofBits_zero_f32, zero_add]

end

theorem dist_eq (a b d : Fin 256 → EReal) :
    dist a b d = Ideal.sqrt (∑ l : Fin 256, (a l + b l - d l) * (a l + b l - d l)) := by
  rw [dist, Ideal.ofBits_zero_f32, zero_add]

theorem hinge_eq (dp dn : EReal) :
    hinge dp dn
      = max (Ideal.div ((Ideal.ofBits .f32 0x3F800000#32 + dp) - dn) (Ideal.ofBits .f32 0x45800000#32)) 0 := by
  rw [hinge, Ideal.ofBits_zero_f32]

end Cert.KernelIdeal.Hand.Spec

end
-- ==== Proof.RefValue.lean ====
import proofs.«409637_j57681410785658_2_alg».proof.Proof.Gen.ReferenceIdeal
import proofs.«409637_j57681410785658_2_alg».proof.Proof.Gen.ReferenceIdeal.Run
import proofs.«409637_j57681410785658_2_alg».proof.Proof.Gen.ReferenceIdeal.Read
import proofs.«409637_j57681410785658_2_alg».proof.Proof.Spec
import Idealize.ShloMosaic.Lib.ValueIdx
import Mathlib.Algebra.BigOperators.Group.Finset.Basic

noncomputable section

namespace Cert.KernelIdeal.Hand.RefValue

open Cert.ReferenceIdeal Cert.ReferenceIdeal.Gen Cert.ReferenceIdeal.Read
open Idealize.ShloMosaic Idealize.ShloMosaic.ValueIdx Idealize.SL.Sem Idealize.ShloMosaic.TcCoe
open scoped BigOperators

section Rows
variable {α : Type}

abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

section
variable {N R C w : Nat}
  (wf : GatherDims.WF ⟨2, ![N, C]⟩ ⟨2, ![R, 1]⟩ ⟨2, ![R, C]⟩ [1] [0] [] [0] [] 1 ![1, C])
  (idx : IVec ⟨2, ![R, 1]⟩ w) (r : Fin R) (l : Fin C)

theorem row_coord0 :
    (rowDims N R C wf).start (ix2 r l) idx 0 + (rowDims N R C wf).batchCoord (ix2 r l) 0
      + (rowDims N R C wf).offCoord (ix2 r l) 0 = min (idx (ix2 r (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N R C wf).startIndexMap from List.mem_singleton.mpr rfl)]
  have hsi : (rowDims N R C wf).siIdx (ix2 r l) ⟨List.idxOf (0 : Fin 2) (rowDims N R C wf).startIndexMap,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]
  rfl

theorem row_coord1 :
    (rowDims N R C wf).start (ix2 r l) idx 1 + (rowDims N R C wf).batchCoord (ix2 r l) 1
      + (rowDims N R C wf).offCoord (ix2 r l) 1 = l.val := by
  rw [GatherDims.batchCoord_eq_zero _ _ _ List.not_mem_nil]
  unfold GatherDims.start
  rw [dif_neg (show ¬ (1 : Fin 2) ∈ (rowDims N R C wf).startIndexMap from (by decide : ¬ (1 : Fin 2) ∈ [0]))]
  unfold GatherDims.offCoord
  rw [dif_pos ((GatherDims.mem_sKept (rowDims N R C wf) 1).mpr ⟨(by decide : ¬ (1 : Fin 2) ∈ [0]), List.not_mem_nil⟩)]
  simp only [Nat.zero_add, Nat.add_zero]
  rfl

end

/-- A gather of whole rows takes row `idx r` of the table at row `r`. -/
theorem gather_row_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (l : Fin C) :
    Host.gather (rowDims N R C wf) x idx (ix2 r l)
      = x (ix2 ⟨min (idx (ix2 r (0 : Fin 1))).toInt.toNat (N - 1), by omega⟩ l) := by
  unfold Host.gather
  congr 1
  funext a
  refine Fin.ext ?_
  show (rowDims N R C wf).start (ix2 r l) idx a + (rowDims N R C wf).batchCoord (ix2 r l) a
    + (rowDims N R C wf).offCoord (ix2 r l) a = _
  match a with
  | ⟨0, _⟩ => exact row_coord0 wf idx r l
  | ⟨1, _⟩ => exact row_coord1 wf idx r l

end Rows

theorem wrap_word (a n : BitVec 32) (h : 0 ≤ a.toInt) :
    Scalar.select (IntOp.cmpi .slt a 0#32) (IntOp.addi a n) a = a := by
  have hlt : a.slt 0#32 = false := by
    simp only [BitVec.slt, BitVec.toInt_zero, decide_eq_false_iff_not, Int.not_lt]
    exact h
  show (if BitVec.ofBool (a.slt 0#32) = 1 then _ else _) = _
  rw [hlt]
  rfl

theorem clamp_word {N : Nat} (a : BitVec 32) (h0 : 0 ≤ a.toInt) (hlt : a.toInt < (N : Int)) :
    min a.toInt.toNat (N - 1) = a.toNat ∧ a.toNat < N := by
  have hb := a.isLt
  rw [BitVec.toInt_eq_toNat_cond] at h0 hlt
  rw [BitVec.toInt_eq_toNat_cond]
  split at h0 <;> omega

/-- For a word in range the wrap and the clamp are the identity. -/
theorem row_read {N : Nat} (hN : 0 < N)
    (wf : GatherDims.WF ⟨2, ![N, 256]⟩ ⟨2, ![4096, 1]⟩ ⟨2, ![4096, 256]⟩ [1] [0] [] [0] [] 1 ![1, 256])
    (x : (⟨2, ![N, 256]⟩ : Shape).Idx → EReal) (iv : IVec ⟨2, ![4096, 1]⟩ 32) (a : BitVec 32)
    (j : Fin 4096) (l : Fin 256) (hiv : iv (ix2 j (0 : Fin 1)) = a)
    (h0 : 0 ≤ a.toInt) (hlt : a.toInt < (N : Int)) :
    Host.gather (rowDims N 4096 256 wf) x iv (ix2 j l) = Spec.rowAt x a.toNat l := by
  obtain ⟨hc, hl⟩ := clamp_word a h0 hlt
  rw [gather_row_apply hN wf x iv j l, Spec.rowAt_of_lt x hl l]
  congr 2
  refine Fin.ext ?_
  show min (iv (ix2 j (0 : Fin 1))).toInt.toNat (N - 1) = a.toNat
  rw [hiv, hc]

section Chains
variable {F : FTy → Type} [FloatOps F]
variable (y : (⟨S4096, .i32⟩ : BufTy).Contents (Elt F)) (j : Fin 4096)

theorem idx5 : idx_main_v5 (ix2 j (0 : Fin 1)) = ix1 j :=
  funext fun a => Fin.ext (by match a with | ⟨0, _⟩ => rfl)

theorem iv2 (h : 0 ≤ (y (ix1 j)).toInt) : val_main_v5 (F := F) y (ix2 j (0 : Fin 1)) = y (ix1 j) := by
  rw [val_main_v5_apply, show idx_main_v5 (ix2 j (0 : Fin 1)) = ix1 j from idx5 j, val_main_v4_apply,
    val_main_v1_apply, val_main_v0_apply, val_main_c_apply, val_main_v3_apply]
  exact wrap_word _ _ h

theorem iv3 (h : 0 ≤ (y (ix1 j)).toInt) : val_main_v12 (F := F) y (ix2 j (0 : Fin 1)) = y (ix1 j) := by
  rw [val_main_v12_apply, show idx_main_v12 (ix2 j (0 : Fin 1)) = ix1 j from idx5 j, val_main_v11_apply,
    val_main_v8_apply, val_main_v7_apply, val_main_c_1_apply, val_main_v10_apply]
  exact wrap_word _ _ h

theorem iv4 (h : 0 ≤ (y (ix1 j)).toInt) : val_main_v19 (F := F) y (ix2 j (0 : Fin 1)) = y (ix1 j) := by
  rw [val_main_v19_apply, show idx_main_v19 (ix2 j (0 : Fin 1)) = ix1 j from idx5 j, val_main_v18_apply,
    val_main_v15_apply, val_main_v14_apply, val_main_c_3_apply, val_main_v17_apply]
  exact wrap_word _ _ h

theorem iv5 (h : 0 ≤ (y (ix1 j)).toInt) : val_main_v26 (F := F) y (ix2 j (0 : Fin 1)) = y (ix1 j) := by
  rw [val_main_v26_apply, show idx_main_v26 (ix2 j (0 : Fin 1)) = ix1 j from idx5 j, val_main_v25_apply,
    val_main_v22_apply, val_main_v21_apply, val_main_c_5_apply, val_main_v24_apply]
  exact wrap_word _ _ h

theorem iv6 (h : 0 ≤ (y (ix1 j)).toInt) : val_main_v33 (F := F) y (ix2 j (0 : Fin 1)) = y (ix1 j) := by
  rw [val_main_v33_apply, show idx_main_v33 (ix2 j (0 : Fin 1)) = ix1 j from idx5 j, val_main_v32_apply,
    val_main_v29_apply, val_main_v28_apply, val_main_c_7_apply, val_main_v31_apply]
  exact wrap_word _ _ h

theorem iv7 (h : 0 ≤ (y (ix1 j)).toInt) : val_main_v40 (F := F) y (ix2 j (0 : Fin 1)) = y (ix1 j) := by
  rw [val_main_v40_apply, show idx_main_v40 (ix2 j (0 : Fin 1)) = ix1 j from idx5 j, val_main_v39_apply,
    val_main_v36_apply, val_main_v35_apply, val_main_c_9_apply, val_main_v38_apply]
  exact wrap_word _ _ h

end Chains

abbrev Within (y : (⟨S4096, .i32⟩ : BufTy).Contents (Elt Ideal)) (N : Nat) : Prop :=
  ∀ x : S4096.Idx, 0 ≤ (y x).toInt ∧ (y x).toInt < (N : Int)

section Reads
variable (x0 : (⟨S500000x256, .f32⟩ : BufTy).Contents (Elt Ideal)) (x1 : (⟨S1000x256, .f32⟩ : BufTy).Contents (Elt Ideal))
  (y : (⟨S4096, .i32⟩ : BufTy).Contents (Elt Ideal)) (j : Fin 4096) (l : Fin 256)

theorem read6 (h : Within y 500000) :
    val_main_v6 (F := Ideal) x0 y (ix2 j l) = Spec.rowAt x0 (y (ix1 j)).toNat l :=
  row_read (by decide) _ x0 _ _ j l (iv2 y j (h _).1) (h _).1 (h _).2

theorem read13 (h : Within y 1000) :
    val_main_v13 (F := Ideal) x1 y (ix2 j l) = Spec.rowAt x1 (y (ix1 j)).toNat l :=
  row_read (by decide) _ x1 _ _ j l (iv3 y j (h _).1) (h _).1 (h _).2

theorem read20 (h : Within y 500000) :
    val_main_v20 (F := Ideal) x0 y (ix2 j l) = Spec.rowAt x0 (y (ix1 j)).toNat l :=
  row_read (by decide) _ x0 _ _ j l (iv4 y j (h _).1) (h _).1 (h _).2

theorem read27 (h : Within y 500000) :
    val_main_v27 (F := Ideal) x0 y (ix2 j l) = Spec.rowAt x0 (y (ix1 j)).toNat l :=
  row_read (by decide) _ x0 _ _ j l (iv5 y j (h _).1) (h _).1 (h _).2

theorem read34 (h : Within y 1000) :
    val_main_v34 (F := Ideal) x1 y (ix2 j l) = Spec.rowAt x1 (y (ix1 j)).toNat l :=
  row_read (by decide) _ x1 _ _ j l (iv6 y j (h _).1) (h _).1 (h _).2

theorem read41 (h : Within y 500000) :
    val_main_v41 (F := Ideal) x0 y (ix2 j l) = Spec.rowAt x0 (y (ix1 j)).toNat l :=
  row_read (by decide) _ x0 _ _ j l (iv7 y j (h _).1) (h _).1 (h _).2

end Reads

section Value
variable (x0 : (⟨S500000x256, .f32⟩ : BufTy).Contents (Elt Ideal)) (x1 : (⟨S1000x256, .f32⟩ : BufTy).Contents (Elt Ideal))
  (x2 x3 x4 x5 x6 x7 : (⟨S4096, .i32⟩ : BufTy).Contents (Elt Ideal))

theorem idx45 (j : Fin 4096) (k : Fin 256) : idx_main_v45 (ix1 j) k = ix2 j k :=
  funext fun a => Fin.ext (by match a with | ⟨0, _⟩ => rfl | ⟨1, _⟩ => rfl)

theorem read46 (h2 : Within x2 500000) (h3 : Within x3 1000) (h4 : Within x4 500000) (j : Fin 4096) :
    val_main_v46 (F := Ideal) x0 x1 x2 x3 x4 (ix1 j) = Spec.dpos x0 x1 x2 x3 x4 j := by
  rw [val_main_v46_apply, val_main_v45_apply, val_main_cst_apply]
  unfold Spec.dpos Spec.dist
  refine congrArg Ideal.sqrt (congrArg (Ideal.ofBits .f32 0x00000000#32 + ·) (Finset.sum_congr rfl fun k _ => ?_))
  rw [show idx_main_v45 (ix1 j) k = ix2 j k from idx45 j k, val_main_v44_apply, val_main_v43_apply,
    val_main_v42_apply, read6 x0 x2 j k h2, read13 x1 x3 j k h3, read20 x0 x4 j k h4]
  rfl

theorem read51 (h5 : Within x5 500000) (h6 : Within x6 1000) (h7 : Within x7 500000) (j : Fin 4096) :
    val_main_v51 (F := Ideal) x0 x1 x5 x6 x7 (ix1 j) = Spec.dneg x0 x1 x5 x6 x7 j := by
  rw [val_main_v51_apply, val_main_v50_apply, val_main_cst_11_apply]
  unfold Spec.dneg Spec.dist
  refine congrArg Ideal.sqrt (congrArg (Ideal.ofBits .f32 0x00000000#32 + ·) (Finset.sum_congr rfl fun k _ => ?_))
  rw [show idx_main_v50 (ix1 j) k = ix2 j k from idx45 j k, val_main_v49_apply, val_main_v48_apply,
    val_main_v47_apply, read27 x0 x5 j k h5, read34 x1 x6 j k h6, read41 x0 x7 j k h7]
  rfl

theorem read58 (h2 : Within x2 500000) (h3 : Within x3 1000) (h4 : Within x4 500000)
    (h5 : Within x5 500000) (h6 : Within x6 1000) (h7 : Within x7 500000) (j : Fin 4096) :
    val_main_v58 (F := Ideal) x0 x1 x2 x3 x4 x5 x6 x7 (ix1 j) = Spec.per x0 x1 x2 x3 x4 x5 x6 x7 j := by
  rw [val_main_v58_apply, val_main_v56_apply, val_main_v54_apply, val_main_v53_apply, val_main_v52_apply,
    val_main_cst_12_apply, val_main_v55_apply, val_main_cst_13_apply, val_main_v57_apply, val_main_cst_14_apply,
    read46 x0 x1 x2 x3 x4 h2 h3 h4 j, read51 x0 x1 x5 x6 x7 h5 h6 h7 j]
  rfl

def posEquiv : Fin 4096 ≃ S4096.Idx where
  toFun := ix1
  invFun i := ⟨(i 0).val, (i 0).isLt⟩
  left_inv _ := rfl
  right_inv i := (eq_ix1 i).symm

theorem ref_total (h2 : Within x2 500000) (h3 : Within x3 1000) (h4 : Within x4 500000)
    (h5 : Within x5 500000) (h6 : Within x6 1000) (h7 : Within x7 500000) (i : S_.Idx) :
    val_main_v59 (F := Ideal) x0 x1 x2 x3 x4 x5 x6 x7 i = Spec.total x0 x1 x2 x3 x4 x5 x6 x7 := by
  rw [val_main_v59_apply, val_main_cst_15_apply]
  unfold Spec.total
  refine congrArg (Ideal.ofBits .f32 0x00000000#32 + ·) (Eq.symm ?_)
  exact Fintype.sum_equiv posEquiv _ _ fun j => (read58 x0 x1 x2 x3 x4 x5 x6 x7 h2 h3 h4 h5 h6 h7 j).symm

end Value

/-- With every index word in range the reference computes the loss, operation for operation. -/
theorem ref_value (m : (ℓ : Loc nD τ sig) → Buf (Elt Ideal) ℓ) (c : Dev nD)
    (h2 : Within (m ((c.tc : Thread nD τ).loc main_arg2)) 500000)
    (h3 : Within (m ((c.tc : Thread nD τ).loc main_arg3)) 1000)
    (h4 : Within (m ((c.tc : Thread nD τ).loc main_arg4)) 500000)
    (h5 : Within (m ((c.tc : Thread nD τ).loc main_arg5)) 500000)
    (h6 : Within (m ((c.tc : Thread nD τ).loc main_arg6)) 1000)
    (h7 : Within (m ((c.tc : Thread nD τ).loc main_arg7)) 500000) :
    Cert.ReferenceIdeal.Value.res_main_v59 m c
      = fun _ => Spec.total (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  rw [val_main_v59_eq]
  funext i
  exact ref_total _ _ _ _ _ _ _ _ h2 h3 h4 h5 h6 h7 i

end Cert.KernelIdeal.Hand.RefValue

end
-- ==== Proof.SumLaw.lean ====
import proofs.«409637_j57681410785658_2_alg».proof.Proof.Spec
import Mathlib.Algebra.BigOperators.Fin
import Mathlib.Algebra.BigOperators.Group.Finset.Basic
import Mathlib.Data.EReal.Basic

noncomputable section

namespace Cert.KernelIdeal.Hand.SumLaw

open Idealize.ShloMosaic
open scoped BigOperators

/-- Addition on the extended reals is associative with neutral zero, so a left-nested chain is the sum. -/
theorem chain16 (q : Fin 16 → EReal) :
    (0 : EReal) + q 0 + q 1 + q 2 + q 3 + q 4 + q 5 + q 6 + q 7 + q 8 + q 9 + q 10 + q 11 + q 12
        + q 13 + q 14 + q 15 = ∑ k : Fin 16, q k := by
  have h : ∑ k : Fin 16, q k = ∑ n ∈ Finset.range 16, (if h : n < 16 then q ⟨n, h⟩ else 0) := by
    rw [Finset.sum_range]
    exact Finset.sum_congr rfl fun k _ => by rw [dif_pos k.isLt]
  rw [h]
  simp only [Finset.sum_range_succ, Finset.sum_range_zero]
  rfl

theorem chain16_word (q : Fin 16 → EReal) :
    Ideal.ofBits .f32 0x00000000#32 + q 0 + q 1 + q 2 + q 3 + q 4 + q 5 + q 6 + q 7 + q 8 + q 9
        + q 10 + q 11 + q 12 + q 13 + q 14 + q 15 = ∑ k : Fin 16, q k := by
  rw [Ideal.ofBits_zero_f32]; exact chain16 q

def spread (p : Fin 4096 → EReal) (n : Nat) : EReal := if h : n < 4096 then p ⟨n, h⟩ else 0

theorem spread_of_lt (p : Fin 4096 → EReal) {n : Nat} (h : n < 4096) : spread p n = p ⟨n, h⟩ :=
  dif_pos h

/-- A running sum that grows by one group of sixteen is the sum over an initial segment. -/
theorem running (p : Fin 4096 → EReal) (g : Nat → EReal) (h0 : g 0 = 0)
    (hs : ∀ t (ht : t < 256), g (t + 1) = g t + ∑ k : Fin 16, p ⟨16 * t + k.val, by omega⟩) :
    ∀ t, t ≤ 256 → g t = ∑ n ∈ Finset.range (16 * t), spread p n := by
  intro t
  induction t with
  | zero => intro _; rw [h0]; rfl
  | succ t ih =>
    intro ht
    have ht' : t < 256 := by omega
    rw [hs t ht', ih (by omega), Nat.mul_succ, Finset.sum_range_add]
    congr 1
    rw [Finset.sum_range]
    refine Finset.sum_congr rfl fun k _ => ?_
    have hk := k.isLt
    exact (spread_of_lt p (by omega)).symm

/-- After 256 groups of sixteen the segment is all 4096 terms; nothing need be finite. -/
theorem regroup (p : Fin 4096 → EReal) (g : Nat → EReal) (h0 : g 0 = 0)
    (hs : ∀ t (ht : t < 256), g (t + 1) = g t + ∑ k : Fin 16, p ⟨16 * t + k.val, by omega⟩) :
    g 256 = ∑ j : Fin 4096, p j := by
  rw [running p g h0 hs 256 le_rfl, Finset.sum_range]
  exact Finset.sum_congr rfl fun j _ => spread_of_lt p j.isLt

theorem regroup_total (ent : Spec.ShEnt.Idx → EReal) (rel : Spec.ShRel.Idx → EReal)
    (ph pr pt nh nr nt : Spec.ShIdx.Idx → BitVec 32) (g : Nat → EReal) (h0 : g 0 = 0)
    (hs : ∀ t (ht : t < 256), g (t + 1)
      = g t + ∑ k : Fin 16, Spec.per ent rel ph pr pt nh nr nt ⟨16 * t + k.val, by omega⟩) :
    g 256 = Spec.total ent rel ph pr pt nh nr nt := by
  rw [Spec.total_eq]; exact regroup _ g h0 hs

end Cert.KernelIdeal.Hand.SumLaw

end
-- ==== Proof.StepValue.lean ====
import proofs.«409637_j57681410785658_2_alg».proof.Proof.Step
import proofs.«409637_j57681410785658_2_alg».proof.Proof.Spec
import proofs.«409637_j57681410785658_2_alg».proof.Proof.SumLaw
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.ValueIdx
open scoped BigOperators

def lanes (v : Vec Ideal S1x1x256 .f32) : Fin 256 → EReal := fun l => v (ix3 0 0 l)

/-- The hinge term of triple `k` among a point's rows. -/
def term (x : Fin 96 → Vec Ideal S1x1x256 .f32) (k : Fin 16) : EReal :=
  Spec.hinge
    (Spec.dist (lanes (x ⟨k.val, by omega⟩)) (lanes (x ⟨16 + k.val, by omega⟩))
      (lanes (x ⟨32 + k.val, by omega⟩)))
    (Spec.dist (lanes (x ⟨48 + k.val, by omega⟩)) (lanes (x ⟨64 + k.val, by omega⟩))
      (lanes (x ⟨80 + k.val, by omega⟩)))

theorem row_apply (v : FVec Ideal S1x1x256 .f32) (u : Fin 1) (l : Fin 256) :
    shapeCast (α := Ideal .f32) S1x256 v shapeCasts_S1x1x256_S1x256 (ix2 u l) = lanes v l := by
  have hu : u = 0 := Subsingleton.elim _ _
  subst hu
  exact shapeCast_1ab_ab_apply v _ 0 l

theorem laneSum_apply (w : FVec Ideal S1x256 .f32) (hφ : FTy.f32 = FTy.f32 ∨ FTy.f32 = FTy.bf16)
    (hacc : (0x00000000#32 : BitVec 32) = 0x00000000#32) (i : S1x1.Idx) :
    shapeCast S1x1 (multiReduction (F := Ideal) .add [1] S1 w 0x00000000#32 reduces_S1x256_S1 hφ hacc)
        shapeCasts_S1_S1x1 i
      = ∑ l : Fin 256, w (ix2 0 l) := by
  obtain ⟨p, q, rfl⟩ : ∃ (p : Fin 1) (q : Fin 1), i = ix2 p q := ⟨i 0, i 1, eq_ix2 i⟩
  refine (shapeCast_a_1a_apply _ _ p q).trans ?_
  refine (Ideal.multiReduction_add_single w 0x00000000#32 reduces_S1x256_S1 hφ hacc (ix1 q)).trans ?_
  refine Finset.sum_congr rfl fun l _ => congrArg w ?_
  funext c
  match c with
  | ⟨0, _⟩ => exact Fin.ext (by show q.val = 0; omega)
  | ⟨1, _⟩ => rfl

theorem sqrt_apply {s : Shape} {φ : FTy} (a : FVec Ideal s φ) (i : s.Idx) : sqrt a i = Ideal.sqrt (a i) := rfl

theorem scalar_ofBits (b : BitVec 32) : Scalar.ofBits (F := Ideal) .f32 b = Ideal.ofBits .f32 b := rfl

set_option backward.isDefEq.respectTransparency.types false in
/-- One point adds its sixteen hinge terms, summed from zero, to what the accumulator held. -/
theorem step_apply (x : Fin 96 → Vec Ideal S1x1x256 .f32) (s : Vec Ideal S1x1 .f32) (i : S1x1.Idx) :
    step x s i = s i + ∑ k : Fin 16, term x k := by
  rw [← SumLaw.chain16_word]
  unfold step
  simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
  simp only [shapeCast_self, addf_apply, subf_apply, divf_apply, maximumf_apply,
    broadcast_apply, sqrt_apply, scalar_ofBits]
  repeat rw [laneSum_apply]
  simp only [mulf_apply, subf_apply, addf_apply, row_apply]
  simp only [term, Spec.hinge, Spec.dist_eq]
  rfl

end Cert.KernelIdeal.Hand

end
-- ==== Proof.AccValue.lean ====
import proofs.«409637_j57681410785658_2_alg».proof.Proof.Data
import proofs.«409637_j57681410785658_2_alg».proof.Proof.StepValue

set_option maxRecDepth 16384

noncomputable section

namespace Cert.KernelIdeal.Hand

open Cert.KernelIdeal Cert.KernelIdeal.Gen
open Idealize.ShloMosaic Idealize.ShloMosaic.TcCoe Idealize.ShloMosaic.ValueIdx
open scoped BigOperators

variable (m : (ℓ : Loc nD τ sig) → Buf (Elt Ideal) ℓ)

theorem acc0_apply (i : S1x1.Idx) : (acc0 (F := Ideal)) i = 0 := by
  unfold acc0
  simp only [k0_pay1]
  simp only [shapeCast_self, broadcast_apply, scalar_ofBits, Ideal.ofBits_zero_f32]

theorem cfgM_N (hO : Ok m) : (cfgM m hO).N = 256 := N_0

theorem accAt_succ_apply (hO : Ok m) (c : Dev nD) (t : Nat) (ht : t < (cfgM m hO).N) (i : S1x1.Idx) :
    accAt m hO c (t + 1) i
      = accAt m hO c t i + ∑ k : Fin 16, term (rows m hO c ⟨t, ht⟩) k := by
  rw [accAt, dif_pos ht, step_apply]

/-- The rows every point is handed are the table rows the six index vectors name. -/
def RowsAre (hO : Ok m) (c : Dev nD) (ent : Spec.ShEnt.Idx → EReal) (rel : Spec.ShRel.Idx → EReal)
    (ph pr pt nh nr nt : Spec.ShIdx.Idx → BitVec 32) : Prop :=
  ∀ (t : Fin (cfgM m hO).N) (k : Fin 16) (h : 16 * t.val + k.val < 4096),
    lanes (rows m hO c t ⟨k.val, by omega⟩) = Spec.rowAt ent (ph (ix1 ⟨16 * t.val + k.val, h⟩)).toNat ∧
    lanes (rows m hO c t ⟨16 + k.val, by omega⟩) = Spec.rowAt rel (pr (ix1 ⟨16 * t.val + k.val, h⟩)).toNat ∧
    lanes (rows m hO c t ⟨32 + k.val, by omega⟩) = Spec.rowAt ent (pt (ix1 ⟨16 * t.val + k.val, h⟩)).toNat ∧
    lanes (rows m hO c t ⟨48 + k.val, by omega⟩) = Spec.rowAt ent (nh (ix1 ⟨16 * t.val + k.val, h⟩)).toNat ∧
    lanes (rows m hO c t ⟨64 + k.val, by omega⟩) = Spec.rowAt rel (nr (ix1 ⟨16 * t.val + k.val, h⟩)).toNat ∧
    lanes (rows m hO c t ⟨80 + k.val, by omega⟩) = Spec.rowAt ent (nt (ix1 ⟨16 * t.val + k.val, h⟩)).toNat

/-- By induction on the points the accumulator holds the loss's terms so far; after 256 points, the loss. -/
theorem accAt_total (hO : Ok m) (c : Dev nD) (ent : Spec.ShEnt.Idx → EReal) (rel : Spec.ShRel.Idx → EReal)
    (ph pr pt nh nr nt : Spec.ShIdx.Idx → BitVec 32)
    (hrow : RowsAre m hO c ent rel ph pr pt nh nr nt) (i : S1x1.Idx) :
    accAt m hO c 256 i = Spec.total ent rel ph pr pt nh nr nt := by
  refine SumLaw.regroup_total ent rel ph pr pt nh nr nt (fun n => accAt m hO c n i) ?_ ?_
  · exact acc0_apply i
  · intro t ht
    have ht' : t < (cfgM m hO).N := by rw [cfgM_N]; exact ht
    show accAt m hO c (t + 1) i = accAt m hO c t i + _
    rw [accAt_succ_apply m hO c t ht' i]
    refine congrArg _ (Finset.sum_congr rfl fun k _ => ?_)
    obtain ⟨h1, h2, h3, h4, h5, h6⟩ := hrow ⟨t, ht'⟩ k (by have := k.isLt; show 16 * t + k.val < 4096; omega)
    unfold term Spec.per Spec.dpos Spec.dneg
    rw [h1, h2, h3, h4, h5, h6]

end Cert.KernelIdeal.Hand

end
-- ==== Proof.RowRead.lean ====
import proofs.«409637_j57681410785658_2_alg».proof.Proof.Setup
import proofs.«409637_j57681410785658_2_alg».proof.Proof.RowTab
import proofs.«409637_j57681410785658_2_alg».proof.Proof.Spec
import proofs.«409637_j57681410785658_2_alg».proof.Proof.StepValue
import proofs.«409637_j57681410785658_2_alg».proof.Proof.AccValue
import Idealize.ShloMosaic.Lib.Affine
import Idealize.ShloMosaic.Lib.ValueIdx
import Idealize.ShloMosaic.Lib.Pipeline.Value
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem

variable {F : FTy → Type} [FloatOps F]

theorem coords_val (t : Fin grid0.N) : (grid0.coords t 0).val = t.val := by
  have ht : t.val < 256 := lt_of_lt_of_eq t.isLt N_0
  show t.val / grid0.stride 0 % grid0.bound 0 = t.val
  have h1 : grid0.stride 0 = 1 := by decide
  have h2 : grid0.bound 0 = 256 := rfl
  rw [h1, h2, Nat.div_one, Nat.mod_eq_of_lt ht]

theorem off_eq (i : grid0.Coords) (cw : BitVec 32) (hc : cw.toNat < 16) : k0_off1 i cw 0 = 16 * (i 0).val + cw.toNat := by
  have h_c : Affine.IsInt cw ((cw.toNat : Int)) := by
    have e : cw = BitVec.ofNat 32 cw.toNat := by rw [BitVec.ofNat_toNat, BitVec.setWidth_eq]
    rw [e]; exact Affine.ofNat _ (by rw [BitVec.toNat_ofNat]; omega)
  have r_i0 : (i 0).val < 256 := (i 0).isLt
  have h_arg0 : Affine.IsInt (BitVec.ofNat 32 (i 0).val) (((i 0).val : Int)) := Affine.ofNat _ (by omega)
  have h_c16 : Affine.IsInt 16#32 (16) := Affine.ofNat _ (by omega)
  have h_v0 : Affine.IsInt _ (16 * ((i 0).val : Int)) := Affine.muli h_arg0 h_c16 (by omega)
  have h_v1 : Affine.IsInt _ (16 * ((i 0).val : Int) + (cw.toNat : Int)) := Affine.addi h_v0 h_c (by omega)
  have h_v2 : Affine.IsInt _ (16 * ((i 0).val : Int) + (cw.toNat : Int)) := Affine.indexCast h_v1
  exact Affine.nat_eq h_v2 (16 * (i 0).val + cw.toNat) (by push_cast; rfl)

/-- The index map's position `16 t + k` does not wrap, so it reads the index vector there. -/
theorem word_at (P : S4096.Idx → BitVec 32) (t : Fin grid0.N) (cw : BitVec 32) (hc : cw.toNat < 16)
    (inb : ∀ a, k0_off1 (grid0.coords t) cw a + S1.size a ≤ S4096.size a)
    (z : (Rect.unit (s := S4096) (k0_off1 (grid0.coords t) cw) S1.size inb).shape.Idx)
    (n : Fin 4096) (hn : n.val = 16 * t.val + cw.toNat) :
    P ((Rect.unit (s := S4096) (k0_off1 (grid0.coords t) cw) S1.size inb).emb z) = P (ix1 n) := by
  refine congrArg P ?_
  funext d
  apply Fin.ext
  match d with
  | ⟨0, _⟩ =>
    show k0_off1 (grid0.coords t) cw 0 + 1 * (z 0).val = n.val
    have hz : (z 0).val = 0 := by
      have := (z 0).isLt
      have e : (Rect.unit (s := S4096) (k0_off1 (grid0.coords t) cw) S1.size inb).shape.size 0 = 1 := rfl
      omega
    rw [off_eq _ _ hc, coords_val, hz, hn]; omega

variable (m : (ℓ : Loc nD τ sig) → Buf (Elt F) ℓ)

abbrev entOf (c : Dev nD) : S500000x256.Idx → Elt F .f32 := m ((c : Thread nD τ).loc main_arg0)

abbrev relOf (c : Dev nD) : S1000x256.Idx → Elt F .f32 := m ((c : Thread nD τ).loc main_arg1)

theorem V_ent (c : Dev nD) (r : Fin 500000) (u : Fin 1) (l : Fin 256) :
    (V m c main_v0 : S500000x1x256.Idx → Elt F .f32) (ix3 r u l) = entOf m c (ix2 r l) := by
  have e : (V m c main_v0 : S500000x1x256.Idx → Elt F .f32)
      = shapeCast S500000x1x256 (entOf m c) shapeCasts_S500000x256_S500000x1x256 := by
    dsimp only [V, hostOps0]; after_results; rfl
  rw [e]
  refine shapeCast_apply (entOf m c) _ (ix3 r u l) (ix2 r l) ?_
  rw [Shape.rowMajor_val_two, Shape.rowMajor_val_three]
  have h1 : u.val = 0 := by omega
  show r.val * 256 + l.val = (r.val * 1 + u.val) * 256 + l.val
  rw [h1]; omega

theorem V_rel (c : Dev nD) (r : Fin 1000) (u : Fin 1) (l : Fin 256) :
    (V m c main_v1 : S1000x1x256.Idx → Elt F .f32) (ix3 r u l) = relOf m c (ix2 r l) := by
  have e : (V m c main_v1 : S1000x1x256.Idx → Elt F .f32)
      = shapeCast S1000x1x256 (relOf m c) shapeCasts_S1000x256_S1000x1x256 := by
    dsimp only [V, hostOps0]; after_results; rfl
  rw [e]
  refine shapeCast_apply (relOf m c) _ (ix3 r u l) (ix2 r l) ?_
  rw [Shape.rowMajor_val_two, Shape.rowMajor_val_three]
  have h1 : u.val = 0 := by omega
  show r.val * 256 + l.val = (r.val * 1 + u.val) * 256 + l.val
  rw [h1]; omega

section Ideal

variable (m : (ℓ : Loc nD τ sig) → Buf (Elt Ideal) ℓ)

theorem rowAt_eq {N : Nat} (tab : (⟨2, ![N, 256]⟩ : Shape).Idx → EReal) (q : Fin N) (l' l : Fin 256) (R : Nat)
    (hq : q.val = R) (hl : l'.val = l.val) : tab (ix2 q l') = Spec.rowAt tab R l := by
  subst hq
  rw [show l' = l from Fin.ext hl]
  exact (Spec.rowAt_of_lt tab q.isLt l).symm

theorem ent_row (c : Dev nD) (y : S500000x1x256.Idx) (R : Nat) (l : Fin 256)
    (h0 : (y 0).val = R) (h2 : (y 2).val = l.val) :
    (V m c main_v0 : S500000x1x256.Idx → EReal) y = Spec.rowAt (entOf m c) R l := by
  exact ((congrArg (V m c main_v0 : S500000x1x256.Idx → EReal) (eq_ix3 y)).trans (V_ent m c (y 0) (y 1) (y 2))).trans
    (rowAt_eq (entOf m c) (y 0) (y 2) l R h0 h2)

theorem rel_row (c : Dev nD) (y : S1000x1x256.Idx) (R : Nat) (l : Fin 256)
    (h0 : (y 0).val = R) (h2 : (y 2).val = l.val) :
    (V m c main_v1 : S1000x1x256.Idx → EReal) y = Spec.rowAt (relOf m c) R l := by
  exact ((congrArg (V m c main_v1 : S1000x1x256.Idx → EReal) (eq_ix3 y)).trans (V_rel m c (y 0) (y 1) (y 2))).trans
    (rowAt_eq (relOf m c) (y 0) (y 2) l R h0 h2)

theorem ent_case (c : Dev nD) (y : S500000x1x256.Idx) (a : Nat) (P : S4096.Idx → BitVec 32) (n : Fin 4096) (l : Fin 256)
    (h0 : (y 0).val = a * 1 + 1 * 0) (ha : a = (P (ix1 n)).toNat) (h2 : (y 2).val = 0 * 256 + 1 * l.val) :
    (V m c main_v0 : S500000x1x256.Idx → EReal) y = Spec.rowAt (entOf m c) (P (ix1 n)).toNat l :=
  ent_row m c y _ l (by rw [h0, ha]; omega) (by rw [h2]; omega)

theorem rel_case (c : Dev nD) (y : S1000x1x256.Idx) (a : Nat) (P : S4096.Idx → BitVec 32) (n : Fin 4096) (l : Fin 256)
    (h0 : (y 0).val = a * 1 + 1 * 0) (ha : a = (P (ix1 n)).toNat) (h2 : (y 2).val = 0 * 256 + 1 * l.val) :
    (V m c main_v1 : S1000x1x256.Idx → EReal) y = Spec.rowAt (relOf m c) (P (ix1 n)).toNat l :=
  rel_row m c y _ l (by rw [h0, ha]; omega) (by rw [h2]; omega)

theorem rows_g0 (hO : Ok m) (c : Dev nD) (t : Fin (cfgM m hO).N) (k : Fin 16) (h : 16 * t.val + k.val < 4096) :
    lanes (rows m hO c t ⟨k.val, by omega⟩) = Spec.rowAt (entOf m c) (tbl m 0 (ix1 ⟨16 * t.val + k.val, h⟩)).toNat := by
  funext l
  fin_cases k <;>
  · show (V m c main_v0 : S500000x1x256.Idx → EReal) _ = _
    exact ent_case m c _ _ _ _ l rfl (congrArg BitVec.toNat (word_at _ t _ (by decide) _ _ _ (by rfl))) rfl

theorem rows_g1 (hO : Ok m) (c : Dev nD) (t : Fin (cfgM m hO).N) (k : Fin 16) (h : 16 * t.val + k.val < 4096) :
    lanes (rows m hO c t ⟨16 + k.val, by omega⟩) = Spec.rowAt (relOf m c) (tbl m 1 (ix1 ⟨16 * t.val + k.val, h⟩)).toNat := by
  funext l
  fin_cases k <;>
  · show (V m c main_v1 : S1000x1x256.Idx → EReal) _ = _
    exact rel_case m c _ _ _ _ l rfl (congrArg BitVec.toNat (word_at _ t _ (by decide) _ _ _ (by rfl))) rfl

theorem rows_g2 (hO : Ok m) (c : Dev nD) (t : Fin (cfgM m hO).N) (k : Fin 16) (h : 16 * t.val + k.val < 4096) :
    lanes (rows m hO c t ⟨32 + k.val, by omega⟩) = Spec.rowAt (entOf m c) (tbl m 2 (ix1 ⟨16 * t.val + k.val, h⟩)).toNat := by
  funext l
  fin_cases k <;>
  · show (V m c main_v0 : S500000x1x256.Idx → EReal) _ = _
    exact ent_case m c _ _ _ _ l rfl (congrArg BitVec.toNat (word_at _ t _ (by decide) _ _ _ (by rfl))) rfl

theorem rows_g3 (hO : Ok m) (c : Dev nD) (t : Fin (cfgM m hO).N) (k : Fin 16) (h : 16 * t.val + k.val < 4096) :
    lanes (rows m hO c t ⟨48 + k.val, by omega⟩) = Spec.rowAt (entOf m c) (tbl m 3 (ix1 ⟨16 * t.val + k.val, h⟩)).toNat := by
  funext l
  fin_cases k <;>
  · show (V m c main_v0 : S500000x1x256.Idx → EReal) _ = _
    exact ent_case m c _ _ _ _ l rfl (congrArg BitVec.toNat (word_at _ t _ (by decide) _ _ _ (by rfl))) rfl

theorem rows_g4 (hO : Ok m) (c : Dev nD) (t : Fin (cfgM m hO).N) (k : Fin 16) (h : 16 * t.val + k.val < 4096) :
    lanes (rows m hO c t ⟨64 + k.val, by omega⟩) = Spec.rowAt (relOf m c) (tbl m 4 (ix1 ⟨16 * t.val + k.val, h⟩)).toNat := by
  funext l
  fin_cases k <;>
  · show (V m c main_v1 : S1000x1x256.Idx → EReal) _ = _
    exact rel_case m c _ _ _ _ l rfl (congrArg BitVec.toNat (word_at _ t _ (by decide) _ _ _ (by rfl))) rfl

theorem rows_g5 (hO : Ok m) (c : Dev nD) (t : Fin (cfgM m hO).N) (k : Fin 16) (h : 16 * t.val + k.val < 4096) :
    lanes (rows m hO c t ⟨80 + k.val, by omega⟩) = Spec.rowAt (entOf m c) (tbl m 5 (ix1 ⟨16 * t.val + k.val, h⟩)).toNat := by
  funext l
  fin_cases k <;>
  · show (V m c main_v0 : S500000x1x256.Idx → EReal) _ = _
    exact ent_case m c _ _ _ _ l rfl (congrArg BitVec.toNat (word_at _ t _ (by decide) _ _ _ (by rfl))) rfl

/-- A one-row block at a word in range is that row of the table, the reshape only inserting a unit axis. -/
theorem rowsAre (hO : Ok m) (c : Dev nD) :
    RowsAre m hO c (entOf m c) (relOf m c) (tbl m 0) (tbl m 1) (tbl m 2) (tbl m 3) (tbl m 4) (tbl m 5) :=
  fun t k h => ⟨rows_g0 m hO c t k h, rows_g1 m hO c t k h, rows_g2 m hO c t k h, rows_g3 m hO c t k h,
    rows_g4 m hO c t k h, rows_g5 m hO c t k h⟩

end Ideal

end Cert.KernelIdeal.Hand

end
-- ==== Proof.KernelValue.lean ====
import proofs.«409637_j57681410785658_2_alg».proof.Proof.AccValue
import proofs.«409637_j57681410785658_2_alg».proof.Proof.Launch
import proofs.«409637_j57681410785658_2_alg».proof.Proof.OutArray
import proofs.«409637_j57681410785658_2_alg».proof.Proof.RowRead
import proofs.«409637_j57681410785658_2_alg».proof.Proof.Tables

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.RA Idealize.SL.BI Idealize.SL.Sem
open scoped BigOperators

variable (m : (ℓ : Loc nD τ sig) → Buf (Elt Ideal) ℓ)

/-- The scalar result is the one-by-one array, which holds the accumulator after 256 points, which is the loss. -/
theorem outVal_eq (hO : Ok m) (c : Dev nD) :
    outVal m hO c = fun _ =>
      Spec.total (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  obtain rfl : c = 0 := Subsingleton.elim _ _
  have hrow := rowsAre m hO 0
  funext i
  unfold outVal shapeCast
  refine (arrAt_out_apply m qOf hO 0 _).trans ?_
  exact accAt_total m hO 0 _ _ _ _ _ _ _ _ hrow _

end Cert.KernelIdeal.Hand

end
-- ==== Proof.lean ====
import proofs.«409637_j57681410785658_2_alg».proof.Defs
import proofs.«409637_j57681410785658_2_alg».proof.Proof.Gen.Kernel
import proofs.«409637_j57681410785658_2_alg».proof.Proof.Gen.KernelIdeal
import proofs.«409637_j57681410785658_2_alg».proof.Proof.Gen.ReferenceIdeal
import proofs.«409637_j57681410785658_2_alg».proof.Proof.Gen.ReferenceIdeal.Run
import proofs.«409637_j57681410785658_2_alg».proof.Proof.Gen.Pre_finite_inputs
import proofs.«409637_j57681410785658_2_alg».proof.Proof.Tables
import proofs.«409637_j57681410785658_2_alg».proof.Proof.TablesBits
import proofs.«409637_j57681410785658_2_alg».proof.Proof.Launch
import proofs.«409637_j57681410785658_2_alg».proof.Proof.LaunchBits
import proofs.«409637_j57681410785658_2_alg».proof.Proof.RefValue
import proofs.«409637_j57681410785658_2_alg».proof.Proof.KernelValue

noncomputable section

namespace Cert.Proof

open Idealize.ShloMosaic Idealize.SL.Sem

attribute [local instance] Cert.Kernel.Gen.facts Cert.KernelIdeal.Gen.facts Cert.ReferenceIdeal.Gen.facts Cert.Pre_finite_inputs.Gen.facts

theorem frame_k : Cert.frame_Kernel := fun m ρ hpre =>
  (θ_run Cert.Kernel.defs _ _).mono (fun _ h c => (h c).2) (Cert.Kernel.Hand.run_main m ρ (Cert.Kernel.Hand.ok_of_pre m (hpre 0)))

theorem frame_ki : Cert.frame_KernelIdeal := fun m ρ hpre =>
  (θ_run Cert.KernelIdeal.defs _ _).mono (fun _ h c => (h c).2) (Cert.KernelIdeal.Hand.run_main m ρ (Cert.KernelIdeal.Hand.ok_of_pre m (hpre 0)))

theorem frame_ri : Cert.frame_ReferenceIdeal := fun m ρ _ =>
  (θ_run Cert.ReferenceIdeal.defs _ _).mono (fun _ h c => (h c).2) (Cert.ReferenceIdeal.Value.run (F := Ideal) m ρ)

/-- Both programs end at the loss of the same arguments: the kernel by its accumulator, the reference by its run. -/
theorem algebraic : Cert.algebraic_KernelIdeal_ReferenceIdeal := by
  intro m ρ m' ρ' hpre hagree
  have hO : Cert.KernelIdeal.Hand.Ok m := Cert.KernelIdeal.Hand.ok_of_pre m (hpre 0)
  have hr := Cert.KernelIdeal.Hand.range_of_pre m (hpre 0)
  refine ⟨fun c => Cert.KernelIdeal.Hand.outVal m hO c, Cert.KernelIdeal.Hand.run_main m ρ hO, ?_⟩
  refine (θ_run Cert.ReferenceIdeal.defs _ _).mono (fun _ h c => ⟨(h c).1.trans ?_, (h c).2⟩)
    (Cert.ReferenceIdeal.Value.run (F := Ideal) m' ρ')
  obtain rfl : c = 0 := Subsingleton.elim _ _
  have ha := hagree 0
  show Cert.ReferenceIdeal.Value.res_main_v59 m' 0 = Cert.KernelIdeal.Hand.outVal m hO 0
  rw [Cert.KernelIdeal.Hand.outVal_eq m hO 0]
  rw [Cert.KernelIdeal.Hand.RefValue.ref_value m' 0
    (by rw [ha.2.2.1]; exact fun x => ⟨(hr x).1.nonneg, (hr x).1.lt⟩)
    (by rw [ha.2.2.2.1]; exact fun x => ⟨(hr x).2.1.nonneg, (hr x).2.1.lt⟩)
    (by rw [ha.2.2.2.2.1]; exact fun x => ⟨(hr x).2.2.1.nonneg, (hr x).2.2.1.lt⟩)
    (by rw [ha.2.2.2.2.2.1]; exact fun x => ⟨(hr x).2.2.2.1.nonneg, (hr x).2.2.2.1.lt⟩)
    (by rw [ha.2.2.2.2.2.2.1]; exact fun x => ⟨(hr x).2.2.2.2.1.nonneg, (hr x).2.2.2.2.1.lt⟩)
    (by rw [ha.2.2.2.2.2.2.2]; exact fun x => ⟨(hr x).2.2.2.2.2.nonneg, (hr x).2.2.2.2.2.lt⟩)]
  rw [ha.1, ha.2.1, ha.2.2.1, ha.2.2.2.1, ha.2.2.2.2.1, ha.2.2.2.2.2.1, ha.2.2.2.2.2.2.1, ha.2.2.2.2.2.2.2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
